-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v522) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2x6x16x16 : Shape := ⟨4, ![2, 6, 16, 16]⟩
abbrev S6x2 : Shape := ⟨2, ![6, 2]⟩
abbrev S6 : Shape := ⟨1, ![6]⟩
abbrev S1x6x6 : Shape := ⟨3, ![1, 6, 6]⟩
abbrev S1x6 : Shape := ⟨2, ![1, 6]⟩
abbrev S3x6 : Shape := ⟨2, ![3, 6]⟩
abbrev S3 : Shape := ⟨1, ![3]⟩
abbrev S2x6 : Shape := ⟨2, ![2, 6]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2x6x16x16 : S_.BroadcastsInDim S2x6x16x16 (![] : Fin 0 → Fin S2x6x16x16.rank)
  reducesTo_S2x6x16x16_S_d0_1_2_3 : S2x6x16x16.ReducesTo [0, 1, 2, 3] S_
  bcast_S_S6x2 : S_.BroadcastsInDim S6x2 (![] : Fin 0 → Fin S6x2.rank)
  reducesTo_S6x2_S_d0_1 : S6x2.ReducesTo [0, 1] S_
  bcast_S_S6 : S_.BroadcastsInDim S6 (![] : Fin 0 → Fin S6.rank)
  reducesTo_S6_S_d0 : S6.ReducesTo [0] S_
  bcast_S_S1x6x6 : S_.BroadcastsInDim S1x6x6 (![] : Fin 0 → Fin S1x6x6.rank)
  reducesTo_S1x6x6_S_d0_1_2 : S1x6x6.ReducesTo [0, 1, 2] S_
  bcast_S_S1x6 : S_.BroadcastsInDim S1x6 (![] : Fin 0 → Fin S1x6.rank)
  reducesTo_S1x6_S_d0_1 : S1x6.ReducesTo [0, 1] S_
  bcast_S_S3x6 : S_.BroadcastsInDim S3x6 (![] : Fin 0 → Fin S3x6.rank)
  reducesTo_S3x6_S_d0_1 : S3x6.ReducesTo [0, 1] S_
  bcast_S_S3 : S_.BroadcastsInDim S3 (![] : Fin 0 → Fin S3.rank)
  reducesTo_S3_S_d0 : S3.ReducesTo [0] S_
  bcast_S_S2x6 : S_.BroadcastsInDim S2x6 (![] : Fin 0 → Fin S2x6.rank)
  reducesTo_S2x6_S_d0_1 : S2x6.ReducesTo [0, 1] S_

variable [Facts]

def fn_part3 {F : FTy → Type} [FloatOps F] (main_v48 : IVec S_ 1) (main_v49 : FVec F S2x6 .f32) (main_v50 : FVec F S2x6 .f32) : IVec S_ 1 :=
  let main_v51 : IVec S2x6 1 := cmpf .olt main_v49 main_v50
  let main_c_19 : IVec S_ 1 := constantI S_ 1 1#1
  let main_v52 : IVec S_ 1 := (fun x v => Host.reduce IntOp.andi x v reducesTo_S2x6_S_d0_1 h_S_) main_v51 main_c_19
  let main_v53 : IVec S_ 1 := andi main_v48 main_v52
  main_v53

def fn_part2 {F : FTy → Type} [FloatOps F] (main_arg7 : FVec F S3x6 .f32) (main_arg8 : FVec F S3 .f32) (main_arg9 : FVec F S2x6 .f32) (main_arg10 : FVec F S2x6 .f32) (main_v33 : IVec S_ 1) : IVec S_ 1 :=
  let main_v34 : FVec F S3x6 .f32 := Host.absf main_arg7
  let main_cst_12 : FVec F S_ .f32 := constant S_ .f32 0x7F800000#32
  let main_v35 : FVec F S3x6 .f32 := broadcastInDim S3x6 ![] bcast_S_S3x6 main_cst_12
  let main_v36 : IVec S3x6 1 := cmpf .olt main_v34 main_v35
  let main_c_13 : IVec S_ 1 := constantI S_ 1 1#1
  let main_v37 : IVec S_ 1 := (fun x v => Host.reduce IntOp.andi x v reducesTo_S3x6_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S2x6 .f32 := Host.absf main_arg9
  let main_cst_16 : FVec F S_ .f32 := constant S_ .f32 0x7F800000#32
  let main_v45 : FVec F S2x6 .f32 := broadcastInDim S2x6 ![] bcast_S_S2x6 main_cst_16
  let main_v46 : IVec S2x6 1 := cmpf .olt main_v44 main_v45
  let main_c_17 : IVec S_ 1 := constantI S_ 1 1#1
  let main_v47 : IVec S_ 1 := (fun x v => Host.reduce IntOp.andi x v reducesTo_S2x6_S_d0_1 h_S_) main_v46 main_c_17
  let main_v48 : IVec S_ 1 := andi main_v43 main_v47
  let main_v49 : FVec F S2x6 .f32 := Host.absf main_arg10
  let main_cst_18 : FVec F S_ .f32 := constant S_ .f32 0x7F800000#32
  let main_v50 : FVec F S2x6 .f32 := broadcastInDim S2x6 ![] bcast_S_S2x6 main_cst_18
  fn_part3 (F := F) main_v48 main_v49 main_v50

def fn_part1 {F : FTy → Type} [FloatOps F] (main_arg4 : FVec F S6 .f32) (main_arg5 : FVec F S1x6x6 .f32) (main_arg6 : FVec F S1x6 .f32) (main_arg7 : FVec F S3x6 .f32) (main_arg8 : FVec F S3 .f32) (main_arg9 : FVec F S2x6 .f32) (main_arg10 : FVec F S2x6 .f32) (main_v13 : IVec S_ 1) (main_v16 : IVec S6x2 1) : IVec S_ 1 :=
  let main_c_5 : IVec S_ 1 := constantI S_ 1 1#1
  let main_v17 : IVec S_ 1 := (fun x v => Host.reduce IntOp.andi x v reducesTo_S6x2_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S1x6x6 .f32 := Host.absf main_arg5
  let main_cst_8 : FVec F S_ .f32 := constant S_ .f32 0x7F800000#32
  let main_v25 : FVec F S1x6x6 .f32 := broadcastInDim S1x6x6 ![] bcast_S_S1x6x6 main_cst_8
  let main_v26 : IVec S1x6x6 1 := cmpf .olt main_v24 main_v25
  let main_c_9 : IVec S_ 1 := constantI S_ 1 1#1
  let main_v27 : IVec S_ 1 := (fun x v => Host.reduce IntOp.andi x v reducesTo_S1x6x6_S_d0_1_2 h_S_) main_v26 main_c_9
  let main_v28 : IVec S_ 1 := andi main_v23 main_v27
  let main_v29 : FVec F S1x6 .f32 := Host.absf main_arg6
  let main_cst_10 : FVec F S_ .f32 := constant S_ .f32 0x7F800000#32
  let main_v30 : FVec F S1x6 .f32 := broadcastInDim S1x6 ![] bcast_S_S1x6 main_cst_10
  let main_v31 : IVec S1x6 1 := cmpf .olt main_v29 main_v30
  let main_c_11 : IVec S_ 1 := constantI S_ 1 1#1
  let main_v32 : IVec S_ 1 := (fun x v => Host.reduce IntOp.andi x v reducesTo_S1x6_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2097152x2 .f32) (main_arg1 : FVec F S2x6x16x16 .f32) (main_arg2 : FVec F S2x6x16x16 .f32) (main_arg3 : FVec F S6x2 .f32) (main_arg4 : FVec F S6 .f32) (main_arg5 : FVec F S1x6x6 .f32) (main_arg6 : FVec F S1x6 .f32) (main_arg7 : FVec F S3x6 .f32) (main_arg8 : FVec F S3 .f32) (main_arg9 : FVec F S2x6 .f32) (main_arg10 : FVec F S2x6 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2x6x16x16 .f32 := Host.absf main_arg1
  let main_cst_0 : FVec F S_ .f32 := constant S_ .f32 0x7F800000#32
  let main_v5 : FVec F S2x6x16x16 .f32 := broadcastInDim S2x6x16x16 ![] bcast_S_S2x6x16x16 main_cst_0
  let main_v6 : IVec S2x6x16x16 1 := cmpf .olt main_v4 main_v5
  let main_c_1 : IVec S_ 1 := constantI S_ 1 1#1
  let main_v7 : IVec S_ 1 := (fun x v => Host.reduce IntOp.andi x v reducesTo_S2x6x16x16_S_d0_1_2_3 h_S_) main_v6 main_c_1
  let main_v8 : IVec S_ 1 := andi main_v3 main_v7
  let main_v9 : FVec F S2x6x16x16 .f32 := Host.absf main_arg2
  let main_cst_2 : FVec F S_ .f32 := constant S_ .f32 0x7F800000#32
  let main_v10 : FVec F S2x6x16x16 .f32 := broadcastInDim S2x6x16x16 ![] bcast_S_S2x6x16x16 main_cst_2
  let main_v11 : IVec S2x6x16x16 1 := cmpf .olt main_v9 main_v10
  let main_c_3 : IVec S_ 1 := constantI S_ 1 1#1
  let main_v12 : IVec S_ 1 := (fun x v => Host.reduce IntOp.andi x v reducesTo_S2x6x16x16_S_d0_1_2_3 h_S_) main_v11 main_c_3
  let main_v13 : IVec S_ 1 := andi main_v8 main_v12
  let main_v14 : FVec F S6x2 .f32 := Host.absf main_arg3
  let main_cst_4 : FVec F S_ .f32 := constant S_ .f32 0x7F800000#32
  let main_v15 : FVec F S6x2 .f32 := broadcastInDim S6x2 ![] bcast_S_S6x2 main_cst_4
  let main_v16 : IVec S6x2 1 := cmpf .olt main_v14 main_v15
  fn_part1 (F := F) main_arg4 main_arg5 main_arg6 main_arg7 main_arg8 main_arg9 main_arg10 main_v13 main_v16
-- ==== Kernel.lean ====
abbrev S2097152x2 : Shape := ⟨2, ![2097152, 2]⟩
abbrev S2x6x16x16 : Shape := ⟨4, ![2, 6, 16, 16]⟩
abbrev S6x2 : Shape := ⟨2, ![6, 2]⟩
abbrev S6 : Shape := ⟨1, ![6]⟩
abbrev S1x6x6 : Shape := ⟨3, ![1, 6, 6]⟩
abbrev S1x6 : Shape := ⟨2, ![1, 6]⟩
abbrev S3x6 : Shape := ⟨2, ![3, 6]⟩
abbrev S3 : Shape := ⟨1, ![3]⟩
abbrev S2x6 : Shape := ⟨2, ![2, 6]⟩
abbrev S2x16x6x16 : Shape := ⟨4, ![2, 16, 6, 16]⟩
abbrev S2x16x96 : Shape := ⟨3, ![2, 16, 96]⟩
abbrev S2097152x3 : Shape := ⟨2, ![2097152, 3]⟩
abbrev S8192x2 : Shape := ⟨2, ![8192, 2]⟩
abbrev S8192x3 : Shape := ⟨2, ![8192, 3]⟩
abbrev S8192x1 : Shape := ⟨2, ![8192, 1]⟩
abbrev S8192 : Shape := ⟨1, ![8192]⟩
abbrev S8192x16 : Shape := ⟨2, ![8192, 16]⟩
abbrev S8192x6 : Shape := ⟨2, ![8192, 6]⟩
abbrev S1x16x96 : Shape := ⟨3, ![1, 16, 96]⟩
abbrev S16x96 : Shape := ⟨2, ![16, 96]⟩
abbrev S8192x96 : Shape := ⟨2, ![8192, 96]⟩
abbrev S6x6 : Shape := ⟨2, ![6, 6]⟩
abbrev S6x3 : Shape := ⟨2, ![6, 3]⟩
abbrev S1x3 : Shape := ⟨2, ![1, 3]⟩

abbrev nBuf : Space → Nat
  | .hbm => 16
  | .vmem => 14
  | .smem => 0
  | _ => 0

abbrev bufTy : (tb : Table) → Fin (tcTables nBuf tb) → BufTy
  | .hbm, ⟨0, _⟩ => ⟨S2097152x2, .f32⟩
  | .hbm, ⟨1, _⟩ => ⟨S2x6x16x16, .f32⟩
  | .hbm, ⟨2, _⟩ => ⟨S2x6x16x16, .f32⟩
  | .hbm, ⟨3, _⟩ => ⟨S6x2, .f32⟩
  | .hbm, ⟨4, _⟩ => ⟨S6, .f32⟩
  | .hbm, ⟨5, _⟩ => ⟨S1x6x6, .f32⟩
  | .hbm, ⟨6, _⟩ => ⟨S1x6, .f32⟩
  | .hbm, ⟨7, _⟩ => ⟨S3x6, .f32⟩
  | .hbm, ⟨8, _⟩ => ⟨S3, .f32⟩
  | .hbm, ⟨9, _⟩ => ⟨S2x6, .f32⟩
  | .hbm, ⟨10, _⟩ => ⟨S2x6, .f32⟩
  | .hbm, ⟨11, _⟩ => ⟨S2x16x6x16, .f32⟩
  | .hbm, ⟨12, _⟩ => ⟨S2x16x96, .f32⟩
  | .hbm, ⟨13, _⟩ => ⟨S2x16x6x16, .f32⟩
  | .hbm, ⟨14, _⟩ => ⟨S2x16x96, .f32⟩
  | .hbm, ⟨15, _⟩ => ⟨S2097152x3, .f32⟩
  | .local _ .vmem, ⟨0, _⟩ => ⟨S8192x2, .f32⟩
  | .local _ .vmem, ⟨1, _⟩ => ⟨S8192x2, .f32⟩
  | .local _ .vmem, ⟨2, _⟩ => ⟨S2x16x96, .f32⟩
  | .local _ .vmem, ⟨3, _⟩ => ⟨S2x16x96, .f32⟩
  | .local _ .vmem, ⟨4, _⟩ => ⟨S6x2, .f32⟩
  | .local _ .vmem, ⟨5, _⟩ => ⟨S6, .f32⟩
  | .local _ .vmem, ⟨6, _⟩ => ⟨S1x6x6, .f32⟩
  | .local _ .vmem, ⟨7, _⟩ => ⟨S1x6, .f32⟩
  | .local _ .vmem, ⟨8, _⟩ => ⟨S3x6, .f32⟩
  | .local _ .vmem, ⟨9, _⟩ => ⟨S3, .f32⟩
  | .local _ .vmem, ⟨10, _⟩ => ⟨S2x6, .f32⟩
  | .local _ .vmem, ⟨11, _⟩ => ⟨S2x6, .f32⟩
  | .local _ .vmem, ⟨12, _⟩ => ⟨S8192x3, .f32⟩
  | .local _ .vmem, ⟨13, _⟩ => ⟨S8192x3, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S2x6x16x16_S2x16x6x16_0_3_1_2 : S2x6x16x16.Transposes [0, 3, 1, 2] S2x16x6x16
  shapeCasts_S2x16x6x16_S2x16x96 : S2x16x6x16.ShapeCasts S2x16x96
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  shapeCasts_S8192x1_S8192 : S8192x1.ShapeCasts S8192
  slices_S8192x2_o0_1_S8192x1 : S8192x2.Slices ![0, 1] S8192x1
  iota_S8192x16_d1_w32 : S8192x16.Iotas .tc 32 [1]
  shapeCasts_S8192_S8192x1 : S8192.ShapeCasts S8192x1
  broadcasts_S8192x1_S8192x16 : S8192x1.Broadcasts S8192x16
  natLt_1_32 : 1 < 32
  inb_S6x2_S6x2_0_0 : ∀ a, (![0, 0] : Fin 2 → Nat) a + S6x2.size a ≤ S6x2.size a
  h_S6x2 : 0 < S6x2.numel
  inb_S6_S6_0 : ∀ a, (![0] : Fin 1 → Nat) a + S6.size a ≤ S6.size a
  h_S6 : 0 < S6.numel
  transposes_S6x2_p1_0_S2x6 : S6x2.Transposes [1, 0] S2x6
  shapeCasts_S6_S1x6 : S6.ShapeCasts S1x6
  broadcasts_S1x6_S8192x6 : S1x6.Broadcasts S8192x6
  inb_S2x16x96_S1x16x96_0_0_0 : ∀ a, (![0, 0, 0] : Fin 3 → Nat) a + S1x16x96.size a ≤ S2x16x96.size a
  h_S1x16x96 : 0 < S1x16x96.numel
  shapeCasts_S1x16x96_S16x96 : S1x16x96.ShapeCasts S16x96
  slices_S8192x96_o0_0_S8192x16 : S8192x96.Slices ![0, 0] S8192x16
  reduces_S8192x16_S8192 : S8192x16.Reduces [1] S8192
  slices_S8192x96_o0_16_S8192x16 : S8192x96.Slices ![0, 16] S8192x16
  slices_S8192x96_o0_32_S8192x16 : S8192x96.Slices ![0, 32] S8192x16
  slices_S8192x96_o0_48_S8192x16 : S8192x96.Slices ![0, 48] S8192x16
  slices_S8192x96_o0_64_S8192x16 : S8192x96.Slices ![0, 64] S8192x16
  slices_S8192x96_o0_80_S8192x16 : S8192x96.Slices ![0, 80] S8192x16
  concatenates_S8192x1_S8192x1_S8192x1_S8192x1_S8192x1_S8192x1_S8192x6_d1 : Shape.Concatenates [S8192x1, S8192x1, S8192x1, S8192x1, S8192x1, S8192x1] S8192x6 1
  reduces_S8192x6_S8192 : S8192x6.Reduces [1] S8192
  broadcasts_S8192x1_S8192x6 : S8192x1.Broadcasts S8192x6
  inb_S2x6_S1x6_0_0 : ∀ a, (![0, 0] : Fin 2 → Nat) a + S1x6.size a ≤ S2x6.size a
  h_S1x6 : 0 < S1x6.numel
  shapeCasts_S1x6_S6 : S1x6.ShapeCasts S6
  inb_S1x6x6_S1x6x6_0_0_0 : ∀ a, (![0, 0, 0] : Fin 3 → Nat) a + S1x6x6.size a ≤ S1x6x6.size a
  h_S1x6x6 : 0 < S1x6x6.numel
  shapeCasts_S1x6x6_S6x6 : S1x6x6.ShapeCasts S6x6
  inb_S1x6_S1x6_0_0 : ∀ a, (![0, 0] : Fin 2 → Nat) a + S1x6.size a ≤ S1x6.size a
  transposes_S6x6_p1_0_S6x6 : S6x6.Transposes [1, 0] S6x6
  inb_S2x16x96_S1x16x96_1_0_0 : ∀ a, (![1, 0, 0] : Fin 3 → Nat) a + S1x16x96.size a ≤ S2x16x96.size a
  inb_S2x6_S1x6_1_0 : ∀ a, (![1, 0] : Fin 2 → Nat) a + S1x6.size a ≤ S2x6.size a
  inb_S3x6_S3x6_0_0 : ∀ a, (![0, 0] : Fin 2 → Nat) a + S3x6.size a ≤ S3x6.size a
  h_S3x6 : 0 < S3x6.numel
  inb_S3_S3_0 : ∀ a, (![0] : Fin 1 → Nat) a + S3.size a ≤ S3.size a
  h_S3 : 0 < S3.numel
  transposes_S3x6_p1_0_S6x3 : S3x6.Transposes [1, 0] S6x3
  shapeCasts_S3_S1x3 : S3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  dot_S8192x2_S2x6_S8192x6_1_0_0_1_n_n_wf : DotDims.WF S8192x2 S2x6 S8192x6 [1] [0] [0] [1] [] []
  dot_S8192x16_S16x96_S8192x96_1_0_0_1_n_n_wf : DotDims.WF S8192x16 S16x96 S8192x96 [1] [0] [0] [1] [] []
  dot_S8192x6_S6x6_S8192x6_1_0_0_1_n_n_wf : DotDims.WF S8192x6 S6x6 S8192x6 [1] [0] [0] [1] [] []
  dot_S8192x6_S6x3_S8192x3_1_0_0_1_n_n_wf : DotDims.WF S8192x6 S6x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S2097152x2.size a
  hwx0_0 : ∀ i : grid0.Coords, EltTy.bits .f32 = 32 ∨ (Rect.block (s := S2097152x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16x96.size a ≤ S2x16x96.size a
  hwx0_1 : ∀ i : grid0.Coords, EltTy.bits .f32 = 32 ∨ (Rect.block (s := S2x16x96) S2x16x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16x96.size a ≤ S2x16x96.size a
  hwx0_2 : ∀ i : grid0.Coords, EltTy.bits .f32 = 32 ∨ (Rect.block (s := S2x16x96) S2x16x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x2.size a ≤ S6x2.size a
  hwx0_3 : ∀ i : grid0.Coords, EltTy.bits .f32 = 32 ∨ (Rect.block (s := S6x2) S6x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6.size a ≤ S6.size a
  hwx0_4 : ∀ i : grid0.Coords, EltTy.bits .f32 = 32 ∨ (Rect.block (s := S6) S6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6x6.size a ≤ S1x6x6.size a
  hwx0_5 : ∀ i : grid0.Coords, EltTy.bits .f32 = 32 ∨ (Rect.block (s := S1x6x6) S1x6x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6.size a ≤ S1x6.size a
  hwx0_6 : ∀ i : grid0.Coords, EltTy.bits .f32 = 32 ∨ (Rect.block (s := S1x6) S1x6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x6.size a ≤ S3x6.size a
  hwx0_7 : ∀ i : grid0.Coords, EltTy.bits .f32 = 32 ∨ (Rect.block (s := S3x6) S3x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x6.size a ≤ S2x6.size a
  hwx0_9 : ∀ i : grid0.Coords, EltTy.bits .f32 = 32 ∨ (Rect.block (s := S2x6) S2x6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x6.size a ≤ S2x6.size a
  hwx0_10 : ∀ i : grid0.Coords, EltTy.bits .f32 = 32 ∨ (Rect.block (s := S2x6) S2x6.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x3.size a ≤ S2097152x3.size a
  hwx0_11 : ∀ i : grid0.Coords, EltTy.bits .f32 = 32 ∨ (Rect.block (s := S2097152x3) S8192x3.size (cc0_transform_11 i) (hinb0_11 i)).WholeWords (EltTy.packing .f32)

variable [Facts₀]

def dot_S8192x2_S2x6_S8192x6_1_0_0_1_n_n : DotDims S8192x2 S2x6 S8192x6 where
  lhsContracting := [1]
  rhsContracting := [0]
  lhsNonContracting := [0]
  rhsNonContracting := [1]
  lhsBatch := []
  rhsBatch := []
  wf := dot_S8192x2_S2x6_S8192x6_1_0_0_1_n_n_wf
def dot_S8192x16_S16x96_S8192x96_1_0_0_1_n_n : DotDims S8192x16 S16x96 S8192x96 where
  lhsContracting := [1]
  rhsContracting := [0]
  lhsNonContracting := [0]
  rhsNonContracting := [1]
  lhsBatch := []
  rhsBatch := []
  wf := dot_S8192x16_S16x96_S8192x96_1_0_0_1_n_n_wf
def dot_S8192x6_S6x6_S8192x6_1_0_0_1_n_n : DotDims S8192x6 S6x6 S8192x6 where
  lhsContracting := [1]
  rhsContracting := [0]
  lhsNonContracting := [0]
  rhsNonContracting := [1]
  lhsBatch := []
  rhsBatch := []
  wf := dot_S8192x6_S6x6_S8192x6_1_0_0_1_n_n_wf
def dot_S8192x6_S6x3_S8192x3_1_0_0_1_n_n : DotDims S8192x6 S6x3 S8192x3 where
  lhsContracting := [1]
  rhsContracting := [0]
  lhsNonContracting := [0]
  rhsNonContracting := [1]
  lhsBatch := []
  rhsBatch := []
  wf := dot_S8192x6_S6x3_S8192x3_1_0_0_1_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x16x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x6x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S8192x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2x6x16x16 : Shape := ⟨4, ![2, 6, 16, 16]⟩
abbrev S6x2 : Shape := ⟨2, ![6, 2]⟩
abbrev S6 : Shape := ⟨1, ![6]⟩
abbrev S1x6x6 : Shape := ⟨3, ![1, 6, 6]⟩
abbrev S1x6 : Shape := ⟨2, ![1, 6]⟩
abbrev S3x6 : Shape := ⟨2, ![3, 6]⟩
abbrev S3 : Shape := ⟨1, ![3]⟩
abbrev S2x6 : Shape := ⟨2, ![2, 6]⟩
abbrev S2097152x6 : Shape := ⟨2, ![2097152, 6]⟩
abbrev S_ : Shape := ⟨0, ![]⟩
abbrev S1x6x16x16 : Shape := ⟨4, ![1, 6, 16, 16]⟩
abbrev S6x16x16 : Shape := ⟨3, ![6, 16, 16]⟩
abbrev S2097152x1 : Shape := ⟨2, ![2097152, 1]⟩
abbrev S2097152 : Shape := ⟨1, ![2097152]⟩
abbrev S6x2097152 : Shape := ⟨2, ![6, 2097152]⟩
abbrev S1x2097152 : Shape := ⟨2, ![1, 2097152]⟩
abbrev S6x6 : Shape := ⟨2, ![6, 6]⟩
abbrev S6x3 : Shape := ⟨2, ![6, 3]⟩
abbrev S2097152x3 : Shape := ⟨2, ![2097152, 3]⟩
abbrev S1x3 : Shape := ⟨2, ![1, 3]⟩

abbrev nBuf : Space → Nat
  | .hbm => 692
  | .vmem => 0
  | .smem => 0
  | _ => 0

abbrev hbmTy0_0 (i : Nat) : BufTy := match i % 128 with
  | 0 => ⟨S2097152x2, .f32⟩
  | 1 => ⟨S2x6x16x16, .f32⟩
  | 2 => ⟨S2x6x16x16, .f32⟩
  | 3 => ⟨S6x2, .f32⟩
  | 4 => ⟨S6, .f32⟩
  | 5 => ⟨S1x6x6, .f32⟩
  | 6 => ⟨S1x6, .f32⟩
  | 7 => ⟨S3x6, .f32⟩
  | 8 => ⟨S3, .f32⟩
  | 9 => ⟨S2x6, .f32⟩
  | 10 => ⟨S2x6, .f32⟩
  | 11 => ⟨S2x6, .f32⟩
  | 12 => ⟨S2097152x6, .f32⟩
  | 13 => ⟨S1x6, .f32⟩
  | 14 => ⟨S2097152x6, .f32⟩
  | 15 => ⟨S2097152x6, .f32⟩
  | 16 => ⟨S2097152x6, .f32⟩
  | 17 => ⟨S2097152x6, .f32⟩
  | 18 => ⟨S_, .f32⟩
  | 19 => ⟨S2097152x6, .f32⟩
  | 20 => ⟨S2097152x6, .f32⟩
  | 21 => ⟨S_, .f32⟩
  | 22 => ⟨S2097152x6, .f32⟩
  | 23 => ⟨S2097152x6, .f32⟩
  | 24 => ⟨S2097152x6, .f32⟩
  | 25 => ⟨S1x6x16x16, .f32⟩
  | 26 => ⟨S6x16x16, .f32⟩
  | 27 => ⟨S_, .f32⟩
  | 28 => ⟨S2097152x2, .f32⟩
  | 29 => ⟨S2097152x2, .f32⟩
  | 30 => ⟨S_, .f32⟩
  | 31 => ⟨S2097152x2, .f32⟩
  | 32 => ⟨S2097152x2, .f32⟩
  | 33 => ⟨S_, .f32⟩
  | 34 => ⟨S2097152x2, .f32⟩
  | 35 => ⟨S2097152x2, .f32⟩
  | 36 => ⟨S_, .f32⟩
  | 37 => ⟨S_, .f32⟩
  | 38 => ⟨S_, .f32⟩
  | 39 => ⟨S2097152x2, .f32⟩
  | 40 => ⟨S2097152x2, .f32⟩
  | 41 => ⟨S_, .f32⟩
  | 42 => ⟨S2097152x2, .f32⟩
  | 43 => ⟨S2097152x2, .f32⟩
  | 44 => ⟨S2097152x1, .f32⟩
  | 45 => ⟨S2097152, .f32⟩
  | 46 => ⟨S2097152x1, .f32⟩
  | 47 => ⟨S2097152, .f32⟩
  | 48 => ⟨S2097152, .f32⟩
  | 49 => ⟨S2097152, .f32⟩
  | 50 => ⟨S2097152, .f32⟩
  | 51 => ⟨S2097152, .f32⟩
  | 52 => ⟨S2097152, .i32⟩
  | 53 => ⟨S2097152, .i32⟩
  | 54 => ⟨S_, .i32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i32⟩
  | 63 => ⟨S_, .i32⟩
  | 64 => ⟨S2097152, .i32⟩
  | 65 => ⟨S2097152, .i32⟩
  | 66 => ⟨S_, .i32⟩
  | 67 => ⟨S2097152, .i32⟩
  | 68 => ⟨S2097152, .i1⟩
  | 69 => ⟨S_, .i32⟩
  | 70 => ⟨S2097152, .i32⟩
  | 71 => ⟨S2097152, .i32⟩
  | 72 => ⟨S2097152, .i32⟩
  | 73 => ⟨S_, .i32⟩
  | 74 => ⟨S2097152, .i32⟩
  | 75 => ⟨S2097152, .i1⟩
  | 76 => ⟨S_, .i32⟩
  | 77 => ⟨S2097152, .i32⟩
  | 78 => ⟨S2097152, .i32⟩
  | 79 => ⟨S2097152, .i32⟩
  | 80 => ⟨S2097152x1, .i32⟩
  | 81 => ⟨S2097152x1, .i32⟩
  | 82 => ⟨S2097152x2, .i32⟩
  | 83 => ⟨S6x2097152, .f32⟩
  | 84 => ⟨S_, .i32⟩
  | 85 => ⟨S2097152, .i32⟩
  | 86 => ⟨S2097152, .i1⟩
  | 87 => ⟨S_, .i32⟩
  | 88 => ⟨S2097152, .i32⟩
  | 89 => ⟨S2097152, .i32⟩
  | 90 => ⟨S2097152, .i32⟩
  | 91 => ⟨S_, .i32⟩
  | 92 => ⟨S2097152, .i32⟩
  | 93 => ⟨S2097152, .i1⟩
  | 94 => ⟨S_, .i32⟩
  | 95 => ⟨S2097152, .i32⟩
  | 96 => ⟨S2097152, .i32⟩
  | 97 => ⟨S2097152, .i32⟩
  | 98 => ⟨S2097152x1, .i32⟩
  | 99 => ⟨S2097152x1, .i32⟩
  | 100 => ⟨S2097152x2, .i32⟩
  | 101 => ⟨S6x2097152, .f32⟩
  | 102 => ⟨S_, .i32⟩
  | 103 => ⟨S2097152, .i32⟩
  | 104 => ⟨S2097152, .i1⟩
  | 105 => ⟨S_, .i32⟩
  | 106 => ⟨S2097152, .i32⟩
  | 107 => ⟨S2097152, .i32⟩
  | 108 => ⟨S2097152, .i32⟩
  | 109 => ⟨S_, .i32⟩
  | 110 => ⟨S2097152, .i32⟩
  | 111 => ⟨S2097152, .i1⟩
  | 112 => ⟨S_, .i32⟩
  | 113 => ⟨S2097152, .i32⟩
  | 114 => ⟨S2097152, .i32⟩
  | 115 => ⟨S2097152, .i32⟩
  | 116 => ⟨S2097152x1, .i32⟩
  | 117 => ⟨S2097152x1, .i32⟩
  | 118 => ⟨S2097152x2, .i32⟩
  | 119 => ⟨S6x2097152, .f32⟩
  | 120 => ⟨S_, .i32⟩
  | 121 => ⟨S2097152, .i32⟩
  | 122 => ⟨S2097152, .i1⟩
  | 123 => ⟨S_, .i32⟩
  | 124 => ⟨S2097152, .i32⟩
  | 125 => ⟨S2097152, .i32⟩
  | 126 => ⟨S2097152, .i32⟩
  | 127 => ⟨S_, .i32⟩
  | _ => ⟨S2097152x2, .f32⟩

abbrev hbmTy0_1 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S2097152x1, .i32⟩
  | 7 => ⟨S2097152x1, .i32⟩
  | 8 => ⟨S2097152x2, .i32⟩
  | 9 => ⟨S6x2097152, .f32⟩
  | 10 => ⟨S_, .f32⟩
  | 11 => ⟨S2097152, .f32⟩
  | 12 => ⟨S2097152, .f32⟩
  | 13 => ⟨S1x2097152, .f32⟩
  | 14 => ⟨S6x2097152, .f32⟩
  | 15 => ⟨S6x2097152, .f32⟩
  | 16 => ⟨S1x2097152, .f32⟩
  | 17 => ⟨S6x2097152, .f32⟩
  | 18 => ⟨S6x2097152, .f32⟩
  | 19 => ⟨S6x2097152, .f32⟩
  | 20 => ⟨S_, .f32⟩
  | 21 => ⟨S2097152, .f32⟩
  | 22 => ⟨S2097152, .f32⟩
  | 23 => ⟨S1x2097152, .f32⟩
  | 24 => ⟨S6x2097152, .f32⟩
  | 25 => ⟨S6x2097152, .f32⟩
  | 26 => ⟨S1x2097152, .f32⟩
  | 27 => ⟨S6x2097152, .f32⟩
  | 28 => ⟨S6x2097152, .f32⟩
  | 29 => ⟨S6x2097152, .f32⟩
  | 30 => ⟨S_, .f32⟩
  | 31 => ⟨S2097152, .f32⟩
  | 32 => ⟨S2097152, .f32⟩
  | 33 => ⟨S1x2097152, .f32⟩
  | 34 => ⟨S6x2097152, .f32⟩
  | 35 => ⟨S6x2097152, .f32⟩
  | 36 => ⟨S1x2097152, .f32⟩
  | 37 => ⟨S6x2097152, .f32⟩
  | 38 => ⟨S6x2097152, .f32⟩
  | 39 => ⟨S6x2097152, .f32⟩
  | 40 => ⟨S2097152x6, .f32⟩
  | 41 => ⟨S1x6x16x16, .f32⟩
  | 42 => ⟨S6x16x16, .f32⟩
  | 43 => ⟨S_, .f32⟩
  | 44 => ⟨S2097152x2, .f32⟩
  | 45 => ⟨S2097152x2, .f32⟩
  | 46 => ⟨S_, .f32⟩
  | 47 => ⟨S2097152x2, .f32⟩
  | 48 => ⟨S2097152x2, .f32⟩
  | 49 => ⟨S_, .f32⟩
  | 50 => ⟨S2097152x2, .f32⟩
  | 51 => ⟨S2097152x2, .f32⟩
  | 52 => ⟨S_, .f32⟩
  | 53 => ⟨S_, .f32⟩
  | 54 => ⟨S_, .f32⟩
  | 55 => ⟨S2097152x2, .f32⟩
  | 56 => ⟨S2097152x2, .f32⟩
  | 57 => ⟨S_, .f32⟩
  | 58 => ⟨S2097152x2, .f32⟩
  | 59 => ⟨S2097152x2, .f32⟩
  | 60 => ⟨S2097152x1, .f32⟩
  | 61 => ⟨S2097152, .f32⟩
  | 62 => ⟨S2097152x1, .f32⟩
  | 63 => ⟨S2097152, .f32⟩
  | 64 => ⟨S2097152, .f32⟩
  | 65 => ⟨S2097152, .f32⟩
  | 66 => ⟨S2097152, .f32⟩
  | 67 => ⟨S2097152, .f32⟩
  | 68 => ⟨S2097152, .i32⟩
  | 69 => ⟨S2097152, .i32⟩
  | 70 => ⟨S_, .i32⟩
  | 71 => ⟨S2097152, .i32⟩
  | 72 => ⟨S2097152, .i32⟩
  | 73 => ⟨S_, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S_, .i32⟩
  | 80 => ⟨S2097152, .i32⟩
  | 81 => ⟨S2097152, .i32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x1, .i32⟩
  | 98 => ⟨S2097152x2, .i32⟩
  | 99 => ⟨S6x2097152, .f32⟩
  | 100 => ⟨S_, .i32⟩
  | 101 => ⟨S2097152, .i32⟩
  | 102 => ⟨S2097152, .i1⟩
  | 103 => ⟨S_, .i32⟩
  | 104 => ⟨S2097152, .i32⟩
  | 105 => ⟨S2097152, .i32⟩
  | 106 => ⟨S2097152, .i32⟩
  | 107 => ⟨S_, .i32⟩
  | 108 => ⟨S2097152, .i32⟩
  | 109 => ⟨S2097152, .i1⟩
  | 110 => ⟨S_, .i32⟩
  | 111 => ⟨S2097152, .i32⟩
  | 112 => ⟨S2097152, .i32⟩
  | 113 => ⟨S2097152, .i32⟩
  | 114 => ⟨S2097152x1, .i32⟩
  | 115 => ⟨S2097152x1, .i32⟩
  | 116 => ⟨S2097152x2, .i32⟩
  | 117 => ⟨S6x2097152, .f32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S2097152x2, .f32⟩

abbrev hbmTy0_2 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x2, .i32⟩
  | 7 => ⟨S6x2097152, .f32⟩
  | 8 => ⟨S_, .i32⟩
  | 9 => ⟨S2097152, .i32⟩
  | 10 => ⟨S2097152, .i1⟩
  | 11 => ⟨S_, .i32⟩
  | 12 => ⟨S2097152, .i32⟩
  | 13 => ⟨S2097152, .i32⟩
  | 14 => ⟨S2097152, .i32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S2097152x1, .i32⟩
  | 23 => ⟨S2097152x1, .i32⟩
  | 24 => ⟨S2097152x2, .i32⟩
  | 25 => ⟨S6x2097152, .f32⟩
  | 26 => ⟨S_, .f32⟩
  | 27 => ⟨S2097152, .f32⟩
  | 28 => ⟨S2097152, .f32⟩
  | 29 => ⟨S1x2097152, .f32⟩
  | 30 => ⟨S6x2097152, .f32⟩
  | 31 => ⟨S6x2097152, .f32⟩
  | 32 => ⟨S1x2097152, .f32⟩
  | 33 => ⟨S6x2097152, .f32⟩
  | 34 => ⟨S6x2097152, .f32⟩
  | 35 => ⟨S6x2097152, .f32⟩
  | 36 => ⟨S_, .f32⟩
  | 37 => ⟨S2097152, .f32⟩
  | 38 => ⟨S2097152, .f32⟩
  | 39 => ⟨S1x2097152, .f32⟩
  | 40 => ⟨S6x2097152, .f32⟩
  | 41 => ⟨S6x2097152, .f32⟩
  | 42 => ⟨S1x2097152, .f32⟩
  | 43 => ⟨S6x2097152, .f32⟩
  | 44 => ⟨S6x2097152, .f32⟩
  | 45 => ⟨S6x2097152, .f32⟩
  | 46 => ⟨S_, .f32⟩
  | 47 => ⟨S2097152, .f32⟩
  | 48 => ⟨S2097152, .f32⟩
  | 49 => ⟨S1x2097152, .f32⟩
  | 50 => ⟨S6x2097152, .f32⟩
  | 51 => ⟨S6x2097152, .f32⟩
  | 52 => ⟨S1x2097152, .f32⟩
  | 53 => ⟨S6x2097152, .f32⟩
  | 54 => ⟨S6x2097152, .f32⟩
  | 55 => ⟨S6x2097152, .f32⟩
  | 56 => ⟨S2097152x6, .f32⟩
  | 57 => ⟨S1x6, .f32⟩
  | 58 => ⟨S6, .f32⟩
  | 59 => ⟨S1x6, .f32⟩
  | 60 => ⟨S6, .f32⟩
  | 61 => ⟨S_, .f32⟩
  | 62 => ⟨S2097152, .f32⟩
  | 63 => ⟨S2097152x1, .f32⟩
  | 64 => ⟨S_, .f32⟩
  | 65 => ⟨S2097152x1, .f32⟩
  | 66 => ⟨S2097152x1, .f32⟩
  | 67 => ⟨S2097152x6, .f32⟩
  | 68 => ⟨S2097152x6, .f32⟩
  | 69 => ⟨S2097152x6, .f32⟩
  | 70 => ⟨S_, .f32⟩
  | 71 => ⟨S2097152, .f32⟩
  | 72 => ⟨S2097152x1, .f32⟩
  | 73 => ⟨S_, .f32⟩
  | 74 => ⟨S2097152x1, .f32⟩
  | 75 => ⟨S2097152x1, .f32⟩
  | 76 => ⟨S2097152x6, .f32⟩
  | 77 => ⟨S2097152x6, .f32⟩
  | 78 => ⟨S_, .f32⟩
  | 79 => ⟨S2097152x1, .f32⟩
  | 80 => ⟨S2097152x1, .f32⟩
  | 81 => ⟨S2097152x1, .f32⟩
  | 82 => ⟨S2097152x6, .f32⟩
  | 83 => ⟨S2097152x6, .f32⟩
  | 84 => ⟨S1x6, .f32⟩
  | 85 => ⟨S2097152x6, .f32⟩
  | 86 => ⟨S2097152x6, .f32⟩
  | 87 => ⟨S1x6, .f32⟩
  | 88 => ⟨S2097152x6, .f32⟩
  | 89 => ⟨S2097152x6, .f32⟩
  | 90 => ⟨S2097152x6, .f32⟩
  | 91 => ⟨S2097152x6, .f32⟩
  | 92 => ⟨S6x6, .f32⟩
  | 93 => ⟨S6x6, .f32⟩
  | 94 => ⟨S2097152x6, .f32⟩
  | 95 => ⟨S6, .f32⟩
  | 96 => ⟨S1x6, .f32⟩
  | 97 => ⟨S2097152x6, .f32⟩
  | 98 => ⟨S2097152x6, .f32⟩
  | 99 => ⟨S2097152x6, .f32⟩
  | 100 => ⟨S2097152x6, .f32⟩
  | 101 => ⟨S_, .f32⟩
  | 102 => ⟨S2097152x6, .f32⟩
  | 103 => ⟨S2097152x6, .f32⟩
  | 104 => ⟨S_, .f32⟩
  | 105 => ⟨S2097152x6, .f32⟩
  | 106 => ⟨S2097152x6, .f32⟩
  | 107 => ⟨S2097152x6, .f32⟩
  | 108 => ⟨S1x6x16x16, .f32⟩
  | 109 => ⟨S6x16x16, .f32⟩
  | 110 => ⟨S_, .f32⟩
  | 111 => ⟨S2097152x2, .f32⟩
  | 112 => ⟨S2097152x2, .f32⟩
  | 113 => ⟨S_, .f32⟩
  | 114 => ⟨S2097152x2, .f32⟩
  | 115 => ⟨S2097152x2, .f32⟩
  | 116 => ⟨S_, .f32⟩
  | 117 => ⟨S2097152x2, .f32⟩
  | 118 => ⟨S2097152x2, .f32⟩
  | 119 => ⟨S_, .f32⟩
  | 120 => ⟨S_, .f32⟩
  | 121 => ⟨S_, .f32⟩
  | 122 => ⟨S2097152x2, .f32⟩
  | 123 => ⟨S2097152x2, .f32⟩
  | 124 => ⟨S_, .f32⟩
  | 125 => ⟨S2097152x2, .f32⟩
  | 126 => ⟨S2097152x2, .f32⟩
  | 127 => ⟨S2097152x1, .f32⟩
  | _ => ⟨S2097152x2, .f32⟩

abbrev hbmTy0_3 (i : Nat) : BufTy := match i % 128 with
  | 0 => ⟨S2097152, .f32⟩
  | 1 => ⟨S2097152x1, .f32⟩
  | 2 => ⟨S2097152, .f32⟩
  | 3 => ⟨S2097152, .f32⟩
  | 4 => ⟨S2097152, .f32⟩
  | 5 => ⟨S2097152, .f32⟩
  | 6 => ⟨S2097152, .f32⟩
  | 7 => ⟨S2097152, .i32⟩
  | 8 => ⟨S2097152, .i32⟩
  | 9 => ⟨S_, .i32⟩
  | 10 => ⟨S2097152, .i32⟩
  | 11 => ⟨S2097152, .i32⟩
  | 12 => ⟨S_, .i32⟩
  | 13 => ⟨S2097152, .i32⟩
  | 14 => ⟨S2097152, .i32⟩
  | 15 => ⟨S_, .i32⟩
  | 16 => ⟨S2097152, .i32⟩
  | 17 => ⟨S2097152, .i32⟩
  | 18 => ⟨S_, .i32⟩
  | 19 => ⟨S2097152, .i32⟩
  | 20 => ⟨S2097152, .i32⟩
  | 21 => ⟨S_, .i32⟩
  | 22 => ⟨S2097152, .i32⟩
  | 23 => ⟨S2097152, .i1⟩
  | 24 => ⟨S_, .i32⟩
  | 25 => ⟨S2097152, .i32⟩
  | 26 => ⟨S2097152, .i32⟩
  | 27 => ⟨S2097152, .i32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S2097152, .i32⟩
  | 35 => ⟨S2097152x1, .i32⟩
  | 36 => ⟨S2097152x1, .i32⟩
  | 37 => ⟨S2097152x2, .i32⟩
  | 38 => ⟨S6x2097152, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S_, .i32⟩
  | 47 => ⟨S2097152, .i32⟩
  | 48 => ⟨S2097152, .i1⟩
  | 49 => ⟨S_, .i32⟩
  | 50 => ⟨S2097152, .i32⟩
  | 51 => ⟨S2097152, .i32⟩
  | 52 => ⟨S2097152, .i32⟩
  | 53 => ⟨S2097152x1, .i32⟩
  | 54 => ⟨S2097152x1, .i32⟩
  | 55 => ⟨S2097152x2, .i32⟩
  | 56 => ⟨S6x2097152, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S2097152x1, .i32⟩
  | 72 => ⟨S2097152x1, .i32⟩
  | 73 => ⟨S2097152x2, .i32⟩
  | 74 => ⟨S6x2097152, .f32⟩
  | 75 => ⟨S_, .i32⟩
  | 76 => ⟨S2097152, .i32⟩
  | 77 => ⟨S2097152, .i1⟩
  | 78 => ⟨S_, .i32⟩
  | 79 => ⟨S2097152, .i32⟩
  | 80 => ⟨S2097152, .i32⟩
  | 81 => ⟨S2097152, .i32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S2097152x1, .i32⟩
  | 90 => ⟨S2097152x1, .i32⟩
  | 91 => ⟨S2097152x2, .i32⟩
  | 92 => ⟨S6x2097152, .f32⟩
  | 93 => ⟨S_, .f32⟩
  | 94 => ⟨S2097152, .f32⟩
  | 95 => ⟨S2097152, .f32⟩
  | 96 => ⟨S1x2097152, .f32⟩
  | 97 => ⟨S6x2097152, .f32⟩
  | 98 => ⟨S6x2097152, .f32⟩
  | 99 => ⟨S1x2097152, .f32⟩
  | 100 => ⟨S6x2097152, .f32⟩
  | 101 => ⟨S6x2097152, .f32⟩
  | 102 => ⟨S6x2097152, .f32⟩
  | 103 => ⟨S_, .f32⟩
  | 104 => ⟨S2097152, .f32⟩
  | 105 => ⟨S2097152, .f32⟩
  | 106 => ⟨S1x2097152, .f32⟩
  | 107 => ⟨S6x2097152, .f32⟩
  | 108 => ⟨S6x2097152, .f32⟩
  | 109 => ⟨S1x2097152, .f32⟩
  | 110 => ⟨S6x2097152, .f32⟩
  | 111 => ⟨S6x2097152, .f32⟩
  | 112 => ⟨S6x2097152, .f32⟩
  | 113 => ⟨S_, .f32⟩
  | 114 => ⟨S2097152, .f32⟩
  | 115 => ⟨S2097152, .f32⟩
  | 116 => ⟨S1x2097152, .f32⟩
  | 117 => ⟨S6x2097152, .f32⟩
  | 118 => ⟨S6x2097152, .f32⟩
  | 119 => ⟨S1x2097152, .f32⟩
  | 120 => ⟨S6x2097152, .f32⟩
  | 121 => ⟨S6x2097152, .f32⟩
  | 122 => ⟨S6x2097152, .f32⟩
  | 123 => ⟨S2097152x6, .f32⟩
  | 124 => ⟨S1x6x16x16, .f32⟩
  | 125 => ⟨S6x16x16, .f32⟩
  | 126 => ⟨S_, .f32⟩
  | 127 => ⟨S2097152x2, .f32⟩
  | _ => ⟨S2097152x2, .f32⟩

abbrev hbmTy0_4 (i : Nat) : BufTy := match i % 128 with
  | 0 => ⟨S2097152x2, .f32⟩
  | 1 => ⟨S_, .f32⟩
  | 2 => ⟨S2097152x2, .f32⟩
  | 3 => ⟨S2097152x2, .f32⟩
  | 4 => ⟨S_, .f32⟩
  | 5 => ⟨S2097152x2, .f32⟩
  | 6 => ⟨S2097152x2, .f32⟩
  | 7 => ⟨S_, .f32⟩
  | 8 => ⟨S_, .f32⟩
  | 9 => ⟨S_, .f32⟩
  | 10 => ⟨S2097152x2, .f32⟩
  | 11 => ⟨S2097152x2, .f32⟩
  | 12 => ⟨S_, .f32⟩
  | 13 => ⟨S2097152x2, .f32⟩
  | 14 => ⟨S2097152x2, .f32⟩
  | 15 => ⟨S2097152x1, .f32⟩
  | 16 => ⟨S2097152, .f32⟩
  | 17 => ⟨S2097152x1, .f32⟩
  | 18 => ⟨S2097152, .f32⟩
  | 19 => ⟨S2097152, .f32⟩
  | 20 => ⟨S2097152, .f32⟩
  | 21 => ⟨S2097152, .f32⟩
  | 22 => ⟨S2097152, .f32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i32⟩
  | 31 => ⟨S_, .i32⟩
  | 32 => ⟨S2097152, .i32⟩
  | 33 => ⟨S2097152, .i32⟩
  | 34 => ⟨S_, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2097152x1, .i32⟩
  | 53 => ⟨S2097152x2, .i32⟩
  | 54 => ⟨S6x2097152, .f32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S2097152x1, .i32⟩
  | 70 => ⟨S2097152x1, .i32⟩
  | 71 => ⟨S2097152x2, .i32⟩
  | 72 => ⟨S6x2097152, .f32⟩
  | 73 => ⟨S_, .i32⟩
  | 74 => ⟨S2097152, .i32⟩
  | 75 => ⟨S2097152, .i1⟩
  | 76 => ⟨S_, .i32⟩
  | 77 => ⟨S2097152, .i32⟩
  | 78 => ⟨S2097152, .i32⟩
  | 79 => ⟨S2097152, .i32⟩
  | 80 => ⟨S_, .i32⟩
  | 81 => ⟨S2097152, .i32⟩
  | 82 => ⟨S2097152, .i1⟩
  | 83 => ⟨S_, .i32⟩
  | 84 => ⟨S2097152, .i32⟩
  | 85 => ⟨S2097152, .i32⟩
  | 86 => ⟨S2097152, .i32⟩
  | 87 => ⟨S2097152x1, .i32⟩
  | 88 => ⟨S2097152x1, .i32⟩
  | 89 => ⟨S2097152x2, .i32⟩
  | 90 => ⟨S6x2097152, .f32⟩
  | 91 => ⟨S_, .i32⟩
  | 92 => ⟨S2097152, .i32⟩
  | 93 => ⟨S2097152, .i1⟩
  | 94 => ⟨S_, .i32⟩
  | 95 => ⟨S2097152, .i32⟩
  | 96 => ⟨S2097152, .i32⟩
  | 97 => ⟨S2097152, .i32⟩
  | 98 => ⟨S_, .i32⟩
  | 99 => ⟨S2097152, .i32⟩
  | 100 => ⟨S2097152, .i1⟩
  | 101 => ⟨S_, .i32⟩
  | 102 => ⟨S2097152, .i32⟩
  | 103 => ⟨S2097152, .i32⟩
  | 104 => ⟨S2097152, .i32⟩
  | 105 => ⟨S2097152x1, .i32⟩
  | 106 => ⟨S2097152x1, .i32⟩
  | 107 => ⟨S2097152x2, .i32⟩
  | 108 => ⟨S6x2097152, .f32⟩
  | 109 => ⟨S_, .f32⟩
  | 110 => ⟨S2097152, .f32⟩
  | 111 => ⟨S2097152, .f32⟩
  | 112 => ⟨S1x2097152, .f32⟩
  | 113 => ⟨S6x2097152, .f32⟩
  | 114 => ⟨S6x2097152, .f32⟩
  | 115 => ⟨S1x2097152, .f32⟩
  | 116 => ⟨S6x2097152, .f32⟩
  | 117 => ⟨S6x2097152, .f32⟩
  | 118 => ⟨S6x2097152, .f32⟩
  | 119 => ⟨S_, .f32⟩
  | 120 => ⟨S2097152, .f32⟩
  | 121 => ⟨S2097152, .f32⟩
  | 122 => ⟨S1x2097152, .f32⟩
  | 123 => ⟨S6x2097152, .f32⟩
  | 124 => ⟨S6x2097152, .f32⟩
  | 125 => ⟨S1x2097152, .f32⟩
  | 126 => ⟨S6x2097152, .f32⟩
  | 127 => ⟨S6x2097152, .f32⟩
  | _ => ⟨S2097152x2, .f32⟩

abbrev hbmTy0_5 (i : Nat) : BufTy := match i % 128 with
  | 0 => ⟨S6x2097152, .f32⟩
  | 1 => ⟨S_, .f32⟩
  | 2 => ⟨S2097152, .f32⟩
  | 3 => ⟨S2097152, .f32⟩
  | 4 => ⟨S1x2097152, .f32⟩
  | 5 => ⟨S6x2097152, .f32⟩
  | 6 => ⟨S6x2097152, .f32⟩
  | 7 => ⟨S1x2097152, .f32⟩
  | 8 => ⟨S6x2097152, .f32⟩
  | 9 => ⟨S6x2097152, .f32⟩
  | 10 => ⟨S6x2097152, .f32⟩
  | 11 => ⟨S2097152x6, .f32⟩
  | 12 => ⟨S1x6, .f32⟩
  | 13 => ⟨S6, .f32⟩
  | 14 => ⟨S1x6, .f32⟩
  | 15 => ⟨S6, .f32⟩
  | 16 => ⟨S_, .f32⟩
  | 17 => ⟨S2097152, .f32⟩
  | 18 => ⟨S2097152x1, .f32⟩
  | 19 => ⟨S_, .f32⟩
  | 20 => ⟨S2097152x1, .f32⟩
  | 21 => ⟨S2097152x1, .f32⟩
  | 22 => ⟨S2097152x6, .f32⟩
  | 23 => ⟨S2097152x6, .f32⟩
  | 24 => ⟨S2097152x6, .f32⟩
  | 25 => ⟨S_, .f32⟩
  | 26 => ⟨S2097152, .f32⟩
  | 27 => ⟨S2097152x1, .f32⟩
  | 28 => ⟨S_, .f32⟩
  | 29 => ⟨S2097152x1, .f32⟩
  | 30 => ⟨S2097152x1, .f32⟩
  | 31 => ⟨S2097152x6, .f32⟩
  | 32 => ⟨S2097152x6, .f32⟩
  | 33 => ⟨S_, .f32⟩
  | 34 => ⟨S2097152x1, .f32⟩
  | 35 => ⟨S2097152x1, .f32⟩
  | 36 => ⟨S2097152x1, .f32⟩
  | 37 => ⟨S2097152x6, .f32⟩
  | 38 => ⟨S2097152x6, .f32⟩
  | 39 => ⟨S1x6, .f32⟩
  | 40 => ⟨S2097152x6, .f32⟩
  | 41 => ⟨S2097152x6, .f32⟩
  | 42 => ⟨S1x6, .f32⟩
  | 43 => ⟨S2097152x6, .f32⟩
  | 44 => ⟨S2097152x6, .f32⟩
  | 45 => ⟨S2097152x6, .f32⟩
  | 46 => ⟨S2097152x6, .f32⟩
  | 47 => ⟨S6x3, .f32⟩
  | 48 => ⟨S2097152x3, .f32⟩
  | 49 => ⟨S1x3, .f32⟩
  | 50 => ⟨S2097152x3, .f32⟩
  | 51 => ⟨S2097152x3, .f32⟩
  | _ => ⟨S2097152x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_9 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_c_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_13 : Ref sig .tc := ⟨.hbm, 91, rfl⟩
abbrev main_v52 : Ref sig .tc := ⟨.hbm, 92, rfl⟩
abbrev main_v53 : Ref sig .tc := ⟨.hbm, 93, rfl⟩
abbrev main_c_14 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_15 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_17 : Ref sig .tc := ⟨.hbm, 109, rfl⟩
abbrev main_v66 : Ref sig .tc := ⟨.hbm, 110, rfl⟩
abbrev main_v67 : Ref sig .tc := ⟨.hbm, 111, rfl⟩
abbrev main_c_18 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_19 : Ref sig .tc := ⟨.hbm, 120, rfl⟩
abbrev main_v75 : Ref sig .tc := ⟨.hbm, 121, rfl⟩
abbrev main_v76 : Ref sig .tc := ⟨.hbm, 122, rfl⟩
abbrev main_c_20 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_21 : Ref sig .tc := ⟨.hbm, 127, rfl⟩
abbrev main_v80 : Ref sig .tc := ⟨.hbm, 128, rfl⟩
abbrev main_v81 : Ref sig .tc := ⟨.hbm, 129, rfl⟩
abbrev main_c_22 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_23 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_25 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_26 : Ref sig .tc := ⟨.hbm, 171, rfl⟩
abbrev main_v119 : Ref sig .tc := ⟨.hbm, 172, rfl⟩
abbrev main_v120 : Ref sig .tc := ⟨.hbm, 173, rfl⟩
abbrev main_cst_27 : Ref sig .tc := ⟨.hbm, 174, rfl⟩
abbrev main_v121 : Ref sig .tc := ⟨.hbm, 175, rfl⟩
abbrev main_v122 : Ref sig .tc := ⟨.hbm, 176, rfl⟩
abbrev main_cst_28 : Ref sig .tc := ⟨.hbm, 177, rfl⟩
abbrev main_v123 : Ref sig .tc := ⟨.hbm, 178, rfl⟩
abbrev main_v124 : Ref sig .tc := ⟨.hbm, 179, rfl⟩
abbrev main_cst_29 : Ref sig .tc := ⟨.hbm, 180, rfl⟩
abbrev main_cst_30 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_31 : Ref sig .tc := ⟨.hbm, 198, rfl⟩
abbrev main_v136 : Ref sig .tc := ⟨.hbm, 199, rfl⟩
abbrev main_v137 : Ref sig .tc := ⟨.hbm, 200, rfl⟩
abbrev main_c_32 : Ref sig .tc := ⟨.hbm, 201, rfl⟩
abbrev main_v138 : Ref sig .tc := ⟨.hbm, 202, rfl⟩
abbrev main_v139 : Ref sig .tc := ⟨.hbm, 203, rfl⟩
abbrev main_c_33 : Ref sig .tc := ⟨.hbm, 204, rfl⟩
abbrev main_v140 : Ref sig .tc := ⟨.hbm, 205, rfl⟩
abbrev main_v141 : Ref sig .tc := ⟨.hbm, 206, rfl⟩
abbrev main_c_34 : Ref sig .tc := ⟨.hbm, 207, rfl⟩
abbrev main_v142 : Ref sig .tc := ⟨.hbm, 208, rfl⟩
abbrev main_v143 : Ref sig .tc := ⟨.hbm, 209, rfl⟩
abbrev main_c_35 : Ref sig .tc := ⟨.hbm, 210, rfl⟩
abbrev main_v144 : Ref sig .tc := ⟨.hbm, 211, rfl⟩
abbrev main_v145 : Ref sig .tc := ⟨.hbm, 212, rfl⟩
abbrev main_c_36 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_c_37 : Ref sig .tc := ⟨.hbm, 217, rfl⟩
abbrev main_v149 : Ref sig .tc := ⟨.hbm, 218, rfl⟩
abbrev main_v150 : Ref sig .tc := ⟨.hbm, 219, rfl⟩
abbrev main_c_38 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_c_39 : Ref sig .tc := ⟨.hbm, 228, rfl⟩
abbrev main_v158 : Ref sig .tc := ⟨.hbm, 229, rfl⟩
abbrev main_v159 : Ref sig .tc := ⟨.hbm, 230, rfl⟩
abbrev main_c_40 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_c_41 : Ref sig .tc := ⟨.hbm, 235, rfl⟩
abbrev main_v163 : Ref sig .tc := ⟨.hbm, 236, rfl⟩
abbrev main_v164 : Ref sig .tc := ⟨.hbm, 237, rfl⟩
abbrev main_c_42 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_c_43 : Ref sig .tc := ⟨.hbm, 246, rfl⟩
abbrev main_v172 : Ref sig .tc := ⟨.hbm, 247, rfl⟩
abbrev main_v173 : Ref sig .tc := ⟨.hbm, 248, rfl⟩
abbrev main_c_44 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_c_45 : Ref sig .tc := ⟨.hbm, 253, rfl⟩
abbrev main_v177 : Ref sig .tc := ⟨.hbm, 254, rfl⟩
abbrev main_v178 : Ref sig .tc := ⟨.hbm, 255, rfl⟩
abbrev main_c_46 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_c_47 : Ref sig .tc := ⟨.hbm, 264, rfl⟩
abbrev main_v186 : Ref sig .tc := ⟨.hbm, 265, rfl⟩
abbrev main_v187 : Ref sig .tc := ⟨.hbm, 266, rfl⟩
abbrev main_c_48 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_c_49 : Ref sig .tc := ⟨.hbm, 271, rfl⟩
abbrev main_v191 : Ref sig .tc := ⟨.hbm, 272, rfl⟩
abbrev main_v192 : Ref sig .tc := ⟨.hbm, 273, rfl⟩
abbrev main_c_50 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_cst_51 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_cst_52 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_cst_53 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_cst_54 : Ref sig .tc := ⟨.hbm, 317, rfl⟩
abbrev main_v232 : Ref sig .tc := ⟨.hbm, 318, rfl⟩
abbrev main_v233 : Ref sig .tc := ⟨.hbm, 319, rfl⟩
abbrev main_cst_55 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_cst_56 : Ref sig .tc := ⟨.hbm, 326, rfl⟩
abbrev main_v239 : Ref sig .tc := ⟨.hbm, 327, rfl⟩
abbrev main_v240 : Ref sig .tc := ⟨.hbm, 328, rfl⟩
abbrev main_cst_57 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_cst_58 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_call3_v0 : Ref sig .tc := ⟨.hbm, 355, rfl⟩
abbrev main_call3_v1 : Ref sig .tc := ⟨.hbm, 356, rfl⟩
abbrev main_call3_cst : Ref sig .tc := ⟨.hbm, 357, rfl⟩
abbrev main_call3_v2 : Ref sig .tc := ⟨.hbm, 358, rfl⟩
abbrev main_call3_v3 : Ref sig .tc := ⟨.hbm, 359, rfl⟩
abbrev main_call3_cst_0 : Ref sig .tc := ⟨.hbm, 360, rfl⟩
abbrev main_call3_v4 : Ref sig .tc := ⟨.hbm, 361, rfl⟩
abbrev main_call3_v5 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_cst_59 : Ref sig .tc := ⟨.hbm, 366, rfl⟩
abbrev main_v268 : Ref sig .tc := ⟨.hbm, 367, rfl⟩
abbrev main_v269 : Ref sig .tc := ⟨.hbm, 368, rfl⟩
abbrev main_cst_60 : Ref sig .tc := ⟨.hbm, 369, rfl⟩
abbrev main_v270 : Ref sig .tc := ⟨.hbm, 370, rfl⟩
abbrev main_v271 : Ref sig .tc := ⟨.hbm, 371, rfl⟩
abbrev main_cst_61 : Ref sig .tc := ⟨.hbm, 372, rfl⟩
abbrev main_v272 : Ref sig .tc := ⟨.hbm, 373, rfl⟩
abbrev main_v273 : Ref sig .tc := ⟨.hbm, 374, rfl⟩
abbrev main_cst_62 : Ref sig .tc := ⟨.hbm, 375, rfl⟩
abbrev main_cst_63 : Ref sig .tc := ⟨.hbm, 376, rfl⟩
abbrev main_call4_v0 : Ref sig .tc := ⟨.hbm, 377, rfl⟩
abbrev main_call4_v1 : Ref sig .tc := ⟨.hbm, 378, rfl⟩
abbrev main_call4_v2 : Ref sig .tc := ⟨.hbm, 379, rfl⟩
abbrev main_call4_v3 : Ref sig .tc := ⟨.hbm, 380, rfl⟩
abbrev main_call4_v4 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_c_64 : Ref sig .tc := ⟨.hbm, 393, rfl⟩
abbrev main_v285 : Ref sig .tc := ⟨.hbm, 394, rfl⟩
abbrev main_v286 : Ref sig .tc := ⟨.hbm, 395, rfl⟩
abbrev main_c_65 : Ref sig .tc := ⟨.hbm, 396, rfl⟩
abbrev main_v287 : Ref sig .tc := ⟨.hbm, 397, rfl⟩
abbrev main_v288 : Ref sig .tc := ⟨.hbm, 398, rfl⟩
abbrev main_c_66 : Ref sig .tc := ⟨.hbm, 399, rfl⟩
abbrev main_v289 : Ref sig .tc := ⟨.hbm, 400, rfl⟩
abbrev main_v290 : Ref sig .tc := ⟨.hbm, 401, rfl⟩
abbrev main_c_67 : Ref sig .tc := ⟨.hbm, 402, rfl⟩
abbrev main_v291 : Ref sig .tc := ⟨.hbm, 403, rfl⟩
abbrev main_v292 : Ref sig .tc := ⟨.hbm, 404, rfl⟩
abbrev main_c_68 : Ref sig .tc := ⟨.hbm, 405, rfl⟩
abbrev main_v293 : Ref sig .tc := ⟨.hbm, 406, rfl⟩
abbrev main_v294 : Ref sig .tc := ⟨.hbm, 407, rfl⟩
abbrev main_c_69 : Ref sig .tc := ⟨.hbm, 408, rfl⟩
abbrev main_v295 : Ref sig .tc := ⟨.hbm, 409, rfl⟩
abbrev main_v296 : Ref sig .tc := ⟨.hbm, 410, rfl⟩
abbrev main_v297 : Ref sig .tc := ⟨.hbm, 411, rfl⟩
abbrev main_c_70 : Ref sig .tc := ⟨.hbm, 412, rfl⟩
abbrev main_v298 : Ref sig .tc := ⟨.hbm, 413, rfl⟩
abbrev main_v299 : Ref sig .tc := ⟨.hbm, 414, rfl⟩
abbrev main_c_71 : Ref sig .tc := ⟨.hbm, 415, rfl⟩
abbrev main_v300 : Ref sig .tc := ⟨.hbm, 416, rfl⟩
abbrev main_v301 : Ref sig .tc := ⟨.hbm, 417, rfl⟩
abbrev main_v302 : Ref sig .tc := ⟨.hbm, 418, rfl⟩
abbrev main_v303 : Ref sig .tc := ⟨.hbm, 419, rfl⟩
abbrev main_v304 : Ref sig .tc := ⟨.hbm, 420, rfl⟩
abbrev main_v305 : Ref sig .tc := ⟨.hbm, 421, rfl⟩
abbrev main_v306 : Ref sig .tc := ⟨.hbm, 422, rfl⟩
abbrev main_c_72 : Ref sig .tc := ⟨.hbm, 423, rfl⟩
abbrev main_v307 : Ref sig .tc := ⟨.hbm, 424, rfl⟩
abbrev main_v308 : Ref sig .tc := ⟨.hbm, 425, rfl⟩
abbrev main_c_73 : Ref sig .tc := ⟨.hbm, 426, rfl⟩
abbrev main_v309 : Ref sig .tc := ⟨.hbm, 427, rfl⟩
abbrev main_v310 : Ref sig .tc := ⟨.hbm, 428, rfl⟩
abbrev main_v311 : Ref sig .tc := ⟨.hbm, 429, rfl⟩
abbrev main_c_74 : Ref sig .tc := ⟨.hbm, 430, rfl⟩
abbrev main_v312 : Ref sig .tc := ⟨.hbm, 431, rfl⟩
abbrev main_v313 : Ref sig .tc := ⟨.hbm, 432, rfl⟩
abbrev main_c_75 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_c_76 : Ref sig .tc := ⟨.hbm, 441, rfl⟩
abbrev main_v321 : Ref sig .tc := ⟨.hbm, 442, rfl⟩
abbrev main_v322 : Ref sig .tc := ⟨.hbm, 443, rfl⟩
abbrev main_c_77 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_c_78 : Ref sig .tc := ⟨.hbm, 448, rfl⟩
abbrev main_v326 : Ref sig .tc := ⟨.hbm, 449, rfl⟩
abbrev main_v327 : Ref sig .tc := ⟨.hbm, 450, rfl⟩
abbrev main_c_79 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_c_80 : Ref sig .tc := ⟨.hbm, 459, rfl⟩
abbrev main_v335 : Ref sig .tc := ⟨.hbm, 460, rfl⟩
abbrev main_v336 : Ref sig .tc := ⟨.hbm, 461, rfl⟩
abbrev main_c_81 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_c_82 : Ref sig .tc := ⟨.hbm, 466, rfl⟩
abbrev main_v340 : Ref sig .tc := ⟨.hbm, 467, rfl⟩
abbrev main_v341 : Ref sig .tc := ⟨.hbm, 468, rfl⟩
abbrev main_c_83 : Ref sig .tc := ⟨.hbm, 469, rfl⟩
abbrev main_v342 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩
abbrev main_v346 : Ref sig .tc := ⟨.hbm, 474, rfl⟩
abbrev main_v347 : Ref sig .tc := ⟨.hbm, 475, rfl⟩
abbrev main_v348 : Ref sig .tc := ⟨.hbm, 476, rfl⟩
abbrev main_cst_84 : Ref sig .tc := ⟨.hbm, 477, rfl⟩
abbrev main_v349 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩
abbrev main_v355 : Ref sig .tc := ⟨.hbm, 484, rfl⟩
abbrev main_v356 : Ref sig .tc := ⟨.hbm, 485, rfl⟩
abbrev main_v357 : Ref sig .tc := ⟨.hbm, 486, rfl⟩
abbrev main_cst_85 : Ref sig .tc := ⟨.hbm, 487, rfl⟩
abbrev main_v358 : Ref sig .tc := ⟨.hbm, 488, rfl⟩
abbrev main_v359 : Ref sig .tc := ⟨.hbm, 489, rfl⟩
abbrev main_v360 : Ref sig .tc := ⟨.hbm, 490, rfl⟩
abbrev main_v361 : Ref sig .tc := ⟨.hbm, 491, rfl⟩
abbrev main_v362 : Ref sig .tc := ⟨.hbm, 492, rfl⟩
abbrev main_v363 : Ref sig .tc := ⟨.hbm, 493, rfl⟩
abbrev main_v364 : Ref sig .tc := ⟨.hbm, 494, rfl⟩
abbrev main_v365 : Ref sig .tc := ⟨.hbm, 495, rfl⟩
abbrev main_v366 : Ref sig .tc := ⟨.hbm, 496, rfl⟩
abbrev main_cst_86 : Ref sig .tc := ⟨.hbm, 497, rfl⟩
abbrev main_v367 : Ref sig .tc := ⟨.hbm, 498, rfl⟩
abbrev main_v368 : Ref sig .tc := ⟨.hbm, 499, rfl⟩
abbrev main_v369 : Ref sig .tc := ⟨.hbm, 500, rfl⟩
abbrev main_v370 : Ref sig .tc := ⟨.hbm, 501, rfl⟩
abbrev main_v371 : Ref sig .tc := ⟨.hbm, 502, rfl⟩
abbrev main_v372 : Ref sig .tc := ⟨.hbm, 503, rfl⟩
abbrev main_v373 : Ref sig .tc := ⟨.hbm, 504, rfl⟩
abbrev main_v374 : Ref sig .tc := ⟨.hbm, 505, rfl⟩
abbrev main_v375 : Ref sig .tc := ⟨.hbm, 506, rfl⟩
abbrev main_v376 : Ref sig .tc := ⟨.hbm, 507, rfl⟩
abbrev main_v377 : Ref sig .tc := ⟨.hbm, 508, rfl⟩
abbrev main_v378 : Ref sig .tc := ⟨.hbm, 509, rfl⟩
abbrev main_cst_87 : Ref sig .tc := ⟨.hbm, 510, rfl⟩
abbrev main_v379 : Ref sig .tc := ⟨.hbm, 511, rfl⟩
abbrev main_v380 : Ref sig .tc := ⟨.hbm, 512, rfl⟩
abbrev main_cst_88 : Ref sig .tc := ⟨.hbm, 513, rfl⟩
abbrev main_v381 : Ref sig .tc := ⟨.hbm, 514, rfl⟩
abbrev main_v382 : Ref sig .tc := ⟨.hbm, 515, rfl⟩
abbrev main_cst_89 : Ref sig .tc := ⟨.hbm, 516, rfl⟩
abbrev main_v383 : Ref sig .tc := ⟨.hbm, 517, rfl⟩
abbrev main_v384 : Ref sig .tc := ⟨.hbm, 518, rfl⟩
abbrev main_cst_90 : Ref sig .tc := ⟨.hbm, 519, rfl⟩
abbrev main_cst_91 : Ref sig .tc := ⟨.hbm, 520, rfl⟩
abbrev main_call5_v0 : Ref sig .tc := ⟨.hbm, 521, rfl⟩
abbrev main_call5_v1 : Ref sig .tc := ⟨.hbm, 522, rfl⟩
abbrev main_call5_v2 : Ref sig .tc := ⟨.hbm, 523, rfl⟩
abbrev main_call5_v3 : Ref sig .tc := ⟨.hbm, 524, rfl⟩
abbrev main_call5_v4 : Ref sig .tc := ⟨.hbm, 525, rfl⟩
abbrev main_v385 : Ref sig .tc := ⟨.hbm, 526, rfl⟩
abbrev main_v386 : Ref sig .tc := ⟨.hbm, 527, rfl⟩
abbrev main_v387 : Ref sig .tc := ⟨.hbm, 528, rfl⟩
abbrev main_v388 : Ref sig .tc := ⟨.hbm, 529, rfl⟩
abbrev main_v389 : Ref sig .tc := ⟨.hbm, 530, rfl⟩
abbrev main_v390 : Ref sig .tc := ⟨.hbm, 531, rfl⟩
abbrev main_v391 : Ref sig .tc := ⟨.hbm, 532, rfl⟩
abbrev main_v392 : Ref sig .tc := ⟨.hbm, 533, rfl⟩
abbrev main_v393 : Ref sig .tc := ⟨.hbm, 534, rfl⟩
abbrev main_v394 : Ref sig .tc := ⟨.hbm, 535, rfl⟩
abbrev main_v395 : Ref sig .tc := ⟨.hbm, 536, rfl⟩
abbrev main_c_92 : Ref sig .tc := ⟨.hbm, 537, rfl⟩
abbrev main_v396 : Ref sig .tc := ⟨.hbm, 538, rfl⟩
abbrev main_v397 : Ref sig .tc := ⟨.hbm, 539, rfl⟩
abbrev main_c_93 : Ref sig .tc := ⟨.hbm, 540, rfl⟩
abbrev main_v398 : Ref sig .tc := ⟨.hbm, 541, rfl⟩
abbrev main_v399 : Ref sig .tc := ⟨.hbm, 542, rfl⟩
abbrev main_c_94 : Ref sig .tc := ⟨.hbm, 543, rfl⟩
abbrev main_v400 : Ref sig .tc := ⟨.hbm, 544, rfl⟩
abbrev main_v401 : Ref sig .tc := ⟨.hbm, 545, rfl⟩
abbrev main_c_95 : Ref sig .tc := ⟨.hbm, 546, rfl⟩
abbrev main_v402 : Ref sig .tc := ⟨.hbm, 547, rfl⟩
abbrev main_v403 : Ref sig .tc := ⟨.hbm, 548, rfl⟩
abbrev main_c_96 : Ref sig .tc := ⟨.hbm, 549, rfl⟩
abbrev main_v404 : Ref sig .tc := ⟨.hbm, 550, rfl⟩
abbrev main_v405 : Ref sig .tc := ⟨.hbm, 551, rfl⟩
abbrev main_c_97 : Ref sig .tc := ⟨.hbm, 552, rfl⟩
abbrev main_v406 : Ref sig .tc := ⟨.hbm, 553, rfl⟩
abbrev main_v407 : Ref sig .tc := ⟨.hbm, 554, rfl⟩
abbrev main_v408 : Ref sig .tc := ⟨.hbm, 555, rfl⟩
abbrev main_c_98 : Ref sig .tc := ⟨.hbm, 556, rfl⟩
abbrev main_v409 : Ref sig .tc := ⟨.hbm, 557, rfl⟩
abbrev main_v410 : Ref sig .tc := ⟨.hbm, 558, rfl⟩
abbrev main_c_99 : Ref sig .tc := ⟨.hbm, 559, rfl⟩
abbrev main_v411 : Ref sig .tc := ⟨.hbm, 560, rfl⟩
abbrev main_v412 : Ref sig .tc := ⟨.hbm, 561, rfl⟩
abbrev main_v413 : Ref sig .tc := ⟨.hbm, 562, rfl⟩
abbrev main_v414 : Ref sig .tc := ⟨.hbm, 563, rfl⟩
abbrev main_v415 : Ref sig .tc := ⟨.hbm, 564, rfl⟩
abbrev main_v416 : Ref sig .tc := ⟨.hbm, 565, rfl⟩
abbrev main_v417 : Ref sig .tc := ⟨.hbm, 566, rfl⟩
abbrev main_c_100 : Ref sig .tc := ⟨.hbm, 567, rfl⟩
abbrev main_v418 : Ref sig .tc := ⟨.hbm, 568, rfl⟩
abbrev main_v419 : Ref sig .tc := ⟨.hbm, 569, rfl⟩
abbrev main_c_101 : Ref sig .tc := ⟨.hbm, 570, rfl⟩
abbrev main_v420 : Ref sig .tc := ⟨.hbm, 571, rfl⟩
abbrev main_v421 : Ref sig .tc := ⟨.hbm, 572, rfl⟩
abbrev main_v422 : Ref sig .tc := ⟨.hbm, 573, rfl⟩
abbrev main_c_102 : Ref sig .tc := ⟨.hbm, 574, rfl⟩
abbrev main_v423 : Ref sig .tc := ⟨.hbm, 575, rfl⟩
abbrev main_v424 : Ref sig .tc := ⟨.hbm, 576, rfl⟩
abbrev main_c_103 : Ref sig .tc := ⟨.hbm, 577, rfl⟩
abbrev main_v425 : Ref sig .tc := ⟨.hbm, 578, rfl⟩
abbrev main_v426 : Ref sig .tc := ⟨.hbm, 579, rfl⟩
abbrev main_v427 : Ref sig .tc := ⟨.hbm, 580, rfl⟩
abbrev main_v428 : Ref sig .tc := ⟨.hbm, 581, rfl⟩
abbrev main_v429 : Ref sig .tc := ⟨.hbm, 582, rfl⟩
abbrev main_v430 : Ref sig .tc := ⟨.hbm, 583, rfl⟩
abbrev main_v431 : Ref sig .tc := ⟨.hbm, 584, rfl⟩
abbrev main_c_104 : Ref sig .tc := ⟨.hbm, 585, rfl⟩
abbrev main_v432 : Ref sig .tc := ⟨.hbm, 586, rfl⟩
abbrev main_v433 : Ref sig .tc := ⟨.hbm, 587, rfl⟩
abbrev main_c_105 : Ref sig .tc := ⟨.hbm, 588, rfl⟩
abbrev main_v434 : Ref sig .tc := ⟨.hbm, 589, rfl⟩
abbrev main_v435 : Ref sig .tc := ⟨.hbm, 590, rfl⟩
abbrev main_v436 : Ref sig .tc := ⟨.hbm, 591, rfl⟩
abbrev main_c_106 : Ref sig .tc := ⟨.hbm, 592, rfl⟩
abbrev main_v437 : Ref sig .tc := ⟨.hbm, 593, rfl⟩
abbrev main_v438 : Ref sig .tc := ⟨.hbm, 594, rfl⟩
abbrev main_c_107 : Ref sig .tc := ⟨.hbm, 595, rfl⟩
abbrev main_v439 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_v443 : Ref sig .tc := ⟨.hbm, 600, rfl⟩
abbrev main_v444 : Ref sig .tc := ⟨.hbm, 601, rfl⟩
abbrev main_v445 : Ref sig .tc := ⟨.hbm, 602, rfl⟩
abbrev main_c_108 : Ref sig .tc := ⟨.hbm, 603, rfl⟩
abbrev main_v446 : Ref sig .tc := ⟨.hbm, 604, rfl⟩
abbrev main_v447 : Ref sig .tc := ⟨.hbm, 605, rfl⟩
abbrev main_c_109 : Ref sig .tc := ⟨.hbm, 606, rfl⟩
abbrev main_v448 : Ref sig .tc := ⟨.hbm, 607, rfl⟩
abbrev main_v449 : Ref sig .tc := ⟨.hbm, 608, rfl⟩
abbrev main_v450 : Ref sig .tc := ⟨.hbm, 609, rfl⟩
abbrev main_c_110 : Ref sig .tc := ⟨.hbm, 610, rfl⟩
abbrev main_v451 : Ref sig .tc := ⟨.hbm, 611, rfl⟩
abbrev main_v452 : Ref sig .tc := ⟨.hbm, 612, rfl⟩
abbrev main_c_111 : Ref sig .tc := ⟨.hbm, 613, rfl⟩
abbrev main_v453 : Ref sig .tc := ⟨.hbm, 614, rfl⟩
abbrev main_v454 : Ref sig .tc := ⟨.hbm, 615, rfl⟩
abbrev main_v455 : Ref sig .tc := ⟨.hbm, 616, rfl⟩
abbrev main_v456 : Ref sig .tc := ⟨.hbm, 617, rfl⟩
abbrev main_v457 : Ref sig .tc := ⟨.hbm, 618, rfl⟩
abbrev main_v458 : Ref sig .tc := ⟨.hbm, 619, rfl⟩
abbrev main_v459 : Ref sig .tc := ⟨.hbm, 620, rfl⟩
abbrev main_cst_112 : Ref sig .tc := ⟨.hbm, 621, rfl⟩
abbrev main_v460 : Ref sig .tc := ⟨.hbm, 622, rfl⟩
abbrev main_v461 : Ref sig .tc := ⟨.hbm, 623, rfl⟩
abbrev main_v462 : Ref sig .tc := ⟨.hbm, 624, rfl⟩
abbrev main_v463 : Ref sig .tc := ⟨.hbm, 625, rfl⟩
abbrev main_v464 : Ref sig .tc := ⟨.hbm, 626, rfl⟩
abbrev main_v465 : Ref sig .tc := ⟨.hbm, 627, rfl⟩
abbrev main_v466 : Ref sig .tc := ⟨.hbm, 628, rfl⟩
abbrev main_v467 : Ref sig .tc := ⟨.hbm, 629, rfl⟩
abbrev main_v468 : Ref sig .tc := ⟨.hbm, 630, rfl⟩
abbrev main_cst_113 : Ref sig .tc := ⟨.hbm, 631, rfl⟩
abbrev main_v469 : Ref sig .tc := ⟨.hbm, 632, rfl⟩
abbrev main_v470 : Ref sig .tc := ⟨.hbm, 633, rfl⟩
abbrev main_v471 : Ref sig .tc := ⟨.hbm, 634, rfl⟩
abbrev main_v472 : Ref sig .tc := ⟨.hbm, 635, rfl⟩
abbrev main_v473 : Ref sig .tc := ⟨.hbm, 636, rfl⟩
abbrev main_v474 : Ref sig .tc := ⟨.hbm, 637, rfl⟩
abbrev main_v475 : Ref sig .tc := ⟨.hbm, 638, rfl⟩
abbrev main_v476 : Ref sig .tc := ⟨.hbm, 639, rfl⟩
abbrev main_v477 : Ref sig .tc := ⟨.hbm, 640, rfl⟩
abbrev main_cst_114 : Ref sig .tc := ⟨.hbm, 641, rfl⟩
abbrev main_v478 : Ref sig .tc := ⟨.hbm, 642, rfl⟩
abbrev main_v479 : Ref sig .tc := ⟨.hbm, 643, rfl⟩
abbrev main_v480 : Ref sig .tc := ⟨.hbm, 644, rfl⟩
abbrev main_v481 : Ref sig .tc := ⟨.hbm, 645, rfl⟩
abbrev main_v482 : Ref sig .tc := ⟨.hbm, 646, rfl⟩
abbrev main_v483 : Ref sig .tc := ⟨.hbm, 647, rfl⟩
abbrev main_v484 : Ref sig .tc := ⟨.hbm, 648, rfl⟩
abbrev main_v485 : Ref sig .tc := ⟨.hbm, 649, rfl⟩
abbrev main_v486 : Ref sig .tc := ⟨.hbm, 650, rfl⟩
abbrev main_v487 : Ref sig .tc := ⟨.hbm, 651, rfl⟩
abbrev main_v488 : Ref sig .tc := ⟨.hbm, 652, rfl⟩
abbrev main_v489 : Ref sig .tc := ⟨.hbm, 653, rfl⟩
abbrev main_v490 : Ref sig .tc := ⟨.hbm, 654, rfl⟩
abbrev main_v491 : Ref sig .tc := ⟨.hbm, 655, rfl⟩
abbrev main_cst_115 : Ref sig .tc := ⟨.hbm, 656, rfl⟩
abbrev main_v492 : Ref sig .tc := ⟨.hbm, 657, rfl⟩
abbrev main_v493 : Ref sig .tc := ⟨.hbm, 658, rfl⟩
abbrev main_cst_116 : Ref sig .tc := ⟨.hbm, 659, rfl⟩
abbrev main_v494 : Ref sig .tc := ⟨.hbm, 660, rfl⟩
abbrev main_v495 : Ref sig .tc := ⟨.hbm, 661, rfl⟩
abbrev main_v496 : Ref sig .tc := ⟨.hbm, 662, rfl⟩
abbrev main_v497 : Ref sig .tc := ⟨.hbm, 663, rfl⟩
abbrev main_v498 : Ref sig .tc := ⟨.hbm, 664, rfl⟩
abbrev main_cst_117 : Ref sig .tc := ⟨.hbm, 665, rfl⟩
abbrev main_v499 : Ref sig .tc := ⟨.hbm, 666, rfl⟩
abbrev main_v500 : Ref sig .tc := ⟨.hbm, 667, rfl⟩
abbrev main_cst_118 : Ref sig .tc := ⟨.hbm, 668, rfl⟩
abbrev main_v501 : Ref sig .tc := ⟨.hbm, 669, rfl⟩
abbrev main_v502 : Ref sig .tc := ⟨.hbm, 670, rfl⟩
abbrev main_v503 : Ref sig .tc := ⟨.hbm, 671, rfl⟩
abbrev main_v504 : Ref sig .tc := ⟨.hbm, 672, rfl⟩
abbrev main_cst_119 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_v511 : Ref sig .tc := ⟨.hbm, 680, rfl⟩
abbrev main_v512 : Ref sig .tc := ⟨.hbm, 681, rfl⟩
abbrev main_v513 : Ref sig .tc := ⟨.hbm, 682, rfl⟩
abbrev main_v514 : Ref sig .tc := ⟨.hbm, 683, rfl⟩
abbrev main_v515 : Ref sig .tc := ⟨.hbm, 684, rfl⟩
abbrev main_v516 : Ref sig .tc := ⟨.hbm, 685, rfl⟩
abbrev main_v517 : Ref sig .tc := ⟨.hbm, 686, rfl⟩
abbrev main_v518 : Ref sig .tc := ⟨.hbm, 687, rfl⟩
abbrev main_v519 : Ref sig .tc := ⟨.hbm, 688, rfl⟩
abbrev main_v520 : Ref sig .tc := ⟨.hbm, 689, rfl⟩
abbrev main_v521 : Ref sig .tc := ⟨.hbm, 690, rfl⟩
abbrev main_v522 : Ref sig .tc := ⟨.hbm, 691, rfl⟩

abbrev nD : Nat := 1
abbrev τ : Topo := Topo.v7x

variable {F : FTy → Type} [FloatOps F]

class Facts₀ : Prop where
  transposes_S6x2_S2x6_1_0 : S6x2.Transposes [1, 0] S2x6
  bcast_S6_S1x6_1 : S6.BroadcastsInDim S1x6 (![1] : Fin 1 → Fin S1x6.rank)
  bcast_S1x6_S2097152x6_0_1 : S1x6.BroadcastsInDim S2097152x6 (![0, 1] : Fin 2 → Fin S2097152x6.rank)
  bcast_S_S2097152x6 : S_.BroadcastsInDim S2097152x6 (![] : Fin 0 → Fin S2097152x6.rank)
  slices_S2x6x16x16_S1x6x16x16_0_0_0_0 : S2x6x16x16.Slices ![0, 0, 0, 0] S1x6x16x16
  shapeCasts_S1x6x16x16_S6x16x16 : S1x6x16x16.ShapeCasts S6x16x16
  bcast_S_S2097152x2 : S_.BroadcastsInDim S2097152x2 (![] : Fin 0 → Fin S2097152x2.rank)
  slices_S2097152x2_S2097152x1_0_0 : S2097152x2.Slices ![0, 0] S2097152x1
  shapeCasts_S2097152x1_S2097152 : S2097152x1.ShapeCasts S2097152
  slices_S2097152x2_S2097152x1_0_1 : S2097152x2.Slices ![0, 1] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S2097152_S1x2097152_1 : S2097152.BroadcastsInDim S1x2097152 (![1] : Fin 1 → Fin S1x2097152.rank)
  bcast_S1x2097152_S6x2097152_0_1 : S1x2097152.BroadcastsInDim S6x2097152 (![0, 1] : Fin 2 → Fin S6x2097152.rank)
  transposes_S6x2097152_S2097152x6_1_0 : S6x2097152.Transposes [1, 0] S2097152x6
  slices_S2x6_S1x6_0_0 : S2x6.Slices ![0, 0] S1x6
  shapeCasts_S1x6_S6 : S1x6.ShapeCasts S6
  reducesTo_S2097152x6_S2097152_d1 : S2097152x6.ReducesTo [1] S2097152
  h_S_ : 0 < S_.numel
  bcast_S_S2097152x1 : S_.BroadcastsInDim S2097152x1 (![] : Fin 0 → Fin S2097152x1.rank)
  bcast_S2097152x1_S2097152x6_0_1 : S2097152x1.BroadcastsInDim S2097152x6 (![0, 1] : Fin 2 → Fin S2097152x6.rank)
  shapeCasts_S1x6x6_S6x6 : S1x6x6.ShapeCasts S6x6
  transposes_S6x6_S6x6_1_0 : S6x6.Transposes [1, 0] S6x6
  slices_S2x6x16x16_S1x6x16x16_1_0_0_0 : S2x6x16x16.Slices ![1, 0, 0, 0] S1x6x16x16
  slices_S2x6_S1x6_1_0 : S2x6.Slices ![1, 0] S1x6
  transposes_S3x6_S6x3_1_0 : S3x6.Transposes [1, 0] S6x3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  dot_S2097152x2_S2x6_S2097152x6_1_0_0_1_n_n_wf : DotDims.WF S2097152x2 S2x6 S2097152x6 [1] [0] [0] [1] [] []
  gather_S6x16x16_S2097152x2_S6x2097152_0_12_n_n_12_1_611_wf : GatherDims.WF S6x16x16 S2097152x2 S6x2097152 [0] [1, 2] [] [1, 2] [] 1 ![6, 1, 1]
  dot_S2097152x6_S6x6_S2097152x6_1_0_0_1_n_n_wf : DotDims.WF S2097152x6 S6x6 S2097152x6 [1] [0] [0] [1] [] []
  dot_S2097152x6_S6x3_S2097152x3_1_0_0_1_n_n_wf : DotDims.WF S2097152x6 S6x3 S2097152x3 [1] [0] [0] [1] [] []

variable [Facts₀]

def dot_S2097152x2_S2x6_S2097152x6_1_0_0_1_n_n : DotDims S2097152x2 S2x6 S2097152x6 where
  lhsContracting := [1]
  rhsContracting := [0]
  lhsNonContracting := [0]
  rhsNonContracting := [1]
  lhsBatch := []
  rhsBatch := []
  wf := dot_S2097152x2_S2x6_S2097152x6_1_0_0_1_n_n_wf
def gather_S6x16x16_S2097152x2_S6x2097152_0_12_n_n_12_1_611 : GatherDims S6x16x16 S2097152x2 S6x2097152 where
  offsetDims := [0]
  collapsedSliceDims := [1, 2]
  operandBatchingDims := []
  startIndicesBatchingDims := []
  startIndexMap := [1, 2]
  indexVectorDim := 1
  sliceSizes := ![6, 1, 1]
  wf := gather_S6x16x16_S2097152x2_S6x2097152_0_12_n_n_12_1_611_wf
def dot_S2097152x6_S6x6_S2097152x6_1_0_0_1_n_n : DotDims S2097152x6 S6x6 S2097152x6 where
  lhsContracting := [1]
  rhsContracting := [0]
  lhsNonContracting := [0]
  rhsNonContracting := [1]
  lhsBatch := []
  rhsBatch := []
  wf := dot_S2097152x6_S6x6_S2097152x6_1_0_0_1_n_n_wf
def dot_S2097152x6_S6x3_S2097152x3_1_0_0_1_n_n : DotDims S2097152x6 S6x3 S2097152x3 where
  lhsContracting := [1]
  rhsContracting := [0]
  lhsNonContracting := [0]
  rhsNonContracting := [1]
  lhsBatch := []
  rhsBatch := []
  wf := dot_S2097152x6_S6x3_S2097152x3_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev k1 : EReal := Ideal.ofBits .f32 0x3F800000#32
abbrev k7h : EReal := Ideal.ofBits .f32 0x40F00000#32
abbrev k0 : EReal := Ideal.ofBits .f32 0x00000000#32
abbrev k15 : EReal := Ideal.ofBits .f32 0x41700000#32
abbrev khalf : EReal := Ideal.ofBits .f32 0x3F000000#32
abbrev k6 : EReal := Ideal.ofBits .f32 0x40C00000#32
abbrev keps : EReal := Ideal.ofBits .f32 0x3727C5AC#32

/-- The grid coordinate of `u`: `(u + 1) · 7.5` clamped to `[0, 15]`. -/
def coordK (u : EReal) : EReal := min k15 (max k0 ((u + k1) * k7h))

/-- The same coordinate with the scale written `0.5 · 15`. -/
def coordR (u : EReal) : EReal := min k15 (max k0 ((u + k1) * khalf * k15))

def flo (c : EReal) : EReal := Ideal.liftRound Int.floor c

def fr (c : EReal) : EReal := c - flo c

def lo (c : EReal) : BitVec 32 := Ideal.fptosi 32 (flo c)

def hi (c : EReal) : BitVec 32 := IntOp.minsi (IntOp.addi (lo c) 1#32) 15#32

def hot (r : Fin 16) (b : BitVec 32) : EReal :=
  ((((IntOp.cmpi .eq (BitVec.ofNat 32 r.val) b).setWidth 32).toInt : ℝ) : EReal)

/-- Interpolation weights of `c` over the 16 grid positions: `1 − frac c` at `⌊c⌋`, `frac c` at `min (⌊c⌋ + 1) 15`. -/
def wgt (c : EReal) (r : Fin 16) : EReal := hot r (lo c) * (k1 - fr c) + hot r (hi c) * fr c

/-- Bilinear sampling as the double contraction of the table with the two weight vectors. -/
def bilinK (T : Fin 16 → Fin 16 → EReal) (cx cy : EReal) : EReal :=
  ∑ y : Fin 16, (∑ x : Fin 16, wgt cx x * T y x) * wgt cy y

def wrap (b : BitVec 32) : BitVec 32 := Scalar.select (IntOp.cmpi .slt b 0#32) (IntOp.addi b 16#32) b

def sel (b : BitVec 32) : Fin 16 := ⟨min (wrap b).toInt.toNat 15, by omega⟩

/-- Bilinear sampling as the blend of the four corner entries. -/
def bilinR (T : Fin 16 → Fin 16 → EReal) (cx cy : EReal) : EReal :=
  (T (sel (lo cy)) (sel (lo cx)) * (k1 - fr cx) + T (sel (lo cy)) (sel (hi cx)) * fr cx) * (k1 - fr cy)
    + (T (sel (hi cy)) (sel (lo cx)) * (k1 - fr cx) + T (sel (hi cy)) (sel (hi cx)) * fr cx) * fr cy

def silu (z : EReal) : EReal := z * Ideal.logistic z

def siluR (z : EReal) : EReal := z * Ideal.div k1 (k1 + Ideal.exp (-z))

def dense {K N : ℕ} (h : Fin K → EReal) (W : Fin N → Fin K → EReal) (b : Fin N → EReal) (j : Fin N) : EReal :=
  (∑ k : Fin K, h k * W j k) + b j

def mean6 (h : Fin 6 → EReal) : EReal := Ideal.div (∑ k : Fin 6, h k) k6

/-- Layer normalisation of a row of six, with scale `w` and shift `b`. -/
def lnorm (h w b : Fin 6 → EReal) (j : Fin 6) : EReal :=
  (h j - mean6 h) * Ideal.rsqrt (mean6 (fun k => (h k - mean6 h) * (h k - mean6 h)) + keps) * w j + b j

structure Params where
  gam : Fin 2 → Fin 6 → Fin 16 → Fin 16 → EReal
  bet : Fin 2 → Fin 6 → Fin 16 → Fin 16 → EReal
  win : Fin 6 → Fin 2 → EReal
  bin : Fin 6 → EReal
  wh : Fin 6 → Fin 6 → EReal
  bh : Fin 6 → EReal
  wout : Fin 3 → Fin 6 → EReal
  bout : Fin 3 → EReal
  lnw : Fin 2 → Fin 6 → EReal
  lnb : Fin 2 → Fin 6 → EReal

def modulate (smp : (Fin 16 → Fin 16 → EReal) → EReal) (P : Params) (i : Fin 2) (h : Fin 6 → EReal) (c : Fin 6) : EReal :=
  smp (P.gam i c) * lnorm h (P.lnw i) (P.lnb i) c + smp (P.bet i c)

/-- A point's three outputs: input layer, two modulations with a dense layer between, output layer. -/
def row (act : EReal → EReal) (smp : (Fin 16 → Fin 16 → EReal) → EReal) (P : Params) (xy : Fin 2 → EReal) (o : Fin 3) : EReal :=
  dense (modulate smp P 1 (fun j => act (dense (modulate smp P 0 (fun j => act (dense xy P.win P.bin j))) P.wh P.bh j)))
    P.wout P.bout o

def rowK (P : Params) (xy : Fin 2 → EReal) (o : Fin 3) : EReal :=
  row silu (fun T => bilinK T (coordK (xy 0)) (coordK (xy 1))) P xy o

def rowR (P : Params) (xy : Fin 2 → EReal) (o : Fin 3) : EReal :=
  row siluR (fun T => bilinR T (coordR (xy 0)) (coordR (xy 1))) P xy o

end Cert.Spec

end
-- ==== Proof.Algebra.lean ====
import proofs.«124617_j17678085390376_1_alg».proof.Proof.Spec
import Mathlib.Algebra.Order.Archimedean.Real.Basic
import Mathlib.Data.EReal.Operations

noncomputable section

namespace Cert.Spec

open Idealize.ShloMosaic

theorem k1_eq : k1 = 1 := by
  simp [Ideal.ofBits, Ideal.ieee, -EReal.coe_mul]; norm_num
theorem k0_eq : k0 = 0 := by
  simp [Ideal.ofBits, Ideal.ieee]
theorem k7h_eq : k7h = ((15 / 2 : ℝ) : EReal) := by
  simp [Ideal.ofBits, Ideal.ieee, -EReal.coe_mul]; norm_num
theorem k15_eq : k15 = ((15 : ℝ) : EReal) := by
  simp [Ideal.ofBits, Ideal.ieee, -EReal.coe_mul]; norm_num
theorem khalf_eq : khalf = ((1 / 2 : ℝ) : EReal) := by
  simp [Ideal.ofBits, Ideal.ieee, -EReal.coe_mul]; norm_num

/-- `0.5 · 15 = 7.5` exactly, so the two scalings agree. -/
theorem coordR_eq (u : EReal) : coordR u = coordK u := by
  unfold coordR coordK
  rw [mul_assoc, khalf_eq, k15_eq, k7h_eq, ← EReal.coe_mul]
  norm_num

theorem siluR_eq (z : EReal) : siluR z = silu z := by
  unfold siluR silu Ideal.logistic
  rw [k1_eq]

/-- The clamp absorbs `±∞`: the coordinate is a real number in `[0, 15]`. -/
theorem coordK_real (u : EReal) : ∃ r : ℝ, 0 ≤ r ∧ r ≤ 15 ∧ coordK u = (r : EReal) := by
  unfold coordK
  rw [k15_eq, k0_eq, k1_eq, k7h_eq]
  induction u using EReal.rec with
  | bot =>
    refine ⟨0, le_rfl, by norm_num, ?_⟩
    rw [EReal.bot_add, EReal.bot_mul_coe_of_pos (by norm_num), max_eq_left bot_le, min_eq_right]
    · rfl
    · exact_mod_cast (by norm_num : (0 : ℝ) ≤ 15)
  | top =>
    refine ⟨15, by norm_num, le_rfl, ?_⟩
    rw [EReal.top_add_of_ne_bot (by decide), EReal.top_mul_coe_of_pos (by norm_num), max_eq_right le_top,
      min_eq_left le_top]
  | coe x =>
    refine ⟨min 15 (max 0 ((x + 1) * (15 / 2))), le_min (by norm_num) (le_max_left _ _), min_le_left _ _, ?_⟩
    rw [EReal.coe_strictMono.monotone.map_min, EReal.coe_strictMono.monotone.map_max, EReal.coe_mul, EReal.coe_add,
      EReal.coe_one, EReal.coe_zero]

theorem sel_ofNat : ∀ n : Fin 16, sel (BitVec.ofNat 32 n.val) = n := by decide

theorem hi_ofNat : ∀ n : Fin 16, ∃ n' : Fin 16,
    IntOp.minsi (IntOp.addi (BitVec.ofNat 32 n.val) 1#32) 15#32 = BitVec.ofNat 32 n'.val := by decide

theorem cmpi_ofNat : ∀ r n : Fin 16,
    ((IntOp.cmpi .eq (BitVec.ofNat 32 r.val) (BitVec.ofNat 32 n.val)).setWidth 32).toInt = if r = n then 1 else 0 := by
  decide

theorem hot_ofNat (r n : Fin 16) : hot r (BitVec.ofNat 32 n.val) = if r = n then 1 else 0 := by
  unfold hot
  rw [cmpi_ofNat]
  split_ifs <;> simp

/-- The floor of a real in `[0, 15]` is one of the integers `0 … 15`. -/
theorem lo_coe (r : ℝ) (h0 : 0 ≤ r) (h15 : r ≤ 15) : ∃ n : Fin 16, lo (r : EReal) = BitVec.ofNat 32 n.val := by
  have hf0 : 0 ≤ ⌊r⌋ := Int.floor_nonneg.mpr h0
  have hf15 : ⌊r⌋ ≤ 15 := by
    have h : ⌊r⌋ ≤ ⌊(15 : ℝ)⌋ := Int.floor_le_floor h15
    simpa using h
  obtain ⟨m, hm⟩ := Int.eq_ofNat_of_zero_le hf0
  refine ⟨⟨m, by omega⟩, ?_⟩
  unfold lo flo
  rw [Ideal.liftRound_coe, Ideal.fptosi, Ideal.toIntClamped_coe, hm]
  rw [if_pos (by positivity), Int.floor_intCast]
  have h1 : ((2 ^ (32 - 1) : ℕ) : ℤ) = 2147483648 := by norm_num
  rw [h1, min_eq_right (by omega), max_eq_right (by omega), BitVec.ofInt_natCast]

/-- For a clamped coordinate both weights are non-negative and each indicator vector marks one table position. -/
theorem clamped (u : EReal) :
    0 ≤ fr (coordK u) ∧ 0 ≤ k1 - fr (coordK u) ∧
      (∀ q, hot q (lo (coordK u)) = if q = sel (lo (coordK u)) then 1 else 0) ∧
      (∀ q, hot q (hi (coordK u)) = if q = sel (hi (coordK u)) then 1 else 0) := by
  obtain ⟨r, h0, h15, hc⟩ := coordK_real u
  rw [hc]
  obtain ⟨n, hlo⟩ := lo_coe r h0 h15
  obtain ⟨n', hhi⟩ := hi_ofNat n
  have hfr : fr (r : EReal) = ((Int.fract r : ℝ) : EReal) := by
    unfold fr flo
    rw [Ideal.liftRound_coe, ← EReal.coe_sub]
    rfl
  refine ⟨?_, ?_, ?_, ?_⟩
  · rw [hfr]
    exact_mod_cast Int.fract_nonneg r
  · rw [hfr, k1_eq, ← EReal.coe_one, ← EReal.coe_sub]
    exact_mod_cast sub_nonneg.mpr (Int.fract_lt_one r).le
  · intro q
    rw [hlo, sel_ofNat, hot_ofNat]
  · intro q
    unfold hi
    rw [hlo, hhi, sel_ofNat, hot_ofNat]

/-- Non-negative factors distribute over `+` on the extended reals, so a two-hot weight vector picks two entries out of a sum. -/
theorem sum_two_hot (a b : EReal) (ha : 0 ≤ a) (hb : 0 ≤ b) (n n' : Fin 16) (g : Fin 16 → EReal) :
    ∑ x : Fin 16, ((if x = n then 1 else 0) * a + (if x = n' then 1 else 0) * b) * g x = g n * a + g n' * b := by
  have h1 : ∀ x : Fin 16, ((if x = n then (1 : EReal) else 0) * a + (if x = n' then 1 else 0) * b) * g x
      = (if x = n then g x * a else 0) + (if x = n' then g x * b else 0) := by
    intro x
    rw [EReal.right_distrib_of_nonneg]
    · congr 1 <;> split_ifs <;> simp [mul_comm]
    · split_ifs <;> simp [ha]
    · split_ifs <;> simp [hb]
  simp only [h1, Finset.sum_add_distrib, Finset.sum_ite_eq', Finset.mem_univ, if_true]

theorem sum_two_hot' (a b : EReal) (ha : 0 ≤ a) (hb : 0 ≤ b) (n n' : Fin 16) (g : Fin 16 → EReal) :
    ∑ x : Fin 16, g x * ((if x = n then 1 else 0) * a + (if x = n' then 1 else 0) * b) = g n * a + g n' * b := by
  rw [← sum_two_hot a b ha hb n n' g]
  exact Finset.sum_congr rfl fun x _ => mul_comm _ _

/-- Hence the double contraction is the four-corner blend. -/
theorem bilinK_eq_bilinR (T : Fin 16 → Fin 16 → EReal) (ux uy : EReal) :
    bilinK T (coordK ux) (coordK uy) = bilinR T (coordK ux) (coordK uy) := by
  obtain ⟨hx0, hx1, hxlo, hxhi⟩ := clamped ux
  obtain ⟨hy0, hy1, hylo, hyhi⟩ := clamped uy
  unfold bilinK bilinR wgt
  simp only [hxlo, hxhi, hylo, hyhi]
  simp only [sum_two_hot _ _ hx1 hx0]
  rw [sum_two_hot' _ _ hy1 hy0]

/-- The two spellings of a point's outputs agree. -/
theorem rowR_eq_rowK (P : Params) (xy : Fin 2 → EReal) (o : Fin 3) : rowR P xy o = rowK P xy o := by
  unfold rowR rowK
  simp only [coordR_eq]
  have h1 : siluR = silu := funext siluR_eq
  have h2 : (fun T => bilinR T (coordK (xy 0)) (coordK (xy 1))) = fun T => bilinK T (coordK (xy 0)) (coordK (xy 1)) :=
    funext fun T => (bilinK_eq_bilinR T (xy 0) (xy 1)).symm
  rw [h1, h2]

end Cert.Spec

end
-- ==== Proof.GDef.lean ====
import proofs.«124617_j17678085390376_1_alg».proof.Proof.Spec

noncomputable section

namespace Cert.Spec

open Idealize.ShloMosaic Idealize.ShloMosaic.ValueIdx

def paramsA (a1 a2 : (⟨4, ![2, 6, 16, 16]⟩ : Shape).Idx → EReal) (a3 : (⟨2, ![6, 2]⟩ : Shape).Idx → EReal)
    (a4 : (⟨1, ![6]⟩ : Shape).Idx → EReal) (a5 : (⟨3, ![1, 6, 6]⟩ : Shape).Idx → EReal) (a6 : (⟨2, ![1, 6]⟩ : Shape).Idx → EReal)
    (a7 : (⟨2, ![3, 6]⟩ : Shape).Idx → EReal) (a8 : (⟨1, ![3]⟩ : Shape).Idx → EReal)
    (a9 a10 : (⟨2, ![2, 6]⟩ : Shape).Idx → EReal) : Params where
  gam i c y x := a1 (ix4 i c y x)
  bet i c y x := a2 (ix4 i c y x)
  win j k := a3 (ix2 j k)
  bin j := a4 (ix1 j)
  wh j k := a5 (ix3 (0 : Fin 1) j k)
  bh j := a6 (ix2 (0 : Fin 1) j)
  wout o k := a7 (ix2 o k)
  bout o := a8 (ix1 o)
  lnw i k := a9 (ix2 i k)
  lnb i k := a10 (ix2 i k)

/-- The result array: entry `(n, o)` is output `o` of point `n`. -/
def G (a0 : (⟨2, ![2097152, 2]⟩ : Shape).Idx → EReal) (P : Params) : (⟨2, ![2097152, 3]⟩ : Shape).Idx → EReal :=
  fun i => rowK P (fun k => a0 (ix2 (i 0) k)) (i 1)

end Cert.Spec

end
-- ==== Proof.LibDense.lean ====
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

section Plain

variable {M K N : ℕ}

/-- In a rows-by-columns product the left operand is read on the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- … and at the contracted position as its column. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand is read at the contracted position as its row. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- … and on the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The product's contraction re-indexed by the contracted coordinate `k`: `∑ k, lhs (r, k) · rhs (k, j)`. -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into zeros, read at `(r, j)`. -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

end Plain

end Cert.LibDense

end
-- ==== Proof.KDefs.lean ====
import proofs.«124617_j17678085390376_1_alg».proof.Proof.Gen.KernelIdeal.Skeleton
import proofs.«124617_j17678085390376_1_alg».proof.Proof.Spec
import proofs.«124617_j17678085390376_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx Cert.Spec

/-- Column `c · 16 + y` of a flattened table: channel `c`, grid row `y`. -/
def q96 (c : Fin 6) (y : Fin 16) : Fin 96 := ⟨c.val * 16 + y.val, by omega⟩

/-- A table slab contracted with row `p`'s x weights, then with its y weights. -/
def bil (wx wy : FVec Ideal S8192x16 .f32) (s : Vec Ideal S1x16x96 .f32) (p : Fin 8192) (c : Fin 6) : EReal :=
  ∑ y : Fin 16, (∑ x : Fin 16, wx (ix2 p x) * s (ix3 (0 : Fin 1) x (q96 c y))) * wy (ix2 p y)

/-- The parameters as entries of the blocks the kernel reads (tables laid out `[layer, x, c · 16 + y]`). -/
def paramsK (x1 x2 : Vec Ideal S2x16x96 .f32) (x3 : Vec Ideal S6x2 .f32) (x4 : Vec Ideal S6 .f32) (x5 : Vec Ideal S1x6x6 .f32)
    (x6 : Vec Ideal S1x6 .f32) (x7 : Vec Ideal S3x6 .f32) (x8 : Vec Ideal S3 .f32) (x9 x10 : Vec Ideal S2x6 .f32) : Params where
  gam i c y x := x1 (ix3 i x (q96 c y))
  bet i c y x := x2 (ix3 i x (q96 c y))
  win j k := x3 (ix2 j k)
  bin j := x4 (ix1 j)
  wh j k := x5 (ix3 (0 : Fin 1) j k)
  bh j := x6 (ix2 (0 : Fin 1) j)
  wout o k := x7 (ix2 o k)
  bout o := x8 (ix1 o)
  lnw i k := x9 (ix2 i k)
  lnb i k := x10 (ix2 i k)

end Cert.KernelIdeal.KV

end
-- ==== Proof.KWeights.lean ====
import proofs.«124617_j17678085390376_1_alg».proof.Proof.Gen.KernelIdeal.Skeleton
import proofs.«124617_j17678085390376_1_alg».proof.Proof.Spec
import proofs.«124617_j17678085390376_1_alg».proof.Proof.LibDense
import proofs.«124617_j17678085390376_1_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx Cert.Spec

section Column
variable {α : Type}

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem col16_apply (v : S8192.Idx → α) (p : Fin 8192) (r : Fin 16) :
    broadcastTo S8192x16 (shapeCast S8192x1 v shapeCasts_S8192_S8192x1) broadcasts_S8192x1_S8192x16 (ix2 p r) = v (ix1 p) :=
  (broadcastTo_a1_ab_apply _ _ p r).trans (shapeCast_a_a1_apply v _ p 0)

theorem colvec0_apply (v0 : S8192x2.Idx → α) (p : Fin 8192) :
    shapeCast S8192 (extractStridedSlice S8192x1 ![0, 0] v0 slices_S8192x2_o0_0_S8192x1) shapeCasts_S8192x1_S8192 (ix1 p)
      = v0 (ix2 p (0 : Fin 2)) :=
  (shapeCast_a1_a_apply _ _ p).trans (slice2_axis1_apply 0 v0 _ p (0 : Fin 1) (0 : Fin 2) rfl)

theorem colvec1_apply (v0 : S8192x2.Idx → α) (p : Fin 8192) :
    shapeCast S8192 (extractStridedSlice S8192x1 ![0, 1] v0 slices_S8192x2_o0_1_S8192x1) shapeCasts_S8192x1_S8192 (ix1 p)
      = v0 (ix2 p (1 : Fin 2)) :=
  (shapeCast_a1_a_apply _ _ p).trans (slice2_axis1_apply 1 v0 _ p (0 : Fin 1) (1 : Fin 2) rfl)

end Column

/-- The converted comparison `column number = row p's integer` is the indicator `hot`. -/
theorem hot_apply (b : IVec S8192 32) (p : Fin 8192) (r : Fin 16) :
    (sitofp .f32 (extui 32 (cmpi .eq (iota .tc S8192x16 32 [1] iota_S8192x16_d1_w32)
        (broadcastTo S8192x16 (shapeCast S8192x1 b shapeCasts_S8192_S8192x1) broadcasts_S8192x1_S8192x16)) natLt_1_32)
      : FVec Ideal S8192x16 .f32) (ix2 p r) = hot r (b (ix1 p)) := by
  show ((((IntOp.cmpi .eq (iota .tc S8192x16 32 [1] iota_S8192x16_d1_w32 (ix2 p r))
      (broadcastTo S8192x16 (shapeCast S8192x1 b shapeCasts_S8192_S8192x1) broadcasts_S8192x1_S8192x16 (ix2 p r))).setWidth 32).toInt : ℝ) : EReal) = _
  rw [col16_apply, iota_single_apply]
  rfl

theorem pay4_gen (cst : Ideal .f32) (v45 : FVec Ideal S8192 .f32) (p : Fin 8192) (r : Fin 16) :
    k0_pay4 (F := Ideal) cst v45 (ix2 p r) = wgt (min cst (v45 (ix1 p))) r := by
  unfold k0_pay4
  dsimp only []
  rw [addf_apply, mulf_apply, mulf_apply, hot_apply, hot_apply, col16_apply, col16_apply]
  rfl

theorem pay3_apply (v0 : Vec Ideal S8192x2 .f32) (p : Fin 8192) :
    k0_pay3 (F := Ideal) v0 (ix1 p) = max k0 ((v0 (ix2 p (1 : Fin 2)) + k1) * k7h) := by
  unfold k0_pay3
  rw [maximumf_apply, mulf_apply, addf_apply, colvec1_apply]
  rfl

/-- Row `p` of the x weight array is the weight vector of the row's clamped x coordinate. -/
theorem pay2_apply (v0 : Vec Ideal S8192x2 .f32) (p : Fin 8192) (r : Fin 16) :
    k0_pay2 (F := Ideal) v0 (ix2 p r) = wgt (coordK (v0 (ix2 p (0 : Fin 2)))) r := by
  have e : k0_pay2 (F := Ideal) v0
      = k0_pay4 (F := Ideal) (Scalar.ofBits .f32 0x41700000#32)
          (maximumf (broadcast S8192 (Scalar.ofBits (F := Ideal) .f32 0x00000000#32))
            (mulf (addf (shapeCast S8192 (extractStridedSlice S8192x1 ![0, 0] v0 slices_S8192x2_o0_0_S8192x1) shapeCasts_S8192x1_S8192)
                (broadcast S8192 (Scalar.ofBits (F := Ideal) .f32 0x3F800000#32)))
              (broadcast S8192 (Scalar.ofBits (F := Ideal) .f32 0x40F00000#32)))) := rfl
  rw [e, pay4_gen, maximumf_apply, mulf_apply, addf_apply, colvec0_apply]
  rfl

/-- The same for the y coordinate. -/
theorem pay4_apply (v0 : Vec Ideal S8192x2 .f32) (p : Fin 8192) (r : Fin 16) :
    k0_pay4 (F := Ideal) (Scalar.ofBits .f32 0x41700000#32) (k0_pay3 v0) (ix2 p r) = wgt (coordK (v0 (ix2 p (1 : Fin 2)))) r := by
  rw [pay4_gen, pay3_apply]
  rfl

theorem pay1_apply (v268 : Vec Ideal S3 .f32) (v270 : FVec Ideal S8192x3 .f32) (p : Fin 8192) (o : Fin 3) :
    k0_pay1 (F := Ideal) v268 v270 (ix2 p o) = v270 (ix2 p o) + v268 (ix1 o) := by
  unfold k0_pay1
  rw [addf_apply, broadcastTo_1b_ab_apply, shapeCast_a_1a_apply]

theorem dot_in_plain : dot_S8192x2_S2x6_S8192x6_1_0_0_1_n_n = DotDims.plain 8192 2 6 := rfl

theorem logistic_apply {s : Shape} {φ : FTy} (a : FVec Ideal s φ) (i : s.Idx) : logistic a i = Ideal.logistic (a i) := rfl

theorem pre5_apply (v0 : FVec Ideal S8192x2 .f32) (v75 : FVec Ideal S6x2 .f32) (v76 : FVec Ideal S6 .f32) (p : Fin 8192) (j : Fin 6) :
    addf (matmul (φ₁ := .f32) (φ₂ := .f32) dot_S8192x2_S2x6_S8192x6_1_0_0_1_n_n none v0 (transpose S2x6 [1, 0] v75 transposes_S6x2_p1_0_S2x6)
          (constant (F := Ideal) S8192x6 .f32 0x00000000#32))
        (broadcastTo S8192x6 (shapeCast S1x6 v76 shapeCasts_S6_S1x6) broadcasts_S1x6_S8192x6) (ix2 p j)
      = dense (fun k => v0 (ix2 p k)) (fun j k => v75 (ix2 j k)) (fun j => v76 (ix1 j)) j := by
  rw [addf_apply, broadcastTo_1b_ab_apply, shapeCast_a_1a_apply, dot_in_plain]
  show FloatOps.matmul (φ₁ := .f32) (φ₂ := .f32) (DotDims.plain 8192 2 6) none v0 _ (constant ⟨2, ![8192, 6]⟩ .f32 0x00000000#32) (ix2 p j) + _ = _
  rw [Cert.LibDense.matmul_plain_zero_apply]
  unfold dense
  refine congrArg (· + v76 (ix1 j)) (Finset.sum_congr rfl fun k _ => ?_)
  rw [transpose_ix2_apply]

/-- The input layer at row `p`: SiLU of the dense layer of the row's two coordinates. -/
theorem pay5_apply (v0 : Vec Ideal S8192x2 .f32) (v75 : Vec Ideal S6x2 .f32) (v76 : Vec Ideal S6 .f32) (p : Fin 8192) (j : Fin 6) :
    k0_pay5 (F := Ideal) v0 v75 v76 (ix2 p j)
      = silu (dense (fun k => v0 (ix2 p k)) (fun j k => v75 (ix2 j k)) (fun j => v76 (ix1 j)) j) := by
  unfold k0_pay5
  rw [mulf_apply, logistic_apply, pre5_apply]
  rfl

end Cert.KernelIdeal.KV

end
-- ==== Proof.KBilin.lean ====
import proofs.«124617_j17678085390376_1_alg».proof.Proof.Gen.KernelIdeal.Skeleton
import proofs.«124617_j17678085390376_1_alg».proof.Proof.Spec
import proofs.«124617_j17678085390376_1_alg».proof.Proof.LibDense
import proofs.«124617_j17678085390376_1_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx Cert.Spec

theorem dot_eq_plain : dot_S8192x16_S16x96_S8192x96_1_0_0_1_n_n = DotDims.plain 8192 16 96 := rfl

/-- A slab contracted with the x weights: entry `(p, q)` is `∑ x, wx (p, x) · s (x, q)`. -/
theorem slab_apply (wx : FVec Ideal S8192x16 .f32) (s : Vec Ideal S1x16x96 .f32) (p : Fin 8192) (q : Fin 96) :
    matmul (F := Ideal) dot_S8192x16_S16x96_S8192x96_1_0_0_1_n_n none wx (shapeCast S16x96 s shapeCasts_S1x16x96_S16x96 : FVec Ideal S16x96 .f32)
        (constant S8192x96 .f32 0x00000000#32) (ix2 p q)
      = ∑ x : Fin 16, wx (ix2 p x) * s (ix3 (0 : Fin 1) x q) := by
  rw [dot_eq_plain]
  refine (Cert.LibDense.matmul_plain_zero_apply none wx _ p q).trans ?_
  refine Finset.sum_congr rfl fun x _ => ?_
  rw [shapeCast_1ab_ab_apply]

theorem rowsum_apply (v : FVec Ideal S8192x16 .f32) (p : Fin 8192) :
    multiReduction (F := Ideal) .add [1] S8192 v 0x00000000#32 reduces_S8192x16_S8192 (.inl rfl) rfl (ix1 p)
      = ∑ y : Fin 16, v (ix2 p y) := by
  refine (Ideal.multiReduction_add_single v _ reduces_S8192x16_S8192 _ _ (ix1 p)).trans ?_
  show ∑ y : Fin 16, v (reduces_S8192x16_S8192.lift (ix1 p) y) = _
  refine Finset.sum_congr rfl fun y _ => ?_
  congr 1
  funext a
  match a with
  | ⟨0, _⟩ => exact Fin.ext rfl
  | ⟨1, _⟩ => exact Fin.ext rfl

/-- Channel `c`'s sample: its 16 columns of the contracted slab times the y weights, summed along the row. -/
theorem col_apply (M : FVec Ideal S8192x96 .f32) (wy : FVec Ideal S8192x16 .f32) (o : Nat)
    (h : S8192x96.Slices ![0, o] S8192x16) (c : Fin 6) (ho : o = c.val * 16) (p : Fin 8192) :
    multiReduction (F := Ideal) .add [1] S8192 (mulf (extractStridedSlice S8192x16 ![0, o] M h) wy) 0x00000000#32
        reduces_S8192x16_S8192 (.inl rfl) rfl (ix1 p)
      = ∑ y : Fin 16, M (ix2 p (q96 c y)) * wy (ix2 p y) := by
  rw [rowsum_apply]
  refine Finset.sum_congr rfl fun y _ => ?_
  show extractStridedSlice S8192x16 ![0, o] M h (ix2 p y) * wy (ix2 p y) = _
  rw [slice2_axis1_apply o M h p y (q96 c y) (by show c.val * 16 + y.val = o + y.val; omega)]

theorem cast_col_apply (v : FVec Ideal S8192 .f32) (p : Fin 8192) :
    shapeCast S8192x1 v shapeCasts_S8192_S8192x1 (ix2 p (0 : Fin 1)) = v (ix1 p) :=
  shapeCast_apply v _ _ _ (by
    rw [Shape.rowMajor_val_one, Shape.rowMajor_val_two]
    show p.val = p.val * 1 + 0
    omega)

theorem colM_apply (M : FVec Ideal S8192x96 .f32) (wy : FVec Ideal S8192x16 .f32) (o : Nat)
    (h : S8192x96.Slices ![0, o] S8192x16) (c : Fin 6) (ho : o = c.val * 16) (p : Fin 8192) :
    shapeCast S8192x1 (multiReduction (F := Ideal) .add [1] S8192 (mulf (extractStridedSlice S8192x16 ![0, o] M h) wy)
        0x00000000#32 reduces_S8192x16_S8192 (.inl rfl) rfl) shapeCasts_S8192_S8192x1 (ix2 p (0 : Fin 1))
      = ∑ y : Fin 16, M (ix2 p (q96 c y)) * wy (ix2 p y) :=
  (cast_col_apply _ p).trans (col_apply M wy o h c ho p)

theorem bil_of (wx wy : FVec Ideal S8192x16 .f32) (s : Vec Ideal S1x16x96 .f32) (M : FVec Ideal S8192x96 .f32) (p : Fin 8192)
    (hM : ∀ q : Fin 96, M (ix2 p q) = ∑ x : Fin 16, wx (ix2 p x) * s (ix3 (0 : Fin 1) x q)) (c : Fin 6) :
    (∑ y : Fin 16, M (ix2 p (q96 c y)) * wy (ix2 p y)) = bil wx wy s p c := by
  unfold bil
  simp only [hM]

theorem pay6_apply (wx : FVec Ideal S8192x16 .f32) (s : Vec Ideal S1x16x96 .f32) (p : Fin 8192) (q : Fin 96) :
    k0_pay6 (F := Ideal) wx s (ix2 p q) = ∑ x : Fin 16, wx (ix2 p x) * s (ix3 (0 : Fin 1) x q) := slab_apply wx s p q
theorem pay7_apply (wx : FVec Ideal S8192x16 .f32) (s : Vec Ideal S1x16x96 .f32) (p : Fin 8192) (q : Fin 96) :
    k0_pay7 (F := Ideal) wx s (ix2 p q) = ∑ x : Fin 16, wx (ix2 p x) * s (ix3 (0 : Fin 1) x q) := slab_apply wx s p q
theorem pay17_apply (wx : FVec Ideal S8192x16 .f32) (s : Vec Ideal S1x16x96 .f32) (p : Fin 8192) (q : Fin 96) :
    k0_pay17 (F := Ideal) wx s (ix2 p q) = ∑ x : Fin 16, wx (ix2 p x) * s (ix3 (0 : Fin 1) x q) := slab_apply wx s p q
theorem pay18_apply (wx : FVec Ideal S8192x16 .f32) (s : Vec Ideal S1x16x96 .f32) (p : Fin 8192) (q : Fin 96) :
    k0_pay18 (F := Ideal) wx s (ix2 p q) = ∑ x : Fin 16, wx (ix2 p x) * s (ix3 (0 : Fin 1) x q) := slab_apply wx s p q

theorem cat6_apply (x0 x1 x2 x3 x4 x5 : FVec Ideal S8192x1 .f32) (p : Fin 8192) (c : Fin 6) (r : EReal)
    (h0 : c.val = 0 → x0 (ix2 p (0 : Fin 1)) = r) (h1 : c.val = 1 → x1 (ix2 p (0 : Fin 1)) = r)
    (h2 : c.val = 2 → x2 (ix2 p (0 : Fin 1)) = r) (h3 : c.val = 3 → x3 (ix2 p (0 : Fin 1)) = r)
    (h4 : c.val = 4 → x4 (ix2 p (0 : Fin 1)) = r) (h5 : c.val = 5 → x5 (ix2 p (0 : Fin 1)) = r) :
    concatenate S8192x6 1 [⟨S8192x1, x0⟩, ⟨S8192x1, x1⟩, ⟨S8192x1, x2⟩, ⟨S8192x1, x3⟩, ⟨S8192x1, x4⟩, ⟨S8192x1, x5⟩]
        concatenates_S8192x1_S8192x1_S8192x1_S8192x1_S8192x1_S8192x1_S8192x6_d1 (ix2 p c) = r := by
  have hi : ∀ b : Fin S8192x1.rank, b.cast (rfl : S8192x1.rank = S8192x6.rank) ≠ (1 : Fin 2) →
      ((ix2 p (0 : Fin 1) : S8192x1.Idx) b).val = ((ix2 p c : S8192x6.Idx) (b.cast rfl)).val := fun b hb => by
    match b with
    | ⟨0, _⟩ => rfl
    | ⟨1, _⟩ => exact absurd rfl hb
  match c with
  | ⟨0, _⟩ =>
    refine Eq.trans ?_ (h0 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 0 (by show 0 < 6; omega) S8192x1 x0 rfl rfl 0 rfl (ix2 p (0 : Fin 1)) hi rfl
  | ⟨1, _⟩ =>
    refine Eq.trans ?_ (h1 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 1 (by show 1 < 6; omega) S8192x1 x1 rfl rfl 1 rfl (ix2 p (0 : Fin 1)) hi rfl
  | ⟨2, _⟩ =>
    refine Eq.trans ?_ (h2 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 2 (by show 2 < 6; omega) S8192x1 x2 rfl rfl 2 rfl (ix2 p (0 : Fin 1)) hi rfl
  | ⟨3, _⟩ =>
    refine Eq.trans ?_ (h3 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 3 (by show 3 < 6; omega) S8192x1 x3 rfl rfl 3 rfl (ix2 p (0 : Fin 1)) hi rfl
  | ⟨4, _⟩ =>
    refine Eq.trans ?_ (h4 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 4 (by show 4 < 6; omega) S8192x1 x4 rfl rfl 4 rfl (ix2 p (0 : Fin 1)) hi rfl
  | ⟨5, _⟩ =>
    refine Eq.trans ?_ (h5 rfl)
    exact concatenate_apply_piece (t := S8192x6) (1 : Fin 2) [⟨S8192x1, x0⟩, ⟨S8192x1, x1⟩, ⟨S8192x1, x2⟩, ⟨S8192x1, x3⟩, ⟨S8192x1, x4⟩, ⟨S8192x1, x5⟩]
      concatenates_S8192x1_S8192x1_S8192x1_S8192x1_S8192x1_S8192x1_S8192x6_d1 _ 5 (by show 5 < 6; omega) S8192x1 x5 rfl rfl 5 rfl (ix2 p (0 : Fin 1)) hi rfl

/-- The six sampled columns laid side by side: entry `(p, c)` is channel `c`'s sample. -/
theorem pay15_apply (wx wy : FVec Ideal S8192x16 .f32) (s : Vec Ideal S1x16x96 .f32) (p : Fin 8192) (c : Fin 6) :
    k0_pay15 (F := Ideal) wy (k0_pay6 wx s) (k0_pay8 wx s) (ix2 p c) = bil wx wy s p c := by
  have hM := pay6_apply wx s p
  refine cat6_apply _ _ _ _ _ _ p c _ (fun hc => ?_) (fun hc => ?_) (fun hc => ?_) (fun hc => ?_) (fun hc => ?_) (fun hc => ?_)
  · obtain rfl : c = 0 := Fin.ext hc
    exact (colM_apply (k0_pay6 wx s) wy 0 slices_S8192x96_o0_0_S8192x16 0 rfl p).trans (bil_of wx wy s _ p hM 0)
  · obtain rfl : c = 1 := Fin.ext hc
    exact (colM_apply (k0_pay6 wx s) wy 16 slices_S8192x96_o0_16_S8192x16 1 rfl p).trans (bil_of wx wy s _ p hM 1)
  · obtain rfl : c = 2 := Fin.ext hc
    exact (colM_apply (k0_pay6 wx s) wy 32 slices_S8192x96_o0_32_S8192x16 2 rfl p).trans (bil_of wx wy s _ p hM 2)
  · obtain rfl : c = 3 := Fin.ext hc
    exact (colM_apply (k0_pay6 wx s) wy 48 slices_S8192x96_o0_48_S8192x16 3 rfl p).trans (bil_of wx wy s _ p hM 3)
  · obtain rfl : c = 4 := Fin.ext hc
    exact (colM_apply (k0_pay6 wx s) wy 64 slices_S8192x96_o0_64_S8192x16 4 rfl p).trans (bil_of wx wy s _ p hM 4)
  · obtain rfl : c = 5 := Fin.ext hc
    exact (colM_apply (k0_pay6 wx s) wy 80 slices_S8192x96_o0_80_S8192x16 5 rfl p).trans (bil_of wx wy s _ p hM 5)

theorem pay9_apply (wx wy : FVec Ideal S8192x16 .f32) (s : Vec Ideal S1x16x96 .f32) (p : Fin 8192) :
    k0_pay9 (F := Ideal) wy (k0_pay7 wx s) (ix2 p (0 : Fin 1)) = bil wx wy s p 0 :=
  (colM_apply (k0_pay7 wx s) wy 0 slices_S8192x96_o0_0_S8192x16 0 rfl p).trans (bil_of wx wy s _ p (pay7_apply wx s p) 0)

theorem pay10_apply (wx wy : FVec Ideal S8192x16 .f32) (s : Vec Ideal S1x16x96 .f32) (p : Fin 8192) :
    k0_pay10 (F := Ideal) wy (k0_pay7 wx s) (ix2 p (0 : Fin 1)) = bil wx wy s p 1 :=
  (colM_apply (k0_pay7 wx s) wy 16 slices_S8192x96_o0_16_S8192x16 1 rfl p).trans (bil_of wx wy s _ p (pay7_apply wx s p) 1)

theorem pay11_apply (wx wy : FVec Ideal S8192x16 .f32) (s : Vec Ideal S1x16x96 .f32) (p : Fin 8192) :
    k0_pay11 (F := Ideal) wy (k0_pay7 wx s) (ix2 p (0 : Fin 1)) = bil wx wy s p 2 :=
  (colM_apply (k0_pay7 wx s) wy 32 slices_S8192x96_o0_32_S8192x16 2 rfl p).trans (bil_of wx wy s _ p (pay7_apply wx s p) 2)

theorem pay12_apply (wx wy : FVec Ideal S8192x16 .f32) (s : Vec Ideal S1x16x96 .f32) (p : Fin 8192) :
    k0_pay12 (F := Ideal) wy (k0_pay7 wx s) (ix2 p (0 : Fin 1)) = bil wx wy s p 3 :=
  (colM_apply (k0_pay7 wx s) wy 48 slices_S8192x96_o0_48_S8192x16 3 rfl p).trans (bil_of wx wy s _ p (pay7_apply wx s p) 3)

theorem pay13_apply (wx wy : FVec Ideal S8192x16 .f32) (s : Vec Ideal S1x16x96 .f32) (p : Fin 8192) :
    k0_pay13 (F := Ideal) wy (k0_pay7 wx s) (ix2 p (0 : Fin 1)) = bil wx wy s p 4 :=
  (colM_apply (k0_pay7 wx s) wy 64 slices_S8192x96_o0_64_S8192x16 4 rfl p).trans (bil_of wx wy s _ p (pay7_apply wx s p) 4)

theorem pay14_apply (wx wy : FVec Ideal S8192x16 .f32) (s : Vec Ideal S1x16x96 .f32) (p : Fin 8192) :
    k0_pay14 (F := Ideal) wy (k0_pay7 wx s) (ix2 p (0 : Fin 1)) = bil wx wy s p 5 :=
  (colM_apply (k0_pay7 wx s) wy 80 slices_S8192x96_o0_80_S8192x16 5 rfl p).trans (bil_of wx wy s _ p (pay7_apply wx s p) 5)

theorem pay19_apply (wx wy : FVec Ideal S8192x16 .f32) (s : Vec Ideal S1x16x96 .f32) (p : Fin 8192) :
    k0_pay19 (F := Ideal) wx wy s (ix2 p (0 : Fin 1)) = bil wx wy s p 0 :=
  (colM_apply (k0_pay17 wx s) wy 0 slices_S8192x96_o0_0_S8192x16 0 rfl p).trans (bil_of wx wy s _ p (pay17_apply wx s p) 0)

theorem pay20_apply (wx wy : FVec Ideal S8192x16 .f32) (s : Vec Ideal S1x16x96 .f32) (p : Fin 8192) :
    k0_pay20 (F := Ideal) wx wy s (ix2 p (0 : Fin 1)) = bil wx wy s p 0 :=
  (colM_apply (k0_pay18 wx s) wy 0 slices_S8192x96_o0_0_S8192x16 0 rfl p).trans (bil_of wx wy s _ p (pay18_apply wx s p) 0)

theorem pay21_apply (wx wy : FVec Ideal S8192x16 .f32) (s : Vec Ideal S1x16x96 .f32) (p : Fin 8192) :
    k0_pay21 (F := Ideal) wx wy s (ix2 p (0 : Fin 1)) = bil wx wy s p 1 :=
  (colM_apply (k0_pay17 wx s) wy 16 slices_S8192x96_o0_16_S8192x16 1 rfl p).trans (bil_of wx wy s _ p (pay17_apply wx s p) 1)

theorem pay22_apply (wx wy : FVec Ideal S8192x16 .f32) (s : Vec Ideal S1x16x96 .f32) (p : Fin 8192) :
    k0_pay22 (F := Ideal) wx wy s (ix2 p (0 : Fin 1)) = bil wx wy s p 1 :=
  (colM_apply (k0_pay18 wx s) wy 16 slices_S8192x96_o0_16_S8192x16 1 rfl p).trans (bil_of wx wy s _ p (pay18_apply wx s p) 1)

theorem pay23_apply (wx wy : FVec Ideal S8192x16 .f32) (s : Vec Ideal S1x16x96 .f32) (p : Fin 8192) :
    k0_pay23 (F := Ideal) wx wy s (ix2 p (0 : Fin 1)) = bil wx wy s p 2 :=
  (colM_apply (k0_pay17 wx s) wy 32 slices_S8192x96_o0_32_S8192x16 2 rfl p).trans (bil_of wx wy s _ p (pay17_apply wx s p) 2)

theorem pay24_apply (wx wy : FVec Ideal S8192x16 .f32) (s : Vec Ideal S1x16x96 .f32) (p : Fin 8192) :
    k0_pay24 (F := Ideal) wx wy s (ix2 p (0 : Fin 1)) = bil wx wy s p 2 :=
  (colM_apply (k0_pay18 wx s) wy 32 slices_S8192x96_o0_32_S8192x16 2 rfl p).trans (bil_of wx wy s _ p (pay18_apply wx s p) 2)

theorem pay25_apply (wx wy : FVec Ideal S8192x16 .f32) (s : Vec Ideal S1x16x96 .f32) (p : Fin 8192) :
    k0_pay25 (F := Ideal) wx wy s (ix2 p (0 : Fin 1)) = bil wx wy s p 3 :=
  (colM_apply (k0_pay17 wx s) wy 48 slices_S8192x96_o0_48_S8192x16 3 rfl p).trans (bil_of wx wy s _ p (pay17_apply wx s p) 3)

theorem pay26_apply (wx wy : FVec Ideal S8192x16 .f32) (s : Vec Ideal S1x16x96 .f32) (p : Fin 8192) :
    k0_pay26 (F := Ideal) wx wy s (ix2 p (0 : Fin 1)) = bil wx wy s p 3 :=
  (colM_apply (k0_pay18 wx s) wy 48 slices_S8192x96_o0_48_S8192x16 3 rfl p).trans (bil_of wx wy s _ p (pay18_apply wx s p) 3)

theorem pay27_apply (wx wy : FVec Ideal S8192x16 .f32) (s : Vec Ideal S1x16x96 .f32) (p : Fin 8192) :
    k0_pay27 (F := Ideal) wx wy s (ix2 p (0 : Fin 1)) = bil wx wy s p 4 :=
  (colM_apply (k0_pay17 wx s) wy 64 slices_S8192x96_o0_64_S8192x16 4 rfl p).trans (bil_of wx wy s _ p (pay17_apply wx s p) 4)

theorem pay28_apply (wx wy : FVec Ideal S8192x16 .f32) (s : Vec Ideal S1x16x96 .f32) (p : Fin 8192) :
    k0_pay28 (F := Ideal) wx wy s (ix1 p) = bil wx wy s p 4 :=
  (col_apply (k0_pay18 wx s) wy 64 slices_S8192x96_o0_64_S8192x16 4 rfl p).trans (bil_of wx wy s _ p (pay18_apply wx s p) 4)

theorem col5_apply (wx wy : FVec Ideal S8192x16 .f32) (s : Vec Ideal S1x16x96 .f32) (p : Fin 8192) :
    (∑ y : Fin 16, k0_pay17 (F := Ideal) wx s (ix2 p (q96 5 y)) * wy (ix2 p y)) = bil wx wy s p 5 :=
  bil_of wx wy s _ p (pay17_apply wx s p) 5

theorem col5'_apply (wx wy : FVec Ideal S8192x16 .f32) (s : Vec Ideal S1x16x96 .f32) (p : Fin 8192) :
    (∑ y : Fin 16, k0_pay18 (F := Ideal) wx s (ix2 p (q96 5 y)) * wy (ix2 p y)) = bil wx wy s p 5 :=
  bil_of wx wy s _ p (pay18_apply wx s p) 5

end Cert.KernelIdeal.KV

end
-- ==== Proof.KMlp.lean ====
import proofs.«124617_j17678085390376_1_alg».proof.Proof.Gen.KernelIdeal.Skeleton
import proofs.«124617_j17678085390376_1_alg».proof.Proof.Spec
import proofs.«124617_j17678085390376_1_alg».proof.Proof.LibDense
import proofs.«124617_j17678085390376_1_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx Cert.Spec

section Columns
variable {α : Type}

theorem shapeCast_a_a1_apply_m {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply_m {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

theorem rowSum_apply {M N : ℕ} (x : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (p : Fin M) :
    multiReduction (F := Ideal) .add [1] ⟨1, ![M]⟩ x 0x00000000#32 h hφ hacc (ix1 p) = ∑ k : Fin N, x (ix2 p k) := by
  refine (Ideal.multiReduction_add_single x 0x00000000#32 h hφ hacc (ix1 p)).trans ?_
  refine Finset.sum_congr rfl fun k _ => congrArg x ?_
  funext c
  match c with
  | ⟨0, _⟩ => rfl
  | ⟨1, _⟩ => rfl

theorem rowSumCol_apply {M N : ℕ} (x : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ)
    (hs : (⟨1, ![M]⟩ : Shape).ShapeCasts ⟨2, ![M, 1]⟩) (p : Fin M) (u : Fin 1) :
    shapeCast ⟨2, ![M, 1]⟩ (multiReduction (F := Ideal) .add [1] ⟨1, ![M]⟩ x 0x00000000#32 h hφ hacc) hs (ix2 p u)
      = ∑ k : Fin N, x (ix2 p k) :=
  (shapeCast_a_a1_apply_m _ hs p u).trans (rowSum_apply x h hφ hacc p)

theorem concat6_apply (a0 a1 a2 a3 a4 a5 : FVec Ideal S8192x1 .f32)
    (h : Shape.Concatenates [S8192x1, S8192x1, S8192x1, S8192x1, S8192x1, S8192x1] S8192x6 1)
    (p : Fin 8192) (c : Fin 6) (bb : Fin 6 → EReal)
    (h0 : a0 (ix2 p (0 : Fin 1)) = bb 0) (h1 : a1 (ix2 p (0 : Fin 1)) = bb 1) (h2 : a2 (ix2 p (0 : Fin 1)) = bb 2)
    (h3 : a3 (ix2 p (0 : Fin 1)) = bb 3) (h4 : a4 (ix2 p (0 : Fin 1)) = bb 4) (h5 : a5 (ix2 p (0 : Fin 1)) = bb 5) :
    concatenate S8192x6 1 [⟨S8192x1, a0⟩, ⟨S8192x1, a1⟩, ⟨S8192x1, a2⟩, ⟨S8192x1, a3⟩, ⟨S8192x1, a4⟩, ⟨S8192x1, a5⟩] h (ix2 p c)
      = bb c := by
  have off : ∀ (c : Fin 6) (b : Fin S8192x1.rank), b.cast (rfl : S8192x1.rank = S8192x6.rank) ≠ (1 : Fin 2) →
      ((ix2 p (0 : Fin 1) : S8192x1.Idx) b).val = ((ix2 p c : S8192x6.Idx) (b.cast rfl)).val := fun c b hb => by
    match b, hb with
    | ⟨0, _⟩, _ => rfl
    | ⟨1, _⟩, hb => exact absurd rfl hb
  match c with
  | ⟨0, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 0 (by show 0 < 6; omega) S8192x1 a0 rfl rfl 0 rfl
      (ix2 p (0 : Fin 1)) (off _) rfl).trans h0
  | ⟨1, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 1 (by show 1 < 6; omega) S8192x1 a1 rfl rfl 1 rfl
      (ix2 p (0 : Fin 1)) (off _) rfl).trans h1
  | ⟨2, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 2 (by show 2 < 6; omega) S8192x1 a2 rfl rfl 2 rfl
      (ix2 p (0 : Fin 1)) (off _) rfl).trans h2
  | ⟨3, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 3 (by show 3 < 6; omega) S8192x1 a3 rfl rfl 3 rfl
      (ix2 p (0 : Fin 1)) (off _) rfl).trans h3
  | ⟨4, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 4 (by show 4 < 6; omega) S8192x1 a4 rfl rfl 4 rfl
      (ix2 p (0 : Fin 1)) (off _) rfl).trans h4
  | ⟨5, _⟩ =>
    exact (concatenate_apply_piece (t := S8192x6) (1 : Fin 2) [⟨S8192x1, a0⟩, ⟨S8192x1, a1⟩, ⟨S8192x1, a2⟩, ⟨S8192x1, a3⟩, ⟨S8192x1, a4⟩, ⟨S8192x1, a5⟩] h _ 5 (by show 5 < 6; omega) S8192x1 a5 rfl rfl 5 rfl
      (ix2 p (0 : Fin 1)) (off _) rfl).trans h5

theorem meanCol_apply (x : FVec Ideal S8192x6 .f32) (hr : S8192x6.Reduces [1] S8192) (hφ : FKind.Formats .f32)
    (hacc : (0x00000000#32 : BitVec 32) = FKind.add.neutral .f32 hφ) (hs : S8192.ShapeCasts S8192x1) (p : Fin 8192) :
    divf (shapeCast S8192x1 (multiReduction (F := Ideal) .add [1] S8192 x 0x00000000#32 hr hφ hacc) hs)
        (broadcast S8192x1 (Scalar.ofBits (F := Ideal) .f32 0x40C00000#32)) (ix2 p (0 : Fin 1))
      = mean6 (fun k => x (ix2 p k)) :=
  congrArg (fun s => Ideal.div s k6) (rowSumCol_apply x hr hφ hacc hs p 0)

theorem rowLaid_apply (b : Vec Ideal S1x6 .f32) (h1 : S1x6.ShapeCasts S6) (h2 : S6.ShapeCasts S1x6) (h3 : S1x6.Broadcasts S8192x6)
    (p : Fin 8192) (j : Fin 6) :
    broadcastTo S8192x6 (shapeCast S1x6 (shapeCast S6 b h1) h2) h3 (ix2 p j) = b (ix2 (0 : Fin 1) j) :=
  (broadcastTo_1b_ab_apply _ h3 p j).trans ((shapeCast_a_1a_apply _ h2 0 j).trans (shapeCast_1a_a_apply b h1 j))

def lnV (h : FVec Ideal S8192x6 .f32) (w b : Vec Ideal S1x6 .f32) : FVec Ideal S8192x6 .f32 :=
  have m : FVec Ideal S8192x1 .f32 :=
    divf (shapeCast S8192x1 (multiReduction .add [1] S8192 h 0x00000000#32 reduces_S8192x6_S8192 (.inl rfl) rfl) shapeCasts_S8192_S8192x1)
      (broadcast S8192x1 (Scalar.ofBits .f32 0x40C00000#32))
  have d : FVec Ideal S8192x6 .f32 := subf h (broadcastTo S8192x6 m broadcasts_S8192x1_S8192x6)
  have v : FVec Ideal S8192x1 .f32 :=
    divf (shapeCast S8192x1 (multiReduction .add [1] S8192 (mulf d d) 0x00000000#32 reduces_S8192x6_S8192 (.inl rfl) rfl) shapeCasts_S8192_S8192x1)
      (broadcast S8192x1 (Scalar.ofBits .f32 0x40C00000#32))
  have r : FVec Ideal S8192x1 .f32 := rsqrt (addf v (broadcast S8192x1 (Scalar.ofBits .f32 0x3727C5AC#32)))
  addf (mulf (mulf d (broadcastTo S8192x6 r broadcasts_S8192x1_S8192x6))
      (broadcastTo S8192x6 (shapeCast S1x6 (shapeCast S6 w shapeCasts_S1x6_S6) shapeCasts_S6_S1x6) broadcasts_S1x6_S8192x6))
    (broadcastTo S8192x6 (shapeCast S1x6 (shapeCast S6 b shapeCasts_S1x6_S6) shapeCasts_S6_S1x6) broadcasts_S1x6_S8192x6)

/-- The normalisation stretch at row `p` is `lnorm` of that row. -/
theorem lnV_apply (h : FVec Ideal S8192x6 .f32) (w b : Vec Ideal S1x6 .f32) (p : Fin 8192) (j : Fin 6) :
    lnV h w b (ix2 p j)
      = lnorm (fun k => h (ix2 p k)) (fun k => w (ix2 (0 : Fin 1) k)) (fun k => b (ix2 (0 : Fin 1) k)) j := by
  have hm := meanCol_apply h reduces_S8192x6_S8192 (.inl rfl) rfl shapeCasts_S8192_S8192x1 p
  generalize hM : divf (shapeCast S8192x1 (multiReduction (F := Ideal) .add [1] S8192 h 0x00000000#32 reduces_S8192x6_S8192 (.inl rfl) rfl)
      shapeCasts_S8192_S8192x1) (broadcast S8192x1 (Scalar.ofBits (F := Ideal) .f32 0x40C00000#32)) = m at hm
  have hd : ∀ k : Fin 6, subf h (broadcastTo S8192x6 m broadcasts_S8192x1_S8192x6) (ix2 p k)
      = h (ix2 p k) - mean6 (fun k => h (ix2 p k)) := fun k =>
    congrArg (h (ix2 p k) - ·) ((broadcastTo_a1_ab_apply_m m broadcasts_S8192x1_S8192x6 p k).trans hm)
  have hv := meanCol_apply (mulf (subf h (broadcastTo S8192x6 m broadcasts_S8192x1_S8192x6))
      (subf h (broadcastTo S8192x6 m broadcasts_S8192x1_S8192x6))) reduces_S8192x6_S8192 (.inl rfl) rfl shapeCasts_S8192_S8192x1 p
  have hv' : (fun k : Fin 6 => mulf (subf h (broadcastTo S8192x6 m broadcasts_S8192x1_S8192x6))
        (subf h (broadcastTo S8192x6 m broadcasts_S8192x1_S8192x6)) (ix2 p k))
      = fun k => (h (ix2 p k) - mean6 (fun k => h (ix2 p k))) * (h (ix2 p k) - mean6 (fun k => h (ix2 p k))) :=
    funext fun k => congrArg₂ (· * ·) (hd k) (hd k)
  rw [hv'] at hv
  unfold lnV
  rw [hM]
  unfold lnorm
  refine congrArg₂ (· + ·) (congrArg₂ (· * ·) (congrArg₂ (· * ·) (hd j) ?_) ?_) ?_
  · refine (broadcastTo_a1_ab_apply_m _ broadcasts_S8192x1_S8192x6 p j).trans ?_
    exact congrArg (fun s => Ideal.rsqrt (s + keps)) hv
  · exact rowLaid_apply w shapeCasts_S1x6_S6 shapeCasts_S6_S1x6 broadcasts_S1x6_S8192x6 p j
  · exact rowLaid_apply b shapeCasts_S1x6_S6 shapeCasts_S6_S1x6 broadcasts_S1x6_S8192x6 p j

theorem dot66_plain : dot_S8192x6_S6x6_S8192x6_1_0_0_1_n_n = DotDims.plain 8192 6 6 := rfl
theorem dot63_plain : dot_S8192x6_S6x3_S8192x3_1_0_0_1_n_n = DotDims.plain 8192 6 3 := rfl

theorem denseT_apply {N : ℕ} (d : DotDims S8192x6 ⟨2, ![6, N]⟩ ⟨2, ![8192, N]⟩) (hd : d = DotDims.plain 8192 6 N)
    (x : FVec Ideal S8192x6 .f32) (W : FVec Ideal ⟨2, ![N, 6]⟩ .f32)
    (ht : (⟨2, ![N, 6]⟩ : Shape).Transposes [1, 0] ⟨2, ![6, N]⟩) (p : Fin 8192) (j : Fin N) (row : Fin 6 → EReal)
    (hrow : ∀ k, x (ix2 p k) = row k) :
    matmul d none x (transpose ⟨2, ![6, N]⟩ [1, 0] W ht) (constant (F := Ideal) ⟨2, ![8192, N]⟩ .f32 0x00000000#32) (ix2 p j)
      = ∑ k : Fin 6, row k * W (ix2 j k) := by
  subst hd
  show FloatOps.matmul (DotDims.plain 8192 6 N) none x (transpose ⟨2, ![6, N]⟩ [1, 0] W ht)
      (constant ⟨2, ![8192, N]⟩ .f32 0x00000000#32) (ix2 p j) = _
  refine (Cert.LibDense.matmul_plain_zero_apply none x _ p j).trans ?_
  exact Finset.sum_congr rfl fun k _ => congrArg₂ (· * ·) (hrow k) (transpose_ix2_apply W ht k j)

theorem dense_read {K N : ℕ} (h : Fin K → EReal) (W : Fin N → Fin K → EReal) (b : Fin N → EReal) (j : Fin N) (s t : EReal)
    (hs : s = ∑ k : Fin K, h k * W j k) (ht : t = b j) : s + t = dense h W b j := by
  subst hs ht; rfl

theorem silu_read (z : FVec Ideal S8192x6 .f32) (i : S8192x6.Idx) : mulf z (logistic z) i = silu (z i) := rfl

theorem modulate_read (g ln sh : FVec Ideal S8192x6 .f32) (p : Fin 8192) (k : Fin 6) (gk lk bk : EReal)
    (hg : g (ix2 p k) = gk) (hl : ln (ix2 p k) = lk) (hb : sh (ix2 p k) = bk) :
    addf (mulf g ln) sh (ix2 p k) = gk * lk + bk := by
  subst hg hl hb; rfl

/-- First modulation, then the hidden dense layer with SiLU, at row `p`. -/
theorem pay16_apply (v83 : FVec Ideal S8192x6 .f32) (v97 v105 v113 v121 v129 v137 : FVec Ideal S8192x1 .f32)
    (v138 : FVec Ideal S8192x6 .f32) (v151 v153 : Vec Ideal S1x6 .f32) (v170 : Vec Ideal S1x6x6 .f32) (v172 : Vec Ideal S1x6 .f32)
    (p : Fin 8192) (j : Fin 6) (bb : Fin 6 → EReal)
    (hb0 : v97 (ix2 p (0 : Fin 1)) = bb 0) (hb1 : v105 (ix2 p (0 : Fin 1)) = bb 1) (hb2 : v113 (ix2 p (0 : Fin 1)) = bb 2)
    (hb3 : v121 (ix2 p (0 : Fin 1)) = bb 3) (hb4 : v129 (ix2 p (0 : Fin 1)) = bb 4) (hb5 : v137 (ix2 p (0 : Fin 1)) = bb 5) :
    k0_pay16 (F := Ideal) v83 v97 v105 v113 v121 v129 v137 v138 v151 v153 v170 v172 (ix2 p j)
      = silu (dense (fun c => v138 (ix2 p c) * lnorm (fun k => v83 (ix2 p k)) (fun k => v151 (ix2 (0 : Fin 1) k))
                (fun k => v153 (ix2 (0 : Fin 1) k)) c + bb c)
          (fun j k => v170 (ix3 (0 : Fin 1) j k)) (fun j => v172 (ix2 (0 : Fin 1) j)) j) := by
  unfold k0_pay16
  dsimp only
  refine (silu_read _ _).trans (congrArg silu ?_)
  refine dense_read _ _ _ j _ _ ?_ ?_
  ·
    refine (denseT_apply _ dot66_plain _ _ transposes_S6x6_p1_0_S6x6 p j
      (fun c => v138 (ix2 p c) * lnorm (fun k => v83 (ix2 p k)) (fun k => v151 (ix2 (0 : Fin 1) k))
        (fun k => v153 (ix2 (0 : Fin 1) k)) c + bb c) fun k => ?_).trans ?_
    · exact modulate_read _ _ _ p k _ _ _ rfl (lnV_apply v83 v151 v153 p k)
        (concat6_apply v97 v105 v113 v121 v129 v137 _ p k bb hb0 hb1 hb2 hb3 hb4 hb5)
    · exact Finset.sum_congr rfl fun k _ => congrArg (_ * ·) (shapeCast_1ab_ab_apply v170 shapeCasts_S1x6x6_S6x6 j k)
  ·
    exact rowLaid_apply v172 shapeCasts_S1x6_S6 shapeCasts_S6_S1x6 broadcasts_S1x6_S8192x6 p j

/-- Second modulation, then the output product, at row `p`. -/
theorem pay29_apply (v74 : FVec Ideal S8192x16 .f32) (v180 : FVec Ideal S8192x6 .f32) (v185 v186 : FVec Ideal S8192x96 .f32)
    (v191 v194 v199 v202 v207 v210 v215 v218 v223 : FVec Ideal S8192x1 .f32) (v225 : FVec Ideal S8192 .f32)
    (v248 v250 : Vec Ideal S1x6 .f32) (v267 : Vec Ideal S3x6 .f32) (p : Fin 8192) (o : Fin 3) (g bb : Fin 6 → EReal)
    (hg0 : v191 (ix2 p (0 : Fin 1)) = g 0) (hg1 : v199 (ix2 p (0 : Fin 1)) = g 1) (hg2 : v207 (ix2 p (0 : Fin 1)) = g 2)
    (hg3 : v215 (ix2 p (0 : Fin 1)) = g 3) (hg4 : v223 (ix2 p (0 : Fin 1)) = g 4)
    (hg5 : (∑ y : Fin 16, v185 (ix2 p (q96 5 y)) * v74 (ix2 p y)) = g 5)
    (hb0 : v194 (ix2 p (0 : Fin 1)) = bb 0) (hb1 : v202 (ix2 p (0 : Fin 1)) = bb 1) (hb2 : v210 (ix2 p (0 : Fin 1)) = bb 2)
    (hb3 : v218 (ix2 p (0 : Fin 1)) = bb 3) (hb4 : v225 (ix1 p) = bb 4)
    (hb5 : (∑ y : Fin 16, v186 (ix2 p (q96 5 y)) * v74 (ix2 p y)) = bb 5) :
    k0_pay29 (F := Ideal) v74 v180 v185 v186 v191 v194 v199 v202 v207 v210 v215 v218 v223 v225 v248 v250 v267 (ix2 p o)
      = ∑ k : Fin 6, (g k * lnorm (fun k => v180 (ix2 p k)) (fun k => v248 (ix2 (0 : Fin 1) k))
                (fun k => v250 (ix2 (0 : Fin 1) k)) k + bb k) * v267 (ix2 o k) := by
  have hcol : ∀ s : FVec Ideal S8192x96 .f32,
      shapeCast S8192x1 (multiReduction (F := Ideal) .add [1] S8192
          (mulf (extractStridedSlice S8192x16 ![0, 80] s slices_S8192x96_o0_80_S8192x16) v74) 0x00000000#32
          reduces_S8192x16_S8192 (.inl rfl) rfl) shapeCasts_S8192_S8192x1 (ix2 p (0 : Fin 1))
        = ∑ y : Fin 16, s (ix2 p (q96 5 y)) * v74 (ix2 p y) := fun s =>
    (rowSumCol_apply _ reduces_S8192x16_S8192 (.inl rfl) rfl shapeCasts_S8192_S8192x1 p 0).trans
      (Finset.sum_congr rfl fun y _ => congrArg (· * v74 (ix2 p y))
        (slice2_axis1_apply 80 s slices_S8192x96_o0_80_S8192x16 p y (q96 5 y) rfl))
  unfold k0_pay29
  dsimp only
  refine denseT_apply _ dot63_plain _ v267 transposes_S3x6_p1_0_S6x3 p o
    (fun k => g k * lnorm (fun k => v180 (ix2 p k)) (fun k => v248 (ix2 (0 : Fin 1) k))
      (fun k => v250 (ix2 (0 : Fin 1) k)) k + bb k) fun k => ?_
  exact modulate_read _ _ _ p k _ _ _
    (concat6_apply v191 v199 v207 v215 v223 _ _ p k g hg0 hg1 hg2 hg3 hg4 ((hcol v185).trans hg5))
    (lnV_apply v180 v248 v250 p k)
    (concat6_apply v194 v202 v210 v218 _ _ _ p k bb hb0 hb1 hb2 hb3
      ((shapeCast_a_a1_apply_m v225 shapeCasts_S8192_S8192x1 p 0).trans hb4) ((hcol v186).trans hb5))

end Cert.KernelIdeal.KV

end
-- ==== Proof.KRow.lean ====
import proofs.«124617_j17678085390376_1_alg».proof.Proof.Gen.KernelIdeal.Frame
import proofs.«124617_j17678085390376_1_alg».proof.Proof.Spec
import proofs.«124617_j17678085390376_1_alg».proof.Proof.KDefs
import proofs.«124617_j17678085390376_1_alg».proof.Proof.KWeights
import proofs.«124617_j17678085390376_1_alg».proof.Proof.KBilin
import proofs.«124617_j17678085390376_1_alg».proof.Proof.KMlp
import Idealize.ShloMosaic.Lib.ValueIdx
import Idealize.ShloMosaic.Lib.Pipeline.Value

noncomputable section

namespace Cert.KernelIdeal.KV

open Cert.KernelIdeal Cert.KernelIdeal.Gen Idealize.ShloMosaic Idealize.ShloMosaic.ValueIdx Cert.Spec

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx_slab0 (a : Fin 16) (q : Fin 96) :
    (r0_3 : Rect S2x16x96).idx (ix3 (0 : Fin 1) a q) = ix3 (0 : Fin 2) a q := by
  funext d; apply Fin.ext
  match d with
  | ⟨0, _⟩ => rfl
  | ⟨1, _⟩ => show 0 + 1 * a.val = a.val; omega
  | ⟨2, _⟩ => show 0 + 1 * q.val = q.val; omega

theorem idx_slab1 (a : Fin 16) (q : Fin 96) :
    (r0_7 : Rect S2x16x96).idx (ix3 (0 : Fin 1) a q) = ix3 (1 : Fin 2) a q := by
  funext d; apply Fin.ext
  match d with
  | ⟨0, _⟩ => rfl
  | ⟨1, _⟩ => show 0 + 1 * a.val = a.val; omega
  | ⟨2, _⟩ => show 0 + 1 * q.val = q.val; omega

theorem idx_row0 (k : Fin 6) : (r0_4 : Rect S2x6).idx (ix2 (0 : Fin 1) k) = ix2 (0 : Fin 2) k := by
  funext d; apply Fin.ext
  match d with
  | ⟨0, _⟩ => rfl
  | ⟨1, _⟩ => show 0 + 1 * k.val = k.val; omega

theorem idx_row1 (k : Fin 6) : (r0_8 : Rect S2x6).idx (ix2 (0 : Fin 1) k) = ix2 (1 : Fin 2) k := by
  funext d; apply Fin.ext
  match d with
  | ⟨0, _⟩ => rfl
  | ⟨1, _⟩ => show 0 + 1 * k.val = k.val; omega

/-- The double contraction with the row's weight arrays is the table's bilinear sample at the row's coordinates. -/
theorem bil_eq (x0 : Vec Ideal S8192x2 .f32) (s : Vec Ideal S1x16x96 .f32) (p : Fin 8192) (c : Fin 6) :
    bil (k0_pay2 (F := Ideal) x0) (k0_pay4 (F := Ideal) (Scalar.ofBits .f32 0x41700000#32) (k0_pay3 x0)) s p c
      = bilinK (fun y x => s (ix3 (0 : Fin 1) x (q96 c y))) (coordK (x0 (ix2 p (0 : Fin 2)))) (coordK (x0 (ix2 p (1 : Fin 2)))) := by
  unfold bil bilinK
  simp only [pay2_apply, pay4_apply]

/-- Row `p` of the stored block is the point's row function of the blocks read. -/
theorem out_apply (x0 : Vec Ideal S8192x2 .f32) (x1 x2 : Vec Ideal S2x16x96 .f32) (x3 : Vec Ideal S6x2 .f32) (x4 : Vec Ideal S6 .f32)
    (x5 : Vec Ideal S1x6x6 .f32) (x6 : Vec Ideal S1x6 .f32) (x7 : Vec Ideal S3x6 .f32) (x8 : Vec Ideal S3 .f32)
    (x9 x10 : Vec Ideal S2x6 .f32) (p : Fin 8192) (o : Fin 3) :
    out0_11 (F := Ideal) x0 x1 x2 x3 x4 x5 x6 x7 x8 x9 x10 (ix2 p o)
      = rowK (paramsK x1 x2 x3 x4 x5 x6 x7 x8 x9 x10) (fun k => x0 (ix2 p k)) o := by
  unfold out0_11
  rw [View.canon_unit_zero hz2]
  simp only [View.ld_unit_zero (S := S8192x2) hz2, View.ld_unit_zero (S := S6x2) hz2, View.ld_unit_zero (S := S6) hz1,
    View.ld_unit_zero (S := S1x6x6) hz3, View.ld_unit_zero (S := S1x6) hz2, View.ld_unit_zero (S := S3x6) hz2,
    View.ld_unit_zero (S := S3) hz1]
  have hH1 : ∀ j : Fin 6,
      k0_pay16 (F := Ideal) (k0_pay5 x0 x3 x4)
          (k0_pay9 (k0_pay4 (FloatOps.ofBits FTy.f32 1097859072#32) (k0_pay3 x0)) (k0_pay7 (k0_pay2 x0) (View.ld x2 r0_3)))
          (k0_pay10 (k0_pay4 (FloatOps.ofBits FTy.f32 1097859072#32) (k0_pay3 x0)) (k0_pay7 (k0_pay2 x0) (View.ld x2 r0_3)))
          (k0_pay11 (k0_pay4 (FloatOps.ofBits FTy.f32 1097859072#32) (k0_pay3 x0)) (k0_pay7 (k0_pay2 x0) (View.ld x2 r0_3)))
          (k0_pay12 (k0_pay4 (FloatOps.ofBits FTy.f32 1097859072#32) (k0_pay3 x0)) (k0_pay7 (k0_pay2 x0) (View.ld x2 r0_3)))
          (k0_pay13 (k0_pay4 (FloatOps.ofBits FTy.f32 1097859072#32) (k0_pay3 x0)) (k0_pay7 (k0_pay2 x0) (View.ld x2 r0_3)))
          (k0_pay14 (k0_pay4 (FloatOps.ofBits FTy.f32 1097859072#32) (k0_pay3 x0)) (k0_pay7 (k0_pay2 x0) (View.ld x2 r0_3)))
          (k0_pay15 (k0_pay4 (FloatOps.ofBits FTy.f32 1097859072#32) (k0_pay3 x0)) (k0_pay6 (k0_pay2 x0) (View.ld x1 r0_3))
            (k0_pay8 (k0_pay2 x0) (View.ld x1 r0_3)))
          (View.ld x9 r0_4) (View.ld x10 r0_4) x5 x6 (ix2 p j)
        = silu (dense (modulate (fun T => bilinK T (coordK (x0 (ix2 p (0 : Fin 2)))) (coordK (x0 (ix2 p (1 : Fin 2)))))
            (paramsK x1 x2 x3 x4 x5 x6 x7 x8 x9 x10) 0
            (fun j => silu (dense (fun k => x0 (ix2 p k)) (paramsK x1 x2 x3 x4 x5 x6 x7 x8 x9 x10).win
              (paramsK x1 x2 x3 x4 x5 x6 x7 x8 x9 x10).bin j)))
            (paramsK x1 x2 x3 x4 x5 x6 x7 x8 x9 x10).wh (paramsK x1 x2 x3 x4 x5 x6 x7 x8 x9 x10).bh j) := by
    intro j
    rw [pay16_apply (bb := fun c => bil (k0_pay2 x0) (k0_pay4 (FloatOps.ofBits FTy.f32 1097859072#32) (k0_pay3 x0)) (View.ld x2 r0_3) p c)
      (hb0 := pay9_apply _ _ _ p) (hb1 := pay10_apply _ _ _ p) (hb2 := pay11_apply _ _ _ p) (hb3 := pay12_apply _ _ _ p)
      (hb4 := pay13_apply _ _ _ p) (hb5 := pay14_apply _ _ _ p)]
    simp only [pay15_apply, pay5_apply, bil_eq]
    simp only [View.ld, idx_slab0, idx_row0]
    rfl
  rw [pay1_apply]
  rw [pay29_apply (g := fun c => bil (k0_pay2 x0) (k0_pay4 (FloatOps.ofBits FTy.f32 1097859072#32) (k0_pay3 x0)) (View.ld x1 r0_7) p c)
    (bb := fun c => bil (k0_pay2 x0) (k0_pay4 (FloatOps.ofBits FTy.f32 1097859072#32) (k0_pay3 x0)) (View.ld x2 r0_7) p c)
    (hg0 := pay19_apply _ _ _ p) (hg1 := pay21_apply _ _ _ p) (hg2 := pay23_apply _ _ _ p) (hg3 := pay25_apply _ _ _ p)
    (hg4 := pay27_apply _ _ _ p) (hg5 := col5_apply _ _ _ p)
    (hb0 := pay20_apply _ _ _ p) (hb1 := pay22_apply _ _ _ p) (hb2 := pay24_apply _ _ _ p) (hb3 := pay26_apply _ _ _ p)
    (hb4 := pay28_apply _ _ _ p) (hb5 := col5'_apply _ _ _ p)]
  simp only [hH1, bil_eq]
  simp only [View.ld, idx_slab1, idx_row1]
  rfl

end Cert.KernelIdeal.KV

end
-- ==== Proof.KHost.lean ====
import proofs.«124617_j17678085390376_1_alg».proof.Proof.Gen.KernelIdeal.Frame
import proofs.«124617_j17678085390376_1_alg».proof.Proof.KDefs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KV

open Cert.KernelIdeal Cert.KernelIdeal.Gen Idealize.ShloMosaic Idealize.ShloMosaic.TcCoe Idealize.SL.Sem
open Idealize.ShloMosaic.ValueIdx Cert.Spec

/-- A table transposed to `[layer, x, channel, y]` and flattened: entry `(i, x, c · 16 + y)` is entry `(i, c, y, x)`. -/
theorem tbl_apply (a : S2x6x16x16.Idx → EReal) (i : Fin 2) (x : Fin 16) (ch : Fin 6) (y : Fin 16) :
    shapeCast S2x16x96 (transpose S2x16x6x16 [0, 3, 1, 2] a transposes_S2x6x16x16_S2x16x6x16_0_3_1_2) shapeCasts_S2x16x6x16_S2x16x96
      (ix3 i x (q96 ch y)) = a (ix4 i ch y x) := by
  refine (shapeCast_apply _ _ (ix3 i x (q96 ch y)) (ix4 i x ch y) ?_).trans ?_
  · rw [Shape.rowMajor_val_four, Shape.rowMajor_val_three]
    show ((i.val * 16 + x.val) * 6 + ch.val) * 16 + y.val = (i.val * 16 + x.val) * 96 + (ch.val * 16 + y.val)
    omega
  · exact transpose_apply [0, 3, 1, 2] _ transposes_S2x6x16x16_S2x16x6x16_0_3_1_2 (ix4 i x ch y) (ix4 i ch y x)
      (fun b => match b with
        | ⟨0, _⟩ => rfl
        | ⟨1, _⟩ => rfl
        | ⟨2, _⟩ => rfl
        | ⟨3, _⟩ => rfl)

variable (m : (ℓ : Loc nD τ sig) → Buf (Elt Ideal) ℓ)

theorem V_main_v1_apply (c : Dev nD) (i : Fin 2) (x : Fin 16) (ch : Fin 6) (y : Fin 16) :
    (V m c main_v1 : S2x16x96.Idx → EReal) (ix3 i x (q96 ch y)) = (m ((c : Thread nD τ).loc main_arg1) : S2x6x16x16.Idx → EReal) (ix4 i ch y x) :=
  (congrFun (show (V m c main_v1 : S2x16x96.Idx → EReal) = _ by dsimp only [Gen.V, Gen.hostOps0]; after_results; rfl) _).trans
    (tbl_apply _ i x ch y)

theorem V_main_v3_apply (c : Dev nD) (i : Fin 2) (x : Fin 16) (ch : Fin 6) (y : Fin 16) :
    (V m c main_v3 : S2x16x96.Idx → EReal) (ix3 i x (q96 ch y)) = (m ((c : Thread nD τ).loc main_arg2) : S2x6x16x16.Idx → EReal) (ix4 i ch y x) :=
  (congrFun (show (V m c main_v3 : S2x16x96.Idx → EReal) = _ by dsimp only [Gen.V, Gen.hostOps0]; after_results; rfl) _).trans
    (tbl_apply _ i x ch y)

end Cert.KernelIdeal.KV

end
-- ==== Proof.KBlocks.lean ====
import proofs.«124617_j17678085390376_1_alg».proof.Proof.Gen.KernelIdeal.Value
import proofs.«124617_j17678085390376_1_alg».proof.Proof.GDef
import proofs.«124617_j17678085390376_1_alg».proof.Proof.KRow
import proofs.«124617_j17678085390376_1_alg».proof.Proof.KHost
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KV

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

abbrev GA (c : Dev nD) : S2097152x3.Idx → EReal :=
  G (m ((c : Thread nD τ).loc main_arg0)) (paramsA (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)))

theorem idx_moving : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

theorem idx_tables : ∀ t : Fin cfg0.N, win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem idx_weights : ∀ t : Fin cfg0.N, win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Every parameter block is its whole array at every grid point. -/
theorem iblk1_eq (c : Dev nD) (t : Fin cfg0.N) :
    (iblk m c 1 t : Vec Ideal S2x16x96 .f32) = (V m c main_v1 : S2x16x96.Idx → EReal) := by
  obtain ⟨e0, e1, e2, e3, e4, e5⟩ := idx_tables t
  funext y
  unfold iblk
  rw [View.read_apply]
  show V m c main_v1 _ = _
  refine congrArg _ (funext fun a => Fin.ext ?_)
  match a with
  | ⟨0, _⟩ => show win0_1.index t (0 : Fin 3) * 2 + 1 * (y 0).val = (y 0).val; omega
  | ⟨1, _⟩ => show win0_1.index t (1 : Fin 3) * 16 + 1 * (y 1).val = (y 1).val; omega
  | ⟨2, _⟩ => show win0_1.index t (2 : Fin 3) * 96 + 1 * (y 2).val = (y 2).val; omega

theorem iblk2_eq (c : Dev nD) (t : Fin cfg0.N) :
    (iblk m c 2 t : Vec Ideal S2x16x96 .f32) = (V m c main_v3 : S2x16x96.Idx → EReal) := by
  obtain ⟨e0, e1, e2, e3, e4, e5⟩ := idx_tables t
  funext y
  unfold iblk
  rw [View.read_apply]
  show V m c main_v3 _ = _
  refine congrArg _ (funext fun a => Fin.ext ?_)
  match a with
  | ⟨0, _⟩ => show win0_2.index t (0 : Fin 3) * 2 + 1 * (y 0).val = (y 0).val; omega
  | ⟨1, _⟩ => show win0_2.index t (1 : Fin 3) * 16 + 1 * (y 1).val = (y 1).val; omega
  | ⟨2, _⟩ => show win0_2.index t (2 : Fin 3) * 96 + 1 * (y 2).val = (y 2).val; omega

theorem iblk3_eq (c : Dev nD) (t : Fin cfg0.N) :
    (iblk m c 3 t : Vec Ideal S6x2 .f32) = (m ((c : Thread nD τ).loc main_arg3) : S6x2.Idx → EReal) := by
  obtain ⟨e0, e1, e2, e3, e4, e5, e6, e7, e8, e9, e10, e11, e12, e13, e14⟩ := idx_weights t
  funext y
  unfold iblk
  rw [View.read_apply]
  show V m c main_arg3 _ = _
  rw [V_main_arg3]
  refine congrArg _ (funext fun a => Fin.ext ?_)
  match a with
  | ⟨0, _⟩ => show win0_3.index t (0 : Fin 2) * 6 + 1 * (y 0).val = (y 0).val; omega
  | ⟨1, _⟩ => show win0_3.index t (1 : Fin 2) * 2 + 1 * (y 1).val = (y 1).val; omega

theorem iblk4_eq (c : Dev nD) (t : Fin cfg0.N) :
    (iblk m c 4 t : Vec Ideal S6 .f32) = (m ((c : Thread nD τ).loc main_arg4) : S6.Idx → EReal) := by
  obtain ⟨e0, e1, e2, e3, e4, e5, e6, e7, e8, e9, e10, e11, e12, e13, e14⟩ := idx_weights t
  funext y
  unfold iblk
  rw [View.read_apply]
  show V m c main_arg4 _ = _
  rw [V_main_arg4]
  refine congrArg _ (funext fun a => Fin.ext ?_)
  match a with
  | ⟨0, _⟩ => show win0_4.index t (0 : Fin 1) * 6 + 1 * (y 0).val = (y 0).val; omega

theorem iblk5_eq (c : Dev nD) (t : Fin cfg0.N) :
    (iblk m c 5 t : Vec Ideal S1x6x6 .f32) = (m ((c : Thread nD τ).loc main_arg5) : S1x6x6.Idx → EReal) := by
  obtain ⟨e0, e1, e2, e3, e4, e5, e6, e7, e8, e9, e10, e11, e12, e13, e14⟩ := idx_weights t
  funext y
  unfold iblk
  rw [View.read_apply]
  show V m c main_arg5 _ = _
  rw [V_main_arg5]
  refine congrArg _ (funext fun a => Fin.ext ?_)
  match a with
  | ⟨0, _⟩ => show win0_5.index t (0 : Fin 3) * 1 + 1 * (y 0).val = (y 0).val; omega
  | ⟨1, _⟩ => show win0_5.index t (1 : Fin 3) * 6 + 1 * (y 1).val = (y 1).val; omega
  | ⟨2, _⟩ => show win0_5.index t (2 : Fin 3) * 6 + 1 * (y 2).val = (y 2).val; omega

theorem iblk6_eq (c : Dev nD) (t : Fin cfg0.N) :
    (iblk m c 6 t : Vec Ideal S1x6 .f32) = (m ((c : Thread nD τ).loc main_arg6) : S1x6.Idx → EReal) := by
  obtain ⟨e0, e1, e2, e3, e4, e5, e6, e7, e8, e9, e10, e11, e12, e13, e14⟩ := idx_weights t
  funext y
  unfold iblk
  rw [View.read_apply]
  show V m c main_arg6 _ = _
  rw [V_main_arg6]
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 6 + 1 * (y 1).val = (y 1).val; omega

theorem iblk7_eq (c : Dev nD) (t : Fin cfg0.N) :
    (iblk m c 7 t : Vec Ideal S3x6 .f32) = (m ((c : Thread nD τ).loc main_arg7) : S3x6.Idx → EReal) := by
  obtain ⟨e0, e1, e2, e3, e4, e5, e6, e7, e8, e9, e10, e11, e12, e13, e14⟩ := idx_weights t
  funext y
  unfold iblk
  rw [View.read_apply]
  show V m c main_arg7 _ = _
  rw [V_main_arg7]
  refine congrArg _ (funext fun a => Fin.ext ?_)
  match a with
  | ⟨0, _⟩ => show win0_7.index t (0 : Fin 2) * 3 + 1 * (y 0).val = (y 0).val; omega
  | ⟨1, _⟩ => show win0_7.index t (1 : Fin 2) * 6 + 1 * (y 1).val = (y 1).val; omega

theorem iblk8_eq (c : Dev nD) (t : Fin cfg0.N) :
    (iblk m c 8 t : Vec Ideal S3 .f32) = (m ((c : Thread nD τ).loc main_arg8) : S3.Idx → EReal) := by
  obtain ⟨e0, e1, e2, e3, e4, e5, e6, e7, e8, e9, e10, e11, e12, e13, e14⟩ := idx_weights t
  funext y
  unfold iblk
  rw [View.read_apply]
  show V m c main_arg8 _ = _
  rw [V_main_arg8]
  refine congrArg _ (funext fun a => Fin.ext ?_)
  match a with
  | ⟨0, _⟩ => show win0_8.index t (0 : Fin 1) * 3 + 1 * (y 0).val = (y 0).val; omega

theorem iblk9_eq (c : Dev nD) (t : Fin cfg0.N) :
    (iblk m c 9 t : Vec Ideal S2x6 .f32) = (m ((c : Thread nD τ).loc main_arg9) : S2x6.Idx → EReal) := by
  obtain ⟨e0, e1, e2, e3, e4, e5, e6, e7, e8, e9, e10, e11, e12, e13, e14⟩ := idx_weights t
  funext y
  unfold iblk
  rw [View.read_apply]
  show V m c main_arg9 _ = _
  rw [V_main_arg9]
  refine congrArg _ (funext fun a => Fin.ext ?_)
  match a with
  | ⟨0, _⟩ => show win0_9.index t (0 : Fin 2) * 2 + 1 * (y 0).val = (y 0).val; omega
  | ⟨1, _⟩ => show win0_9.index t (1 : Fin 2) * 6 + 1 * (y 1).val = (y 1).val; omega

theorem iblk10_eq (c : Dev nD) (t : Fin cfg0.N) :
    (iblk m c 10 t : Vec Ideal S2x6 .f32) = (m ((c : Thread nD τ).loc main_arg10) : S2x6.Idx → EReal) := by
  obtain ⟨e0, e1, e2, e3, e4, e5, e6, e7, e8, e9, e10, e11, e12, e13, e14⟩ := idx_weights t
  funext y
  unfold iblk
  rw [View.read_apply]
  show V m c main_arg10 _ = _
  rw [V_main_arg10]
  refine congrArg _ (funext fun a => Fin.ext ?_)
  match a with
  | ⟨0, _⟩ => show win0_10.index t (0 : Fin 2) * 2 + 1 * (y 0).val = (y 0).val; omega
  | ⟨1, _⟩ => show win0_10.index t (1 : Fin 2) * 6 + 1 * (y 1).val = (y 1).val; omega

/-- Row `p` of block `t` of the query array is row `8192 · t + p`. -/
theorem iblk0_apply (c : Dev nD) (t : Fin cfg0.N) (p : Fin 8192) (k : Fin 2) (r : Fin 2097152) (hr : r.val = 8192 * t.val + p.val) :
    (iblk m c 0 t : Vec Ideal S8192x2 .f32) (ix2 p k) = (m ((c : Thread nD τ).loc main_arg0) : S2097152x2.Idx → EReal) (ix2 r k) := by
  obtain ⟨e0, e1, -⟩ := idx_moving t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = r.val; omega
  | ⟨1, _⟩ => show win0_0.index t (1 : Fin 2) * 2 + 1 * k.val = k.val; omega

theorem params_eq (c : Dev nD) (t : Fin cfg0.N) :
    paramsK (iblk m c 1 t) (iblk m c 2 t) (iblk m c 3 t) (iblk m c 4 t) (iblk m c 5 t) (iblk m c 6 t) (iblk m c 7 t) (iblk m c 8 t)
        (iblk m c 9 t) (iblk m c 10 t)
      = paramsA (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) := by
  unfold paramsK paramsA
  congr 1
  · funext i ch y x
    exact (congrFun (iblk1_eq m c t) _).trans (V_main_v1_apply m c i x ch y)
  · funext i ch y x
    exact (congrFun (iblk2_eq m c t) _).trans (V_main_v3_apply m c i x ch y)
  · funext j k; exact congrFun (iblk3_eq m c t) _
  · funext j; exact congrFun (iblk4_eq m c t) _
  · funext j k; exact congrFun (iblk5_eq m c t) _
  · funext j; exact congrFun (iblk6_eq m c t) _
  · funext o k; exact congrFun (iblk7_eq m c t) _
  · funext o; exact congrFun (iblk8_eq m c t) _
  · funext i k; exact congrFun (iblk9_eq m c t) _
  · funext i k; exact congrFun (iblk10_eq m c t) _

/-- Grid point `t` writes back rows `8192 · t …` of the result array `GA`. -/
theorem flushed_eq (c : Dev nD) (t : Fin cfg0.N) :
    (dats m 0 c).flushed 11 t = ((cfg0.win 11).blk t).view.read (Elt Ideal) (GA m c) := by
  rw [Value.flushed11]
  obtain ⟨-, -, e2, e3⟩ := idx_moving t
  have ht : t.val < 256 := t.isLt
  refine funext fun (y : S8192x3.Idx) => ?_
  have h0 : (y 0).val < 8192 := (y 0).isLt
  have h1 : (y 1).val < 3 := (y 1).isLt
  rw [View.read_apply]
  have hy : (cfg0.win 11).xinj (grid0.coords t) y = ix2 (y 0) (y 1) := by
    funext a
    match a with
    | ⟨0, _⟩ => rfl
    | ⟨1, _⟩ => rfl
  have hr : ((cfg0.win 11).blk t).view.emb y = ix2 (⟨8192 * t.val + (y 0).val, by omega⟩ : Fin 2097152) (y 1) := by
    funext a
    apply Fin.ext
    match a with
    | ⟨0, _⟩ => show win0_11.index t (0 : Fin 2) * 8192 + 1 * (y 0).val = 8192 * t.val + (y 0).val; omega
    | ⟨1, _⟩ => show win0_11.index t (1 : Fin 2) * 3 + 1 * (y 1).val = (y 1).val; omega
  refine (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) hy).trans ?_
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1)).trans ?_
  refine Eq.trans ?_ (congrArg (GA m c) hr).symm
  rw [params_eq m c t]
  show _ = rowK _ (fun k => (m ((c : Thread nD τ).loc main_arg0) : S2097152x2.Idx → EReal) (ix2 (⟨8192 * t.val + (y 0).val, by omega⟩ : Fin 2097152) k)) (y 1)
  exact congrArg (fun xy => rowK _ xy (y 1)) (funext fun k => iblk0_apply m c t (y 0) k _ rfl)

theorem mem_blk (t : Fin cfg0.N) (i : S2097152x3.Idx) :
    i ∈ ((cfg0.win 11).blk t).view.set ↔ ∀ a : Fin 2, win0_11.index t a * S8192x3.size a ≤ (i a).val ∧ (i a).val < win0_11.index t a * S8192x3.size a + S8192x3.size a := by
  show i ∈ ((View.whole main_v4).slice (win0_11.rect t)).set ↔ _
  rw [View.set_slice_whole, Rect.mem_set_unit]
  exact Iff.rfl

/-- The 256 blocks of 8192 rows tile the result array. -/
theorem cover (i : S2097152x3.Idx) : ∃ t : Fin cfg0.N, (cfg0.win 11).flush t = true ∧ i ∈ ((cfg0.win 11).blk t).view.set := by
  have hi0 : (i 0).val < 2097152 := (i 0).isLt
  have hi1 : (i 1).val < 3 := (i 1).isLt
  obtain ⟨t, ht⟩ : ∃ t : Fin cfg0.N, t.val = (i 0).val / 8192 := ⟨⟨(i 0).val / 8192, by show _ < 256; omega⟩, rfl⟩
  obtain ⟨-, -, e2, e3⟩ := idx_moving t
  refine ⟨t, flush0_11 t, ?_⟩
  rw [mem_blk]
  intro a
  match a with
  | ⟨0, _⟩ => show win0_11.index t (0 : Fin 2) * 8192 ≤ (i 0).val ∧ (i 0).val < win0_11.index t (0 : Fin 2) * 8192 + 8192; omega
  | ⟨1, _⟩ => show win0_11.index t (1 : Fin 2) * 3 ≤ (i 1).val ∧ (i 1).val < win0_11.index t (1 : Fin 2) * 3 + 3; omega

theorem final (c : Dev nD) : (dats m 0 c).arrAt 11 cfg0.N = GA m c := by
  exact (dats m 0 c).arrAt_eq_of_cover 11 (GA m c) (fun t _ => flushed_eq m c t) cover

theorem run : θ_run defs (onTc (τ := τ) (main (F := Ideal))) ⟨m, fun _ => 0, ρ⟩ fun r => ∀ c : Dev nD,
      r.2.mem ((c : Thread nD τ).loc main_v4) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.KV

end
-- ==== Proof.RefBilin.lean ====
import proofs.«124617_j17678085390376_1_alg».proof.Proof.RefRead
import proofs.«124617_j17678085390376_1_alg».proof.Proof.Spec
import proofs.«124617_j17678085390376_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RV

open Cert.ReferenceIdeal Cert.ReferenceIdeal.ReadP Idealize.ShloMosaic Idealize.ShloMosaic.ValueIdx Cert.Spec

abbrev XY := (⟨S2097152x2, .f32⟩ : BufTy).Contents (Elt Ideal)
abbrev Tab := (⟨S2x6x16x16, .f32⟩ : BufTy).Contents (Elt Ideal)

abbrev G := gather_S6x16x16_S2097152x2_S6x2097152_0_12_n_n_12_1_611

def clampIx {w : Nat} (b : BitVec w) : Fin 16 := ⟨min b.toInt.toNat 15, by omega⟩

/-- The gather reads, for channel `c` and point `n`, the table at the two clamped indices of row `n`. -/
theorem gather_corner {α : Type} {w : Nat} (T : S6x16x16.Idx → α) (idx : IVec S2097152x2 w) (c : Fin 6) (n : Fin 2097152) :
    Host.gather G T idx (ix2 c n)
      = T (ix3 c (clampIx (idx (ix2 n (0 : Fin 2)))) (clampIx (idx (ix2 n (1 : Fin 2))))) := by
  unfold Host.gather
  congr 1
  funext a
  refine Fin.ext ?_
  show G.start (ix2 c n) idx a + G.batchCoord (ix2 c n) a + G.offCoord (ix2 c n) a = _
  rw [GatherDims.batchCoord_eq_zero _ _ _ List.not_mem_nil]
  match a with
  | ⟨0, _⟩ =>
    have hs : G.start (ix2 c n) idx (0 : Fin 3) = 0 := by
      unfold GatherDims.start; rw [dif_neg (by decide)]
    have ho : G.offCoord (ix2 c n) (0 : Fin 3) = c.val := by
      unfold GatherDims.offCoord; rw [dif_pos (by decide)]; rfl
    show G.start (ix2 c n) idx (0 : Fin 3) + 0 + G.offCoord (ix2 c n) (0 : Fin 3) = c.val
    rw [hs, ho]; omega
  | ⟨1, _⟩ =>
    have ho : G.offCoord (ix2 c n) (1 : Fin 3) = 0 := GatherDims.offCoord_eq_zero _ _ _ (by decide)
    have hs : G.start (ix2 c n) idx (1 : Fin 3) = min (idx (ix2 n (0 : Fin 2))).toInt.toNat 15 := by
      unfold GatherDims.start
      rw [dif_pos (show (1 : Fin 3) ∈ G.startIndexMap by decide)]
      have hsi : G.siIdx (ix2 c n) ⟨List.idxOf (1 : Fin 3) G.startIndexMap, List.idxOf_lt_length_iff.2 (by decide)⟩
          = ix2 n (0 : Fin 2) := by
        funext b; refine Fin.ext ?_
        match b with
        | ⟨0, _⟩ => rfl
        | ⟨1, _⟩ => rfl
      rw [hsi]; rfl
    show G.start (ix2 c n) idx (1 : Fin 3) + 0 + G.offCoord (ix2 c n) (1 : Fin 3) = min (idx (ix2 n (0 : Fin 2))).toInt.toNat 15
    rw [hs, ho]; rfl
  | ⟨2, _⟩ =>
    have ho : G.offCoord (ix2 c n) (2 : Fin 3) = 0 := GatherDims.offCoord_eq_zero _ _ _ (by decide)
    have hs : G.start (ix2 c n) idx (2 : Fin 3) = min (idx (ix2 n (1 : Fin 2))).toInt.toNat 15 := by
      unfold GatherDims.start
      rw [dif_pos (show (2 : Fin 3) ∈ G.startIndexMap by decide)]
      have hsi : G.siIdx (ix2 c n) ⟨List.idxOf (2 : Fin 3) G.startIndexMap, List.idxOf_lt_length_iff.2 (by decide)⟩
          = ix2 n (1 : Fin 2) := by
        funext b; refine Fin.ext ?_
        match b with
        | ⟨0, _⟩ => rfl
        | ⟨1, _⟩ => rfl
      rw [hsi]; rfl
    show G.start (ix2 c n) idx (2 : Fin 3) + 0 + G.offCoord (ix2 c n) (2 : Fin 3) = min (idx (ix2 n (1 : Fin 2))).toInt.toNat 15
    rw [hs, ho]; rfl

section Layout
variable {α : Type}

theorem concat_col0 (a b : S2097152x1.Idx → α) (h : Shape.Concatenates [S2097152x1, S2097152x1] S2097152x2 1)
    (n : Fin 2097152) :
    concatenate S2097152x2 1 [⟨S2097152x1, a⟩, ⟨S2097152x1, b⟩] h (ix2 n (0 : Fin 2)) = a (ix2 n (0 : Fin 1)) :=
  concatenate_pair_apply_left 1 a b h _ rfl _ (fun d => match d with | ⟨0, _⟩ => rfl | ⟨1, _⟩ => rfl)

theorem concat_col1 (a b : S2097152x1.Idx → α) (h : Shape.Concatenates [S2097152x1, S2097152x1] S2097152x2 1)
    (n : Fin 2097152) :
    concatenate S2097152x2 1 [⟨S2097152x1, a⟩, ⟨S2097152x1, b⟩] h (ix2 n (1 : Fin 2)) = b (ix2 n (0 : Fin 1)) :=
  concatenate_pair_apply_right 1 a b h _ rfl rfl _
    (fun d hd => match d, hd with | ⟨0, _⟩, _ => rfl | ⟨1, _⟩, hd => absurd rfl hd) rfl

theorem bcol (v : S2097152.Idx → α) (h : S2097152.BroadcastsInDim S2097152x1 (![0] : Fin 1 → Fin S2097152x1.rank))
    (n : Fin 2097152) : broadcastInDim S2097152x1 ![0] h v (ix2 n (0 : Fin 1)) = v (ix1 n) :=
  broadcastInDim_apply _ h v _ _ (fun a => match a with
    | ⟨0, _⟩ => by show n.val = if (2097152 : Nat) = 1 then 0 else n.val; rw [if_neg (by decide)])

theorem brow (f : S2097152.Idx → α) (h1 : S2097152.BroadcastsInDim S1x2097152 (![1] : Fin 1 → Fin S1x2097152.rank))
    (h2 : S1x2097152.BroadcastsInDim S6x2097152 (![0, 1] : Fin 2 → Fin S6x2097152.rank)) (c : Fin 6) (n : Fin 2097152) :
    broadcastInDim S6x2097152 ![0, 1] h2 (broadcastInDim S1x2097152 ![1] h1 f) (ix2 c n) = f (ix1 n) := by
  rw [broadcastInDim_apply _ h2 _ (ix2 c n) (ix2 (0 : Fin 1) n) (fun a => match a with
    | ⟨0, _⟩ => by show 0 = if (1 : Nat) = 1 then 0 else c.val; rw [if_pos rfl]
    | ⟨1, _⟩ => by show n.val = if (2097152 : Nat) = 1 then 0 else n.val; rw [if_neg (by decide)])]
  exact broadcastInDim_apply _ h1 f _ _ (fun a => match a with
    | ⟨0, _⟩ => by show n.val = if (2097152 : Nat) = 1 then 0 else n.val; rw [if_neg (by decide)])

theorem transp (y : S6x2097152.Idx → α) (h : S6x2097152.Transposes [1, 0] S2097152x6) (n : Fin 2097152) (c : Fin 6) :
    transpose S2097152x6 [1, 0] y h (ix2 n c) = y (ix2 c n) :=
  transpose_apply [1, 0] y h _ _ (fun b => match b with | ⟨0, _⟩ => rfl | ⟨1, _⟩ => rfl)

theorem col0 (y : S2097152x2.Idx → α) (hs : S2097152x2.Slices ![0, 0] S2097152x1) (hc : S2097152x1.ShapeCasts S2097152)
    (n : Fin 2097152) : shapeCast S2097152 (extractStridedSlice S2097152x1 ![0, 0] y hs) hc (ix1 n) = y (ix2 n (0 : Fin 2)) := by
  rw [shapeCast_apply _ hc (ix1 n) (ix2 n (0 : Fin 1))
    (by rewrite [Shape.rowMajor_val_two, Shape.rowMajor_val_one]; show n.val * 1 + 0 = n.val; omega)]
  exact extractStridedSlice_apply ![0, 0] y hs _ _ (fun a => match a with
    | ⟨0, _⟩ => by show n.val = 0 + n.val; omega
    | ⟨1, _⟩ => rfl)

theorem col1 (y : S2097152x2.Idx → α) (hs : S2097152x2.Slices ![0, 1] S2097152x1) (hc : S2097152x1.ShapeCasts S2097152)
    (n : Fin 2097152) : shapeCast S2097152 (extractStridedSlice S2097152x1 ![0, 1] y hs) hc (ix1 n) = y (ix2 n (1 : Fin 2)) := by
  rw [shapeCast_apply _ hc (ix1 n) (ix2 n (0 : Fin 1))
    (by rewrite [Shape.rowMajor_val_two, Shape.rowMajor_val_one]; show n.val * 1 + 0 = n.val; omega)]
  exact extractStridedSlice_apply ![0, 1] y hs _ _ (fun a => match a with
    | ⟨0, _⟩ => by show n.val = 0 + n.val; omega
    | ⟨1, _⟩ => rfl)

theorem slab0 (t : S2x6x16x16.Idx → α) (hs : S2x6x16x16.Slices ![0, 0, 0, 0] S1x6x16x16) (hc : S1x6x16x16.ShapeCasts S6x16x16)
    (c : Fin 6) (y x : Fin 16) :
    shapeCast S6x16x16 (extractStridedSlice S1x6x16x16 ![0, 0, 0, 0] t hs) hc (ix3 c y x) = t (ix4 (0 : Fin 2) c y x) := by
  rw [shapeCast_apply _ hc (ix3 c y x) (ix4 (0 : Fin 1) c y x)
    (by rewrite [Shape.rowMajor_val_four, Shape.rowMajor_val_three]
        show ((0 * 6 + c.val) * 16 + y.val) * 16 + x.val = (c.val * 16 + y.val) * 16 + x.val; omega)]
  exact extractStridedSlice_apply ![0, 0, 0, 0] t hs _ _ (fun a => match a with
    | ⟨0, _⟩ => rfl
    | ⟨1, _⟩ => by show c.val = 0 + c.val; omega
    | ⟨2, _⟩ => by show y.val = 0 + y.val; omega
    | ⟨3, _⟩ => by show x.val = 0 + x.val; omega)

theorem slab1 (t : S2x6x16x16.Idx → α) (hs : S2x6x16x16.Slices ![1, 0, 0, 0] S1x6x16x16) (hc : S1x6x16x16.ShapeCasts S6x16x16)
    (c : Fin 6) (y x : Fin 16) :
    shapeCast S6x16x16 (extractStridedSlice S1x6x16x16 ![1, 0, 0, 0] t hs) hc (ix3 c y x) = t (ix4 (1 : Fin 2) c y x) := by
  rw [shapeCast_apply _ hc (ix3 c y x) (ix4 (0 : Fin 1) c y x)
    (by rewrite [Shape.rowMajor_val_four, Shape.rowMajor_val_three]
        show ((0 * 6 + c.val) * 16 + y.val) * 16 + x.val = (c.val * 16 + y.val) * 16 + x.val; omega)]
  exact extractStridedSlice_apply ![1, 0, 0, 0] t hs _ _ (fun a => match a with
    | ⟨0, _⟩ => rfl
    | ⟨1, _⟩ => by show c.val = 0 + c.val; omega
    | ⟨2, _⟩ => by show y.val = 0 + y.val; omega
    | ⟨3, _⟩ => by show x.val = 0 + x.val; omega)

end Layout

section Prog

abbrev VF := FVec Ideal S2097152 .f32
abbrev VI := IVec S2097152 32
abbrev Slab := FVec Ideal S6x16x16 .f32
abbrev Rows := FVec Ideal S6x2097152 .f32

def cstI (b : BitVec 32) : VI := broadcastInDim S2097152 ![] Gen.bcast_S_S2097152 (constantI S_ 32 b)

def cstF (b : BitVec 32) : VF := broadcastInDim S2097152 ![] Gen.bcast_S_S2097152 (constant (F := Ideal) S_ .f32 b)

def loV (X : VF) : VI := fptosi (F := Ideal) 32 (Host.floor (F := Ideal) X)

def hiV (X : VF) : VI := minsi (addi (loV X) (cstI 1#32)) (cstI 15#32)

def wrapV (b : VI) : VI := select (cmpi .slt b (cstI 0#32)) (addi b (cstI 16#32)) b

def frV (X : VF) : VF := subf (F := Ideal) X (Host.floor (F := Ideal) X)

def cornerV (T : Slab) (a b : VI) : Rows :=
  Host.gather G T (concatenate S2097152x2 1
    [⟨S2097152x1, broadcastInDim S2097152x1 ![0] Gen.bcast_S2097152_S2097152x1_0 a⟩,
     ⟨S2097152x1, broadcastInDim S2097152x1 ![0] Gen.bcast_S2097152_S2097152x1_0 b⟩]
    Gen.concatenates_S2097152x1_S2097152x1_S2097152x2_d1)

def rowsV (f : VF) : Rows :=
  broadcastInDim S6x2097152 ![0, 1] Gen.bcast_S1x2097152_S6x2097152_0_1
    (broadcastInDim S1x2097152 ![1] Gen.bcast_S2097152_S1x2097152_1 f)

theorem cstF_apply (b : BitVec 32) (i : S2097152.Idx) : cstF b i = Ideal.ofBits .f32 b := rfl
theorem rowsV_apply (f : VF) (c : Fin 6) (n : Fin 2097152) : rowsV f (ix2 c n) = f (ix1 n) := brow f _ _ c n
theorem cornerV_apply (T : Slab) (a b : VI) (c : Fin 6) (n : Fin 2097152) :
    cornerV T a b (ix2 c n)
      = T (ix3 c (clampIx (a (ix1 n))) (clampIx (b (ix1 n)))) := by
  unfold cornerV
  rw [gather_corner, concat_col0, concat_col1, bcol, bcol]
theorem wrapV_lo (X : VF) (i : S2097152.Idx) : wrapV (loV X) i = wrap (lo (X i)) := rfl
theorem wrapV_hi (X : VF) (i : S2097152.Idx) : wrapV (hiV X) i = wrap (hi (X i)) := rfl
theorem frV_apply (X : VF) (i : S2097152.Idx) : frV X i = fr (X i) := rfl

end Prog

section Sample

def sampleV (T : Slab) (X Y : VF) : FVec Ideal S2097152x6 .f32 :=
  transpose S2097152x6 [1, 0]
    (addf (F := Ideal)
      (mulf (F := Ideal)
        (addf (F := Ideal)
          (mulf (F := Ideal) (cornerV T (wrapV (loV Y)) (wrapV (loV X))) (rowsV (subf (F := Ideal) (cstF 0x3F800000#32) (frV X))))
          (mulf (F := Ideal) (cornerV T (wrapV (loV Y)) (wrapV (hiV X))) (rowsV (frV X))))
        (rowsV (subf (F := Ideal) (cstF 0x3F800000#32) (frV Y))))
      (mulf (F := Ideal)
        (addf (F := Ideal)
          (mulf (F := Ideal) (cornerV T (wrapV (hiV Y)) (wrapV (loV X))) (rowsV (subf (F := Ideal) (cstF 0x3F800000#32) (frV X))))
          (mulf (F := Ideal) (cornerV T (wrapV (hiV Y)) (wrapV (hiV X))) (rowsV (frV X))))
        (rowsV (frV Y))))
    Gen.transposes_S6x2097152_S2097152x6_1_0

/-- The reference's sampling stretch at `(n, c)` is the four-corner blend of channel `c`'s table. -/
theorem sampleV_apply (T : Slab) (X Y : VF) (n : Fin 2097152) (c : Fin 6) :
    sampleV T X Y (ix2 n c) = bilinR (fun y x => T (ix3 c y x)) (X (ix1 n)) (Y (ix1 n)) := by
  unfold sampleV
  rw [transp]
  simp only [addf_apply, mulf_apply, subf_apply, rowsV_apply, cornerV_apply, wrapV_lo, wrapV_hi, frV_apply, cstF_apply]
  rfl

def coordV (u : FVec Ideal S2097152x2 .f32) : FVec Ideal S2097152x2 .f32 :=
  minimumf (F := Ideal) (broadcastInDim S2097152x2 ![] Gen.bcast_S_S2097152x2 (constant (F := Ideal) S_ .f32 0x41700000#32))
    (maximumf (F := Ideal) (broadcastInDim S2097152x2 ![] Gen.bcast_S_S2097152x2 (constant (F := Ideal) S_ .f32 0x00000000#32))
      (mulf (F := Ideal)
        (mulf (F := Ideal)
          (addf (F := Ideal) u (broadcastInDim S2097152x2 ![] Gen.bcast_S_S2097152x2 (constant (F := Ideal) S_ .f32 0x3F800000#32)))
          (broadcastInDim S2097152x2 ![] Gen.bcast_S_S2097152x2 (constant (F := Ideal) S_ .f32 0x3F000000#32)))
        (broadcastInDim S2097152x2 ![] Gen.bcast_S_S2097152x2 (constant (F := Ideal) S_ .f32 0x41700000#32))))

theorem coordV_apply (u : FVec Ideal S2097152x2 .f32) (i : S2097152x2.Idx) : coordV u i = coordR (u i) := rfl

def sampleP (u : FVec Ideal S2097152x2 .f32) (T : Slab) : FVec Ideal S2097152x6 .f32 :=
  sampleV T
    (shapeCast S2097152 (extractStridedSlice S2097152x1 ![0, 0] (coordV u) Gen.slices_S2097152x2_S2097152x1_0_0)
      Gen.shapeCasts_S2097152x1_S2097152)
    (shapeCast S2097152 (extractStridedSlice S2097152x1 ![0, 1] (coordV u) Gen.slices_S2097152x2_S2097152x1_0_1)
      Gen.shapeCasts_S2097152x1_S2097152)

theorem sampleP_apply (u : FVec Ideal S2097152x2 .f32) (T : Slab) (n : Fin 2097152) (c : Fin 6) :
    sampleP u T (ix2 n c)
      = bilinR (fun y x => T (ix3 c y x)) (coordR (u (ix2 n (0 : Fin 2)))) (coordR (u (ix2 n (1 : Fin 2)))) := by
  unfold sampleP
  rw [sampleV_apply, col0, col1, coordV_apply, coordV_apply]

end Sample

theorem v116_apply (x0 : XY) (x1 : Tab) (n : Fin 2097152) (c : Fin 6) :
    val_main_v116 (F := Ideal) x0 x1 (ix2 n c)
      = bilinR (fun y x => x1 (ix4 (0 : Fin 2) c y x)) (coordR (x0 (ix2 n (0 : Fin 2)))) (coordR (x0 (ix2 n (1 : Fin 2)))) := by
  have e : val_main_v116 (F := Ideal) x0 x1 = sampleP x0 (val_main_v7 (F := Ideal) x1) := rfl
  have hT : (fun y x => val_main_v7 (F := Ideal) x1 (ix3 c y x)) = fun y x => x1 (ix4 (0 : Fin 2) c y x) := by
    funext y x; exact slab0 x1 _ _ c y x
  rw [e, sampleP_apply, hT]

theorem v227_apply (x0 : XY) (x2 : Tab) (n : Fin 2097152) (c : Fin 6) :
    val_main_v227 (F := Ideal) x0 x2 (ix2 n c)
      = bilinR (fun y x => x2 (ix4 (0 : Fin 2) c y x)) (coordR (x0 (ix2 n (0 : Fin 2)))) (coordR (x0 (ix2 n (1 : Fin 2)))) := by
  have e : val_main_v227 (F := Ideal) x0 x2 = sampleP x0 (val_main_v118 (F := Ideal) x2) := rfl
  have hT : (fun y x => val_main_v118 (F := Ideal) x2 (ix3 c y x)) = fun y x => x2 (ix4 (0 : Fin 2) c y x) := by
    funext y x; exact slab0 x2 _ _ c y x
  rw [e, sampleP_apply, hT]

theorem v376_apply (x0 : XY) (x1 : Tab) (n : Fin 2097152) (c : Fin 6) :
    val_main_v376 (F := Ideal) x0 x1 (ix2 n c)
      = bilinR (fun y x => x1 (ix4 (1 : Fin 2) c y x)) (coordR (x0 (ix2 n (0 : Fin 2)))) (coordR (x0 (ix2 n (1 : Fin 2)))) := by
  have e : val_main_v376 (F := Ideal) x0 x1 = sampleP x0 (val_main_v267 (F := Ideal) x1) := rfl
  have hT : (fun y x => val_main_v267 (F := Ideal) x1 (ix3 c y x)) = fun y x => x1 (ix4 (1 : Fin 2) c y x) := by
    funext y x; exact slab1 x1 _ _ c y x
  rw [e, sampleP_apply, hT]

theorem v487_apply (x0 : XY) (x2 : Tab) (n : Fin 2097152) (c : Fin 6) :
    val_main_v487 (F := Ideal) x0 x2 (ix2 n c)
      = bilinR (fun y x => x2 (ix4 (1 : Fin 2) c y x)) (coordR (x0 (ix2 n (0 : Fin 2)))) (coordR (x0 (ix2 n (1 : Fin 2)))) := by
  have e : val_main_v487 (F := Ideal) x0 x2 = sampleP x0 (val_main_v378 (F := Ideal) x2) := rfl
  have hT : (fun y x => val_main_v378 (F := Ideal) x2 (ix3 c y x)) = fun y x => x2 (ix4 (1 : Fin 2) c y x) := by
    funext y x; exact slab1 x2 _ _ c y x
  rw [e, sampleP_apply, hT]

end Cert.ReferenceIdeal.RV

end
-- ==== Proof.RefMlp.lean ====
import proofs.«124617_j17678085390376_1_alg».proof.Proof.RefRead
import proofs.«124617_j17678085390376_1_alg».proof.Proof.Spec
import proofs.«124617_j17678085390376_1_alg».proof.Proof.LibDense
import proofs.«124617_j17678085390376_1_alg».proof.Proof.RefBilin
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RV

open Cert.ReferenceIdeal Cert.ReferenceIdeal.ReadP Idealize.ShloMosaic Idealize.ShloMosaic.ValueIdx Cert.Spec

def paramsR (x1 x2 : Tab) (x3 : (⟨S6x2, .f32⟩ : BufTy).Contents (Elt Ideal)) (x4 : (⟨S6, .f32⟩ : BufTy).Contents (Elt Ideal))
    (x5 : (⟨S1x6x6, .f32⟩ : BufTy).Contents (Elt Ideal)) (x6 : (⟨S1x6, .f32⟩ : BufTy).Contents (Elt Ideal))
    (x7 : (⟨S3x6, .f32⟩ : BufTy).Contents (Elt Ideal)) (x8 : (⟨S3, .f32⟩ : BufTy).Contents (Elt Ideal))
    (x9 x10 : (⟨S2x6, .f32⟩ : BufTy).Contents (Elt Ideal)) : Params where
  gam i c y x := x1 (ix4 i c y x)
  bet i c y x := x2 (ix4 i c y x)
  win j k := x3 (ix2 j k)
  bin j := x4 (ix1 j)
  wh j k := x5 (ix3 (0 : Fin 1) j k)
  bh j := x6 (ix2 (0 : Fin 1) j)
  wout o k := x7 (ix2 o k)
  bout o := x8 (ix1 o)
  lnw i k := x9 (ix2 i k)
  lnb i k := x10 (ix2 i k)

local macro "idx1" : tactic => `(tactic| (funext a; match a with | ⟨0, _⟩ => rfl))

local macro "idx2" : tactic => `(tactic| (funext a; match a with | ⟨0, _⟩ => rfl | ⟨1, _⟩ => rfl))

local macro "idx3" : tactic => `(tactic| (funext a; match a with | ⟨0, _⟩ => rfl | ⟨1, _⟩ => rfl | ⟨2, _⟩ => rfl))

theorem v4_apply (x0 : XY) (x3 : (⟨S6x2, .f32⟩ : BufTy).Contents (Elt Ideal)) (x4 : (⟨S6, .f32⟩ : BufTy).Contents (Elt Ideal)) (n : Fin 2097152) (j : Fin 6) :
    val_main_v4 (F := Ideal) x0 x3 x4 (ix2 n j)
      = dense (fun k => x0 (ix2 n k)) (fun j k => x3 (ix2 j k)) (fun j => x4 (ix1 j)) j := by
  rw [val_main_v4_apply, val_main_v1_apply, val_main_v3_apply, val_main_v2_apply]
  unfold dense
  refine congrArg₂ (· + ·) (Finset.sum_congr rfl fun k _ => ?_) (congrArg x4 (by idx1))
  rw [val_main_v0_apply]
  exact congrArg₂ (· * ·) (congrArg x0 (by idx2)) (congrArg x3 (by idx2))

theorem v5_apply (x0 : XY) (x3 : (⟨S6x2, .f32⟩ : BufTy).Contents (Elt Ideal)) (x4 : (⟨S6, .f32⟩ : BufTy).Contents (Elt Ideal)) (n : Fin 2097152) (j : Fin 6) :
    val_main_v5 (F := Ideal) x0 x3 x4 (ix2 n j)
      = siluR (dense (fun k => x0 (ix2 n k)) (fun j k => x3 (ix2 j k)) (fun j => x4 (ix1 j)) j) := by
  rw [val_main_v5_apply, val_main_call0_v5_apply, val_main_call0_v4_apply, val_main_call0_v3_apply, val_main_call0_v2_apply,
    val_main_call0_v1_apply, val_main_call0_v0_apply, v4_apply]
  rfl

theorem v235_apply (x0 : XY) (x3 : (⟨S6x2, .f32⟩ : BufTy).Contents (Elt Ideal)) (x4 : (⟨S6, .f32⟩ : BufTy).Contents (Elt Ideal)) (n : Fin 2097152) (z : Fin 1) :
    val_main_v235 (F := Ideal) x0 x3 x4 (ix2 n z) = mean6 (fun k => val_main_v5 (F := Ideal) x0 x3 x4 (ix2 n k)) := by
  rw [val_main_v235_apply, val_main_v233_apply, val_main_v232_apply, val_main_v234_apply]
  show Ideal.div (Ideal.ofBits .f32 0x00000000#32 + ∑ k : Fin 6, _) k6 = _
  rw [Ideal.ofBits_zero_f32, zero_add]
  unfold mean6
  exact congrArg (Ideal.div · k6) (Finset.sum_congr rfl fun k _ => congrArg _ (by idx2))

theorem v242_apply (x0 : XY) (x3 : (⟨S6x2, .f32⟩ : BufTy).Contents (Elt Ideal)) (x4 : (⟨S6, .f32⟩ : BufTy).Contents (Elt Ideal)) (n : Fin 2097152) (z : Fin 1) :
    val_main_v242 (F := Ideal) x0 x3 x4 (ix2 n z)
      = mean6 (fun k => (val_main_v5 (F := Ideal) x0 x3 x4 (ix2 n k) - mean6 (fun k => val_main_v5 (F := Ideal) x0 x3 x4 (ix2 n k)))
          * (val_main_v5 (F := Ideal) x0 x3 x4 (ix2 n k) - mean6 (fun k => val_main_v5 (F := Ideal) x0 x3 x4 (ix2 n k)))) := by
  rw [val_main_v242_apply, val_main_v240_apply, val_main_v239_apply, val_main_v241_apply]
  show Ideal.div (Ideal.ofBits .f32 0x00000000#32 + ∑ k : Fin 6, _) k6 = _
  rw [Ideal.ofBits_zero_f32, zero_add]
  unfold mean6
  refine congrArg (Ideal.div · k6) (Finset.sum_congr rfl fun k _ => ?_)
  rw [show idx_main_v239 (idx_main_v240 (ix2 n z)) k = ix2 n k by idx2, val_main_v238_apply, val_main_v237_apply, val_main_v236_apply,
    show idx_main_v236 (ix2 n k) = ix2 n (0 : Fin 1) by idx2, v235_apply]
  rfl

theorem v251_apply (x9 : (⟨S2x6, .f32⟩ : BufTy).Contents (Elt Ideal)) (n : Fin 2097152) (c : Fin 6) :
    val_main_v251 (F := Ideal) x9 (ix2 n c) = x9 (ix2 (0 : Fin 2) c) := by
  rw [val_main_v251_apply, val_main_v250_apply, val_main_v229_apply, val_main_v228_apply]
  exact congrArg x9 (funext fun a => Fin.ext (by
    match a with
    | ⟨0, _⟩ => rfl
    | ⟨1, _⟩ => exact Nat.mod_eq_of_lt c.isLt))

theorem v254_apply (x10 : (⟨S2x6, .f32⟩ : BufTy).Contents (Elt Ideal)) (n : Fin 2097152) (c : Fin 6) :
    val_main_v254 (F := Ideal) x10 (ix2 n c) = x10 (ix2 (0 : Fin 2) c) := by
  rw [val_main_v254_apply, val_main_v253_apply, val_main_v231_apply, val_main_v230_apply]
  exact congrArg x10 (funext fun a => Fin.ext (by
    match a with
    | ⟨0, _⟩ => rfl
    | ⟨1, _⟩ => exact Nat.mod_eq_of_lt c.isLt))

theorem v255_apply (x0 : XY) (x3 : (⟨S6x2, .f32⟩ : BufTy).Contents (Elt Ideal)) (x4 : (⟨S6, .f32⟩ : BufTy).Contents (Elt Ideal)) (x9 x10 : (⟨S2x6, .f32⟩ : BufTy).Contents (Elt Ideal)) (n : Fin 2097152) (c : Fin 6) :
    val_main_v255 (F := Ideal) x0 x3 x4 x9 x10 (ix2 n c)
      = lnorm (fun k => val_main_v5 (F := Ideal) x0 x3 x4 (ix2 n k)) (fun k => x9 (ix2 (0 : Fin 2) k)) (fun k => x10 (ix2 (0 : Fin 2) k)) c := by
  have e15 : idx_main_v243 (ix2 n c) = ix2 n (0 : Fin 1) := by idx2
  have e20 : idx_main_v248 (ix2 n c) = ix2 n (0 : Fin 1) := by idx2
  rw [val_main_v255_apply, val_main_v252_apply, val_main_v249_apply, val_main_v244_apply, val_main_v243_apply, val_main_v248_apply, val_main_v247_apply,
    val_main_v246_apply, val_main_v245_apply, e15, e20, v235_apply, v242_apply, v251_apply, v254_apply]
  rfl

theorem v257_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x7 : (⟨S3x6, .f32⟩ : BufTy).Contents (Elt Ideal)) (x8 : (⟨S3, .f32⟩ : BufTy).Contents (Elt Ideal)) (x9 x10 : (⟨S2x6, .f32⟩ : BufTy).Contents (Elt Ideal)) (n : Fin 2097152) (c : Fin 6) :
    val_main_v257 (F := Ideal) x0 x1 x2 x3 x4 x9 x10 (ix2 n c)
      = modulate (fun T => bilinR T (coordR (x0 (ix2 n (0 : Fin 2)))) (coordR (x0 (ix2 n (1 : Fin 2)))))
          (paramsR x1 x2 x3 x4 x5 x6 x7 x8 x9 x10) (0 : Fin 2) (fun k => val_main_v5 (F := Ideal) x0 x3 x4 (ix2 n k)) c := by
  rw [val_main_v257_apply, val_main_v256_apply, v255_apply, v116_apply, v227_apply]
  rfl

theorem v259_apply (x5 : (⟨S1x6x6, .f32⟩ : BufTy).Contents (Elt Ideal)) (k j : Fin 6) : val_main_v259 (F := Ideal) x5 (ix2 k j) = x5 (ix3 (0 : Fin 1) j k) := by
  rw [val_main_v259_apply, val_main_v258_apply]
  have hk := k.isLt
  have hj := j.isLt
  exact congrArg x5 (funext fun a => Fin.ext (by
    match a with
    | ⟨0, _⟩ => rfl
    | ⟨1, _⟩ => show (j.val * 6 + k.val) / 6 % 6 = j.val; omega
    | ⟨2, _⟩ => show (j.val * 6 + k.val) % 6 = k.val; omega))

theorem v264_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x9 x10 : (⟨S2x6, .f32⟩ : BufTy).Contents (Elt Ideal)) (n : Fin 2097152) (j : Fin 6) :
    val_main_v264 (F := Ideal) x0 x1 x2 x3 x4 x5 x6 x9 x10 (ix2 n j)
      = dense (fun k => val_main_v257 (F := Ideal) x0 x1 x2 x3 x4 x9 x10 (ix2 n k)) (fun j k => x5 (ix3 (0 : Fin 1) j k))
          (fun j => x6 (ix2 (0 : Fin 1) j)) j := by
  rw [val_main_v264_apply, val_main_v260_apply, val_main_v263_apply, val_main_v262_apply, val_main_v261_apply]
  unfold dense
  refine congrArg₂ (· + ·) (Finset.sum_congr rfl fun k _ => ?_) (congrArg x6 (funext fun a => Fin.ext (by
    match a with
    | ⟨0, _⟩ => rfl
    | ⟨1, _⟩ => exact Nat.mod_eq_of_lt j.isLt)))
  rw [show ridx_main_v260 (ix2 n j) k = ix2 k j by idx2, v259_apply]
  exact congrArg (· * _) (congrArg _ (by idx2))

theorem v265_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x9 x10 : (⟨S2x6, .f32⟩ : BufTy).Contents (Elt Ideal)) (n : Fin 2097152) (j : Fin 6) :
    val_main_v265 (F := Ideal) x0 x1 x2 x3 x4 x5 x6 x9 x10 (ix2 n j)
      = siluR (dense (fun k => val_main_v257 (F := Ideal) x0 x1 x2 x3 x4 x9 x10 (ix2 n k)) (fun j k => x5 (ix3 (0 : Fin 1) j k))
          (fun j => x6 (ix2 (0 : Fin 1) j)) j) := by
  rw [val_main_v265_apply, val_main_call3_v5_apply, val_main_call3_v4_apply, val_main_call3_v3_apply, val_main_call3_v2_apply,
    val_main_call3_v1_apply, val_main_call3_v0_apply, v264_apply]
  rfl

theorem v495_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x9 x10 : (⟨S2x6, .f32⟩ : BufTy).Contents (Elt Ideal)) (n : Fin 2097152) (z : Fin 1) :
    val_main_v495 (F := Ideal) x0 x1 x2 x3 x4 x5 x6 x9 x10 (ix2 n z) = mean6 (fun k => val_main_v265 (F := Ideal) x0 x1 x2 x3 x4 x5 x6 x9 x10 (ix2 n k)) := by
  rw [val_main_v495_apply, val_main_v493_apply, val_main_v492_apply, val_main_v494_apply]
  show Ideal.div (Ideal.ofBits .f32 0x00000000#32 + ∑ k : Fin 6, _) k6 = _
  rw [Ideal.ofBits_zero_f32, zero_add]
  unfold mean6
  exact congrArg (Ideal.div · k6) (Finset.sum_congr rfl fun k _ => congrArg _ (by idx2))

theorem v502_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x9 x10 : (⟨S2x6, .f32⟩ : BufTy).Contents (Elt Ideal)) (n : Fin 2097152) (z : Fin 1) :
    val_main_v502 (F := Ideal) x0 x1 x2 x3 x4 x5 x6 x9 x10 (ix2 n z)
      = mean6 (fun k => (val_main_v265 (F := Ideal) x0 x1 x2 x3 x4 x5 x6 x9 x10 (ix2 n k) - mean6 (fun k => val_main_v265 (F := Ideal) x0 x1 x2 x3 x4 x5 x6 x9 x10 (ix2 n k)))
          * (val_main_v265 (F := Ideal) x0 x1 x2 x3 x4 x5 x6 x9 x10 (ix2 n k) - mean6 (fun k => val_main_v265 (F := Ideal) x0 x1 x2 x3 x4 x5 x6 x9 x10 (ix2 n k)))) := by
  rw [val_main_v502_apply, val_main_v500_apply, val_main_v499_apply, val_main_v501_apply]
  show Ideal.div (Ideal.ofBits .f32 0x00000000#32 + ∑ k : Fin 6, _) k6 = _
  rw [Ideal.ofBits_zero_f32, zero_add]
  unfold mean6
  refine congrArg (Ideal.div · k6) (Finset.sum_congr rfl fun k _ => ?_)
  rw [show idx_main_v499 (idx_main_v500 (ix2 n z)) k = ix2 n k by idx2, val_main_v498_apply, val_main_v497_apply, val_main_v496_apply,
    show idx_main_v496 (ix2 n k) = ix2 n (0 : Fin 1) by idx2, v495_apply]
  rfl

theorem v511_apply (x9 : (⟨S2x6, .f32⟩ : BufTy).Contents (Elt Ideal)) (n : Fin 2097152) (c : Fin 6) :
    val_main_v511 (F := Ideal) x9 (ix2 n c) = x9 (ix2 (1 : Fin 2) c) := by
  rw [val_main_v511_apply, val_main_v510_apply, val_main_v489_apply, val_main_v488_apply]
  exact congrArg x9 (funext fun a => Fin.ext (by
    match a with
    | ⟨0, _⟩ => rfl
    | ⟨1, _⟩ => exact Nat.mod_eq_of_lt c.isLt))

theorem v514_apply (x10 : (⟨S2x6, .f32⟩ : BufTy).Contents (Elt Ideal)) (n : Fin 2097152) (c : Fin 6) :
    val_main_v514 (F := Ideal) x10 (ix2 n c) = x10 (ix2 (1 : Fin 2) c) := by
  rw [val_main_v514_apply, val_main_v513_apply, val_main_v491_apply, val_main_v490_apply]
  exact congrArg x10 (funext fun a => Fin.ext (by
    match a with
    | ⟨0, _⟩ => rfl
    | ⟨1, _⟩ => exact Nat.mod_eq_of_lt c.isLt))

theorem v515_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x9 x10 : (⟨S2x6, .f32⟩ : BufTy).Contents (Elt Ideal)) (n : Fin 2097152) (c : Fin 6) :
    val_main_v515 (F := Ideal) x0 x1 x2 x3 x4 x5 x6 x9 x10 (ix2 n c)
      = lnorm (fun k => val_main_v265 (F := Ideal) x0 x1 x2 x3 x4 x5 x6 x9 x10 (ix2 n k)) (fun k => x9 (ix2 (1 : Fin 2) k)) (fun k => x10 (ix2 (1 : Fin 2) k)) c := by
  have e15 : idx_main_v503 (ix2 n c) = ix2 n (0 : Fin 1) := by idx2
  have e20 : idx_main_v508 (ix2 n c) = ix2 n (0 : Fin 1) := by idx2
  rw [val_main_v515_apply, val_main_v512_apply, val_main_v509_apply, val_main_v504_apply, val_main_v503_apply, val_main_v508_apply, val_main_v507_apply,
    val_main_v506_apply, val_main_v505_apply, e15, e20, v495_apply, v502_apply, v511_apply, v514_apply]
  rfl

theorem v517_apply (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x7 : (⟨S3x6, .f32⟩ : BufTy).Contents (Elt Ideal)) (x8 : (⟨S3, .f32⟩ : BufTy).Contents (Elt Ideal)) (x9 x10 : (⟨S2x6, .f32⟩ : BufTy).Contents (Elt Ideal)) (n : Fin 2097152) (c : Fin 6) :
    val_main_v517 (F := Ideal) x0 x1 x2 x3 x4 x5 x6 x9 x10 (ix2 n c)
      = modulate (fun T => bilinR T (coordR (x0 (ix2 n (0 : Fin 2)))) (coordR (x0 (ix2 n (1 : Fin 2)))))
          (paramsR x1 x2 x3 x4 x5 x6 x7 x8 x9 x10) (1 : Fin 2) (fun k => val_main_v265 (F := Ideal) x0 x1 x2 x3 x4 x5 x6 x9 x10 (ix2 n k)) c := by
  rw [val_main_v517_apply, val_main_v516_apply, v515_apply, v376_apply, v487_apply]
  rfl

theorem v522_dense (x0 : XY) (x1 x2 : Tab) (x3 : (⟨S6x2, .f32⟩ : BufTy).Contents (Elt Ideal)) (x4 : (⟨S6, .f32⟩ : BufTy).Contents (Elt Ideal)) (x5 : (⟨S1x6x6, .f32⟩ : BufTy).Contents (Elt Ideal)) (x6 : (⟨S1x6, .f32⟩ : BufTy).Contents (Elt Ideal)) (x7 : (⟨S3x6, .f32⟩ : BufTy).Contents (Elt Ideal)) (x8 : (⟨S3, .f32⟩ : BufTy).Contents (Elt Ideal)) (x9 x10 : (⟨S2x6, .f32⟩ : BufTy).Contents (Elt Ideal)) (n : Fin 2097152) (o : Fin 3) :
    val_main_v522 (F := Ideal) x0 x1 x2 x3 x4 x5 x6 x7 x8 x9 x10 (ix2 n o)
      = dense (fun k => val_main_v517 (F := Ideal) x0 x1 x2 x3 x4 x5 x6 x9 x10 (ix2 n k)) (fun o k => x7 (ix2 o k)) (fun o => x8 (ix1 o)) o := by
  rw [val_main_v522_apply, val_main_v519_apply, val_main_v521_apply, val_main_v520_apply]
  unfold dense
  refine congrArg₂ (· + ·) (Finset.sum_congr rfl fun k _ => ?_) (congrArg x8 (by idx1))
  rw [val_main_v518_apply]
  exact congrArg₂ (· * ·) (congrArg _ (by idx2)) (congrArg x7 (by idx2))

/-- The reference's result at `(n, o)` is `rowR` of point `n`. -/
theorem v522_apply (x0 : XY) (x1 x2 : Tab) (x3 : (⟨S6x2, .f32⟩ : BufTy).Contents (Elt Ideal)) (x4 : (⟨S6, .f32⟩ : BufTy).Contents (Elt Ideal))
    (x5 : (⟨S1x6x6, .f32⟩ : BufTy).Contents (Elt Ideal)) (x6 : (⟨S1x6, .f32⟩ : BufTy).Contents (Elt Ideal))
    (x7 : (⟨S3x6, .f32⟩ : BufTy).Contents (Elt Ideal)) (x8 : (⟨S3, .f32⟩ : BufTy).Contents (Elt Ideal))
    (x9 x10 : (⟨S2x6, .f32⟩ : BufTy).Contents (Elt Ideal)) (n : Fin 2097152) (o : Fin 3) :
    val_main_v522 (F := Ideal) x0 x1 x2 x3 x4 x5 x6 x7 x8 x9 x10 (ix2 n o)
      = rowR (paramsR x1 x2 x3 x4 x5 x6 x7 x8 x9 x10) (fun k => x0 (ix2 n k)) o := by
  rw [v522_dense,
    funext fun k => v517_apply x0 x1 x2 x3 x4 x5 x6 x7 x8 x9 x10 n k,
    funext fun j => v265_apply x0 x1 x2 x3 x4 x5 x6 x9 x10 n j,
    funext fun k => v257_apply x0 x1 x2 x3 x4 x5 x6 x7 x8 x9 x10 n k,
    funext fun j => v5_apply x0 x3 x4 n j]
  rfl

end Cert.ReferenceIdeal.RV

end
-- ==== Proof.LibStretch.lean ====
import Idealize.ShloMosaic.Lib.StableHlo.Run
import Idealize.ShloMosaic.Lib.Pipeline.Frame

namespace Idealize.ShloMosaic.StableHlo

variable {τ : Topo} {sig : RefSig} {Val : EltTy → Type}

/-- A straight line that touches only TensorCore references, allocates nothing, and writes only references of `W`. -/
structure Stretch (l : List (HloOp τ sig Val)) (W : List (Ref sig .tc)) : Prop where
  sub : l.Forall fun op => op.bufs ⊆ tcRefs τ sig
  fresh : l.Forall fun op => op.fresh = ∅
  writes : l.Forall fun op => op.writes ⊆ (W.map (Proc.devRef (τ := τ) .tc)).toFinset

namespace Stretch

/-- Closes `Stretch l W` for a literal line of the builders' operations and the list of their results, in order. -/
macro "stretch" : tactic => `(tactic| (
  refine ⟨?_, ?_, ?_⟩
  · simp only [List.Forall, nullary_bufs_sub, unary_bufs_sub, binary_bufs_sub, ternary_bufs_sub, reshape_bufs_sub, and_self]
  · and_intros <;> exact rfl
  · simp only [List.Forall]
    and_intros <;>
      (simp only [nullary_writes, unary_writes, binary_writes, ternary_writes, reshape_writes, Finset.singleton_subset_iff, List.mem_toFinset]
       exact List.mem_map_of_mem (by decide))))

variable {l l₁ l₂ : List (HloOp τ sig Val)} {W W₁ W₂ : List (Ref sig .tc)}

theorem writes_mono (hW : W ⊆ W₂) (h : l.Forall fun op => op.writes ⊆ (W.map (Proc.devRef (τ := τ) .tc)).toFinset) :
    l.Forall fun op => op.writes ⊆ (W₂.map (Proc.devRef (τ := τ) .tc)).toFinset :=
  h.imp fun _ hop _ hx => List.mem_toFinset.mpr (List.map_subset _ hW (List.mem_toFinset.mp (hop hx)))

theorem append (h₁ : Stretch l₁ W₁) (h₂ : Stretch l₂ W₂) : Stretch (l₁ ++ l₂) (W₁ ++ W₂) :=
  ⟨List.forall_append.mpr ⟨h₁.sub, h₂.sub⟩, List.forall_append.mpr ⟨h₁.fresh, h₂.fresh⟩,
    List.forall_append.mpr ⟨writes_mono (List.subset_append_left _ _) h₁.writes, writes_mono (List.subset_append_right _ _) h₂.writes⟩⟩

theorem fresh_mem (h : Stretch l W) : ∀ op ∈ l, op.fresh = ∅ := List.forall_iff_forall_mem.mp h.fresh

/-- A reference the line does not write keeps its contents through it. -/
theorem keep (h : Stretch l W) (V : Valuation τ sig Val) {r : Ref sig .tc} (hr : r ∉ W) :
    after l V (Proc.devRef .tc r) = V (Proc.devRef .tc r) :=
  after_of_writes_sub l V h.writes hr

theorem flatten : ∀ {S : List (List (HloOp τ sig Val))} {Ws : List (List (Ref sig .tc))}, List.Forall₂ Stretch S Ws → Stretch S.flatten Ws.flatten
  | _, _, .nil => ⟨trivial, trivial, trivial⟩
  | _, _, .cons h t => h.append (flatten t)

variable {S : List (List (HloOp τ sig Val))} {Ws : List (List (Ref sig .tc))}

/-- After `k + 1` stretches the contents are what the `k`-th stretch makes of the contents after `k`. -/
theorem take_succ (k : ℕ) {l : List (HloOp τ sig Val)} (hl : S[k]? = some l) (V : Valuation τ sig Val) :
    after (S.take (k + 1)).flatten V = after l (after (S.take k).flatten V) := by
  simp only [List.take_succ, hl, Option.toList_some, List.flatten_append, List.flatten_cons, List.flatten_nil, List.append_nil, after_append]

/-- What a reference holds after `j` stretches it still holds after `k ≥ j`, if stretches `j … k − 1` do not write it. -/
theorem carry (H : List.Forall₂ Stretch S Ws) (j k : ℕ) (V : Valuation τ sig Val) {r : Ref sig .tc}
    {x : (Proc.devRef (τ := τ) .tc r).ty.Contents Val} (h : after (S.take j).flatten V (Proc.devRef .tc r) = x)
    (hr : r ∉ ((Ws.drop j).take (k - j)).flatten) (hjk : j ≤ k) : after (S.take k).flatten V (Proc.devRef .tc r) = x := by
  have e : S.take k = S.take j ++ (S.drop j).take (k - j) := by rw [← List.take_add, Nat.add_sub_cancel' hjk]
  rw [← h, e, List.flatten_append, after_append]
  exact (flatten (List.forall₂_take (k - j) (List.forall₂_drop j H))).keep _ hr

end Stretch

end Idealize.ShloMosaic.StableHlo
-- ==== Proof.RefRun00.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops00 : List (HloOp τ sig (Elt F)) :=
  [ unary main_arg3 main_v0 ((transpose S2x6 [1, 0] · transposes_S6x2_S2x6_1_0) : (⟨S6x2, .f32⟩ : BufTy).Contents (Elt F) → (⟨S2x6, .f32⟩ : BufTy).Contents (Elt F)),
    binary main_arg0 main_v0 main_v1 ((fun l r => Host.dotGeneral dot_S2097152x2_S2x6_S2097152x6_1_0_0_1_n_n none l r) : (⟨S2097152x2, .f32⟩ : BufTy).Contents (Elt F) → (⟨S2x6, .f32⟩ : BufTy).Contents (Elt F) → (⟨S2097152x6, .f32⟩ : BufTy).Contents (Elt F)),
    unary main_arg4 main_v2 (broadcastInDim S1x6 ![1] bcast_S6_S1x6_1 : (⟨S6, .f32⟩ : BufTy).Contents (Elt F) → (⟨S1x6, .f32⟩ : BufTy).Contents (Elt F)),
    unary main_v2 main_v3 (broadcastInDim S2097152x6 ![0, 1] bcast_S1x6_S2097152x6_0_1 : (⟨S1x6, .f32⟩ : BufTy).Contents (Elt F) → (⟨S2097152x6, .f32⟩ : BufTy).Contents (Elt F)),
    binary main_v1 main_v3 main_v4 (addf : (⟨S2097152x6, .f32⟩ : BufTy).Contents (Elt F) → (⟨S2097152x6, .f32⟩ : BufTy).Contents (Elt F) → (⟨S2097152x6, .f32⟩ : BufTy).Contents (Elt F)),
    TRef.unary (TRef.of (T := ⟨S2097152x6, .f32⟩) main_v4) (TRef.of (T := ⟨S2097152x6, .f32⟩) main_call0_v0) Host.negf,
    TRef.unary (TRef.of (T := ⟨S2097152x6, .f32⟩) main_call0_v0) (TRef.of (T := ⟨S2097152x6, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2097152x6, .f32⟩) main_call0_v2) (broadcastInDim S2097152x6 ![] bcast_S_S2097152x6),
    TRef.binary (TRef.of (T := ⟨S2097152x6, .f32⟩) main_call0_v2) (TRef.of (T := ⟨S2097152x6, .f32⟩) main_call0_v1) (TRef.of (T := ⟨S2097152x6, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2097152x6, .f32⟩) main_call0_v4) (broadcastInDim S2097152x6 ![] bcast_S_S2097152x6),
    TRef.binary (TRef.of (T := ⟨S2097152x6, .f32⟩) main_call0_v4) (TRef.of (T := ⟨S2097152x6, .f32⟩) main_call0_v3) (TRef.of (T := ⟨S2097152x6, .f32⟩) main_call0_v5) Host.divf,
    TRef.binary (TRef.of (T := ⟨S2097152x6, .f32⟩) main_v4) (TRef.of (T := ⟨S2097152x6, .f32⟩) main_call0_v5) (TRef.of (T := ⟨S2097152x6, .f32⟩) main_v5) mulf,
    unary main_arg1 main_v6 ((extractStridedSlice S1x6x16x16 ![0, 0, 0, 0] · slices_S2x6x16x16_S1x6x16x16_0_0_0_0) : (⟨S2x6x16x16, .f32⟩ : BufTy).Contents (Elt F) → (⟨S1x6x16x16, .f32⟩ : BufTy).Contents (Elt F)),
    reshape main_v6 main_v7 rfl shapeCasts_S1x6x16x16_S6x16x16,
    nullary main_cst (constant S_ .f32 0x3F800000#32),
    unary main_cst main_v8 (broadcastInDim S2097152x2 ![] bcast_S_S2097152x2 : (⟨S_, .f32⟩ : BufTy).Contents (Elt F) → (⟨S2097152x2, .f32⟩ : BufTy).Contents (Elt F)),
    binary main_arg0 main_v8 main_v9 (addf : (⟨S2097152x2, .f32⟩ : BufTy).Contents (Elt F) → (⟨S2097152x2, .f32⟩ : BufTy).Contents (Elt F) → (⟨S2097152x2, .f32⟩ : BufTy).Contents (Elt F)),
    nullary main_cst_0 (constant S_ .f32 0x3F000000#32),
    unary main_cst_0 main_v10 (broadcastInDim S2097152x2 ![] bcast_S_S2097152x2 : (⟨S_, .f32⟩ : BufTy).Contents (Elt F) → (⟨S2097152x2, .f32⟩ : BufTy).Contents (Elt F)),
    binary main_v9 main_v10 main_v11 (mulf : (⟨S2097152x2, .f32⟩ : BufTy).Contents (Elt F) → (⟨S2097152x2, .f32⟩ : BufTy).Contents (Elt F) → (⟨S2097152x2, .f32⟩ : BufTy).Contents (Elt F)),
    nullary main_cst_1 (constant S_ .f32 0x41700000#32),
    unary main_cst_1 main_v12 (broadcastInDim S2097152x2 ![] bcast_S_S2097152x2 : (⟨S_, .f32⟩ : BufTy).Contents (Elt F) → (⟨S2097152x2, .f32⟩ : BufTy).Contents (Elt F)),
    binary main_v11 main_v12 main_v13 (mulf : (⟨S2097152x2, .f32⟩ : BufTy).Contents (Elt F) → (⟨S2097152x2, .f32⟩ : BufTy).Contents (Elt F) → (⟨S2097152x2, .f32⟩ : BufTy).Contents (Elt F)),
    nullary main_cst_2 (constant S_ .f32 0x00000000#32),
    nullary main_cst_3 (constant S_ .f32 0x41700000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S2097152x2, .f32⟩) main_call1_v1) (broadcastInDim S2097152x2 ![] bcast_S_S2097152x2),
    TRef.binary (TRef.of (T := ⟨S2097152x2, .f32⟩) main_call1_v1) (TRef.of (T := ⟨S2097152x2, .f32⟩) main_v13) (TRef.of (T := ⟨S2097152x2, .f32⟩) main_call1_v2) maximumf,
    TRef.unary (TRef.of (T := ⟨S_, .f32⟩) main_cst_3) (TRef.of (T := ⟨S_, .f32⟩) main_call1_v3) id,
    TRef.unary (TRef.of (T := ⟨S_, .f32⟩) main_call1_v3) (TRef.of (T := ⟨S2097152x2, .f32⟩) main_call1_v4) (broadcastInDim S2097152x2 ![] bcast_S_S2097152x2),
    TRef.binary (TRef.of (T := ⟨S2097152x2, .f32⟩) main_call1_v4) (TRef.of (T := ⟨S2097152x2, .f32⟩) main_call1_v2) (TRef.of (T := ⟨S2097152x2, .f32⟩) main_v14) minimumf,
    unary main_v14 main_v15 ((extractStridedSlice S2097152x1 ![0, 0] · slices_S2097152x2_S2097152x1_0_0) : (⟨S2097152x2, .f32⟩ : BufTy).Contents (Elt F) → (⟨S2097152x1, .f32⟩ : BufTy).Contents (Elt F)),
    reshape main_v15 main_v16 rfl shapeCasts_S2097152x1_S2097152 ]

abbrev ops00_W : List (Ref sig .tc) := [main_v0, main_v1, main_v2, main_v3, main_v4, main_call0_v0, main_call0_v1, main_call0_cst, main_call0_v2, main_call0_v3, main_call0_cst_0, main_call0_v4, main_call0_v5, main_v5, main_v6, main_v7, main_cst, main_v8, main_v9, main_cst_0, main_v10, main_v11, main_cst_1, main_v12, main_v13, main_cst_2, main_cst_3, main_call1_v0, main_call1_v1, main_call1_v2, main_call1_v3, main_call1_v4, main_v14, main_v15, main_v16]

theorem s00 : Stretch (ops00 (F := F)) ops00_W := by stretch

theorem c00_main_v5 (W : Valuation τ sig (Elt F)) (x0 : (⟨S2097152x2, .f32⟩ : BufTy).Contents (Elt F)) (x3 : (⟨S6x2, .f32⟩ : BufTy).Contents (Elt F)) (x4 : (⟨S6, .f32⟩ : BufTy).Contents (Elt F))
    (h_main_arg4 : W (no_index (Proc.devRef .tc main_arg4)) = x4)
    (h_main_arg3 : W (no_index (Proc.devRef .tc main_arg3)) = x3)
    (h_main_arg0 : W (no_index (Proc.devRef .tc main_arg0)) = x0) :
    after ops00 W (Proc.devRef .tc main_v5) = ReadP.val_main_v5 (F := F) x0 x3 x4 := by
  simp only [ops00]
  after_results_simp
  try simp only [TRef.ofBuf, TRef.toBuf, cast_eq]
  simp only [h_main_arg4, h_main_arg3, h_main_arg0]
  rfl

theorem c00_main_v7 (W : Valuation τ sig (Elt F)) (x1 : (⟨S2x6x16x16, .f32⟩ : BufTy).Contents (Elt F))
    (h_main_arg1 : W (no_index (Proc.devRef .tc main_arg1)) = x1) :
    after ops00 W (Proc.devRef .tc main_v7) = ReadP.val_main_v7 (F := F) x1 := by
  simp only [ops00]
  after_results_simp
  try simp only [TRef.ofBuf, TRef.toBuf, cast_eq]
  simp only [h_main_arg1]
  rfl

theorem c00_main_v14 (W : Valuation τ sig (Elt F)) (x0 : (⟨S2097152x2, .f32⟩ : BufTy).Contents (Elt F))
    (h_main_arg0 : W (no_index (Proc.devRef .tc main_arg0)) = x0) :
    after ops00 W (Proc.devRef .tc main_v14) = ReadP.val_main_v14 (F := F) x0 := by
  simp only [ops00]
  after_results_simp
  try simp only [TRef.ofBuf, TRef.toBuf, cast_eq]
  simp only [h_main_arg0]
  rfl

theorem c00_main_v16 (W : Valuation τ sig (Elt F)) (x0 : (⟨S2097152x2, .f32⟩ : BufTy).Contents (Elt F))
    (h_main_arg0 : W (no_index (Proc.devRef .tc main_arg0)) = x0) :
    after ops00 W (Proc.devRef .tc main_v16) = ReadP.val_main_v16 (F := F) x0 := by
  simp only [ops00]
  after_results_simp
  try simp only [TRef.ofBuf, TRef.toBuf, cast_eq]
  simp only [h_main_arg0]
  rfl

end Cert.ReferenceIdeal.RunH

end
-- ==== Proof.RefRun01.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops01 : List (HloOp τ sig (Elt F)) :=
  [ unary main_v14 main_v17 ((extractStridedSlice S2097152x1 ![0, 1] · slices_S2097152x2_S2097152x1_0_1) : (⟨S2097152x2, .f32⟩ : BufTy).Contents (Elt F) → (⟨S2097152x1, .f32⟩ : BufTy).Contents (Elt F)),
    reshape main_v17 main_v18 rfl shapeCasts_S2097152x1_S2097152,
    unary main_v16 main_v19 (Host.floor : (⟨S2097152, .f32⟩ : BufTy).Contents (Elt F) → (⟨S2097152, .f32⟩ : BufTy).Contents (Elt F)),
    unary main_v18 main_v20 (Host.floor : (⟨S2097152, .f32⟩ : BufTy).Contents (Elt F) → (⟨S2097152, .f32⟩ : BufTy).Contents (Elt F)),
    binary main_v16 main_v19 main_v21 (subf : (⟨S2097152, .f32⟩ : BufTy).Contents (Elt F) → (⟨S2097152, .f32⟩ : BufTy).Contents (Elt F) → (⟨S2097152, .f32⟩ : BufTy).Contents (Elt F)),
    binary main_v18 main_v20 main_v22 (subf : (⟨S2097152, .f32⟩ : BufTy).Contents (Elt F) → (⟨S2097152, .f32⟩ : BufTy).Contents (Elt F) → (⟨S2097152, .f32⟩ : BufTy).Contents (Elt F)),
    unary main_v19 main_v23 (fptosi 32 : (⟨S2097152, .f32⟩ : BufTy).Contents (Elt F) → (⟨S2097152, .i32⟩ : BufTy).Contents (Elt F)),
    unary main_v20 main_v24 (fptosi 32 : (⟨S2097152, .f32⟩ : BufTy).Contents (Elt F) → (⟨S2097152, .i32⟩ : BufTy).Contents (Elt F)),
    nullary main_c (constantI S_ 32 1#32),
    unary main_c main_v25 (broadcastInDim S2097152 ![] bcast_S_S2097152 : (⟨S_, .i32⟩ : BufTy).Contents (Elt F) → (⟨S2097152, .i32⟩ : BufTy).Contents (Elt F)),
    binary main_v23 main_v25 main_v26 (addi : (⟨S2097152, .i32⟩ : BufTy).Contents (Elt F) → (⟨S2097152, .i32⟩ : BufTy).Contents (Elt F) → (⟨S2097152, .i32⟩ : BufTy).Contents (Elt F)),
    nullary main_c_4 (constantI S_ 32 15#32),
    unary main_c_4 main_v27 (broadcastInDim S2097152 ![] bcast_S_S2097152 : (⟨S_, .i32⟩ : BufTy).Contents (Elt F) → (⟨S2097152, .i32⟩ : BufTy).Contents (Elt F)),
    binary main_v26 main_v27 main_v28 (minsi : (⟨S2097152, .i32⟩ : BufTy).Contents (Elt F) → (⟨S2097152, .i32⟩ : BufTy).Contents (Elt F) → (⟨S2097152, .i32⟩ : BufTy).Contents (Elt F)),
    nullary main_c_5 (constantI S_ 32 1#32),
    unary main_c_5 main_v29 (broadcastInDim S2097152 ![] bcast_S_S2097152 : (⟨S_, .i32⟩ : BufTy).Contents (Elt F) → (⟨S2097152, .i32⟩ : BufTy).Contents (Elt F)),
    binary main_v24 main_v29 main_v30 (addi : (⟨S2097152, .i32⟩ : BufTy).Contents (Elt F) → (⟨S2097152, .i32⟩ : BufTy).Contents (Elt F) → (⟨S2097152, .i32⟩ : BufTy).Contents (Elt F)),
    nullary main_c_6 (constantI S_ 32 15#32),
    unary main_c_6 main_v31 (broadcastInDim S2097152 ![] bcast_S_S2097152 : (⟨S_, .i32⟩ : BufTy).Contents (Elt F) → (⟨S2097152, .i32⟩ : BufTy).Contents (Elt F)),
    binary main_v30 main_v31 main_v32 (minsi : (⟨S2097152, .i32⟩ : BufTy).Contents (Elt F) → (⟨S2097152, .i32⟩ : BufTy).Contents (Elt F) → (⟨S2097152, .i32⟩ : BufTy).Contents (Elt F)),
    nullary main_c_7 (constantI S_ 32 0#32),
    unary main_c_7 main_v33 (broadcastInDim S2097152 ![] bcast_S_S2097152 : (⟨S_, .i32⟩ : BufTy).Contents (Elt F) → (⟨S2097152, .i32⟩ : BufTy).Contents (Elt F)),
    binary main_v24 main_v33 main_v34 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 16#32),
    unary main_c_8 main_v35 (broadcastInDim S2097152 ![] bcast_S_S2097152 : (⟨S_, .i32⟩ : BufTy).Contents (Elt F) → (⟨S2097152, .i32⟩ : BufTy).Contents (Elt F)),
    binary main_v24 main_v35 main_v36 (addi : (⟨S2097152, .i32⟩ : BufTy).Contents (Elt F) → (⟨S2097152, .i32⟩ : BufTy).Contents (Elt F) → (⟨S2097152, .i32⟩ : BufTy).Contents (Elt F)),
    ternary main_v34 main_v36 main_v24 main_v37 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_9 (constantI S_ 32 0#32),
    unary main_c_9 main_v38 (broadcastInDim S2097152 ![] bcast_S_S2097152 : (⟨S_, .i32⟩ : BufTy).Contents (Elt F) → (⟨S2097152, .i32⟩ : BufTy).Contents (Elt F)),
    binary main_v23 main_v38 main_v39 (cmpi .slt : (⟨S2097152, .i32⟩ : BufTy).Contents (Elt F) → (⟨S2097152, .i32⟩ : BufTy).Contents (Elt F) → (⟨S2097152, .i1⟩ : BufTy).Contents (Elt F)),
    nullary main_c_10 (constantI S_ 32 16#32),
    unary main_c_10 main_v40 (broadcastInDim S2097152 ![] bcast_S_S2097152 : (⟨S_, .i32⟩ : BufTy).Contents (Elt F) → (⟨S2097152, .i32⟩ : BufTy).Contents (Elt F)),
    binary main_v23 main_v40 main_v41 (addi : (⟨S2097152, .i32⟩ : BufTy).Contents (Elt F) → (⟨S2097152, .i32⟩ : BufTy).Contents (Elt F) → (⟨S2097152, .i32⟩ : BufTy).Contents (Elt F)),
    ternary main_v39 main_v41 main_v23 main_v42 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v37 main_v43 (broadcastInDim S2097152x1 ![0] bcast_S2097152_S2097152x1_0 : (⟨S2097152, .i32⟩ : BufTy).Contents (Elt F) → (⟨S2097152x1, .i32⟩ : BufTy).Contents (Elt F)),
    unary main_v42 main_v44 (broadcastInDim S2097152x1 ![0] bcast_S2097152_S2097152x1_0 : (⟨S2097152, .i32⟩ : BufTy).Contents (Elt F) → (⟨S2097152x1, .i32⟩ : BufTy).Contents (Elt F)) ]

abbrev ops01_W : List (Ref sig .tc) := [main_v17, main_v18, main_v19, main_v20, main_v21, main_v22, main_v23, main_v24, main_c, main_v25, main_v26, main_c_4, main_v27, main_v28, main_c_5, main_v29, main_v30, main_c_6, main_v31, main_v32, main_c_7, main_v33, main_v34, main_c_8, main_v35, main_v36, main_v37, main_c_9, main_v38, main_v39, main_c_10, main_v40, main_v41, main_v42, main_v43, main_v44]

theorem s01 : Stretch (ops01 (F := F)) ops01_W := by stretch

theorem c01_main_v21 (W : Valuation τ sig (Elt F)) (x0 : (⟨S2097152x2, .f32⟩ : BufTy).Contents (Elt F))
    (h_main_v16 : W (no_index (Proc.devRef .tc main_v16)) = ReadP.val_main_v16 (F := F) x0) :
    after ops01 W (Proc.devRef .tc main_v21) = ReadP.val_main_v21 (F := F) x0 := by
  simp only [ops01]
  after_results_simp
  simp only [h_main_v16]
  rfl

theorem c01_main_v22 (W : Valuation τ sig (Elt F)) (x0 : (⟨S2097152x2, .f32⟩ : BufTy).Contents (Elt F))
    (h_main_v14 : W (no_index (Proc.devRef .tc main_v14)) = ReadP.val_main_v14 (F := F) x0) :
    after ops01 W (Proc.devRef .tc main_v22) = ReadP.val_main_v22 (F := F) x0 := by
  simp only [ops01]
  after_results_simp
  simp only [h_main_v14]
  rfl

theorem c01_main_v23 (W : Valuation τ sig (Elt F)) (x0 : (⟨S2097152x2, .f32⟩ : BufTy).Contents (Elt F))
    (h_main_v16 : W (no_index (Proc.devRef .tc main_v16)) = ReadP.val_main_v16 (F := F) x0) :
    after ops01 W (Proc.devRef .tc main_v23) = ReadP.val_main_v23 (F := F) x0 := by
  simp only [ops01]
  after_results_simp
  simp only [h_main_v16]
  rfl

theorem c01_main_v24 (W : Valuation τ sig (Elt F)) (x0 : (⟨S2097152x2, .f32⟩ : BufTy).Contents (Elt F))
    (h_main_v14 : W (no_index (Proc.devRef .tc main_v14)) = ReadP.val_main_v14 (F := F) x0) :
    after ops01 W (Proc.devRef .tc main_v24) = ReadP.val_main_v24 (F := F) x0 := by
  simp only [ops01]
  after_results_simp
  simp only [h_main_v14]
  rfl

theorem c01_main_v28 (W : Valuation τ sig (Elt F)) (x0 : (⟨S2097152x2, .f32⟩ : BufTy).Contents (Elt F))
    (h_main_v16 : W (no_index (Proc.devRef .tc main_v16)) = ReadP.val_main_v16 (F := F) x0) :
    after ops01 W (Proc.devRef .tc main_v28) = ReadP.val_main_v28 (F := F) x0 := by
  simp only [ops01]
  after_results_simp
  simp only [h_main_v16]
  rfl

theorem c01_main_v32 (W : Valuation τ sig (Elt F)) (x0 : (⟨S2097152x2, .f32⟩ : BufTy).Contents (Elt F))
    (h_main_v14 : W (no_index (Proc.devRef .tc main_v14)) = ReadP.val_main_v14 (F := F) x0) :
    after ops01 W (Proc.devRef .tc main_v32) = ReadP.val_main_v32 (F := F) x0 := by
  simp only [ops01]
  after_results_simp
  simp only [h_main_v14]
  rfl

theorem c01_main_v43 (W : Valuation τ sig (Elt F)) (x0 : (⟨S2097152x2, .f32⟩ : BufTy).Contents (Elt F))
    (h_main_v14 : W (no_index (Proc.devRef .tc main_v14)) = ReadP.val_main_v14 (F := F) x0) :
    after ops01 W (Proc.devRef .tc main_v43) = ReadP.val_main_v43 (F := F) x0 := by
  simp only [ops01]
  after_results_simp
  simp only [h_main_v14]
  rfl

theorem c01_main_v44 (W : Valuation τ sig (Elt F)) (x0 : (⟨S2097152x2, .f32⟩ : BufTy).Contents (Elt F))
    (h_main_v16 : W (no_index (Proc.devRef .tc main_v16)) = ReadP.val_main_v16 (F := F) x0) :
    after ops01 W (Proc.devRef .tc main_v44) = ReadP.val_main_v44 (F := F) x0 := by
  simp only [ops01]
  after_results_simp
  simp only [h_main_v16]
  rfl

end Cert.ReferenceIdeal.RunH

end
-- ==== Proof.RefRun02.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops02 : List (HloOp τ sig (Elt F)) :=
  [ binary main_v43 main_v44 main_v45 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops02_W : List (Ref sig .tc) := [main_v45]

theorem s02 : Stretch (ops02 (F := F)) ops02_W := by stretch

theorem c02_main_v45 (W : Valuation τ sig (Elt F)) (x0 : (⟨S2097152x2, .f32⟩ : BufTy).Contents (Elt F))
    (h_main_v44 : W (Proc.devRef .tc main_v44) = ReadP.val_main_v44 (F := F) x0)
    (h_main_v43 : W (Proc.devRef .tc main_v43) = ReadP.val_main_v43 (F := F) x0) :
    after ops02 W (Proc.devRef .tc main_v45) = ReadP.val_main_v45 (F := F) x0 := by
  simp only [ops02, after_cons, after_nil]
  rw [binary_result]
  rw [h_main_v44, h_main_v43]
  rfl

end Cert.ReferenceIdeal.RunH

end
-- ==== Proof.RefRun03.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops03 : List (HloOp τ sig (Elt F)) :=
  [ binary main_v7 main_v45 main_v46 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)) ]

abbrev ops03_W : List (Ref sig .tc) := [main_v46]

theorem s03 : Stretch (ops03 (F := F)) ops03_W := by stretch

theorem c03_main_v46 (W : Valuation τ sig (Elt F)) (x0 : (⟨S2097152x2, .f32⟩ : BufTy).Contents (Elt F)) (x1 : (⟨S2x6x16x16, .f32⟩ : BufTy).Contents (Elt F))
    (h_main_v45 : W (no_index (Proc.devRef .tc main_v45)) = ReadP.val_main_v45 (F := F) x0)
    (h_main_v7 : W (no_index (Proc.devRef .tc main_v7)) = ReadP.val_main_v7 (F := F) x1) :
    after ops03 W (Proc.devRef .tc main_v46) = ReadP.val_main_v46 (F := F) x0 x1 := by
  simp only [ops03]
  after_results_simp
  simp only [h_main_v45, h_main_v7]
  rfl

end Cert.ReferenceIdeal.RunH

end
-- ==== Proof.RefRun04.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops04 : List (HloOp τ sig (Elt F)) :=
  [ nullary main_c_11 (constantI S_ 32 0#32),
    unary main_c_11 main_v47 (broadcastInDim S2097152 ![] bcast_S_S2097152 : (⟨S_, .i32⟩ : BufTy).Contents (Elt F) → (⟨S2097152, .i32⟩ : BufTy).Contents (Elt F)),
    binary main_v24 main_v47 main_v48 (cmpi .slt : (⟨S2097152, .i32⟩ : BufTy).Contents (Elt F) → (⟨S2097152, .i32⟩ : BufTy).Contents (Elt F) → (⟨S2097152, .i1⟩ : BufTy).Contents (Elt F)),
    nullary main_c_12 (constantI S_ 32 16#32),
    unary main_c_12 main_v49 (broadcastInDim S2097152 ![] bcast_S_S2097152 : (⟨S_, .i32⟩ : BufTy).Contents (Elt F) → (⟨S2097152, .i32⟩ : BufTy).Contents (Elt F)),
    binary main_v24 main_v49 main_v50 (addi : (⟨S2097152, .i32⟩ : BufTy).Contents (Elt F) → (⟨S2097152, .i32⟩ : BufTy).Contents (Elt F) → (⟨S2097152, .i32⟩ : BufTy).Contents (Elt F)),
    ternary main_v48 main_v50 main_v24 main_v51 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_13 (constantI S_ 32 0#32),
    unary main_c_13 main_v52 (broadcastInDim S2097152 ![] bcast_S_S2097152 : (⟨S_, .i32⟩ : BufTy).Contents (Elt F) → (⟨S2097152, .i32⟩ : BufTy).Contents (Elt F)),
    binary main_v28 main_v52 main_v53 (cmpi .slt : (⟨S2097152, .i32⟩ : BufTy).Contents (Elt F) → (⟨S2097152, .i32⟩ : BufTy).Contents (Elt F) → (⟨S2097152, .i1⟩ : BufTy).Contents (Elt F)),
    nullary main_c_14 (constantI S_ 32 16#32),
    unary main_c_14 main_v54 (broadcastInDim S2097152 ![] bcast_S_S2097152 : (⟨S_, .i32⟩ : BufTy).Contents (Elt F) → (⟨S2097152, .i32⟩ : BufTy).Contents (Elt F)),
    binary main_v28 main_v54 main_v55 (addi : (⟨S2097152, .i32⟩ : BufTy).Contents (Elt F) → (⟨S2097152, .i32⟩ : BufTy).Contents (Elt F) → (⟨S2097152, .i32⟩ : BufTy).Contents (Elt F)),
    ternary main_v53 main_v55 main_v28 main_v56 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v51 main_v57 (broadcastInDim S2097152x1 ![0] bcast_S2097152_S2097152x1_0 : (⟨S2097152, .i32⟩ : BufTy).Contents (Elt F) → (⟨S2097152x1, .i32⟩ : BufTy).Contents (Elt F)),
    unary main_v56 main_v58 (broadcastInDim S2097152x1 ![0] bcast_S2097152_S2097152x1_0 : (⟨S2097152, .i32⟩ : BufTy).Contents (Elt F) → (⟨S2097152x1, .i32⟩ : BufTy).Contents (Elt F)) ]

abbrev ops04_W : List (Ref sig .tc) := [main_c_11, main_v47, main_v48, main_c_12, main_v49, main_v50, main_v51, main_c_13, main_v52, main_v53, main_c_14, main_v54, main_v55, main_v56, main_v57, main_v58]

theorem s04 : Stretch (ops04 (F := F)) ops04_W := by stretch

theorem c04_main_v57 (W : Valuation τ sig (Elt F)) (x0 : (⟨S2097152x2, .f32⟩ : BufTy).Contents (Elt F))
    (h_main_v24 : W (no_index (Proc.devRef .tc main_v24)) = ReadP.val_main_v24 (F := F) x0) :
    after ops04 W (Proc.devRef .tc main_v57) = ReadP.val_main_v57 (F := F) x0 := by
  simp only [ops04]
  after_results_simp
  simp only [h_main_v24]
  rfl

theorem c04_main_v58 (W : Valuation τ sig (Elt F)) (x0 : (⟨S2097152x2, .f32⟩ : BufTy).Contents (Elt F))
    (h_main_v28 : W (no_index (Proc.devRef .tc main_v28)) = ReadP.val_main_v28 (F := F) x0) :
    after ops04 W (Proc.devRef .tc main_v58) = ReadP.val_main_v58 (F := F) x0 := by
  simp only [ops04]
  after_results_simp
  simp only [h_main_v28]
  rfl

end Cert.ReferenceIdeal.RunH

end
-- ==== Proof.RefRun05.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops05 : List (HloOp τ sig (Elt F)) :=
  [ binary main_v57 main_v58 main_v59 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops05_W : List (Ref sig .tc) := [main_v59]

theorem s05 : Stretch (ops05 (F := F)) ops05_W := by stretch

theorem c05_main_v59 (W : Valuation τ sig (Elt F)) (x0 : (⟨S2097152x2, .f32⟩ : BufTy).Contents (Elt F))
    (h_main_v58 : W (Proc.devRef .tc main_v58) = ReadP.val_main_v58 (F := F) x0)
    (h_main_v57 : W (Proc.devRef .tc main_v57) = ReadP.val_main_v57 (F := F) x0) :
    after ops05 W (Proc.devRef .tc main_v59) = ReadP.val_main_v59 (F := F) x0 := by
  simp only [ops05, after_cons, after_nil]
  rw [binary_result]
  rw [h_main_v58, h_main_v57]
  rfl

end Cert.ReferenceIdeal.RunH

end
-- ==== Proof.RefRun06.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops06 : List (HloOp τ sig (Elt F)) :=
  [ binary main_v7 main_v59 main_v60 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_15 (constantI S_ 32 0#32),
    unary main_c_15 main_v61 (broadcastInDim S2097152 ![] bcast_S_S2097152 : (⟨S_, .i32⟩ : BufTy).Contents (Elt F) → (⟨S2097152, .i32⟩ : BufTy).Contents (Elt F)),
    binary main_v32 main_v61 main_v62 (cmpi .slt : (⟨S2097152, .i32⟩ : BufTy).Contents (Elt F) → (⟨S2097152, .i32⟩ : BufTy).Contents (Elt F) → (⟨S2097152, .i1⟩ : BufTy).Contents (Elt F)),
    nullary main_c_16 (constantI S_ 32 16#32),
    unary main_c_16 main_v63 (broadcastInDim S2097152 ![] bcast_S_S2097152 : (⟨S_, .i32⟩ : BufTy).Contents (Elt F) → (⟨S2097152, .i32⟩ : BufTy).Contents (Elt F)),
    binary main_v32 main_v63 main_v64 (addi : (⟨S2097152, .i32⟩ : BufTy).Contents (Elt F) → (⟨S2097152, .i32⟩ : BufTy).Contents (Elt F) → (⟨S2097152, .i32⟩ : BufTy).Contents (Elt F)),
    ternary main_v62 main_v64 main_v32 main_v65 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_17 (constantI S_ 32 0#32),
    unary main_c_17 main_v66 (broadcastInDim S2097152 ![] bcast_S_S2097152 : (⟨S_, .i32⟩ : BufTy).Contents (Elt F) → (⟨S2097152, .i32⟩ : BufTy).Contents (Elt F)),
    binary main_v23 main_v66 main_v67 (cmpi .slt : (⟨S2097152, .i32⟩ : BufTy).Contents (Elt F) → (⟨S2097152, .i32⟩ : BufTy).Contents (Elt F) → (⟨S2097152, .i1⟩ : BufTy).Contents (Elt F)),
    nullary main_c_18 (constantI S_ 32 16#32),
    unary main_c_18 main_v68 (broadcastInDim S2097152 ![] bcast_S_S2097152 : (⟨S_, .i32⟩ : BufTy).Contents (Elt F) → (⟨S2097152, .i32⟩ : BufTy).Contents (Elt F)),
    binary main_v23 main_v68 main_v69 (addi : (⟨S2097152, .i32⟩ : BufTy).Contents (Elt F) → (⟨S2097152, .i32⟩ : BufTy).Contents (Elt F) → (⟨S2097152, .i32⟩ : BufTy).Contents (Elt F)),
    ternary main_v67 main_v69 main_v23 main_v70 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v65 main_v71 (broadcastInDim S2097152x1 ![0] bcast_S2097152_S2097152x1_0 : (⟨S2097152, .i32⟩ : BufTy).Contents (Elt F) → (⟨S2097152x1, .i32⟩ : BufTy).Contents (Elt F)),
    unary main_v70 main_v72 (broadcastInDim S2097152x1 ![0] bcast_S2097152_S2097152x1_0 : (⟨S2097152, .i32⟩ : BufTy).Contents (Elt F) → (⟨S2097152x1, .i32⟩ : BufTy).Contents (Elt F)) ]

abbrev ops06_W : List (Ref sig .tc) := [main_v60, main_c_15, main_v61, main_v62, main_c_16, main_v63, main_v64, main_v65, main_c_17, main_v66, main_v67, main_c_18, main_v68, main_v69, main_v70, main_v71, main_v72]

theorem s06 : Stretch (ops06 (F := F)) ops06_W := by stretch

theorem c06_main_v60 (W : Valuation τ sig (Elt F)) (x0 : (⟨S2097152x2, .f32⟩ : BufTy).Contents (Elt F)) (x1 : (⟨S2x6x16x16, .f32⟩ : BufTy).Contents (Elt F))
    (h_main_v59 : W (no_index (Proc.devRef .tc main_v59)) = ReadP.val_main_v59 (F := F) x0)
    (h_main_v7 : W (no_index (Proc.devRef .tc main_v7)) = ReadP.val_main_v7 (F := F) x1) :
    after ops06 W (Proc.devRef .tc main_v60) = ReadP.val_main_v60 (F := F) x0 x1 := by
  simp only [ops06]
  after_results_simp
  simp only [h_main_v59, h_main_v7]
  rfl

theorem c06_main_v71 (W : Valuation τ sig (Elt F)) (x0 : (⟨S2097152x2, .f32⟩ : BufTy).Contents (Elt F))
    (h_main_v32 : W (no_index (Proc.devRef .tc main_v32)) = ReadP.val_main_v32 (F := F) x0) :
    after ops06 W (Proc.devRef .tc main_v71) = ReadP.val_main_v71 (F := F) x0 := by
  simp only [ops06]
  after_results_simp
  simp only [h_main_v32]
  rfl

theorem c06_main_v72 (W : Valuation τ sig (Elt F)) (x0 : (⟨S2097152x2, .f32⟩ : BufTy).Contents (Elt F))
    (h_main_v23 : W (no_index (Proc.devRef .tc main_v23)) = ReadP.val_main_v23 (F := F) x0) :
    after ops06 W (Proc.devRef .tc main_v72) = ReadP.val_main_v72 (F := F) x0 := by
  simp only [ops06]
  after_results_simp
  simp only [h_main_v23]
  rfl

end Cert.ReferenceIdeal.RunH

end
-- ==== Proof.RefRun07.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops07 : List (HloOp τ sig (Elt F)) :=
  [ binary main_v71 main_v72 main_v73 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops07_W : List (Ref sig .tc) := [main_v73]

theorem s07 : Stretch (ops07 (F := F)) ops07_W := by stretch

theorem c07_main_v73 (W : Valuation τ sig (Elt F)) (x0 : (⟨S2097152x2, .f32⟩ : BufTy).Contents (Elt F))
    (h_main_v72 : W (Proc.devRef .tc main_v72) = ReadP.val_main_v72 (F := F) x0)
    (h_main_v71 : W (Proc.devRef .tc main_v71) = ReadP.val_main_v71 (F := F) x0) :
    after ops07 W (Proc.devRef .tc main_v73) = ReadP.val_main_v73 (F := F) x0 := by
  simp only [ops07, after_cons, after_nil]
  rw [binary_result]
  rw [h_main_v72, h_main_v71]
  rfl

end Cert.ReferenceIdeal.RunH

end
-- ==== Proof.RefRun08.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops08 : List (HloOp τ sig (Elt F)) :=
  [ binary main_v7 main_v73 main_v74 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_19 (constantI S_ 32 0#32),
    unary main_c_19 main_v75 (broadcastInDim S2097152 ![] bcast_S_S2097152 : (⟨S_, .i32⟩ : BufTy).Contents (Elt F) → (⟨S2097152, .i32⟩ : BufTy).Contents (Elt F)),
    binary main_v32 main_v75 main_v76 (cmpi .slt : (⟨S2097152, .i32⟩ : BufTy).Contents (Elt F) → (⟨S2097152, .i32⟩ : BufTy).Contents (Elt F) → (⟨S2097152, .i1⟩ : BufTy).Contents (Elt F)),
    nullary main_c_20 (constantI S_ 32 16#32),
    unary main_c_20 main_v77 (broadcastInDim S2097152 ![] bcast_S_S2097152 : (⟨S_, .i32⟩ : BufTy).Contents (Elt F) → (⟨S2097152, .i32⟩ : BufTy).Contents (Elt F)),
    binary main_v32 main_v77 main_v78 (addi : (⟨S2097152, .i32⟩ : BufTy).Contents (Elt F) → (⟨S2097152, .i32⟩ : BufTy).Contents (Elt F) → (⟨S2097152, .i32⟩ : BufTy).Contents (Elt F)),
    ternary main_v76 main_v78 main_v32 main_v79 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_21 (constantI S_ 32 0#32),
    unary main_c_21 main_v80 (broadcastInDim S2097152 ![] bcast_S_S2097152 : (⟨S_, .i32⟩ : BufTy).Contents (Elt F) → (⟨S2097152, .i32⟩ : BufTy).Contents (Elt F)),
    binary main_v28 main_v80 main_v81 (cmpi .slt : (⟨S2097152, .i32⟩ : BufTy).Contents (Elt F) → (⟨S2097152, .i32⟩ : BufTy).Contents (Elt F) → (⟨S2097152, .i1⟩ : BufTy).Contents (Elt F)),
    nullary main_c_22 (constantI S_ 32 16#32),
    unary main_c_22 main_v82 (broadcastInDim S2097152 ![] bcast_S_S2097152 : (⟨S_, .i32⟩ : BufTy).Contents (Elt F) → (⟨S2097152, .i32⟩ : BufTy).Contents (Elt F)),
    binary main_v28 main_v82 main_v83 (addi : (⟨S2097152, .i32⟩ : BufTy).Contents (Elt F) → (⟨S2097152, .i32⟩ : BufTy).Contents (Elt F) → (⟨S2097152, .i32⟩ : BufTy).Contents (Elt F)),
    ternary main_v81 main_v83 main_v28 main_v84 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v79 main_v85 (broadcastInDim S2097152x1 ![0] bcast_S2097152_S2097152x1_0 : (⟨S2097152, .i32⟩ : BufTy).Contents (Elt F) → (⟨S2097152x1, .i32⟩ : BufTy).Contents (Elt F)),
    unary main_v84 main_v86 (broadcastInDim S2097152x1 ![0] bcast_S2097152_S2097152x1_0 : (⟨S2097152, .i32⟩ : BufTy).Contents (Elt F) → (⟨S2097152x1, .i32⟩ : BufTy).Contents (Elt F)) ]

abbrev ops08_W : List (Ref sig .tc) := [main_v74, main_c_19, main_v75, main_v76, main_c_20, main_v77, main_v78, main_v79, main_c_21, main_v80, main_v81, main_c_22, main_v82, main_v83, main_v84, main_v85, main_v86]

theorem s08 : Stretch (ops08 (F := F)) ops08_W := by stretch

theorem c08_main_v74 (W : Valuation τ sig (Elt F)) (x0 : (⟨S2097152x2, .f32⟩ : BufTy).Contents (Elt F)) (x1 : (⟨S2x6x16x16, .f32⟩ : BufTy).Contents (Elt F))
    (h_main_v73 : W (no_index (Proc.devRef .tc main_v73)) = ReadP.val_main_v73 (F := F) x0)
    (h_main_v7 : W (no_index (Proc.devRef .tc main_v7)) = ReadP.val_main_v7 (F := F) x1) :
    after ops08 W (Proc.devRef .tc main_v74) = ReadP.val_main_v74 (F := F) x0 x1 := by
  simp only [ops08]
  after_results_simp
  simp only [h_main_v73, h_main_v7]
  rfl

theorem c08_main_v85 (W : Valuation τ sig (Elt F)) (x0 : (⟨S2097152x2, .f32⟩ : BufTy).Contents (Elt F))
    (h_main_v32 : W (no_index (Proc.devRef .tc main_v32)) = ReadP.val_main_v32 (F := F) x0) :
    after ops08 W (Proc.devRef .tc main_v85) = ReadP.val_main_v85 (F := F) x0 := by
  simp only [ops08]
  after_results_simp
  simp only [h_main_v32]
  rfl

theorem c08_main_v86 (W : Valuation τ sig (Elt F)) (x0 : (⟨S2097152x2, .f32⟩ : BufTy).Contents (Elt F))
    (h_main_v28 : W (no_index (Proc.devRef .tc main_v28)) = ReadP.val_main_v28 (F := F) x0) :
    after ops08 W (Proc.devRef .tc main_v86) = ReadP.val_main_v86 (F := F) x0 := by
  simp only [ops08]
  after_results_simp
  simp only [h_main_v28]
  rfl

end Cert.ReferenceIdeal.RunH

end
-- ==== Proof.RefRun09.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops09 : List (HloOp τ sig (Elt F)) :=
  [ binary main_v85 main_v86 main_v87 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops09_W : List (Ref sig .tc) := [main_v87]

theorem s09 : Stretch (ops09 (F := F)) ops09_W := by stretch

theorem c09_main_v87 (W : Valuation τ sig (Elt F)) (x0 : (⟨S2097152x2, .f32⟩ : BufTy).Contents (Elt F))
    (h_main_v86 : W (Proc.devRef .tc main_v86) = ReadP.val_main_v86 (F := F) x0)
    (h_main_v85 : W (Proc.devRef .tc main_v85) = ReadP.val_main_v85 (F := F) x0) :
    after ops09 W (Proc.devRef .tc main_v87) = ReadP.val_main_v87 (F := F) x0 := by
  simp only [ops09, after_cons, after_nil]
  rw [binary_result]
  rw [h_main_v86, h_main_v85]
  rfl

end Cert.ReferenceIdeal.RunH

end
-- ==== Proof.RefRun10.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops10 : List (HloOp τ sig (Elt F)) :=
  [ binary main_v7 main_v87 main_v88 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_cst_23 (constant S_ .f32 0x3F800000#32),
    unary main_cst_23 main_v89 (broadcastInDim S2097152 ![] bcast_S_S2097152 : (⟨S_, .f32⟩ : BufTy).Contents (Elt F) → (⟨S2097152, .f32⟩ : BufTy).Contents (Elt F)),
    binary main_v89 main_v21 main_v90 (subf : (⟨S2097152, .f32⟩ : BufTy).Contents (Elt F) → (⟨S2097152, .f32⟩ : BufTy).Contents (Elt F) → (⟨S2097152, .f32⟩ : BufTy).Contents (Elt F)),
    unary main_v90 main_v91 (broadcastInDim S1x2097152 ![1] bcast_S2097152_S1x2097152_1 : (⟨S2097152, .f32⟩ : BufTy).Contents (Elt F) → (⟨S1x2097152, .f32⟩ : BufTy).Contents (Elt F)),
    unary main_v91 main_v92 (broadcastInDim S6x2097152 ![0, 1] bcast_S1x2097152_S6x2097152_0_1 : (⟨S1x2097152, .f32⟩ : BufTy).Contents (Elt F) → (⟨S6x2097152, .f32⟩ : BufTy).Contents (Elt F)),
    binary main_v46 main_v92 main_v93 (mulf : (⟨S6x2097152, .f32⟩ : BufTy).Contents (Elt F) → (⟨S6x2097152, .f32⟩ : BufTy).Contents (Elt F) → (⟨S6x2097152, .f32⟩ : BufTy).Contents (Elt F)) ]

abbrev ops10_W : List (Ref sig .tc) := [main_v88, main_cst_23, main_v89, main_v90, main_v91, main_v92, main_v93]

theorem s10 : Stretch (ops10 (F := F)) ops10_W := by stretch

theorem c10_main_v88 (W : Valuation τ sig (Elt F)) (x0 : (⟨S2097152x2, .f32⟩ : BufTy).Contents (Elt F)) (x1 : (⟨S2x6x16x16, .f32⟩ : BufTy).Contents (Elt F))
    (h_main_v87 : W (no_index (Proc.devRef .tc main_v87)) = ReadP.val_main_v87 (F := F) x0)
    (h_main_v7 : W (no_index (Proc.devRef .tc main_v7)) = ReadP.val_main_v7 (F := F) x1) :
    after ops10 W (Proc.devRef .tc main_v88) = ReadP.val_main_v88 (F := F) x0 x1 := by
  simp only [ops10]
  after_results_simp
  simp only [h_main_v87, h_main_v7]
  rfl

theorem c10_main_v93 (W : Valuation τ sig (Elt F)) (x0 : (⟨S2097152x2, .f32⟩ : BufTy).Contents (Elt F)) (x1 : (⟨S2x6x16x16, .f32⟩ : BufTy).Contents (Elt F))
    (h_main_v21 : W (no_index (Proc.devRef .tc main_v21)) = ReadP.val_main_v21 (F := F) x0)
    (h_main_v46 : W (no_index (Proc.devRef .tc main_v46)) = ReadP.val_main_v46 (F := F) x0 x1) :
    after ops10 W (Proc.devRef .tc main_v93) = ReadP.val_main_v93 (F := F) x0 x1 := by
  simp only [ops10]
  after_results_simp
  simp only [h_main_v21, h_main_v46]
  rfl

end Cert.ReferenceIdeal.RunH

end
-- ==== Proof.RefRun11.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops11 : List (HloOp τ sig (Elt F)) :=
  [ unary main_v21 main_v94 (broadcastInDim S1x2097152 ![1] bcast_S2097152_S1x2097152_1 : (⟨S2097152, .f32⟩ : BufTy).Contents (Elt F) → (⟨S1x2097152, .f32⟩ : BufTy).Contents (Elt F)),
    unary main_v94 main_v95 (broadcastInDim S6x2097152 ![0, 1] bcast_S1x2097152_S6x2097152_0_1 : (⟨S1x2097152, .f32⟩ : BufTy).Contents (Elt F) → (⟨S6x2097152, .f32⟩ : BufTy).Contents (Elt F)),
    binary main_v60 main_v95 main_v96 (mulf : (⟨S6x2097152, .f32⟩ : BufTy).Contents (Elt F) → (⟨S6x2097152, .f32⟩ : BufTy).Contents (Elt F) → (⟨S6x2097152, .f32⟩ : BufTy).Contents (Elt F)),
    binary main_v93 main_v96 main_v97 (addf : (⟨S6x2097152, .f32⟩ : BufTy).Contents (Elt F) → (⟨S6x2097152, .f32⟩ : BufTy).Contents (Elt F) → (⟨S6x2097152, .f32⟩ : BufTy).Contents (Elt F)),
    nullary main_cst_24 (constant S_ .f32 0x3F800000#32),
    unary main_cst_24 main_v98 (broadcastInDim S2097152 ![] bcast_S_S2097152 : (⟨S_, .f32⟩ : BufTy).Contents (Elt F) → (⟨S2097152, .f32⟩ : BufTy).Contents (Elt F)),
    binary main_v98 main_v21 main_v99 (subf : (⟨S2097152, .f32⟩ : BufTy).Contents (Elt F) → (⟨S2097152, .f32⟩ : BufTy).Contents (Elt F) → (⟨S2097152, .f32⟩ : BufTy).Contents (Elt F)),
    unary main_v99 main_v100 (broadcastInDim S1x2097152 ![1] bcast_S2097152_S1x2097152_1 : (⟨S2097152, .f32⟩ : BufTy).Contents (Elt F) → (⟨S1x2097152, .f32⟩ : BufTy).Contents (Elt F)),
    unary main_v100 main_v101 (broadcastInDim S6x2097152 ![0, 1] bcast_S1x2097152_S6x2097152_0_1 : (⟨S1x2097152, .f32⟩ : BufTy).Contents (Elt F) → (⟨S6x2097152, .f32⟩ : BufTy).Contents (Elt F)),
    binary main_v74 main_v101 main_v102 (mulf : (⟨S6x2097152, .f32⟩ : BufTy).Contents (Elt F) → (⟨S6x2097152, .f32⟩ : BufTy).Contents (Elt F) → (⟨S6x2097152, .f32⟩ : BufTy).Contents (Elt F)),
    unary main_v21 main_v103 (broadcastInDim S1x2097152 ![1] bcast_S2097152_S1x2097152_1 : (⟨S2097152, .f32⟩ : BufTy).Contents (Elt F) → (⟨S1x2097152, .f32⟩ : BufTy).Contents (Elt F)),
    unary main_v103 main_v104 (broadcastInDim S6x2097152 ![0, 1] bcast_S1x2097152_S6x2097152_0_1 : (⟨S1x2097152, .f32⟩ : BufTy).Contents (Elt F) → (⟨S6x2097152, .f32⟩ : BufTy).Contents (Elt F)),
    binary main_v88 main_v104 main_v105 (mulf : (⟨S6x2097152, .f32⟩ : BufTy).Contents (Elt F) → (⟨S6x2097152, .f32⟩ : BufTy).Contents (Elt F) → (⟨S6x2097152, .f32⟩ : BufTy).Contents (Elt F)),
    binary main_v102 main_v105 main_v106 (addf : (⟨S6x2097152, .f32⟩ : BufTy).Contents (Elt F) → (⟨S6x2097152, .f32⟩ : BufTy).Contents (Elt F) → (⟨S6x2097152, .f32⟩ : BufTy).Contents (Elt F)),
    nullary main_cst_25 (constant S_ .f32 0x3F800000#32),
    unary main_cst_25 main_v107 (broadcastInDim S2097152 ![] bcast_S_S2097152 : (⟨S_, .f32⟩ : BufTy).Contents (Elt F) → (⟨S2097152, .f32⟩ : BufTy).Contents (Elt F)),
    binary main_v107 main_v22 main_v108 (subf : (⟨S2097152, .f32⟩ : BufTy).Contents (Elt F) → (⟨S2097152, .f32⟩ : BufTy).Contents (Elt F) → (⟨S2097152, .f32⟩ : BufTy).Contents (Elt F)),
    unary main_v108 main_v109 (broadcastInDim S1x2097152 ![1] bcast_S2097152_S1x2097152_1 : (⟨S2097152, .f32⟩ : BufTy).Contents (Elt F) → (⟨S1x2097152, .f32⟩ : BufTy).Contents (Elt F)),
    unary main_v109 main_v110 (broadcastInDim S6x2097152 ![0, 1] bcast_S1x2097152_S6x2097152_0_1 : (⟨S1x2097152, .f32⟩ : BufTy).Contents (Elt F) → (⟨S6x2097152, .f32⟩ : BufTy).Contents (Elt F)),
    binary main_v97 main_v110 main_v111 (mulf : (⟨S6x2097152, .f32⟩ : BufTy).Contents (Elt F) → (⟨S6x2097152, .f32⟩ : BufTy).Contents (Elt F) → (⟨S6x2097152, .f32⟩ : BufTy).Contents (Elt F)),
    unary main_v22 main_v112 (broadcastInDim S1x2097152 ![1] bcast_S2097152_S1x2097152_1 : (⟨S2097152, .f32⟩ : BufTy).Contents (Elt F) → (⟨S1x2097152, .f32⟩ : BufTy).Contents (Elt F)),
    unary main_v112 main_v113 (broadcastInDim S6x2097152 ![0, 1] bcast_S1x2097152_S6x2097152_0_1 : (⟨S1x2097152, .f32⟩ : BufTy).Contents (Elt F) → (⟨S6x2097152, .f32⟩ : BufTy).Contents (Elt F)),
    binary main_v106 main_v113 main_v114 (mulf : (⟨S6x2097152, .f32⟩ : BufTy).Contents (Elt F) → (⟨S6x2097152, .f32⟩ : BufTy).Contents (Elt F) → (⟨S6x2097152, .f32⟩ : BufTy).Contents (Elt F)),
    binary main_v111 main_v114 main_v115 (addf : (⟨S6x2097152, .f32⟩ : BufTy).Contents (Elt F) → (⟨S6x2097152, .f32⟩ : BufTy).Contents (Elt F) → (⟨S6x2097152, .f32⟩ : BufTy).Contents (Elt F)),
    unary main_v115 main_v116 ((transpose S2097152x6 [1, 0] · transposes_S6x2097152_S2097152x6_1_0) : (⟨S6x2097152, .f32⟩ : BufTy).Contents (Elt F) → (⟨S2097152x6, .f32⟩ : BufTy).Contents (Elt F)),
    unary main_arg2 main_v117 ((extractStridedSlice S1x6x16x16 ![0, 0, 0, 0] · slices_S2x6x16x16_S1x6x16x16_0_0_0_0) : (⟨S2x6x16x16, .f32⟩ : BufTy).Contents (Elt F) → (⟨S1x6x16x16, .f32⟩ : BufTy).Contents (Elt F)),
    reshape main_v117 main_v118 rfl shapeCasts_S1x6x16x16_S6x16x16,
    nullary main_cst_26 (constant S_ .f32 0x3F800000#32),
    unary main_cst_26 main_v119 (broadcastInDim S2097152x2 ![] bcast_S_S2097152x2 : (⟨S_, .f32⟩ : BufTy).Contents (Elt F) → (⟨S2097152x2, .f32⟩ : BufTy).Contents (Elt F)),
    binary main_arg0 main_v119 main_v120 (addf : (⟨S2097152x2, .f32⟩ : BufTy).Contents (Elt F) → (⟨S2097152x2, .f32⟩ : BufTy).Contents (Elt F) → (⟨S2097152x2, .f32⟩ : BufTy).Contents (Elt F)),
    nullary main_cst_27 (constant S_ .f32 0x3F000000#32),
    unary main_cst_27 main_v121 (broadcastInDim S2097152x2 ![] bcast_S_S2097152x2 : (⟨S_, .f32⟩ : BufTy).Contents (Elt F) → (⟨S2097152x2, .f32⟩ : BufTy).Contents (Elt F)) ]

abbrev ops11_W : List (Ref sig .tc) := [main_v94, main_v95, main_v96, main_v97, main_cst_24, main_v98, main_v99, main_v100, main_v101, main_v102, main_v103, main_v104, main_v105, main_v106, main_cst_25, main_v107, main_v108, main_v109, main_v110, main_v111, main_v112, main_v113, main_v114, main_v115, main_v116, main_v117, main_v118, main_cst_26, main_v119, main_v120, main_cst_27, main_v121]

theorem s11 : Stretch (ops11 (F := F)) ops11_W := by stretch

theorem c11_main_v116 (W : Valuation τ sig (Elt F)) (x0 : (⟨S2097152x2, .f32⟩ : BufTy).Contents (Elt F)) (x1 : (⟨S2x6x16x16, .f32⟩ : BufTy).Contents (Elt F))
    (h_main_v22 : W (no_index (Proc.devRef .tc main_v22)) = ReadP.val_main_v22 (F := F) x0)
    (h_main_v21 : W (no_index (Proc.devRef .tc main_v21)) = ReadP.val_main_v21 (F := F) x0)
    (h_main_v88 : W (no_index (Proc.devRef .tc main_v88)) = ReadP.val_main_v88 (F := F) x0 x1)
    (h_main_v74 : W (no_index (Proc.devRef .tc main_v74)) = ReadP.val_main_v74 (F := F) x0 x1)
    (h_main_v60 : W (no_index (Proc.devRef .tc main_v60)) = ReadP.val_main_v60 (F := F) x0 x1)
    (h_main_v93 : W (no_index (Proc.devRef .tc main_v93)) = ReadP.val_main_v93 (F := F) x0 x1) :
    after ops11 W (Proc.devRef .tc main_v116) = ReadP.val_main_v116 (F := F) x0 x1 := by
  simp only [ops11]
  after_results_simp
  simp only [h_main_v22, h_main_v21, h_main_v88, h_main_v74, h_main_v60, h_main_v93]
  rfl

theorem c11_main_v118 (W : Valuation τ sig (Elt F)) (x2 : (⟨S2x6x16x16, .f32⟩ : BufTy).Contents (Elt F))
    (h_main_arg2 : W (no_index (Proc.devRef .tc main_arg2)) = x2) :
    after ops11 W (Proc.devRef .tc main_v118) = ReadP.val_main_v118 (F := F) x2 := by
  simp only [ops11]
  after_results_simp
  simp only [h_main_arg2]
  rfl

theorem c11_main_v120 (W : Valuation τ sig (Elt F)) (x0 : (⟨S2097152x2, .f32⟩ : BufTy).Contents (Elt F))
    (h_main_arg0 : W (no_index (Proc.devRef .tc main_arg0)) = x0) :
    after ops11 W (Proc.devRef .tc main_v120) = ReadP.val_main_v120 (F := F) x0 := by
  simp only [ops11]
  after_results_simp
  simp only [h_main_arg0]
  rfl

theorem c11_main_v121 (W : Valuation τ sig (Elt F))
     :
    after ops11 W (Proc.devRef .tc main_v121) = ReadP.val_main_v121 (F := F) := by
  simp only [ops11]
  after_results_simp
  skip
  rfl

end Cert.ReferenceIdeal.RunH

end
-- ==== Proof.RefRun12.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops12 : List (HloOp τ sig (Elt F)) :=
  [ binary main_v120 main_v121 main_v122 (mulf : (⟨S2097152x2, .f32⟩ : BufTy).Contents (Elt F) → (⟨S2097152x2, .f32⟩ : BufTy).Contents (Elt F) → (⟨S2097152x2, .f32⟩ : BufTy).Contents (Elt F)),
    nullary main_cst_28 (constant S_ .f32 0x41700000#32),
    unary main_cst_28 main_v123 (broadcastInDim S2097152x2 ![] bcast_S_S2097152x2 : (⟨S_, .f32⟩ : BufTy).Contents (Elt F) → (⟨S2097152x2, .f32⟩ : BufTy).Contents (Elt F)),
    binary main_v122 main_v123 main_v124 (mulf : (⟨S2097152x2, .f32⟩ : BufTy).Contents (Elt F) → (⟨S2097152x2, .f32⟩ : BufTy).Contents (Elt F) → (⟨S2097152x2, .f32⟩ : BufTy).Contents (Elt F)),
    nullary main_cst_29 (constant S_ .f32 0x00000000#32),
    nullary main_cst_30 (constant S_ .f32 0x41700000#32),
    TRef.unary (TRef.of (T := ⟨S_, .f32⟩) main_cst_29) (TRef.of (T := ⟨S_, .f32⟩) main_call2_v0) id,
    TRef.unary (TRef.of (T := ⟨S_, .f32⟩) main_call2_v0) (TRef.of (T := ⟨S2097152x2, .f32⟩) main_call2_v1) (broadcastInDim S2097152x2 ![] bcast_S_S2097152x2),
    TRef.binary (TRef.of (T := ⟨S2097152x2, .f32⟩) main_call2_v1) (TRef.of (T := ⟨S2097152x2, .f32⟩) main_v124) (TRef.of (T := ⟨S2097152x2, .f32⟩) main_call2_v2) maximumf,
    TRef.unary (TRef.of (T := ⟨S_, .f32⟩) main_cst_30) (TRef.of (T := ⟨S_, .f32⟩) main_call2_v3) id,
    TRef.unary (TRef.of (T := ⟨S_, .f32⟩) main_call2_v3) (TRef.of (T := ⟨S2097152x2, .f32⟩) main_call2_v4) (broadcastInDim S2097152x2 ![] bcast_S_S2097152x2),
    TRef.binary (TRef.of (T := ⟨S2097152x2, .f32⟩) main_call2_v4) (TRef.of (T := ⟨S2097152x2, .f32⟩) main_call2_v2) (TRef.of (T := ⟨S2097152x2, .f32⟩) main_v125) minimumf,
    unary main_v125 main_v126 ((extractStridedSlice S2097152x1 ![0, 0] · slices_S2097152x2_S2097152x1_0_0) : (⟨S2097152x2, .f32⟩ : BufTy).Contents (Elt F) → (⟨S2097152x1, .f32⟩ : BufTy).Contents (Elt F)),
    reshape main_v126 main_v127 rfl shapeCasts_S2097152x1_S2097152,
    unary main_v125 main_v128 ((extractStridedSlice S2097152x1 ![0, 1] · slices_S2097152x2_S2097152x1_0_1) : (⟨S2097152x2, .f32⟩ : BufTy).Contents (Elt F) → (⟨S2097152x1, .f32⟩ : BufTy).Contents (Elt F)),
    reshape main_v128 main_v129 rfl shapeCasts_S2097152x1_S2097152,
    unary main_v127 main_v130 (Host.floor : (⟨S2097152, .f32⟩ : BufTy).Contents (Elt F) → (⟨S2097152, .f32⟩ : BufTy).Contents (Elt F)),
    unary main_v129 main_v131 (Host.floor : (⟨S2097152, .f32⟩ : BufTy).Contents (Elt F) → (⟨S2097152, .f32⟩ : BufTy).Contents (Elt F)),
    binary main_v127 main_v130 main_v132 (subf : (⟨S2097152, .f32⟩ : BufTy).Contents (Elt F) → (⟨S2097152, .f32⟩ : BufTy).Contents (Elt F) → (⟨S2097152, .f32⟩ : BufTy).Contents (Elt F)),
    binary main_v129 main_v131 main_v133 (subf : (⟨S2097152, .f32⟩ : BufTy).Contents (Elt F) → (⟨S2097152, .f32⟩ : BufTy).Contents (Elt F) → (⟨S2097152, .f32⟩ : BufTy).Contents (Elt F)),
    unary main_v130 main_v134 (fptosi 32 : (⟨S2097152, .f32⟩ : BufTy).Contents (Elt F) → (⟨S2097152, .i32⟩ : BufTy).Contents (Elt F)),
    unary main_v131 main_v135 (fptosi 32 : (⟨S2097152, .f32⟩ : BufTy).Contents (Elt F) → (⟨S2097152, .i32⟩ : BufTy).Contents (Elt F)),
    nullary main_c_31 (constantI S_ 32 1#32),
    unary main_c_31 main_v136 (broadcastInDim S2097152 ![] bcast_S_S2097152 : (⟨S_, .i32⟩ : BufTy).Contents (Elt F) → (⟨S2097152, .i32⟩ : BufTy).Contents (Elt F)),
    binary main_v134 main_v136 main_v137 (addi : (⟨S2097152, .i32⟩ : BufTy).Contents (Elt F) → (⟨S2097152, .i32⟩ : BufTy).Contents (Elt F) → (⟨S2097152, .i32⟩ : BufTy).Contents (Elt F)),
    nullary main_c_32 (constantI S_ 32 15#32),
    unary main_c_32 main_v138 (broadcastInDim S2097152 ![] bcast_S_S2097152 : (⟨S_, .i32⟩ : BufTy).Contents (Elt F) → (⟨S2097152, .i32⟩ : BufTy).Contents (Elt F)),
    binary main_v137 main_v138 main_v139 (minsi : (⟨S2097152, .i32⟩ : BufTy).Contents (Elt F) → (⟨S2097152, .i32⟩ : BufTy).Contents (Elt F) → (⟨S2097152, .i32⟩ : BufTy).Contents (Elt F)),
    nullary main_c_33 (constantI S_ 32 1#32),
    unary main_c_33 main_v140 (broadcastInDim S2097152 ![] bcast_S_S2097152 : (⟨S_, .i32⟩ : BufTy).Contents (Elt F) → (⟨S2097152, .i32⟩ : BufTy).Contents (Elt F)),
    binary main_v135 main_v140 main_v141 (addi : (⟨S2097152, .i32⟩ : BufTy).Contents (Elt F) → (⟨S2097152, .i32⟩ : BufTy).Contents (Elt F) → (⟨S2097152, .i32⟩ : BufTy).Contents (Elt F)),
    nullary main_c_34 (constantI S_ 32 15#32),
    unary main_c_34 main_v142 (broadcastInDim S2097152 ![] bcast_S_S2097152 : (⟨S_, .i32⟩ : BufTy).Contents (Elt F) → (⟨S2097152, .i32⟩ : BufTy).Contents (Elt F)) ]

abbrev ops12_W : List (Ref sig .tc) := [main_v122, main_cst_28, main_v123, main_v124, main_cst_29, main_cst_30, main_call2_v0, main_call2_v1, main_call2_v2, main_call2_v3, main_call2_v4, main_v125, main_v126, main_v127, main_v128, main_v129, main_v130, main_v131, main_v132, main_v133, main_v134, main_v135, main_c_31, main_v136, main_v137, main_c_32, main_v138, main_v139, main_c_33, main_v140, main_v141, main_c_34, main_v142]

theorem s12 : Stretch (ops12 (F := F)) ops12_W := by stretch

theorem c12_main_v132 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v132) = ReadP.val_main_v132 (F := F) x0 := by
  simp only [ops12]
  after_results_simp
  try simp only [TRef.ofBuf, TRef.toBuf, cast_eq]
  simp only [h_main_v121, h_main_v120]
  rfl

theorem c12_main_v133 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v133) = ReadP.val_main_v133 (F := F) x0 := by
  simp only [ops12]
  after_results_simp
  try simp only [TRef.ofBuf, TRef.toBuf, cast_eq]
  simp only [h_main_v121, h_main_v120]
  rfl

theorem c12_main_v134 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v134) = ReadP.val_main_v134 (F := F) x0 := by
  simp only [ops12]
  after_results_simp
  try simp only [TRef.ofBuf, TRef.toBuf, cast_eq]
  simp only [h_main_v121, h_main_v120]
  rfl

theorem c12_main_v135 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v135) = ReadP.val_main_v135 (F := F) x0 := by
  simp only [ops12]
  after_results_simp
  try simp only [TRef.ofBuf, TRef.toBuf, cast_eq]
  simp only [h_main_v121, h_main_v120]
  rfl

theorem c12_main_v139 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v139) = ReadP.val_main_v139 (F := F) x0 := by
  simp only [ops12]
  after_results_simp
  try simp only [TRef.ofBuf, TRef.toBuf, cast_eq]
  simp only [h_main_v121, h_main_v120]
  rfl

theorem c12_main_v141 (W : Valuation τ sig (Elt F)) (x0 : (⟨S2097152x2, .f32⟩ : BufTy).Contents (Elt F))
    (h_main_v121 : W (no_index (Proc.devRef .tc main_v121)) = ReadP.val_main_v121 (F := F))
    (h_main_v120 : W (no_index (Proc.devRef .tc main_v120)) = ReadP.val_main_v120 (F := F) x0) :
    after ops12 W (Proc.devRef .tc main_v141) = ReadP.val_main_v141 (F := F) x0 := by
  simp only [ops12]
  after_results_simp
  try simp only [TRef.ofBuf, TRef.toBuf, cast_eq]
  simp only [h_main_v121, h_main_v120]
  rfl

theorem c12_main_v142 (W : Valuation τ sig (Elt F))
     :
    after ops12 W (Proc.devRef .tc main_v142) = ReadP.val_main_v142 (F := F) := by
  simp only [ops12]
  after_results_simp
  try simp only [TRef.ofBuf, TRef.toBuf, cast_eq]
  skip
  rfl

end Cert.ReferenceIdeal.RunH

end
-- ==== Proof.RefRun13.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops13 : List (HloOp τ sig (Elt F)) :=
  [ binary main_v141 main_v142 main_v143 (minsi : (⟨S2097152, .i32⟩ : BufTy).Contents (Elt F) → (⟨S2097152, .i32⟩ : BufTy).Contents (Elt F) → (⟨S2097152, .i32⟩ : BufTy).Contents (Elt F)),
    nullary main_c_35 (constantI S_ 32 0#32),
    unary main_c_35 main_v144 (broadcastInDim S2097152 ![] bcast_S_S2097152 : (⟨S_, .i32⟩ : BufTy).Contents (Elt F) → (⟨S2097152, .i32⟩ : BufTy).Contents (Elt F)),
    binary main_v135 main_v144 main_v145 (cmpi .slt : (⟨S2097152, .i32⟩ : BufTy).Contents (Elt F) → (⟨S2097152, .i32⟩ : BufTy).Contents (Elt F) → (⟨S2097152, .i1⟩ : BufTy).Contents (Elt F)),
    nullary main_c_36 (constantI S_ 32 16#32),
    unary main_c_36 main_v146 (broadcastInDim S2097152 ![] bcast_S_S2097152 : (⟨S_, .i32⟩ : BufTy).Contents (Elt F) → (⟨S2097152, .i32⟩ : BufTy).Contents (Elt F)),
    binary main_v135 main_v146 main_v147 (addi : (⟨S2097152, .i32⟩ : BufTy).Contents (Elt F) → (⟨S2097152, .i32⟩ : BufTy).Contents (Elt F) → (⟨S2097152, .i32⟩ : BufTy).Contents (Elt F)),
    ternary main_v145 main_v147 main_v135 main_v148 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_37 (constantI S_ 32 0#32),
    unary main_c_37 main_v149 (broadcastInDim S2097152 ![] bcast_S_S2097152 : (⟨S_, .i32⟩ : BufTy).Contents (Elt F) → (⟨S2097152, .i32⟩ : BufTy).Contents (Elt F)),
    binary main_v134 main_v149 main_v150 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 16#32),
    unary main_c_38 main_v151 (broadcastInDim S2097152 ![] bcast_S_S2097152 : (⟨S_, .i32⟩ : BufTy).Contents (Elt F) → (⟨S2097152, .i32⟩ : BufTy).Contents (Elt F)),
    binary main_v134 main_v151 main_v152 (addi : (⟨S2097152, .i32⟩ : BufTy).Contents (Elt F) → (⟨S2097152, .i32⟩ : BufTy).Contents (Elt F) → (⟨S2097152, .i32⟩ : BufTy).Contents (Elt F)),
    ternary main_v150 main_v152 main_v134 main_v153 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v148 main_v154 (broadcastInDim S2097152x1 ![0] bcast_S2097152_S2097152x1_0 : (⟨S2097152, .i32⟩ : BufTy).Contents (Elt F) → (⟨S2097152x1, .i32⟩ : BufTy).Contents (Elt F)),
    unary main_v153 main_v155 (broadcastInDim S2097152x1 ![0] bcast_S2097152_S2097152x1_0 : (⟨S2097152, .i32⟩ : BufTy).Contents (Elt F) → (⟨S2097152x1, .i32⟩ : BufTy).Contents (Elt F)) ]

abbrev ops13_W : List (Ref sig .tc) := [main_v143, main_c_35, main_v144, main_v145, main_c_36, main_v146, main_v147, main_v148, main_c_37, main_v149, main_v150, main_c_38, main_v151, main_v152, main_v153, main_v154, main_v155]

theorem s13 : Stretch (ops13 (F := F)) ops13_W := by stretch

theorem c13_main_v143 (W : Valuation τ sig (Elt F)) (x0 : (⟨S2097152x2, .f32⟩ : BufTy).Contents (Elt F))
    (h_main_v142 : W (no_index (Proc.devRef .tc main_v142)) = ReadP.val_main_v142 (F := F))
    (h_main_v141 : W (no_index (Proc.devRef .tc main_v141)) = ReadP.val_main_v141 (F := F) x0) :
    after ops13 W (Proc.devRef .tc main_v143) = ReadP.val_main_v143 (F := F) x0 := by
  simp only [ops13]
  after_results_simp
  simp only [h_main_v142, h_main_v141]
  rfl

theorem c13_main_v154 (W : Valuation τ sig (Elt F)) (x0 : (⟨S2097152x2, .f32⟩ : BufTy).Contents (Elt F))
    (h_main_v135 : W (no_index (Proc.devRef .tc main_v135)) = ReadP.val_main_v135 (F := F) x0) :
    after ops13 W (Proc.devRef .tc main_v154) = ReadP.val_main_v154 (F := F) x0 := by
  simp only [ops13]
  after_results_simp
  simp only [h_main_v135]
  rfl

theorem c13_main_v155 (W : Valuation τ sig (Elt F)) (x0 : (⟨S2097152x2, .f32⟩ : BufTy).Contents (Elt F))
    (h_main_v134 : W (no_index (Proc.devRef .tc main_v134)) = ReadP.val_main_v134 (F := F) x0) :
    after ops13 W (Proc.devRef .tc main_v155) = ReadP.val_main_v155 (F := F) x0 := by
  simp only [ops13]
  after_results_simp
  simp only [h_main_v134]
  rfl

end Cert.ReferenceIdeal.RunH

end
-- ==== Proof.RefRun14.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops14 : List (HloOp τ sig (Elt F)) :=
  [ binary main_v154 main_v155 main_v156 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops14_W : List (Ref sig .tc) := [main_v156]

theorem s14 : Stretch (ops14 (F := F)) ops14_W := by stretch

theorem c14_main_v156 (W : Valuation τ sig (Elt F)) (x0 : (⟨S2097152x2, .f32⟩ : BufTy).Contents (Elt F))
    (h_main_v155 : W (Proc.devRef .tc main_v155) = ReadP.val_main_v155 (F := F) x0)
    (h_main_v154 : W (Proc.devRef .tc main_v154) = ReadP.val_main_v154 (F := F) x0) :
    after ops14 W (Proc.devRef .tc main_v156) = ReadP.val_main_v156 (F := F) x0 := by
  simp only [ops14, after_cons, after_nil]
  rw [binary_result]
  rw [h_main_v155, h_main_v154]
  rfl

end Cert.ReferenceIdeal.RunH

end
-- ==== Proof.RefRun15.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops15 : List (HloOp τ sig (Elt F)) :=
  [ binary main_v118 main_v156 main_v157 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_39 (constantI S_ 32 0#32),
    unary main_c_39 main_v158 (broadcastInDim S2097152 ![] bcast_S_S2097152 : (⟨S_, .i32⟩ : BufTy).Contents (Elt F) → (⟨S2097152, .i32⟩ : BufTy).Contents (Elt F)),
    binary main_v135 main_v158 main_v159 (cmpi .slt : (⟨S2097152, .i32⟩ : BufTy).Contents (Elt F) → (⟨S2097152, .i32⟩ : BufTy).Contents (Elt F) → (⟨S2097152, .i1⟩ : BufTy).Contents (Elt F)),
    nullary main_c_40 (constantI S_ 32 16#32),
    unary main_c_40 main_v160 (broadcastInDim S2097152 ![] bcast_S_S2097152 : (⟨S_, .i32⟩ : BufTy).Contents (Elt F) → (⟨S2097152, .i32⟩ : BufTy).Contents (Elt F)),
    binary main_v135 main_v160 main_v161 (addi : (⟨S2097152, .i32⟩ : BufTy).Contents (Elt F) → (⟨S2097152, .i32⟩ : BufTy).Contents (Elt F) → (⟨S2097152, .i32⟩ : BufTy).Contents (Elt F)),
    ternary main_v159 main_v161 main_v135 main_v162 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_41 (constantI S_ 32 0#32),
    unary main_c_41 main_v163 (broadcastInDim S2097152 ![] bcast_S_S2097152 : (⟨S_, .i32⟩ : BufTy).Contents (Elt F) → (⟨S2097152, .i32⟩ : BufTy).Contents (Elt F)),
    binary main_v139 main_v163 main_v164 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 16#32),
    unary main_c_42 main_v165 (broadcastInDim S2097152 ![] bcast_S_S2097152 : (⟨S_, .i32⟩ : BufTy).Contents (Elt F) → (⟨S2097152, .i32⟩ : BufTy).Contents (Elt F)),
    binary main_v139 main_v165 main_v166 (addi : (⟨S2097152, .i32⟩ : BufTy).Contents (Elt F) → (⟨S2097152, .i32⟩ : BufTy).Contents (Elt F) → (⟨S2097152, .i32⟩ : BufTy).Contents (Elt F)),
    ternary main_v164 main_v166 main_v139 main_v167 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v162 main_v168 (broadcastInDim S2097152x1 ![0] bcast_S2097152_S2097152x1_0 : (⟨S2097152, .i32⟩ : BufTy).Contents (Elt F) → (⟨S2097152x1, .i32⟩ : BufTy).Contents (Elt F)),
    unary main_v167 main_v169 (broadcastInDim S2097152x1 ![0] bcast_S2097152_S2097152x1_0 : (⟨S2097152, .i32⟩ : BufTy).Contents (Elt F) → (⟨S2097152x1, .i32⟩ : BufTy).Contents (Elt F)) ]

abbrev ops15_W : List (Ref sig .tc) := [main_v157, main_c_39, main_v158, main_v159, main_c_40, main_v160, main_v161, main_v162, main_c_41, main_v163, main_v164, main_c_42, main_v165, main_v166, main_v167, main_v168, main_v169]

theorem s15 : Stretch (ops15 (F := F)) ops15_W := by stretch

theorem c15_main_v157 (W : Valuation τ sig (Elt F)) (x0 : (⟨S2097152x2, .f32⟩ : BufTy).Contents (Elt F)) (x2 : (⟨S2x6x16x16, .f32⟩ : BufTy).Contents (Elt F))
    (h_main_v156 : W (no_index (Proc.devRef .tc main_v156)) = ReadP.val_main_v156 (F := F) x0)
    (h_main_v118 : W (no_index (Proc.devRef .tc main_v118)) = ReadP.val_main_v118 (F := F) x2) :
    after ops15 W (Proc.devRef .tc main_v157) = ReadP.val_main_v157 (F := F) x0 x2 := by
  simp only [ops15]
  after_results_simp
  simp only [h_main_v156, h_main_v118]
  rfl

theorem c15_main_v168 (W : Valuation τ sig (Elt F)) (x0 : (⟨S2097152x2, .f32⟩ : BufTy).Contents (Elt F))
    (h_main_v135 : W (no_index (Proc.devRef .tc main_v135)) = ReadP.val_main_v135 (F := F) x0) :
    after ops15 W (Proc.devRef .tc main_v168) = ReadP.val_main_v168 (F := F) x0 := by
  simp only [ops15]
  after_results_simp
  simp only [h_main_v135]
  rfl

theorem c15_main_v169 (W : Valuation τ sig (Elt F)) (x0 : (⟨S2097152x2, .f32⟩ : BufTy).Contents (Elt F))
    (h_main_v139 : W (no_index (Proc.devRef .tc main_v139)) = ReadP.val_main_v139 (F := F) x0) :
    after ops15 W (Proc.devRef .tc main_v169) = ReadP.val_main_v169 (F := F) x0 := by
  simp only [ops15]
  after_results_simp
  simp only [h_main_v139]
  rfl

end Cert.ReferenceIdeal.RunH

end
-- ==== Proof.RefRun16.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops16 : List (HloOp τ sig (Elt F)) :=
  [ binary main_v168 main_v169 main_v170 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops16_W : List (Ref sig .tc) := [main_v170]

theorem s16 : Stretch (ops16 (F := F)) ops16_W := by stretch

theorem c16_main_v170 (W : Valuation τ sig (Elt F)) (x0 : (⟨S2097152x2, .f32⟩ : BufTy).Contents (Elt F))
    (h_main_v169 : W (Proc.devRef .tc main_v169) = ReadP.val_main_v169 (F := F) x0)
    (h_main_v168 : W (Proc.devRef .tc main_v168) = ReadP.val_main_v168 (F := F) x0) :
    after ops16 W (Proc.devRef .tc main_v170) = ReadP.val_main_v170 (F := F) x0 := by
  simp only [ops16, after_cons, after_nil]
  rw [binary_result]
  rw [h_main_v169, h_main_v168]
  rfl

end Cert.ReferenceIdeal.RunH

end
-- ==== Proof.RefRun17.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops17 : List (HloOp τ sig (Elt F)) :=
  [ binary main_v118 main_v170 main_v171 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_43 (constantI S_ 32 0#32),
    unary main_c_43 main_v172 (broadcastInDim S2097152 ![] bcast_S_S2097152 : (⟨S_, .i32⟩ : BufTy).Contents (Elt F) → (⟨S2097152, .i32⟩ : BufTy).Contents (Elt F)),
    binary main_v143 main_v172 main_v173 (cmpi .slt : (⟨S2097152, .i32⟩ : BufTy).Contents (Elt F) → (⟨S2097152, .i32⟩ : BufTy).Contents (Elt F) → (⟨S2097152, .i1⟩ : BufTy).Contents (Elt F)),
    nullary main_c_44 (constantI S_ 32 16#32),
    unary main_c_44 main_v174 (broadcastInDim S2097152 ![] bcast_S_S2097152 : (⟨S_, .i32⟩ : BufTy).Contents (Elt F) → (⟨S2097152, .i32⟩ : BufTy).Contents (Elt F)),
    binary main_v143 main_v174 main_v175 (addi : (⟨S2097152, .i32⟩ : BufTy).Contents (Elt F) → (⟨S2097152, .i32⟩ : BufTy).Contents (Elt F) → (⟨S2097152, .i32⟩ : BufTy).Contents (Elt F)),
    ternary main_v173 main_v175 main_v143 main_v176 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_45 (constantI S_ 32 0#32),
    unary main_c_45 main_v177 (broadcastInDim S2097152 ![] bcast_S_S2097152 : (⟨S_, .i32⟩ : BufTy).Contents (Elt F) → (⟨S2097152, .i32⟩ : BufTy).Contents (Elt F)),
    binary main_v134 main_v177 main_v178 (cmpi .slt : (⟨S2097152, .i32⟩ : BufTy).Contents (Elt F) → (⟨S2097152, .i32⟩ : BufTy).Contents (Elt F) → (⟨S2097152, .i1⟩ : BufTy).Contents (Elt F)),
    nullary main_c_46 (constantI S_ 32 16#32),
    unary main_c_46 main_v179 (broadcastInDim S2097152 ![] bcast_S_S2097152 : (⟨S_, .i32⟩ : BufTy).Contents (Elt F) → (⟨S2097152, .i32⟩ : BufTy).Contents (Elt F)),
    binary main_v134 main_v179 main_v180 (addi : (⟨S2097152, .i32⟩ : BufTy).Contents (Elt F) → (⟨S2097152, .i32⟩ : BufTy).Contents (Elt F) → (⟨S2097152, .i32⟩ : BufTy).Contents (Elt F)),
    ternary main_v178 main_v180 main_v134 main_v181 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v176 main_v182 (broadcastInDim S2097152x1 ![0] bcast_S2097152_S2097152x1_0 : (⟨S2097152, .i32⟩ : BufTy).Contents (Elt F) → (⟨S2097152x1, .i32⟩ : BufTy).Contents (Elt F)),
    unary main_v181 main_v183 (broadcastInDim S2097152x1 ![0] bcast_S2097152_S2097152x1_0 : (⟨S2097152, .i32⟩ : BufTy).Contents (Elt F) → (⟨S2097152x1, .i32⟩ : BufTy).Contents (Elt F)) ]

abbrev ops17_W : List (Ref sig .tc) := [main_v171, main_c_43, main_v172, main_v173, main_c_44, main_v174, main_v175, main_v176, main_c_45, main_v177, main_v178, main_c_46, main_v179, main_v180, main_v181, main_v182, main_v183]

theorem s17 : Stretch (ops17 (F := F)) ops17_W := by stretch

theorem c17_main_v171 (W : Valuation τ sig (Elt F)) (x0 : (⟨S2097152x2, .f32⟩ : BufTy).Contents (Elt F)) (x2 : (⟨S2x6x16x16, .f32⟩ : BufTy).Contents (Elt F))
    (h_main_v170 : W (no_index (Proc.devRef .tc main_v170)) = ReadP.val_main_v170 (F := F) x0)
    (h_main_v118 : W (no_index (Proc.devRef .tc main_v118)) = ReadP.val_main_v118 (F := F) x2) :
    after ops17 W (Proc.devRef .tc main_v171) = ReadP.val_main_v171 (F := F) x0 x2 := by
  simp only [ops17]
  after_results_simp
  simp only [h_main_v170, h_main_v118]
  rfl

theorem c17_main_v182 (W : Valuation τ sig (Elt F)) (x0 : (⟨S2097152x2, .f32⟩ : BufTy).Contents (Elt F))
    (h_main_v143 : W (no_index (Proc.devRef .tc main_v143)) = ReadP.val_main_v143 (F := F) x0) :
    after ops17 W (Proc.devRef .tc main_v182) = ReadP.val_main_v182 (F := F) x0 := by
  simp only [ops17]
  after_results_simp
  simp only [h_main_v143]
  rfl

theorem c17_main_v183 (W : Valuation τ sig (Elt F)) (x0 : (⟨S2097152x2, .f32⟩ : BufTy).Contents (Elt F))
    (h_main_v134 : W (no_index (Proc.devRef .tc main_v134)) = ReadP.val_main_v134 (F := F) x0) :
    after ops17 W (Proc.devRef .tc main_v183) = ReadP.val_main_v183 (F := F) x0 := by
  simp only [ops17]
  after_results_simp
  simp only [h_main_v134]
  rfl

end Cert.ReferenceIdeal.RunH

end
-- ==== Proof.RefRun18.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops18 : List (HloOp τ sig (Elt F)) :=
  [ binary main_v182 main_v183 main_v184 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops18_W : List (Ref sig .tc) := [main_v184]

theorem s18 : Stretch (ops18 (F := F)) ops18_W := by stretch

theorem c18_main_v184 (W : Valuation τ sig (Elt F)) (x0 : (⟨S2097152x2, .f32⟩ : BufTy).Contents (Elt F))
    (h_main_v183 : W (Proc.devRef .tc main_v183) = ReadP.val_main_v183 (F := F) x0)
    (h_main_v182 : W (Proc.devRef .tc main_v182) = ReadP.val_main_v182 (F := F) x0) :
    after ops18 W (Proc.devRef .tc main_v184) = ReadP.val_main_v184 (F := F) x0 := by
  simp only [ops18, after_cons, after_nil]
  rw [binary_result]
  rw [h_main_v183, h_main_v182]
  rfl

end Cert.ReferenceIdeal.RunH

end
-- ==== Proof.RefRun19.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops19 : List (HloOp τ sig (Elt F)) :=
  [ binary main_v118 main_v184 main_v185 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_47 (constantI S_ 32 0#32),
    unary main_c_47 main_v186 (broadcastInDim S2097152 ![] bcast_S_S2097152 : (⟨S_, .i32⟩ : BufTy).Contents (Elt F) → (⟨S2097152, .i32⟩ : BufTy).Contents (Elt F)),
    binary main_v143 main_v186 main_v187 (cmpi .slt : (⟨S2097152, .i32⟩ : BufTy).Contents (Elt F) → (⟨S2097152, .i32⟩ : BufTy).Contents (Elt F) → (⟨S2097152, .i1⟩ : BufTy).Contents (Elt F)),
    nullary main_c_48 (constantI S_ 32 16#32),
    unary main_c_48 main_v188 (broadcastInDim S2097152 ![] bcast_S_S2097152 : (⟨S_, .i32⟩ : BufTy).Contents (Elt F) → (⟨S2097152, .i32⟩ : BufTy).Contents (Elt F)) ]

abbrev ops19_W : List (Ref sig .tc) := [main_v185, main_c_47, main_v186, main_v187, main_c_48, main_v188]

theorem s19 : Stretch (ops19 (F := F)) ops19_W := by stretch

theorem c19_main_v185 (W : Valuation τ sig (Elt F)) (x0 : (⟨S2097152x2, .f32⟩ : BufTy).Contents (Elt F)) (x2 : (⟨S2x6x16x16, .f32⟩ : BufTy).Contents (Elt F))
    (h_main_v184 : W (no_index (Proc.devRef .tc main_v184)) = ReadP.val_main_v184 (F := F) x0)
    (h_main_v118 : W (no_index (Proc.devRef .tc main_v118)) = ReadP.val_main_v118 (F := F) x2) :
    after ops19 W (Proc.devRef .tc main_v185) = ReadP.val_main_v185 (F := F) x0 x2 := by
  simp only [ops19]
  after_results_simp
  simp only [h_main_v184, h_main_v118]
  rfl

theorem c19_main_v187 (W : Valuation τ sig (Elt F)) (x0 : (⟨S2097152x2, .f32⟩ : BufTy).Contents (Elt F))
    (h_main_v143 : W (no_index (Proc.devRef .tc main_v143)) = ReadP.val_main_v143 (F := F) x0) :
    after ops19 W (Proc.devRef .tc main_v187) = ReadP.val_main_v187 (F := F) x0 := by
  simp only [ops19]
  after_results_simp
  simp only [h_main_v143]
  rfl

theorem c19_main_v188 (W : Valuation τ sig (Elt F))
     :
    after ops19 W (Proc.devRef .tc main_v188) = ReadP.val_main_v188 (F := F) := by
  simp only [ops19]
  after_results_simp
  skip
  rfl

end Cert.ReferenceIdeal.RunH

end
-- ==== Proof.RefRun20.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops20 : List (HloOp τ sig (Elt F)) :=
  [ binary main_v143 main_v188 main_v189 (addi : (⟨S2097152, .i32⟩ : BufTy).Contents (Elt F) → (⟨S2097152, .i32⟩ : BufTy).Contents (Elt F) → (⟨S2097152, .i32⟩ : BufTy).Contents (Elt F)),
    ternary main_v187 main_v189 main_v143 main_v190 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_49 (constantI S_ 32 0#32),
    unary main_c_49 main_v191 (broadcastInDim S2097152 ![] bcast_S_S2097152 : (⟨S_, .i32⟩ : BufTy).Contents (Elt F) → (⟨S2097152, .i32⟩ : BufTy).Contents (Elt F)),
    binary main_v139 main_v191 main_v192 (cmpi .slt : (⟨S2097152, .i32⟩ : BufTy).Contents (Elt F) → (⟨S2097152, .i32⟩ : BufTy).Contents (Elt F) → (⟨S2097152, .i1⟩ : BufTy).Contents (Elt F)),
    nullary main_c_50 (constantI S_ 32 16#32),
    unary main_c_50 main_v193 (broadcastInDim S2097152 ![] bcast_S_S2097152 : (⟨S_, .i32⟩ : BufTy).Contents (Elt F) → (⟨S2097152, .i32⟩ : BufTy).Contents (Elt F)),
    binary main_v139 main_v193 main_v194 (addi : (⟨S2097152, .i32⟩ : BufTy).Contents (Elt F) → (⟨S2097152, .i32⟩ : BufTy).Contents (Elt F) → (⟨S2097152, .i32⟩ : BufTy).Contents (Elt F)),
    ternary main_v192 main_v194 main_v139 main_v195 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v190 main_v196 (broadcastInDim S2097152x1 ![0] bcast_S2097152_S2097152x1_0 : (⟨S2097152, .i32⟩ : BufTy).Contents (Elt F) → (⟨S2097152x1, .i32⟩ : BufTy).Contents (Elt F)),
    unary main_v195 main_v197 (broadcastInDim S2097152x1 ![0] bcast_S2097152_S2097152x1_0 : (⟨S2097152, .i32⟩ : BufTy).Contents (Elt F) → (⟨S2097152x1, .i32⟩ : BufTy).Contents (Elt F)) ]

abbrev ops20_W : List (Ref sig .tc) := [main_v189, main_v190, main_c_49, main_v191, main_v192, main_c_50, main_v193, main_v194, main_v195, main_v196, main_v197]

theorem s20 : Stretch (ops20 (F := F)) ops20_W := by stretch

theorem c20_main_v196 (W : Valuation τ sig (Elt F)) (x0 : (⟨S2097152x2, .f32⟩ : BufTy).Contents (Elt F))
    (h_main_v143 : W (no_index (Proc.devRef .tc main_v143)) = ReadP.val_main_v143 (F := F) x0)
    (h_main_v188 : W (no_index (Proc.devRef .tc main_v188)) = ReadP.val_main_v188 (F := F))
    (h_main_v187 : W (no_index (Proc.devRef .tc main_v187)) = ReadP.val_main_v187 (F := F) x0) :
    after ops20 W (Proc.devRef .tc main_v196) = ReadP.val_main_v196 (F := F) x0 := by
  simp only [ops20]
  after_results_simp
  simp only [h_main_v143, h_main_v188, h_main_v187]
  rfl

theorem c20_main_v197 (W : Valuation τ sig (Elt F)) (x0 : (⟨S2097152x2, .f32⟩ : BufTy).Contents (Elt F))
    (h_main_v139 : W (no_index (Proc.devRef .tc main_v139)) = ReadP.val_main_v139 (F := F) x0) :
    after ops20 W (Proc.devRef .tc main_v197) = ReadP.val_main_v197 (F := F) x0 := by
  simp only [ops20]
  after_results_simp
  simp only [h_main_v139]
  rfl

end Cert.ReferenceIdeal.RunH

end
-- ==== Proof.RefRun21.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops21 : List (HloOp τ sig (Elt F)) :=
  [ binary main_v196 main_v197 main_v198 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops21_W : List (Ref sig .tc) := [main_v198]

theorem s21 : Stretch (ops21 (F := F)) ops21_W := by stretch

theorem c21_main_v198 (W : Valuation τ sig (Elt F)) (x0 : (⟨S2097152x2, .f32⟩ : BufTy).Contents (Elt F))
    (h_main_v197 : W (Proc.devRef .tc main_v197) = ReadP.val_main_v197 (F := F) x0)
    (h_main_v196 : W (Proc.devRef .tc main_v196) = ReadP.val_main_v196 (F := F) x0) :
    after ops21 W (Proc.devRef .tc main_v198) = ReadP.val_main_v198 (F := F) x0 := by
  simp only [ops21, after_cons, after_nil]
  rw [binary_result]
  rw [h_main_v197, h_main_v196]
  rfl

end Cert.ReferenceIdeal.RunH

end
-- ==== Proof.RefRun22.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops22 : List (HloOp τ sig (Elt F)) :=
  [ binary main_v118 main_v198 main_v199 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_cst_51 (constant S_ .f32 0x3F800000#32),
    unary main_cst_51 main_v200 (broadcastInDim S2097152 ![] bcast_S_S2097152 : (⟨S_, .f32⟩ : BufTy).Contents (Elt F) → (⟨S2097152, .f32⟩ : BufTy).Contents (Elt F)),
    binary main_v200 main_v132 main_v201 (subf : (⟨S2097152, .f32⟩ : BufTy).Contents (Elt F) → (⟨S2097152, .f32⟩ : BufTy).Contents (Elt F) → (⟨S2097152, .f32⟩ : BufTy).Contents (Elt F)),
    unary main_v201 main_v202 (broadcastInDim S1x2097152 ![1] bcast_S2097152_S1x2097152_1 : (⟨S2097152, .f32⟩ : BufTy).Contents (Elt F) → (⟨S1x2097152, .f32⟩ : BufTy).Contents (Elt F)),
    unary main_v202 main_v203 (broadcastInDim S6x2097152 ![0, 1] bcast_S1x2097152_S6x2097152_0_1 : (⟨S1x2097152, .f32⟩ : BufTy).Contents (Elt F) → (⟨S6x2097152, .f32⟩ : BufTy).Contents (Elt F)),
    binary main_v157 main_v203 main_v204 (mulf : (⟨S6x2097152, .f32⟩ : BufTy).Contents (Elt F) → (⟨S6x2097152, .f32⟩ : BufTy).Contents (Elt F) → (⟨S6x2097152, .f32⟩ : BufTy).Contents (Elt F)),
    unary main_v132 main_v205 (broadcastInDim S1x2097152 ![1] bcast_S2097152_S1x2097152_1 : (⟨S2097152, .f32⟩ : BufTy).Contents (Elt F) → (⟨S1x2097152, .f32⟩ : BufTy).Contents (Elt F)),
    unary main_v205 main_v206 (broadcastInDim S6x2097152 ![0, 1] bcast_S1x2097152_S6x2097152_0_1 : (⟨S1x2097152, .f32⟩ : BufTy).Contents (Elt F) → (⟨S6x2097152, .f32⟩ : BufTy).Contents (Elt F)),
    binary main_v171 main_v206 main_v207 (mulf : (⟨S6x2097152, .f32⟩ : BufTy).Contents (Elt F) → (⟨S6x2097152, .f32⟩ : BufTy).Contents (Elt F) → (⟨S6x2097152, .f32⟩ : BufTy).Contents (Elt F)),
    binary main_v204 main_v207 main_v208 (addf : (⟨S6x2097152, .f32⟩ : BufTy).Contents (Elt F) → (⟨S6x2097152, .f32⟩ : BufTy).Contents (Elt F) → (⟨S6x2097152, .f32⟩ : BufTy).Contents (Elt F)),
    nullary main_cst_52 (constant S_ .f32 0x3F800000#32),
    unary main_cst_52 main_v209 (broadcastInDim S2097152 ![] bcast_S_S2097152 : (⟨S_, .f32⟩ : BufTy).Contents (Elt F) → (⟨S2097152, .f32⟩ : BufTy).Contents (Elt F)),
    binary main_v209 main_v132 main_v210 (subf : (⟨S2097152, .f32⟩ : BufTy).Contents (Elt F) → (⟨S2097152, .f32⟩ : BufTy).Contents (Elt F) → (⟨S2097152, .f32⟩ : BufTy).Contents (Elt F)),
    unary main_v210 main_v211 (broadcastInDim S1x2097152 ![1] bcast_S2097152_S1x2097152_1 : (⟨S2097152, .f32⟩ : BufTy).Contents (Elt F) → (⟨S1x2097152, .f32⟩ : BufTy).Contents (Elt F)),
    unary main_v211 main_v212 (broadcastInDim S6x2097152 ![0, 1] bcast_S1x2097152_S6x2097152_0_1 : (⟨S1x2097152, .f32⟩ : BufTy).Contents (Elt F) → (⟨S6x2097152, .f32⟩ : BufTy).Contents (Elt F)),
    binary main_v185 main_v212 main_v213 (mulf : (⟨S6x2097152, .f32⟩ : BufTy).Contents (Elt F) → (⟨S6x2097152, .f32⟩ : BufTy).Contents (Elt F) → (⟨S6x2097152, .f32⟩ : BufTy).Contents (Elt F)),
    unary main_v132 main_v214 (broadcastInDim S1x2097152 ![1] bcast_S2097152_S1x2097152_1 : (⟨S2097152, .f32⟩ : BufTy).Contents (Elt F) → (⟨S1x2097152, .f32⟩ : BufTy).Contents (Elt F)),
    unary main_v214 main_v215 (broadcastInDim S6x2097152 ![0, 1] bcast_S1x2097152_S6x2097152_0_1 : (⟨S1x2097152, .f32⟩ : BufTy).Contents (Elt F) → (⟨S6x2097152, .f32⟩ : BufTy).Contents (Elt F)),
    binary main_v199 main_v215 main_v216 (mulf : (⟨S6x2097152, .f32⟩ : BufTy).Contents (Elt F) → (⟨S6x2097152, .f32⟩ : BufTy).Contents (Elt F) → (⟨S6x2097152, .f32⟩ : BufTy).Contents (Elt F)),
    binary main_v213 main_v216 main_v217 (addf : (⟨S6x2097152, .f32⟩ : BufTy).Contents (Elt F) → (⟨S6x2097152, .f32⟩ : BufTy).Contents (Elt F) → (⟨S6x2097152, .f32⟩ : BufTy).Contents (Elt F)),
    nullary main_cst_53 (constant S_ .f32 0x3F800000#32),
    unary main_cst_53 main_v218 (broadcastInDim S2097152 ![] bcast_S_S2097152 : (⟨S_, .f32⟩ : BufTy).Contents (Elt F) → (⟨S2097152, .f32⟩ : BufTy).Contents (Elt F)),
    binary main_v218 main_v133 main_v219 (subf : (⟨S2097152, .f32⟩ : BufTy).Contents (Elt F) → (⟨S2097152, .f32⟩ : BufTy).Contents (Elt F) → (⟨S2097152, .f32⟩ : BufTy).Contents (Elt F)) ]

abbrev ops22_W : List (Ref sig .tc) := [main_v199, main_cst_51, main_v200, main_v201, main_v202, main_v203, main_v204, main_v205, main_v206, main_v207, main_v208, main_cst_52, main_v209, main_v210, main_v211, main_v212, main_v213, main_v214, main_v215, main_v216, main_v217, main_cst_53, main_v218, main_v219]

theorem s22 : Stretch (ops22 (F := F)) ops22_W := by stretch

theorem c22_main_v208 (W : Valuation τ sig (Elt F)) (x0 : (⟨S2097152x2, .f32⟩ : BufTy).Contents (Elt F)) (x2 : (⟨S2x6x16x16, .f32⟩ : BufTy).Contents (Elt F))
    (h_main_v132 : W (no_index (Proc.devRef .tc main_v132)) = ReadP.val_main_v132 (F := F) x0)
    (h_main_v171 : W (no_index (Proc.devRef .tc main_v171)) = ReadP.val_main_v171 (F := F) x0 x2)
    (h_main_v157 : W (no_index (Proc.devRef .tc main_v157)) = ReadP.val_main_v157 (F := F) x0 x2) :
    after ops22 W (Proc.devRef .tc main_v208) = ReadP.val_main_v208 (F := F) x0 x2 := by
  simp only [ops22]
  after_results_simp
  simp only [h_main_v132, h_main_v171, h_main_v157]
  rfl

theorem c22_main_v217 (W : Valuation τ sig (Elt F)) (x0 : (⟨S2097152x2, .f32⟩ : BufTy).Contents (Elt F)) (x2 : (⟨S2x6x16x16, .f32⟩ : BufTy).Contents (Elt F))
    (h_main_v132 : W (no_index (Proc.devRef .tc main_v132)) = ReadP.val_main_v132 (F := F) x0)
    (h_main_v198 : W (no_index (Proc.devRef .tc main_v198)) = ReadP.val_main_v198 (F := F) x0)
    (h_main_v118 : W (no_index (Proc.devRef .tc main_v118)) = ReadP.val_main_v118 (F := F) x2)
    (h_main_v185 : W (no_index (Proc.devRef .tc main_v185)) = ReadP.val_main_v185 (F := F) x0 x2) :
    after ops22 W (Proc.devRef .tc main_v217) = ReadP.val_main_v217 (F := F) x0 x2 := by
  simp only [ops22]
  after_results_simp
  simp only [h_main_v132, h_main_v198, h_main_v118, h_main_v185]
  rfl

theorem c22_main_v219 (W : Valuation τ sig (Elt F)) (x0 : (⟨S2097152x2, .f32⟩ : BufTy).Contents (Elt F))
    (h_main_v133 : W (no_index (Proc.devRef .tc main_v133)) = ReadP.val_main_v133 (F := F) x0) :
    after ops22 W (Proc.devRef .tc main_v219) = ReadP.val_main_v219 (F := F) x0 := by
  simp only [ops22]
  after_results_simp
  simp only [h_main_v133]
  rfl

end Cert.ReferenceIdeal.RunH

end
-- ==== Proof.RefRun23.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops23 : List (HloOp τ sig (Elt F)) :=
  [ unary main_v219 main_v220 (broadcastInDim S1x2097152 ![1] bcast_S2097152_S1x2097152_1 : (⟨S2097152, .f32⟩ : BufTy).Contents (Elt F) → (⟨S1x2097152, .f32⟩ : BufTy).Contents (Elt F)),
    unary main_v220 main_v221 (broadcastInDim S6x2097152 ![0, 1] bcast_S1x2097152_S6x2097152_0_1 : (⟨S1x2097152, .f32⟩ : BufTy).Contents (Elt F) → (⟨S6x2097152, .f32⟩ : BufTy).Contents (Elt F)),
    binary main_v208 main_v221 main_v222 (mulf : (⟨S6x2097152, .f32⟩ : BufTy).Contents (Elt F) → (⟨S6x2097152, .f32⟩ : BufTy).Contents (Elt F) → (⟨S6x2097152, .f32⟩ : BufTy).Contents (Elt F)),
    unary main_v133 main_v223 (broadcastInDim S1x2097152 ![1] bcast_S2097152_S1x2097152_1 : (⟨S2097152, .f32⟩ : BufTy).Contents (Elt F) → (⟨S1x2097152, .f32⟩ : BufTy).Contents (Elt F)),
    unary main_v223 main_v224 (broadcastInDim S6x2097152 ![0, 1] bcast_S1x2097152_S6x2097152_0_1 : (⟨S1x2097152, .f32⟩ : BufTy).Contents (Elt F) → (⟨S6x2097152, .f32⟩ : BufTy).Contents (Elt F)),
    binary main_v217 main_v224 main_v225 (mulf : (⟨S6x2097152, .f32⟩ : BufTy).Contents (Elt F) → (⟨S6x2097152, .f32⟩ : BufTy).Contents (Elt F) → (⟨S6x2097152, .f32⟩ : BufTy).Contents (Elt F)),
    binary main_v222 main_v225 main_v226 (addf : (⟨S6x2097152, .f32⟩ : BufTy).Contents (Elt F) → (⟨S6x2097152, .f32⟩ : BufTy).Contents (Elt F) → (⟨S6x2097152, .f32⟩ : BufTy).Contents (Elt F)),
    unary main_v226 main_v227 ((transpose S2097152x6 [1, 0] · transposes_S6x2097152_S2097152x6_1_0) : (⟨S6x2097152, .f32⟩ : BufTy).Contents (Elt F) → (⟨S2097152x6, .f32⟩ : BufTy).Contents (Elt F)),
    unary main_arg9 main_v228 ((extractStridedSlice S1x6 ![0, 0] · slices_S2x6_S1x6_0_0) : (⟨S2x6, .f32⟩ : BufTy).Contents (Elt F) → (⟨S1x6, .f32⟩ : BufTy).Contents (Elt F)),
    reshape main_v228 main_v229 rfl shapeCasts_S1x6_S6,
    unary main_arg10 main_v230 ((extractStridedSlice S1x6 ![0, 0] · slices_S2x6_S1x6_0_0) : (⟨S2x6, .f32⟩ : BufTy).Contents (Elt F) → (⟨S1x6, .f32⟩ : BufTy).Contents (Elt F)),
    reshape main_v230 main_v231 rfl shapeCasts_S1x6_S6,
    nullary main_cst_54 (constant S_ .f32 0x00000000#32),
    binary main_v5 main_cst_54 main_v232 ((fun x v => Host.reduceAdd x v reducesTo_S2097152x6_S2097152_d1 h_S_) : (⟨S2097152x6, .f32⟩ : BufTy).Contents (Elt F) → (⟨S_, .f32⟩ : BufTy).Contents (Elt F) → (⟨S2097152, .f32⟩ : BufTy).Contents (Elt F)),
    unary main_v232 main_v233 (broadcastInDim S2097152x1 ![0] bcast_S2097152_S2097152x1_0 : (⟨S2097152, .f32⟩ : BufTy).Contents (Elt F) → (⟨S2097152x1, .f32⟩ : BufTy).Contents (Elt F)),
    nullary main_cst_55 (constant S_ .f32 0x40C00000#32),
    unary main_cst_55 main_v234 (broadcastInDim S2097152x1 ![] bcast_S_S2097152x1 : (⟨S_, .f32⟩ : BufTy).Contents (Elt F) → (⟨S2097152x1, .f32⟩ : BufTy).Contents (Elt F)),
    binary main_v233 main_v234 main_v235 (Host.divf : (⟨S2097152x1, .f32⟩ : BufTy).Contents (Elt F) → (⟨S2097152x1, .f32⟩ : BufTy).Contents (Elt F) → (⟨S2097152x1, .f32⟩ : BufTy).Contents (Elt F)),
    unary main_v235 main_v236 (broadcastInDim S2097152x6 ![0, 1] bcast_S2097152x1_S2097152x6_0_1 : (⟨S2097152x1, .f32⟩ : BufTy).Contents (Elt F) → (⟨S2097152x6, .f32⟩ : BufTy).Contents (Elt F)),
    binary main_v5 main_v236 main_v237 (subf : (⟨S2097152x6, .f32⟩ : BufTy).Contents (Elt F) → (⟨S2097152x6, .f32⟩ : BufTy).Contents (Elt F) → (⟨S2097152x6, .f32⟩ : BufTy).Contents (Elt F)),
    binary main_v237 main_v237 main_v238 (mulf : (⟨S2097152x6, .f32⟩ : BufTy).Contents (Elt F) → (⟨S2097152x6, .f32⟩ : BufTy).Contents (Elt F) → (⟨S2097152x6, .f32⟩ : BufTy).Contents (Elt F)),
    nullary main_cst_56 (constant S_ .f32 0x00000000#32),
    binary main_v238 main_cst_56 main_v239 ((fun x v => Host.reduceAdd x v reducesTo_S2097152x6_S2097152_d1 h_S_) : (⟨S2097152x6, .f32⟩ : BufTy).Contents (Elt F) → (⟨S_, .f32⟩ : BufTy).Contents (Elt F) → (⟨S2097152, .f32⟩ : BufTy).Contents (Elt F)),
    unary main_v239 main_v240 (broadcastInDim S2097152x1 ![0] bcast_S2097152_S2097152x1_0 : (⟨S2097152, .f32⟩ : BufTy).Contents (Elt F) → (⟨S2097152x1, .f32⟩ : BufTy).Contents (Elt F)) ]

abbrev ops23_W : List (Ref sig .tc) := [main_v220, main_v221, main_v222, main_v223, main_v224, main_v225, main_v226, main_v227, main_v228, main_v229, main_v230, main_v231, main_cst_54, main_v232, main_v233, main_cst_55, main_v234, main_v235, main_v236, main_v237, main_v238, main_cst_56, main_v239, main_v240]

theorem s23 : Stretch (ops23 (F := F)) ops23_W := by stretch

theorem c23_main_v227 (W : Valuation τ sig (Elt F)) (x0 : (⟨S2097152x2, .f32⟩ : BufTy).Contents (Elt F)) (x2 : (⟨S2x6x16x16, .f32⟩ : BufTy).Contents (Elt F))
    (h_main_v133 : W (no_index (Proc.devRef .tc main_v133)) = ReadP.val_main_v133 (F := F) x0)
    (h_main_v217 : W (no_index (Proc.devRef .tc main_v217)) = ReadP.val_main_v217 (F := F) x0 x2)
    (h_main_v219 : W (no_index (Proc.devRef .tc main_v219)) = ReadP.val_main_v219 (F := F) x0)
    (h_main_v208 : W (no_index (Proc.devRef .tc main_v208)) = ReadP.val_main_v208 (F := F) x0 x2) :
    after ops23 W (Proc.devRef .tc main_v227) = ReadP.val_main_v227 (F := F) x0 x2 := by
  simp only [ops23]
  after_results_simp
  simp only [h_main_v133, h_main_v217, h_main_v219, h_main_v208]
  rfl

theorem c23_main_v229 (W : Valuation τ sig (Elt F)) (x9 : (⟨S2x6, .f32⟩ : BufTy).Contents (Elt F))
    (h_main_arg9 : W (no_index (Proc.devRef .tc main_arg9)) = x9) :
    after ops23 W (Proc.devRef .tc main_v229) = ReadP.val_main_v229 (F := F) x9 := by
  simp only [ops23]
  after_results_simp
  simp only [h_main_arg9]
  rfl

theorem c23_main_v231 (W : Valuation τ sig (Elt F)) (x10 : (⟨S2x6, .f32⟩ : BufTy).Contents (Elt F))
    (h_main_arg10 : W (no_index (Proc.devRef .tc main_arg10)) = x10) :
    after ops23 W (Proc.devRef .tc main_v231) = ReadP.val_main_v231 (F := F) x10 := by
  simp only [ops23]
  after_results_simp
  simp only [h_main_arg10]
  rfl

theorem c23_main_v235 (W : Valuation τ sig (Elt F)) (x0 : (⟨S2097152x2, .f32⟩ : BufTy).Contents (Elt F)) (x3 : (⟨S6x2, .f32⟩ : BufTy).Contents (Elt F)) (x4 : (⟨S6, .f32⟩ : BufTy).Contents (Elt F))
    (h_main_v5 : W (no_index (Proc.devRef .tc main_v5)) = ReadP.val_main_v5 (F := F) x0 x3 x4) :
    after ops23 W (Proc.devRef .tc main_v235) = ReadP.val_main_v235 (F := F) x0 x3 x4 := by
  simp only [ops23]
  after_results_simp
  simp only [h_main_v5]
  rfl

theorem c23_main_v240 (W : Valuation τ sig (Elt F)) (x0 : (⟨S2097152x2, .f32⟩ : BufTy).Contents (Elt F)) (x3 : (⟨S6x2, .f32⟩ : BufTy).Contents (Elt F)) (x4 : (⟨S6, .f32⟩ : BufTy).Contents (Elt F))
    (h_main_v5 : W (no_index (Proc.devRef .tc main_v5)) = ReadP.val_main_v5 (F := F) x0 x3 x4) :
    after ops23 W (Proc.devRef .tc main_v240) = ReadP.val_main_v240 (F := F) x0 x3 x4 := by
  simp only [ops23]
  after_results_simp
  simp only [h_main_v5]
  rfl

end Cert.ReferenceIdeal.RunH

end
-- ==== Proof.RefRun24.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops24 : List (HloOp τ sig (Elt F)) :=
  [ nullary main_cst_57 (constant S_ .f32 0x40C00000#32),
    unary main_cst_57 main_v241 (broadcastInDim S2097152x1 ![] bcast_S_S2097152x1 : (⟨S_, .f32⟩ : BufTy).Contents (Elt F) → (⟨S2097152x1, .f32⟩ : BufTy).Contents (Elt F)),
    binary main_v240 main_v241 main_v242 (Host.divf : (⟨S2097152x1, .f32⟩ : BufTy).Contents (Elt F) → (⟨S2097152x1, .f32⟩ : BufTy).Contents (Elt F) → (⟨S2097152x1, .f32⟩ : BufTy).Contents (Elt F)),
    unary main_v235 main_v243 (broadcastInDim S2097152x6 ![0, 1] bcast_S2097152x1_S2097152x6_0_1 : (⟨S2097152x1, .f32⟩ : BufTy).Contents (Elt F) → (⟨S2097152x6, .f32⟩ : BufTy).Contents (Elt F)),
    binary main_v5 main_v243 main_v244 (subf : (⟨S2097152x6, .f32⟩ : BufTy).Contents (Elt F) → (⟨S2097152x6, .f32⟩ : BufTy).Contents (Elt F) → (⟨S2097152x6, .f32⟩ : BufTy).Contents (Elt F)),
    nullary main_cst_58 (constant S_ .f32 0x3727C5AC#32),
    unary main_cst_58 main_v245 (broadcastInDim S2097152x1 ![] bcast_S_S2097152x1 : (⟨S_, .f32⟩ : BufTy).Contents (Elt F) → (⟨S2097152x1, .f32⟩ : BufTy).Contents (Elt F)),
    binary main_v242 main_v245 main_v246 (addf : (⟨S2097152x1, .f32⟩ : BufTy).Contents (Elt F) → (⟨S2097152x1, .f32⟩ : BufTy).Contents (Elt F) → (⟨S2097152x1, .f32⟩ : BufTy).Contents (Elt F)),
    unary main_v246 main_v247 (Host.rsqrt : (⟨S2097152x1, .f32⟩ : BufTy).Contents (Elt F) → (⟨S2097152x1, .f32⟩ : BufTy).Contents (Elt F)),
    unary main_v247 main_v248 (broadcastInDim S2097152x6 ![0, 1] bcast_S2097152x1_S2097152x6_0_1 : (⟨S2097152x1, .f32⟩ : BufTy).Contents (Elt F) → (⟨S2097152x6, .f32⟩ : BufTy).Contents (Elt F)),
    binary main_v244 main_v248 main_v249 (mulf : (⟨S2097152x6, .f32⟩ : BufTy).Contents (Elt F) → (⟨S2097152x6, .f32⟩ : BufTy).Contents (Elt F) → (⟨S2097152x6, .f32⟩ : BufTy).Contents (Elt F)),
    unary main_v229 main_v250 (broadcastInDim S1x6 ![1] bcast_S6_S1x6_1 : (⟨S6, .f32⟩ : BufTy).Contents (Elt F) → (⟨S1x6, .f32⟩ : BufTy).Contents (Elt F)),
    unary main_v250 main_v251 (broadcastInDim S2097152x6 ![0, 1] bcast_S1x6_S2097152x6_0_1 : (⟨S1x6, .f32⟩ : BufTy).Contents (Elt F) → (⟨S2097152x6, .f32⟩ : BufTy).Contents (Elt F)),
    binary main_v249 main_v251 main_v252 (mulf : (⟨S2097152x6, .f32⟩ : BufTy).Contents (Elt F) → (⟨S2097152x6, .f32⟩ : BufTy).Contents (Elt F) → (⟨S2097152x6, .f32⟩ : BufTy).Contents (Elt F)),
    unary main_v231 main_v253 (broadcastInDim S1x6 ![1] bcast_S6_S1x6_1 : (⟨S6, .f32⟩ : BufTy).Contents (Elt F) → (⟨S1x6, .f32⟩ : BufTy).Contents (Elt F)),
    unary main_v253 main_v254 (broadcastInDim S2097152x6 ![0, 1] bcast_S1x6_S2097152x6_0_1 : (⟨S1x6, .f32⟩ : BufTy).Contents (Elt F) → (⟨S2097152x6, .f32⟩ : BufTy).Contents (Elt F)),
    binary main_v252 main_v254 main_v255 (addf : (⟨S2097152x6, .f32⟩ : BufTy).Contents (Elt F) → (⟨S2097152x6, .f32⟩ : BufTy).Contents (Elt F) → (⟨S2097152x6, .f32⟩ : BufTy).Contents (Elt F)),
    binary main_v116 main_v255 main_v256 (mulf : (⟨S2097152x6, .f32⟩ : BufTy).Contents (Elt F) → (⟨S2097152x6, .f32⟩ : BufTy).Contents (Elt F) → (⟨S2097152x6, .f32⟩ : BufTy).Contents (Elt F)),
    binary main_v256 main_v227 main_v257 (addf : (⟨S2097152x6, .f32⟩ : BufTy).Contents (Elt F) → (⟨S2097152x6, .f32⟩ : BufTy).Contents (Elt F) → (⟨S2097152x6, .f32⟩ : BufTy).Contents (Elt F)),
    reshape main_arg5 main_v258 rfl shapeCasts_S1x6x6_S6x6,
    unary main_v258 main_v259 ((transpose S6x6 [1, 0] · transposes_S6x6_S6x6_1_0) : (⟨S6x6, .f32⟩ : BufTy).Contents (Elt F) → (⟨S6x6, .f32⟩ : BufTy).Contents (Elt F)),
    binary main_v257 main_v259 main_v260 ((fun l r => Host.dotGeneral dot_S2097152x6_S6x6_S2097152x6_1_0_0_1_n_n none l r) : (⟨S2097152x6, .f32⟩ : BufTy).Contents (Elt F) → (⟨S6x6, .f32⟩ : BufTy).Contents (Elt F) → (⟨S2097152x6, .f32⟩ : BufTy).Contents (Elt F)),
    reshape main_arg6 main_v261 rfl shapeCasts_S1x6_S6,
    unary main_v261 main_v262 (broadcastInDim S1x6 ![1] bcast_S6_S1x6_1 : (⟨S6, .f32⟩ : BufTy).Contents (Elt F) → (⟨S1x6, .f32⟩ : BufTy).Contents (Elt F)),
    unary main_v262 main_v263 (broadcastInDim S2097152x6 ![0, 1] bcast_S1x6_S2097152x6_0_1 : (⟨S1x6, .f32⟩ : BufTy).Contents (Elt F) → (⟨S2097152x6, .f32⟩ : BufTy).Contents (Elt F)),
    binary main_v260 main_v263 main_v264 (addf : (⟨S2097152x6, .f32⟩ : BufTy).Contents (Elt F) → (⟨S2097152x6, .f32⟩ : BufTy).Contents (Elt F) → (⟨S2097152x6, .f32⟩ : BufTy).Contents (Elt F)),
    TRef.unary (TRef.of (T := ⟨S2097152x6, .f32⟩) main_v264) (TRef.of (T := ⟨S2097152x6, .f32⟩) main_call3_v0) Host.negf,
    TRef.unary (TRef.of (T := ⟨S2097152x6, .f32⟩) main_call3_v0) (TRef.of (T := ⟨S2097152x6, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S2097152x6, .f32⟩) main_call3_v2) (broadcastInDim S2097152x6 ![] bcast_S_S2097152x6),
    TRef.binary (TRef.of (T := ⟨S2097152x6, .f32⟩) main_call3_v2) (TRef.of (T := ⟨S2097152x6, .f32⟩) main_call3_v1) (TRef.of (T := ⟨S2097152x6, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S2097152x6, .f32⟩) main_call3_v4) (broadcastInDim S2097152x6 ![] bcast_S_S2097152x6),
    TRef.binary (TRef.of (T := ⟨S2097152x6, .f32⟩) main_call3_v4) (TRef.of (T := ⟨S2097152x6, .f32⟩) main_call3_v3) (TRef.of (T := ⟨S2097152x6, .f32⟩) main_call3_v5) Host.divf,
    TRef.binary (TRef.of (T := ⟨S2097152x6, .f32⟩) main_v264) (TRef.of (T := ⟨S2097152x6, .f32⟩) main_call3_v5) (TRef.of (T := ⟨S2097152x6, .f32⟩) main_v265) mulf,
    unary main_arg1 main_v266 ((extractStridedSlice S1x6x16x16 ![1, 0, 0, 0] · slices_S2x6x16x16_S1x6x16x16_1_0_0_0) : (⟨S2x6x16x16, .f32⟩ : BufTy).Contents (Elt F) → (⟨S1x6x16x16, .f32⟩ : BufTy).Contents (Elt F)) ]

abbrev ops24_W : List (Ref sig .tc) := [main_cst_57, main_v241, main_v242, main_v243, main_v244, main_cst_58, main_v245, main_v246, main_v247, main_v248, main_v249, main_v250, main_v251, main_v252, main_v253, main_v254, main_v255, main_v256, main_v257, main_v258, main_v259, main_v260, main_v261, main_v262, main_v263, main_v264, main_call3_v0, main_call3_v1, main_call3_cst, main_call3_v2, main_call3_v3, main_call3_cst_0, main_call3_v4, main_call3_v5, main_v265, main_v266]

theorem s24 : Stretch (ops24 (F := F)) ops24_W := by stretch

theorem c24_main_v265 (W : Valuation τ sig (Elt F)) (x0 : (⟨S2097152x2, .f32⟩ : BufTy).Contents (Elt F)) (x1 : (⟨S2x6x16x16, .f32⟩ : BufTy).Contents (Elt F)) (x2 : (⟨S2x6x16x16, .f32⟩ : BufTy).Contents (Elt F)) (x3 : (⟨S6x2, .f32⟩ : BufTy).Contents (Elt F)) (x4 : (⟨S6, .f32⟩ : BufTy).Contents (Elt F)) (x5 : (⟨S1x6x6, .f32⟩ : BufTy).Contents (Elt F)) (x6 : (⟨S1x6, .f32⟩ : BufTy).Contents (Elt F)) (x9 : (⟨S2x6, .f32⟩ : BufTy).Contents (Elt F)) (x10 : (⟨S2x6, .f32⟩ : BufTy).Contents (Elt F))
    (h_main_arg6 : W (no_index (Proc.devRef .tc main_arg6)) = x6)
    (h_main_arg5 : W (no_index (Proc.devRef .tc main_arg5)) = x5)
    (h_main_v227 : W (no_index (Proc.devRef .tc main_v227)) = ReadP.val_main_v227 (F := F) x0 x2)
    (h_main_v231 : W (no_index (Proc.devRef .tc main_v231)) = ReadP.val_main_v231 (F := F) x10)
    (h_main_v229 : W (no_index (Proc.devRef .tc main_v229)) = ReadP.val_main_v229 (F := F) x9)
    (h_main_v240 : W (no_index (Proc.devRef .tc main_v240)) = ReadP.val_main_v240 (F := F) x0 x3 x4)
    (h_main_v235 : W (no_index (Proc.devRef .tc main_v235)) = ReadP.val_main_v235 (F := F) x0 x3 x4)
    (h_main_v5 : W (no_index (Proc.devRef .tc main_v5)) = ReadP.val_main_v5 (F := F) x0 x3 x4)
    (h_main_v116 : W (no_index (Proc.devRef .tc main_v116)) = ReadP.val_main_v116 (F := F) x0 x1) :
    after ops24 W (Proc.devRef .tc main_v265) = ReadP.val_main_v265 (F := F) x0 x1 x2 x3 x4 x5 x6 x9 x10 := by
  simp only [ops24]
  after_results_simp
  try simp only [TRef.ofBuf, TRef.toBuf, cast_eq]
  simp only [h_main_arg6, h_main_arg5, h_main_v227, h_main_v231, h_main_v229, h_main_v240, h_main_v235, h_main_v5, h_main_v116]
  rfl

theorem c24_main_v266 (W : Valuation τ sig (Elt F)) (x1 : (⟨S2x6x16x16, .f32⟩ : BufTy).Contents (Elt F))
    (h_main_arg1 : W (no_index (Proc.devRef .tc main_arg1)) = x1) :
    after ops24 W (Proc.devRef .tc main_v266) = ReadP.val_main_v266 (F := F) x1 := by
  simp only [ops24]
  after_results_simp
  try simp only [TRef.ofBuf, TRef.toBuf, cast_eq]
  simp only [h_main_arg1]
  rfl

end Cert.ReferenceIdeal.RunH

end
-- ==== Proof.RefRun25.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops25 : List (HloOp τ sig (Elt F)) :=
  [ reshape main_v266 main_v267 rfl shapeCasts_S1x6x16x16_S6x16x16,
    nullary main_cst_59 (constant S_ .f32 0x3F800000#32),
    unary main_cst_59 main_v268 (broadcastInDim S2097152x2 ![] bcast_S_S2097152x2 : (⟨S_, .f32⟩ : BufTy).Contents (Elt F) → (⟨S2097152x2, .f32⟩ : BufTy).Contents (Elt F)),
    binary main_arg0 main_v268 main_v269 (addf : (⟨S2097152x2, .f32⟩ : BufTy).Contents (Elt F) → (⟨S2097152x2, .f32⟩ : BufTy).Contents (Elt F) → (⟨S2097152x2, .f32⟩ : BufTy).Contents (Elt F)),
    nullary main_cst_60 (constant S_ .f32 0x3F000000#32),
    unary main_cst_60 main_v270 (broadcastInDim S2097152x2 ![] bcast_S_S2097152x2 : (⟨S_, .f32⟩ : BufTy).Contents (Elt F) → (⟨S2097152x2, .f32⟩ : BufTy).Contents (Elt F)),
    binary main_v269 main_v270 main_v271 (mulf : (⟨S2097152x2, .f32⟩ : BufTy).Contents (Elt F) → (⟨S2097152x2, .f32⟩ : BufTy).Contents (Elt F) → (⟨S2097152x2, .f32⟩ : BufTy).Contents (Elt F)),
    nullary main_cst_61 (constant S_ .f32 0x41700000#32),
    unary main_cst_61 main_v272 (broadcastInDim S2097152x2 ![] bcast_S_S2097152x2 : (⟨S_, .f32⟩ : BufTy).Contents (Elt F) → (⟨S2097152x2, .f32⟩ : BufTy).Contents (Elt F)),
    binary main_v271 main_v272 main_v273 (mulf : (⟨S2097152x2, .f32⟩ : BufTy).Contents (Elt F) → (⟨S2097152x2, .f32⟩ : BufTy).Contents (Elt F) → (⟨S2097152x2, .f32⟩ : BufTy).Contents (Elt F)),
    nullary main_cst_62 (constant S_ .f32 0x00000000#32),
    nullary main_cst_63 (constant S_ .f32 0x41700000#32),
    TRef.unary (TRef.of (T := ⟨S_, .f32⟩) main_cst_62) (TRef.of (T := ⟨S_, .f32⟩) main_call4_v0) id,
    TRef.unary (TRef.of (T := ⟨S_, .f32⟩) main_call4_v0) (TRef.of (T := ⟨S2097152x2, .f32⟩) main_call4_v1) (broadcastInDim S2097152x2 ![] bcast_S_S2097152x2),
    TRef.binary (TRef.of (T := ⟨S2097152x2, .f32⟩) main_call4_v1) (TRef.of (T := ⟨S2097152x2, .f32⟩) main_v273) (TRef.of (T := ⟨S2097152x2, .f32⟩) main_call4_v2) maximumf,
    TRef.unary (TRef.of (T := ⟨S_, .f32⟩) main_cst_63) (TRef.of (T := ⟨S_, .f32⟩) main_call4_v3) id,
    TRef.unary (TRef.of (T := ⟨S_, .f32⟩) main_call4_v3) (TRef.of (T := ⟨S2097152x2, .f32⟩) main_call4_v4) (broadcastInDim S2097152x2 ![] bcast_S_S2097152x2),
    TRef.binary (TRef.of (T := ⟨S2097152x2, .f32⟩) main_call4_v4) (TRef.of (T := ⟨S2097152x2, .f32⟩) main_call4_v2) (TRef.of (T := ⟨S2097152x2, .f32⟩) main_v274) minimumf,
    unary main_v274 main_v275 ((extractStridedSlice S2097152x1 ![0, 0] · slices_S2097152x2_S2097152x1_0_0) : (⟨S2097152x2, .f32⟩ : BufTy).Contents (Elt F) → (⟨S2097152x1, .f32⟩ : BufTy).Contents (Elt F)),
    reshape main_v275 main_v276 rfl shapeCasts_S2097152x1_S2097152,
    unary main_v274 main_v277 ((extractStridedSlice S2097152x1 ![0, 1] · slices_S2097152x2_S2097152x1_0_1) : (⟨S2097152x2, .f32⟩ : BufTy).Contents (Elt F) → (⟨S2097152x1, .f32⟩ : BufTy).Contents (Elt F)),
    reshape main_v277 main_v278 rfl shapeCasts_S2097152x1_S2097152,
    unary main_v276 main_v279 (Host.floor : (⟨S2097152, .f32⟩ : BufTy).Contents (Elt F) → (⟨S2097152, .f32⟩ : BufTy).Contents (Elt F)),
    unary main_v278 main_v280 (Host.floor : (⟨S2097152, .f32⟩ : BufTy).Contents (Elt F) → (⟨S2097152, .f32⟩ : BufTy).Contents (Elt F)),
    binary main_v276 main_v279 main_v281 (subf : (⟨S2097152, .f32⟩ : BufTy).Contents (Elt F) → (⟨S2097152, .f32⟩ : BufTy).Contents (Elt F) → (⟨S2097152, .f32⟩ : BufTy).Contents (Elt F)),
    binary main_v278 main_v280 main_v282 (subf : (⟨S2097152, .f32⟩ : BufTy).Contents (Elt F) → (⟨S2097152, .f32⟩ : BufTy).Contents (Elt F) → (⟨S2097152, .f32⟩ : BufTy).Contents (Elt F)),
    unary main_v279 main_v283 (fptosi 32 : (⟨S2097152, .f32⟩ : BufTy).Contents (Elt F) → (⟨S2097152, .i32⟩ : BufTy).Contents (Elt F)),
    unary main_v280 main_v284 (fptosi 32 : (⟨S2097152, .f32⟩ : BufTy).Contents (Elt F) → (⟨S2097152, .i32⟩ : BufTy).Contents (Elt F)),
    nullary main_c_64 (constantI S_ 32 1#32),
    unary main_c_64 main_v285 (broadcastInDim S2097152 ![] bcast_S_S2097152 : (⟨S_, .i32⟩ : BufTy).Contents (Elt F) → (⟨S2097152, .i32⟩ : BufTy).Contents (Elt F)),
    binary main_v283 main_v285 main_v286 (addi : (⟨S2097152, .i32⟩ : BufTy).Contents (Elt F) → (⟨S2097152, .i32⟩ : BufTy).Contents (Elt F) → (⟨S2097152, .i32⟩ : BufTy).Contents (Elt F)),
    nullary main_c_65 (constantI S_ 32 15#32),
    unary main_c_65 main_v287 (broadcastInDim S2097152 ![] bcast_S_S2097152 : (⟨S_, .i32⟩ : BufTy).Contents (Elt F) → (⟨S2097152, .i32⟩ : BufTy).Contents (Elt F)),
    binary main_v286 main_v287 main_v288 (minsi : (⟨S2097152, .i32⟩ : BufTy).Contents (Elt F) → (⟨S2097152, .i32⟩ : BufTy).Contents (Elt F) → (⟨S2097152, .i32⟩ : BufTy).Contents (Elt F)),
    nullary main_c_66 (constantI S_ 32 1#32),
    unary main_c_66 main_v289 (broadcastInDim S2097152 ![] bcast_S_S2097152 : (⟨S_, .i32⟩ : BufTy).Contents (Elt F) → (⟨S2097152, .i32⟩ : BufTy).Contents (Elt F)),
    binary main_v284 main_v289 main_v290 (addi : (⟨S2097152, .i32⟩ : BufTy).Contents (Elt F) → (⟨S2097152, .i32⟩ : BufTy).Contents (Elt F) → (⟨S2097152, .i32⟩ : BufTy).Contents (Elt F)) ]

abbrev ops25_W : List (Ref sig .tc) := [main_v267, main_cst_59, main_v268, main_v269, main_cst_60, main_v270, main_v271, main_cst_61, main_v272, main_v273, main_cst_62, main_cst_63, main_call4_v0, main_call4_v1, main_call4_v2, main_call4_v3, main_call4_v4, main_v274, main_v275, main_v276, main_v277, main_v278, main_v279, main_v280, main_v281, main_v282, main_v283, main_v284, main_c_64, main_v285, main_v286, main_c_65, main_v287, main_v288, main_c_66, main_v289, main_v290]

theorem s25 : Stretch (ops25 (F := F)) ops25_W := by stretch

theorem c25_main_v267 (W : Valuation τ sig (Elt F)) (x1 : (⟨S2x6x16x16, .f32⟩ : BufTy).Contents (Elt F))
    (h_main_v266 : W (no_index (Proc.devRef .tc main_v266)) = ReadP.val_main_v266 (F := F) x1) :
    after ops25 W (Proc.devRef .tc main_v267) = ReadP.val_main_v267 (F := F) x1 := by
  simp only [ops25]
  after_results_simp
  try simp only [TRef.ofBuf, TRef.toBuf, cast_eq]
  simp only [h_main_v266]
  rfl

theorem c25_main_v281 (W : Valuation τ sig (Elt F)) (x0 : (⟨S2097152x2, .f32⟩ : BufTy).Contents (Elt F))
    (h_main_arg0 : W (no_index (Proc.devRef .tc main_arg0)) = x0) :
    after ops25 W (Proc.devRef .tc main_v281) = ReadP.val_main_v281 (F := F) x0 := by
  simp only [ops25]
  after_results_simp
  try simp only [TRef.ofBuf, TRef.toBuf, cast_eq]
  simp only [h_main_arg0]
  rfl

theorem c25_main_v282 (W : Valuation τ sig (Elt F)) (x0 : (⟨S2097152x2, .f32⟩ : BufTy).Contents (Elt F))
    (h_main_arg0 : W (no_index (Proc.devRef .tc main_arg0)) = x0) :
    after ops25 W (Proc.devRef .tc main_v282) = ReadP.val_main_v282 (F := F) x0 := by
  simp only [ops25]
  after_results_simp
  try simp only [TRef.ofBuf, TRef.toBuf, cast_eq]
  simp only [h_main_arg0]
  rfl

theorem c25_main_v283 (W : Valuation τ sig (Elt F)) (x0 : (⟨S2097152x2, .f32⟩ : BufTy).Contents (Elt F))
    (h_main_arg0 : W (no_index (Proc.devRef .tc main_arg0)) = x0) :
    after ops25 W (Proc.devRef .tc main_v283) = ReadP.val_main_v283 (F := F) x0 := by
  simp only [ops25]
  after_results_simp
  try simp only [TRef.ofBuf, TRef.toBuf, cast_eq]
  simp only [h_main_arg0]
  rfl

theorem c25_main_v284 (W : Valuation τ sig (Elt F)) (x0 : (⟨S2097152x2, .f32⟩ : BufTy).Contents (Elt F))
    (h_main_arg0 : W (no_index (Proc.devRef .tc main_arg0)) = x0) :
    after ops25 W (Proc.devRef .tc main_v284) = ReadP.val_main_v284 (F := F) x0 := by
  simp only [ops25]
  after_results_simp
  try simp only [TRef.ofBuf, TRef.toBuf, cast_eq]
  simp only [h_main_arg0]
  rfl

theorem c25_main_v288 (W : Valuation τ sig (Elt F)) (x0 : (⟨S2097152x2, .f32⟩ : BufTy).Contents (Elt F))
    (h_main_arg0 : W (no_index (Proc.devRef .tc main_arg0)) = x0) :
    after ops25 W (Proc.devRef .tc main_v288) = ReadP.val_main_v288 (F := F) x0 := by
  simp only [ops25]
  after_results_simp
  try simp only [TRef.ofBuf, TRef.toBuf, cast_eq]
  simp only [h_main_arg0]
  rfl

theorem c25_main_v290 (W : Valuation τ sig (Elt F)) (x0 : (⟨S2097152x2, .f32⟩ : BufTy).Contents (Elt F))
    (h_main_arg0 : W (no_index (Proc.devRef .tc main_arg0)) = x0) :
    after ops25 W (Proc.devRef .tc main_v290) = ReadP.val_main_v290 (F := F) x0 := by
  simp only [ops25]
  after_results_simp
  try simp only [TRef.ofBuf, TRef.toBuf, cast_eq]
  simp only [h_main_arg0]
  rfl

end Cert.ReferenceIdeal.RunH

end
-- ==== Proof.RefRun26.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops26 : List (HloOp τ sig (Elt F)) :=
  [ nullary main_c_67 (constantI S_ 32 15#32),
    unary main_c_67 main_v291 (broadcastInDim S2097152 ![] bcast_S_S2097152 : (⟨S_, .i32⟩ : BufTy).Contents (Elt F) → (⟨S2097152, .i32⟩ : BufTy).Contents (Elt F)),
    binary main_v290 main_v291 main_v292 (minsi : (⟨S2097152, .i32⟩ : BufTy).Contents (Elt F) → (⟨S2097152, .i32⟩ : BufTy).Contents (Elt F) → (⟨S2097152, .i32⟩ : BufTy).Contents (Elt F)),
    nullary main_c_68 (constantI S_ 32 0#32),
    unary main_c_68 main_v293 (broadcastInDim S2097152 ![] bcast_S_S2097152 : (⟨S_, .i32⟩ : BufTy).Contents (Elt F) → (⟨S2097152, .i32⟩ : BufTy).Contents (Elt F)),
    binary main_v284 main_v293 main_v294 (cmpi .slt : (⟨S2097152, .i32⟩ : BufTy).Contents (Elt F) → (⟨S2097152, .i32⟩ : BufTy).Contents (Elt F) → (⟨S2097152, .i1⟩ : BufTy).Contents (Elt F)),
    nullary main_c_69 (constantI S_ 32 16#32),
    unary main_c_69 main_v295 (broadcastInDim S2097152 ![] bcast_S_S2097152 : (⟨S_, .i32⟩ : BufTy).Contents (Elt F) → (⟨S2097152, .i32⟩ : BufTy).Contents (Elt F)),
    binary main_v284 main_v295 main_v296 (addi : (⟨S2097152, .i32⟩ : BufTy).Contents (Elt F) → (⟨S2097152, .i32⟩ : BufTy).Contents (Elt F) → (⟨S2097152, .i32⟩ : BufTy).Contents (Elt F)),
    ternary main_v294 main_v296 main_v284 main_v297 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_70 (constantI S_ 32 0#32),
    unary main_c_70 main_v298 (broadcastInDim S2097152 ![] bcast_S_S2097152 : (⟨S_, .i32⟩ : BufTy).Contents (Elt F) → (⟨S2097152, .i32⟩ : BufTy).Contents (Elt F)),
    binary main_v283 main_v298 main_v299 (cmpi .slt : (⟨S2097152, .i32⟩ : BufTy).Contents (Elt F) → (⟨S2097152, .i32⟩ : BufTy).Contents (Elt F) → (⟨S2097152, .i1⟩ : BufTy).Contents (Elt F)),
    nullary main_c_71 (constantI S_ 32 16#32),
    unary main_c_71 main_v300 (broadcastInDim S2097152 ![] bcast_S_S2097152 : (⟨S_, .i32⟩ : BufTy).Contents (Elt F) → (⟨S2097152, .i32⟩ : BufTy).Contents (Elt F)),
    binary main_v283 main_v300 main_v301 (addi : (⟨S2097152, .i32⟩ : BufTy).Contents (Elt F) → (⟨S2097152, .i32⟩ : BufTy).Contents (Elt F) → (⟨S2097152, .i32⟩ : BufTy).Contents (Elt F)),
    ternary main_v299 main_v301 main_v283 main_v302 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v297 main_v303 (broadcastInDim S2097152x1 ![0] bcast_S2097152_S2097152x1_0 : (⟨S2097152, .i32⟩ : BufTy).Contents (Elt F) → (⟨S2097152x1, .i32⟩ : BufTy).Contents (Elt F)),
    unary main_v302 main_v304 (broadcastInDim S2097152x1 ![0] bcast_S2097152_S2097152x1_0 : (⟨S2097152, .i32⟩ : BufTy).Contents (Elt F) → (⟨S2097152x1, .i32⟩ : BufTy).Contents (Elt F)) ]

abbrev ops26_W : List (Ref sig .tc) := [main_c_67, main_v291, main_v292, main_c_68, main_v293, main_v294, main_c_69, main_v295, main_v296, main_v297, main_c_70, main_v298, main_v299, main_c_71, main_v300, main_v301, main_v302, main_v303, main_v304]

theorem s26 : Stretch (ops26 (F := F)) ops26_W := by stretch

theorem c26_main_v292 (W : Valuation τ sig (Elt F)) (x0 : (⟨S2097152x2, .f32⟩ : BufTy).Contents (Elt F))
    (h_main_v290 : W (no_index (Proc.devRef .tc main_v290)) = ReadP.val_main_v290 (F := F) x0) :
    after ops26 W (Proc.devRef .tc main_v292) = ReadP.val_main_v292 (F := F) x0 := by
  simp only [ops26]
  after_results_simp
  simp only [h_main_v290]
  rfl

theorem c26_main_v303 (W : Valuation τ sig (Elt F)) (x0 : (⟨S2097152x2, .f32⟩ : BufTy).Contents (Elt F))
    (h_main_v284 : W (no_index (Proc.devRef .tc main_v284)) = ReadP.val_main_v284 (F := F) x0) :
    after ops26 W (Proc.devRef .tc main_v303) = ReadP.val_main_v303 (F := F) x0 := by
  simp only [ops26]
  after_results_simp
  simp only [h_main_v284]
  rfl

theorem c26_main_v304 (W : Valuation τ sig (Elt F)) (x0 : (⟨S2097152x2, .f32⟩ : BufTy).Contents (Elt F))
    (h_main_v283 : W (no_index (Proc.devRef .tc main_v283)) = ReadP.val_main_v283 (F := F) x0) :
    after ops26 W (Proc.devRef .tc main_v304) = ReadP.val_main_v304 (F := F) x0 := by
  simp only [ops26]
  after_results_simp
  simp only [h_main_v283]
  rfl

end Cert.ReferenceIdeal.RunH

end
-- ==== Proof.RefRun27.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops27 : List (HloOp τ sig (Elt F)) :=
  [ binary main_v303 main_v304 main_v305 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops27_W : List (Ref sig .tc) := [main_v305]

theorem s27 : Stretch (ops27 (F := F)) ops27_W := by stretch

theorem c27_main_v305 (W : Valuation τ sig (Elt F)) (x0 : (⟨S2097152x2, .f32⟩ : BufTy).Contents (Elt F))
    (h_main_v304 : W (Proc.devRef .tc main_v304) = ReadP.val_main_v304 (F := F) x0)
    (h_main_v303 : W (Proc.devRef .tc main_v303) = ReadP.val_main_v303 (F := F) x0) :
    after ops27 W (Proc.devRef .tc main_v305) = ReadP.val_main_v305 (F := F) x0 := by
  simp only [ops27, after_cons, after_nil]
  rw [binary_result]
  rw [h_main_v304, h_main_v303]
  rfl

end Cert.ReferenceIdeal.RunH

end
-- ==== Proof.RefRun28.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops28 : List (HloOp τ sig (Elt F)) :=
  [ binary main_v267 main_v305 main_v306 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_72 (constantI S_ 32 0#32),
    unary main_c_72 main_v307 (broadcastInDim S2097152 ![] bcast_S_S2097152 : (⟨S_, .i32⟩ : BufTy).Contents (Elt F) → (⟨S2097152, .i32⟩ : BufTy).Contents (Elt F)),
    binary main_v284 main_v307 main_v308 (cmpi .slt : (⟨S2097152, .i32⟩ : BufTy).Contents (Elt F) → (⟨S2097152, .i32⟩ : BufTy).Contents (Elt F) → (⟨S2097152, .i1⟩ : BufTy).Contents (Elt F)),
    nullary main_c_73 (constantI S_ 32 16#32),
    unary main_c_73 main_v309 (broadcastInDim S2097152 ![] bcast_S_S2097152 : (⟨S_, .i32⟩ : BufTy).Contents (Elt F) → (⟨S2097152, .i32⟩ : BufTy).Contents (Elt F)),
    binary main_v284 main_v309 main_v310 (addi : (⟨S2097152, .i32⟩ : BufTy).Contents (Elt F) → (⟨S2097152, .i32⟩ : BufTy).Contents (Elt F) → (⟨S2097152, .i32⟩ : BufTy).Contents (Elt F)),
    ternary main_v308 main_v310 main_v284 main_v311 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_74 (constantI S_ 32 0#32),
    unary main_c_74 main_v312 (broadcastInDim S2097152 ![] bcast_S_S2097152 : (⟨S_, .i32⟩ : BufTy).Contents (Elt F) → (⟨S2097152, .i32⟩ : BufTy).Contents (Elt F)),
    binary main_v288 main_v312 main_v313 (cmpi .slt : (⟨S2097152, .i32⟩ : BufTy).Contents (Elt F) → (⟨S2097152, .i32⟩ : BufTy).Contents (Elt F) → (⟨S2097152, .i1⟩ : BufTy).Contents (Elt F)),
    nullary main_c_75 (constantI S_ 32 16#32),
    unary main_c_75 main_v314 (broadcastInDim S2097152 ![] bcast_S_S2097152 : (⟨S_, .i32⟩ : BufTy).Contents (Elt F) → (⟨S2097152, .i32⟩ : BufTy).Contents (Elt F)),
    binary main_v288 main_v314 main_v315 (addi : (⟨S2097152, .i32⟩ : BufTy).Contents (Elt F) → (⟨S2097152, .i32⟩ : BufTy).Contents (Elt F) → (⟨S2097152, .i32⟩ : BufTy).Contents (Elt F)),
    ternary main_v313 main_v315 main_v288 main_v316 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v311 main_v317 (broadcastInDim S2097152x1 ![0] bcast_S2097152_S2097152x1_0 : (⟨S2097152, .i32⟩ : BufTy).Contents (Elt F) → (⟨S2097152x1, .i32⟩ : BufTy).Contents (Elt F)),
    unary main_v316 main_v318 (broadcastInDim S2097152x1 ![0] bcast_S2097152_S2097152x1_0 : (⟨S2097152, .i32⟩ : BufTy).Contents (Elt F) → (⟨S2097152x1, .i32⟩ : BufTy).Contents (Elt F)) ]

abbrev ops28_W : List (Ref sig .tc) := [main_v306, main_c_72, main_v307, main_v308, main_c_73, main_v309, main_v310, main_v311, main_c_74, main_v312, main_v313, main_c_75, main_v314, main_v315, main_v316, main_v317, main_v318]

theorem s28 : Stretch (ops28 (F := F)) ops28_W := by stretch

theorem c28_main_v306 (W : Valuation τ sig (Elt F)) (x0 : (⟨S2097152x2, .f32⟩ : BufTy).Contents (Elt F)) (x1 : (⟨S2x6x16x16, .f32⟩ : BufTy).Contents (Elt F))
    (h_main_v305 : W (no_index (Proc.devRef .tc main_v305)) = ReadP.val_main_v305 (F := F) x0)
    (h_main_v267 : W (no_index (Proc.devRef .tc main_v267)) = ReadP.val_main_v267 (F := F) x1) :
    after ops28 W (Proc.devRef .tc main_v306) = ReadP.val_main_v306 (F := F) x0 x1 := by
  simp only [ops28]
  after_results_simp
  simp only [h_main_v305, h_main_v267]
  rfl

theorem c28_main_v317 (W : Valuation τ sig (Elt F)) (x0 : (⟨S2097152x2, .f32⟩ : BufTy).Contents (Elt F))
    (h_main_v284 : W (no_index (Proc.devRef .tc main_v284)) = ReadP.val_main_v284 (F := F) x0) :
    after ops28 W (Proc.devRef .tc main_v317) = ReadP.val_main_v317 (F := F) x0 := by
  simp only [ops28]
  after_results_simp
  simp only [h_main_v284]
  rfl

theorem c28_main_v318 (W : Valuation τ sig (Elt F)) (x0 : (⟨S2097152x2, .f32⟩ : BufTy).Contents (Elt F))
    (h_main_v288 : W (no_index (Proc.devRef .tc main_v288)) = ReadP.val_main_v288 (F := F) x0) :
    after ops28 W (Proc.devRef .tc main_v318) = ReadP.val_main_v318 (F := F) x0 := by
  simp only [ops28]
  after_results_simp
  simp only [h_main_v288]
  rfl

end Cert.ReferenceIdeal.RunH

end
-- ==== Proof.RefRun29.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops29 : List (HloOp τ sig (Elt F)) :=
  [ binary main_v317 main_v318 main_v319 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops29_W : List (Ref sig .tc) := [main_v319]

theorem s29 : Stretch (ops29 (F := F)) ops29_W := by stretch

theorem c29_main_v319 (W : Valuation τ sig (Elt F)) (x0 : (⟨S2097152x2, .f32⟩ : BufTy).Contents (Elt F))
    (h_main_v318 : W (Proc.devRef .tc main_v318) = ReadP.val_main_v318 (F := F) x0)
    (h_main_v317 : W (Proc.devRef .tc main_v317) = ReadP.val_main_v317 (F := F) x0) :
    after ops29 W (Proc.devRef .tc main_v319) = ReadP.val_main_v319 (F := F) x0 := by
  simp only [ops29, after_cons, after_nil]
  rw [binary_result]
  rw [h_main_v318, h_main_v317]
  rfl

end Cert.ReferenceIdeal.RunH

end
-- ==== Proof.RefRun30.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops30 : List (HloOp τ sig (Elt F)) :=
  [ binary main_v267 main_v319 main_v320 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_76 (constantI S_ 32 0#32),
    unary main_c_76 main_v321 (broadcastInDim S2097152 ![] bcast_S_S2097152 : (⟨S_, .i32⟩ : BufTy).Contents (Elt F) → (⟨S2097152, .i32⟩ : BufTy).Contents (Elt F)),
    binary main_v292 main_v321 main_v322 (cmpi .slt : (⟨S2097152, .i32⟩ : BufTy).Contents (Elt F) → (⟨S2097152, .i32⟩ : BufTy).Contents (Elt F) → (⟨S2097152, .i1⟩ : BufTy).Contents (Elt F)),
    nullary main_c_77 (constantI S_ 32 16#32),
    unary main_c_77 main_v323 (broadcastInDim S2097152 ![] bcast_S_S2097152 : (⟨S_, .i32⟩ : BufTy).Contents (Elt F) → (⟨S2097152, .i32⟩ : BufTy).Contents (Elt F)),
    binary main_v292 main_v323 main_v324 (addi : (⟨S2097152, .i32⟩ : BufTy).Contents (Elt F) → (⟨S2097152, .i32⟩ : BufTy).Contents (Elt F) → (⟨S2097152, .i32⟩ : BufTy).Contents (Elt F)),
    ternary main_v322 main_v324 main_v292 main_v325 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_78 (constantI S_ 32 0#32),
    unary main_c_78 main_v326 (broadcastInDim S2097152 ![] bcast_S_S2097152 : (⟨S_, .i32⟩ : BufTy).Contents (Elt F) → (⟨S2097152, .i32⟩ : BufTy).Contents (Elt F)),
    binary main_v283 main_v326 main_v327 (cmpi .slt : (⟨S2097152, .i32⟩ : BufTy).Contents (Elt F) → (⟨S2097152, .i32⟩ : BufTy).Contents (Elt F) → (⟨S2097152, .i1⟩ : BufTy).Contents (Elt F)),
    nullary main_c_79 (constantI S_ 32 16#32),
    unary main_c_79 main_v328 (broadcastInDim S2097152 ![] bcast_S_S2097152 : (⟨S_, .i32⟩ : BufTy).Contents (Elt F) → (⟨S2097152, .i32⟩ : BufTy).Contents (Elt F)),
    binary main_v283 main_v328 main_v329 (addi : (⟨S2097152, .i32⟩ : BufTy).Contents (Elt F) → (⟨S2097152, .i32⟩ : BufTy).Contents (Elt F) → (⟨S2097152, .i32⟩ : BufTy).Contents (Elt F)),
    ternary main_v327 main_v329 main_v283 main_v330 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v325 main_v331 (broadcastInDim S2097152x1 ![0] bcast_S2097152_S2097152x1_0 : (⟨S2097152, .i32⟩ : BufTy).Contents (Elt F) → (⟨S2097152x1, .i32⟩ : BufTy).Contents (Elt F)),
    unary main_v330 main_v332 (broadcastInDim S2097152x1 ![0] bcast_S2097152_S2097152x1_0 : (⟨S2097152, .i32⟩ : BufTy).Contents (Elt F) → (⟨S2097152x1, .i32⟩ : BufTy).Contents (Elt F)) ]

abbrev ops30_W : List (Ref sig .tc) := [main_v320, main_c_76, main_v321, main_v322, main_c_77, main_v323, main_v324, main_v325, main_c_78, main_v326, main_v327, main_c_79, main_v328, main_v329, main_v330, main_v331, main_v332]

theorem s30 : Stretch (ops30 (F := F)) ops30_W := by stretch

theorem c30_main_v320 (W : Valuation τ sig (Elt F)) (x0 : (⟨S2097152x2, .f32⟩ : BufTy).Contents (Elt F)) (x1 : (⟨S2x6x16x16, .f32⟩ : BufTy).Contents (Elt F))
    (h_main_v319 : W (no_index (Proc.devRef .tc main_v319)) = ReadP.val_main_v319 (F := F) x0)
    (h_main_v267 : W (no_index (Proc.devRef .tc main_v267)) = ReadP.val_main_v267 (F := F) x1) :
    after ops30 W (Proc.devRef .tc main_v320) = ReadP.val_main_v320 (F := F) x0 x1 := by
  simp only [ops30]
  after_results_simp
  simp only [h_main_v319, h_main_v267]
  rfl

theorem c30_main_v331 (W : Valuation τ sig (Elt F)) (x0 : (⟨S2097152x2, .f32⟩ : BufTy).Contents (Elt F))
    (h_main_v292 : W (no_index (Proc.devRef .tc main_v292)) = ReadP.val_main_v292 (F := F) x0) :
    after ops30 W (Proc.devRef .tc main_v331) = ReadP.val_main_v331 (F := F) x0 := by
  simp only [ops30]
  after_results_simp
  simp only [h_main_v292]
  rfl

theorem c30_main_v332 (W : Valuation τ sig (Elt F)) (x0 : (⟨S2097152x2, .f32⟩ : BufTy).Contents (Elt F))
    (h_main_v283 : W (no_index (Proc.devRef .tc main_v283)) = ReadP.val_main_v283 (F := F) x0) :
    after ops30 W (Proc.devRef .tc main_v332) = ReadP.val_main_v332 (F := F) x0 := by
  simp only [ops30]
  after_results_simp
  simp only [h_main_v283]
  rfl

end Cert.ReferenceIdeal.RunH

end
-- ==== Proof.RefRun31.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops31 : List (HloOp τ sig (Elt F)) :=
  [ binary main_v331 main_v332 main_v333 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops31_W : List (Ref sig .tc) := [main_v333]

theorem s31 : Stretch (ops31 (F := F)) ops31_W := by stretch

theorem c31_main_v333 (W : Valuation τ sig (Elt F)) (x0 : (⟨S2097152x2, .f32⟩ : BufTy).Contents (Elt F))
    (h_main_v332 : W (Proc.devRef .tc main_v332) = ReadP.val_main_v332 (F := F) x0)
    (h_main_v331 : W (Proc.devRef .tc main_v331) = ReadP.val_main_v331 (F := F) x0) :
    after ops31 W (Proc.devRef .tc main_v333) = ReadP.val_main_v333 (F := F) x0 := by
  simp only [ops31, after_cons, after_nil]
  rw [binary_result]
  rw [h_main_v332, h_main_v331]
  rfl

end Cert.ReferenceIdeal.RunH

end
-- ==== Proof.RefRun32.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops32 : List (HloOp τ sig (Elt F)) :=
  [ binary main_v267 main_v333 main_v334 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_80 (constantI S_ 32 0#32),
    unary main_c_80 main_v335 (broadcastInDim S2097152 ![] bcast_S_S2097152 : (⟨S_, .i32⟩ : BufTy).Contents (Elt F) → (⟨S2097152, .i32⟩ : BufTy).Contents (Elt F)),
    binary main_v292 main_v335 main_v336 (cmpi .slt : (⟨S2097152, .i32⟩ : BufTy).Contents (Elt F) → (⟨S2097152, .i32⟩ : BufTy).Contents (Elt F) → (⟨S2097152, .i1⟩ : BufTy).Contents (Elt F)) ]

abbrev ops32_W : List (Ref sig .tc) := [main_v334, main_c_80, main_v335, main_v336]

theorem s32 : Stretch (ops32 (F := F)) ops32_W := by stretch

theorem c32_main_v334 (W : Valuation τ sig (Elt F)) (x0 : (⟨S2097152x2, .f32⟩ : BufTy).Contents (Elt F)) (x1 : (⟨S2x6x16x16, .f32⟩ : BufTy).Contents (Elt F))
    (h_main_v333 : W (no_index (Proc.devRef .tc main_v333)) = ReadP.val_main_v333 (F := F) x0)
    (h_main_v267 : W (no_index (Proc.devRef .tc main_v267)) = ReadP.val_main_v267 (F := F) x1) :
    after ops32 W (Proc.devRef .tc main_v334) = ReadP.val_main_v334 (F := F) x0 x1 := by
  simp only [ops32]
  after_results_simp
  simp only [h_main_v333, h_main_v267]
  rfl

theorem c32_main_v336 (W : Valuation τ sig (Elt F)) (x0 : (⟨S2097152x2, .f32⟩ : BufTy).Contents (Elt F))
    (h_main_v292 : W (no_index (Proc.devRef .tc main_v292)) = ReadP.val_main_v292 (F := F) x0) :
    after ops32 W (Proc.devRef .tc main_v336) = ReadP.val_main_v336 (F := F) x0 := by
  simp only [ops32]
  after_results_simp
  simp only [h_main_v292]
  rfl

end Cert.ReferenceIdeal.RunH

end
-- ==== Proof.RefRun33.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops33 : List (HloOp τ sig (Elt F)) :=
  [ nullary main_c_81 (constantI S_ 32 16#32),
    unary main_c_81 main_v337 (broadcastInDim S2097152 ![] bcast_S_S2097152 : (⟨S_, .i32⟩ : BufTy).Contents (Elt F) → (⟨S2097152, .i32⟩ : BufTy).Contents (Elt F)),
    binary main_v292 main_v337 main_v338 (addi : (⟨S2097152, .i32⟩ : BufTy).Contents (Elt F) → (⟨S2097152, .i32⟩ : BufTy).Contents (Elt F) → (⟨S2097152, .i32⟩ : BufTy).Contents (Elt F)),
    ternary main_v336 main_v338 main_v292 main_v339 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_82 (constantI S_ 32 0#32),
    unary main_c_82 main_v340 (broadcastInDim S2097152 ![] bcast_S_S2097152 : (⟨S_, .i32⟩ : BufTy).Contents (Elt F) → (⟨S2097152, .i32⟩ : BufTy).Contents (Elt F)),
    binary main_v288 main_v340 main_v341 (cmpi .slt : (⟨S2097152, .i32⟩ : BufTy).Contents (Elt F) → (⟨S2097152, .i32⟩ : BufTy).Contents (Elt F) → (⟨S2097152, .i1⟩ : BufTy).Contents (Elt F)),
    nullary main_c_83 (constantI S_ 32 16#32),
    unary main_c_83 main_v342 (broadcastInDim S2097152 ![] bcast_S_S2097152 : (⟨S_, .i32⟩ : BufTy).Contents (Elt F) → (⟨S2097152, .i32⟩ : BufTy).Contents (Elt F)),
    binary main_v288 main_v342 main_v343 (addi : (⟨S2097152, .i32⟩ : BufTy).Contents (Elt F) → (⟨S2097152, .i32⟩ : BufTy).Contents (Elt F) → (⟨S2097152, .i32⟩ : BufTy).Contents (Elt F)),
    ternary main_v341 main_v343 main_v288 main_v344 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v339 main_v345 (broadcastInDim S2097152x1 ![0] bcast_S2097152_S2097152x1_0 : (⟨S2097152, .i32⟩ : BufTy).Contents (Elt F) → (⟨S2097152x1, .i32⟩ : BufTy).Contents (Elt F)),
    unary main_v344 main_v346 (broadcastInDim S2097152x1 ![0] bcast_S2097152_S2097152x1_0 : (⟨S2097152, .i32⟩ : BufTy).Contents (Elt F) → (⟨S2097152x1, .i32⟩ : BufTy).Contents (Elt F)) ]

abbrev ops33_W : List (Ref sig .tc) := [main_c_81, main_v337, main_v338, main_v339, main_c_82, main_v340, main_v341, main_c_83, main_v342, main_v343, main_v344, main_v345, main_v346]

theorem s33 : Stretch (ops33 (F := F)) ops33_W := by stretch

theorem c33_main_v345 (W : Valuation τ sig (Elt F)) (x0 : (⟨S2097152x2, .f32⟩ : BufTy).Contents (Elt F))
    (h_main_v292 : W (no_index (Proc.devRef .tc main_v292)) = ReadP.val_main_v292 (F := F) x0)
    (h_main_v336 : W (no_index (Proc.devRef .tc main_v336)) = ReadP.val_main_v336 (F := F) x0) :
    after ops33 W (Proc.devRef .tc main_v345) = ReadP.val_main_v345 (F := F) x0 := by
  simp only [ops33]
  after_results_simp
  simp only [h_main_v292, h_main_v336]
  rfl

theorem c33_main_v346 (W : Valuation τ sig (Elt F)) (x0 : (⟨S2097152x2, .f32⟩ : BufTy).Contents (Elt F))
    (h_main_v288 : W (no_index (Proc.devRef .tc main_v288)) = ReadP.val_main_v288 (F := F) x0) :
    after ops33 W (Proc.devRef .tc main_v346) = ReadP.val_main_v346 (F := F) x0 := by
  simp only [ops33]
  after_results_simp
  simp only [h_main_v288]
  rfl

end Cert.ReferenceIdeal.RunH

end
-- ==== Proof.RefRun34.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops34 : List (HloOp τ sig (Elt F)) :=
  [ binary main_v345 main_v346 main_v347 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops34_W : List (Ref sig .tc) := [main_v347]

theorem s34 : Stretch (ops34 (F := F)) ops34_W := by stretch

theorem c34_main_v347 (W : Valuation τ sig (Elt F)) (x0 : (⟨S2097152x2, .f32⟩ : BufTy).Contents (Elt F))
    (h_main_v346 : W (Proc.devRef .tc main_v346) = ReadP.val_main_v346 (F := F) x0)
    (h_main_v345 : W (Proc.devRef .tc main_v345) = ReadP.val_main_v345 (F := F) x0) :
    after ops34 W (Proc.devRef .tc main_v347) = ReadP.val_main_v347 (F := F) x0 := by
  simp only [ops34, after_cons, after_nil]
  rw [binary_result]
  rw [h_main_v346, h_main_v345]
  rfl

end Cert.ReferenceIdeal.RunH

end
-- ==== Proof.RefRun35.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops35 : List (HloOp τ sig (Elt F)) :=
  [ binary main_v267 main_v347 main_v348 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_cst_84 (constant S_ .f32 0x3F800000#32),
    unary main_cst_84 main_v349 (broadcastInDim S2097152 ![] bcast_S_S2097152 : (⟨S_, .f32⟩ : BufTy).Contents (Elt F) → (⟨S2097152, .f32⟩ : BufTy).Contents (Elt F)),
    binary main_v349 main_v281 main_v350 (subf : (⟨S2097152, .f32⟩ : BufTy).Contents (Elt F) → (⟨S2097152, .f32⟩ : BufTy).Contents (Elt F) → (⟨S2097152, .f32⟩ : BufTy).Contents (Elt F)),
    unary main_v350 main_v351 (broadcastInDim S1x2097152 ![1] bcast_S2097152_S1x2097152_1 : (⟨S2097152, .f32⟩ : BufTy).Contents (Elt F) → (⟨S1x2097152, .f32⟩ : BufTy).Contents (Elt F)),
    unary main_v351 main_v352 (broadcastInDim S6x2097152 ![0, 1] bcast_S1x2097152_S6x2097152_0_1 : (⟨S1x2097152, .f32⟩ : BufTy).Contents (Elt F) → (⟨S6x2097152, .f32⟩ : BufTy).Contents (Elt F)),
    binary main_v306 main_v352 main_v353 (mulf : (⟨S6x2097152, .f32⟩ : BufTy).Contents (Elt F) → (⟨S6x2097152, .f32⟩ : BufTy).Contents (Elt F) → (⟨S6x2097152, .f32⟩ : BufTy).Contents (Elt F)),
    unary main_v281 main_v354 (broadcastInDim S1x2097152 ![1] bcast_S2097152_S1x2097152_1 : (⟨S2097152, .f32⟩ : BufTy).Contents (Elt F) → (⟨S1x2097152, .f32⟩ : BufTy).Contents (Elt F)),
    unary main_v354 main_v355 (broadcastInDim S6x2097152 ![0, 1] bcast_S1x2097152_S6x2097152_0_1 : (⟨S1x2097152, .f32⟩ : BufTy).Contents (Elt F) → (⟨S6x2097152, .f32⟩ : BufTy).Contents (Elt F)),
    binary main_v320 main_v355 main_v356 (mulf : (⟨S6x2097152, .f32⟩ : BufTy).Contents (Elt F) → (⟨S6x2097152, .f32⟩ : BufTy).Contents (Elt F) → (⟨S6x2097152, .f32⟩ : BufTy).Contents (Elt F)),
    binary main_v353 main_v356 main_v357 (addf : (⟨S6x2097152, .f32⟩ : BufTy).Contents (Elt F) → (⟨S6x2097152, .f32⟩ : BufTy).Contents (Elt F) → (⟨S6x2097152, .f32⟩ : BufTy).Contents (Elt F)),
    nullary main_cst_85 (constant S_ .f32 0x3F800000#32),
    unary main_cst_85 main_v358 (broadcastInDim S2097152 ![] bcast_S_S2097152 : (⟨S_, .f32⟩ : BufTy).Contents (Elt F) → (⟨S2097152, .f32⟩ : BufTy).Contents (Elt F)),
    binary main_v358 main_v281 main_v359 (subf : (⟨S2097152, .f32⟩ : BufTy).Contents (Elt F) → (⟨S2097152, .f32⟩ : BufTy).Contents (Elt F) → (⟨S2097152, .f32⟩ : BufTy).Contents (Elt F)),
    unary main_v359 main_v360 (broadcastInDim S1x2097152 ![1] bcast_S2097152_S1x2097152_1 : (⟨S2097152, .f32⟩ : BufTy).Contents (Elt F) → (⟨S1x2097152, .f32⟩ : BufTy).Contents (Elt F)),
    unary main_v360 main_v361 (broadcastInDim S6x2097152 ![0, 1] bcast_S1x2097152_S6x2097152_0_1 : (⟨S1x2097152, .f32⟩ : BufTy).Contents (Elt F) → (⟨S6x2097152, .f32⟩ : BufTy).Contents (Elt F)),
    binary main_v334 main_v361 main_v362 (mulf : (⟨S6x2097152, .f32⟩ : BufTy).Contents (Elt F) → (⟨S6x2097152, .f32⟩ : BufTy).Contents (Elt F) → (⟨S6x2097152, .f32⟩ : BufTy).Contents (Elt F)),
    unary main_v281 main_v363 (broadcastInDim S1x2097152 ![1] bcast_S2097152_S1x2097152_1 : (⟨S2097152, .f32⟩ : BufTy).Contents (Elt F) → (⟨S1x2097152, .f32⟩ : BufTy).Contents (Elt F)),
    unary main_v363 main_v364 (broadcastInDim S6x2097152 ![0, 1] bcast_S1x2097152_S6x2097152_0_1 : (⟨S1x2097152, .f32⟩ : BufTy).Contents (Elt F) → (⟨S6x2097152, .f32⟩ : BufTy).Contents (Elt F)),
    binary main_v348 main_v364 main_v365 (mulf : (⟨S6x2097152, .f32⟩ : BufTy).Contents (Elt F) → (⟨S6x2097152, .f32⟩ : BufTy).Contents (Elt F) → (⟨S6x2097152, .f32⟩ : BufTy).Contents (Elt F)),
    binary main_v362 main_v365 main_v366 (addf : (⟨S6x2097152, .f32⟩ : BufTy).Contents (Elt F) → (⟨S6x2097152, .f32⟩ : BufTy).Contents (Elt F) → (⟨S6x2097152, .f32⟩ : BufTy).Contents (Elt F)),
    nullary main_cst_86 (constant S_ .f32 0x3F800000#32),
    unary main_cst_86 main_v367 (broadcastInDim S2097152 ![] bcast_S_S2097152 : (⟨S_, .f32⟩ : BufTy).Contents (Elt F) → (⟨S2097152, .f32⟩ : BufTy).Contents (Elt F)),
    binary main_v367 main_v282 main_v368 (subf : (⟨S2097152, .f32⟩ : BufTy).Contents (Elt F) → (⟨S2097152, .f32⟩ : BufTy).Contents (Elt F) → (⟨S2097152, .f32⟩ : BufTy).Contents (Elt F)),
    unary main_v368 main_v369 (broadcastInDim S1x2097152 ![1] bcast_S2097152_S1x2097152_1 : (⟨S2097152, .f32⟩ : BufTy).Contents (Elt F) → (⟨S1x2097152, .f32⟩ : BufTy).Contents (Elt F)) ]

abbrev ops35_W : List (Ref sig .tc) := [main_v348, main_cst_84, main_v349, main_v350, main_v351, main_v352, main_v353, main_v354, main_v355, main_v356, main_v357, main_cst_85, main_v358, main_v359, main_v360, main_v361, main_v362, main_v363, main_v364, main_v365, main_v366, main_cst_86, main_v367, main_v368, main_v369]

theorem s35 : Stretch (ops35 (F := F)) ops35_W := by stretch

theorem c35_main_v357 (W : Valuation τ sig (Elt F)) (x0 : (⟨S2097152x2, .f32⟩ : BufTy).Contents (Elt F)) (x1 : (⟨S2x6x16x16, .f32⟩ : BufTy).Contents (Elt F))
    (h_main_v281 : W (no_index (Proc.devRef .tc main_v281)) = ReadP.val_main_v281 (F := F) x0)
    (h_main_v320 : W (no_index (Proc.devRef .tc main_v320)) = ReadP.val_main_v320 (F := F) x0 x1)
    (h_main_v306 : W (no_index (Proc.devRef .tc main_v306)) = ReadP.val_main_v306 (F := F) x0 x1) :
    after ops35 W (Proc.devRef .tc main_v357) = ReadP.val_main_v357 (F := F) x0 x1 := by
  simp only [ops35]
  after_results_simp
  simp only [h_main_v281, h_main_v320, h_main_v306]
  rfl

theorem c35_main_v366 (W : Valuation τ sig (Elt F)) (x0 : (⟨S2097152x2, .f32⟩ : BufTy).Contents (Elt F)) (x1 : (⟨S2x6x16x16, .f32⟩ : BufTy).Contents (Elt F))
    (h_main_v281 : W (no_index (Proc.devRef .tc main_v281)) = ReadP.val_main_v281 (F := F) x0)
    (h_main_v347 : W (no_index (Proc.devRef .tc main_v347)) = ReadP.val_main_v347 (F := F) x0)
    (h_main_v267 : W (no_index (Proc.devRef .tc main_v267)) = ReadP.val_main_v267 (F := F) x1)
    (h_main_v334 : W (no_index (Proc.devRef .tc main_v334)) = ReadP.val_main_v334 (F := F) x0 x1) :
    after ops35 W (Proc.devRef .tc main_v366) = ReadP.val_main_v366 (F := F) x0 x1 := by
  simp only [ops35]
  after_results_simp
  simp only [h_main_v281, h_main_v347, h_main_v267, h_main_v334]
  rfl

theorem c35_main_v369 (W : Valuation τ sig (Elt F)) (x0 : (⟨S2097152x2, .f32⟩ : BufTy).Contents (Elt F))
    (h_main_v282 : W (no_index (Proc.devRef .tc main_v282)) = ReadP.val_main_v282 (F := F) x0) :
    after ops35 W (Proc.devRef .tc main_v369) = ReadP.val_main_v369 (F := F) x0 := by
  simp only [ops35]
  after_results_simp
  simp only [h_main_v282]
  rfl

end Cert.ReferenceIdeal.RunH

end
-- ==== Proof.RefRun36.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops36 : List (HloOp τ sig (Elt F)) :=
  [ unary main_v369 main_v370 (broadcastInDim S6x2097152 ![0, 1] bcast_S1x2097152_S6x2097152_0_1 : (⟨S1x2097152, .f32⟩ : BufTy).Contents (Elt F) → (⟨S6x2097152, .f32⟩ : BufTy).Contents (Elt F)),
    binary main_v357 main_v370 main_v371 (mulf : (⟨S6x2097152, .f32⟩ : BufTy).Contents (Elt F) → (⟨S6x2097152, .f32⟩ : BufTy).Contents (Elt F) → (⟨S6x2097152, .f32⟩ : BufTy).Contents (Elt F)),
    unary main_v282 main_v372 (broadcastInDim S1x2097152 ![1] bcast_S2097152_S1x2097152_1 : (⟨S2097152, .f32⟩ : BufTy).Contents (Elt F) → (⟨S1x2097152, .f32⟩ : BufTy).Contents (Elt F)),
    unary main_v372 main_v373 (broadcastInDim S6x2097152 ![0, 1] bcast_S1x2097152_S6x2097152_0_1 : (⟨S1x2097152, .f32⟩ : BufTy).Contents (Elt F) → (⟨S6x2097152, .f32⟩ : BufTy).Contents (Elt F)),
    binary main_v366 main_v373 main_v374 (mulf : (⟨S6x2097152, .f32⟩ : BufTy).Contents (Elt F) → (⟨S6x2097152, .f32⟩ : BufTy).Contents (Elt F) → (⟨S6x2097152, .f32⟩ : BufTy).Contents (Elt F)),
    binary main_v371 main_v374 main_v375 (addf : (⟨S6x2097152, .f32⟩ : BufTy).Contents (Elt F) → (⟨S6x2097152, .f32⟩ : BufTy).Contents (Elt F) → (⟨S6x2097152, .f32⟩ : BufTy).Contents (Elt F)),
    unary main_v375 main_v376 ((transpose S2097152x6 [1, 0] · transposes_S6x2097152_S2097152x6_1_0) : (⟨S6x2097152, .f32⟩ : BufTy).Contents (Elt F) → (⟨S2097152x6, .f32⟩ : BufTy).Contents (Elt F)),
    unary main_arg2 main_v377 ((extractStridedSlice S1x6x16x16 ![1, 0, 0, 0] · slices_S2x6x16x16_S1x6x16x16_1_0_0_0) : (⟨S2x6x16x16, .f32⟩ : BufTy).Contents (Elt F) → (⟨S1x6x16x16, .f32⟩ : BufTy).Contents (Elt F)),
    reshape main_v377 main_v378 rfl shapeCasts_S1x6x16x16_S6x16x16,
    nullary main_cst_87 (constant S_ .f32 0x3F800000#32),
    unary main_cst_87 main_v379 (broadcastInDim S2097152x2 ![] bcast_S_S2097152x2 : (⟨S_, .f32⟩ : BufTy).Contents (Elt F) → (⟨S2097152x2, .f32⟩ : BufTy).Contents (Elt F)),
    binary main_arg0 main_v379 main_v380 (addf : (⟨S2097152x2, .f32⟩ : BufTy).Contents (Elt F) → (⟨S2097152x2, .f32⟩ : BufTy).Contents (Elt F) → (⟨S2097152x2, .f32⟩ : BufTy).Contents (Elt F)),
    nullary main_cst_88 (constant S_ .f32 0x3F000000#32),
    unary main_cst_88 main_v381 (broadcastInDim S2097152x2 ![] bcast_S_S2097152x2 : (⟨S_, .f32⟩ : BufTy).Contents (Elt F) → (⟨S2097152x2, .f32⟩ : BufTy).Contents (Elt F)),
    binary main_v380 main_v381 main_v382 (mulf : (⟨S2097152x2, .f32⟩ : BufTy).Contents (Elt F) → (⟨S2097152x2, .f32⟩ : BufTy).Contents (Elt F) → (⟨S2097152x2, .f32⟩ : BufTy).Contents (Elt F)),
    nullary main_cst_89 (constant S_ .f32 0x41700000#32),
    unary main_cst_89 main_v383 (broadcastInDim S2097152x2 ![] bcast_S_S2097152x2 : (⟨S_, .f32⟩ : BufTy).Contents (Elt F) → (⟨S2097152x2, .f32⟩ : BufTy).Contents (Elt F)),
    binary main_v382 main_v383 main_v384 (mulf : (⟨S2097152x2, .f32⟩ : BufTy).Contents (Elt F) → (⟨S2097152x2, .f32⟩ : BufTy).Contents (Elt F) → (⟨S2097152x2, .f32⟩ : BufTy).Contents (Elt F)),
    nullary main_cst_90 (constant S_ .f32 0x00000000#32),
    nullary main_cst_91 (constant S_ .f32 0x41700000#32),
    TRef.unary (TRef.of (T := ⟨S_, .f32⟩) main_cst_90) (TRef.of (T := ⟨S_, .f32⟩) main_call5_v0) id,
    TRef.unary (TRef.of (T := ⟨S_, .f32⟩) main_call5_v0) (TRef.of (T := ⟨S2097152x2, .f32⟩) main_call5_v1) (broadcastInDim S2097152x2 ![] bcast_S_S2097152x2),
    TRef.binary (TRef.of (T := ⟨S2097152x2, .f32⟩) main_call5_v1) (TRef.of (T := ⟨S2097152x2, .f32⟩) main_v384) (TRef.of (T := ⟨S2097152x2, .f32⟩) main_call5_v2) maximumf,
    TRef.unary (TRef.of (T := ⟨S_, .f32⟩) main_cst_91) (TRef.of (T := ⟨S_, .f32⟩) main_call5_v3) id,
    TRef.unary (TRef.of (T := ⟨S_, .f32⟩) main_call5_v3) (TRef.of (T := ⟨S2097152x2, .f32⟩) main_call5_v4) (broadcastInDim S2097152x2 ![] bcast_S_S2097152x2),
    TRef.binary (TRef.of (T := ⟨S2097152x2, .f32⟩) main_call5_v4) (TRef.of (T := ⟨S2097152x2, .f32⟩) main_call5_v2) (TRef.of (T := ⟨S2097152x2, .f32⟩) main_v385) minimumf ]

abbrev ops36_W : List (Ref sig .tc) := [main_v370, main_v371, main_v372, main_v373, main_v374, main_v375, main_v376, main_v377, main_v378, main_cst_87, main_v379, main_v380, main_cst_88, main_v381, main_v382, main_cst_89, main_v383, main_v384, main_cst_90, main_cst_91, main_call5_v0, main_call5_v1, main_call5_v2, main_call5_v3, main_call5_v4, main_v385]

theorem s36 : Stretch (ops36 (F := F)) ops36_W := by stretch

theorem c36_main_v376 (W : Valuation τ sig (Elt F)) (x0 : (⟨S2097152x2, .f32⟩ : BufTy).Contents (Elt F)) (x1 : (⟨S2x6x16x16, .f32⟩ : BufTy).Contents (Elt F))
    (h_main_v282 : W (no_index (Proc.devRef .tc main_v282)) = ReadP.val_main_v282 (F := F) x0)
    (h_main_v366 : W (no_index (Proc.devRef .tc main_v366)) = ReadP.val_main_v366 (F := F) x0 x1)
    (h_main_v369 : W (no_index (Proc.devRef .tc main_v369)) = ReadP.val_main_v369 (F := F) x0)
    (h_main_v357 : W (no_index (Proc.devRef .tc main_v357)) = ReadP.val_main_v357 (F := F) x0 x1) :
    after ops36 W (Proc.devRef .tc main_v376) = ReadP.val_main_v376 (F := F) x0 x1 := by
  simp only [ops36]
  after_results_simp
  try simp only [TRef.ofBuf, TRef.toBuf, cast_eq]
  simp only [h_main_v282, h_main_v366, h_main_v369, h_main_v357]
  rfl

theorem c36_main_v378 (W : Valuation τ sig (Elt F)) (x2 : (⟨S2x6x16x16, .f32⟩ : BufTy).Contents (Elt F))
    (h_main_arg2 : W (no_index (Proc.devRef .tc main_arg2)) = x2) :
    after ops36 W (Proc.devRef .tc main_v378) = ReadP.val_main_v378 (F := F) x2 := by
  simp only [ops36]
  after_results_simp
  try simp only [TRef.ofBuf, TRef.toBuf, cast_eq]
  simp only [h_main_arg2]
  rfl

theorem c36_main_v385 (W : Valuation τ sig (Elt F)) (x0 : (⟨S2097152x2, .f32⟩ : BufTy).Contents (Elt F))
    (h_main_arg0 : W (no_index (Proc.devRef .tc main_arg0)) = x0) :
    after ops36 W (Proc.devRef .tc main_v385) = ReadP.val_main_v385 (F := F) x0 := by
  simp only [ops36]
  after_results_simp
  try simp only [TRef.ofBuf, TRef.toBuf, cast_eq]
  simp only [h_main_arg0]
  rfl

end Cert.ReferenceIdeal.RunH

end
-- ==== Proof.RefRun37.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops37 : List (HloOp τ sig (Elt F)) :=
  [ unary main_v385 main_v386 ((extractStridedSlice S2097152x1 ![0, 0] · slices_S2097152x2_S2097152x1_0_0) : (⟨S2097152x2, .f32⟩ : BufTy).Contents (Elt F) → (⟨S2097152x1, .f32⟩ : BufTy).Contents (Elt F)),
    reshape main_v386 main_v387 rfl shapeCasts_S2097152x1_S2097152,
    unary main_v385 main_v388 ((extractStridedSlice S2097152x1 ![0, 1] · slices_S2097152x2_S2097152x1_0_1) : (⟨S2097152x2, .f32⟩ : BufTy).Contents (Elt F) → (⟨S2097152x1, .f32⟩ : BufTy).Contents (Elt F)),
    reshape main_v388 main_v389 rfl shapeCasts_S2097152x1_S2097152,
    unary main_v387 main_v390 (Host.floor : (⟨S2097152, .f32⟩ : BufTy).Contents (Elt F) → (⟨S2097152, .f32⟩ : BufTy).Contents (Elt F)),
    unary main_v389 main_v391 (Host.floor : (⟨S2097152, .f32⟩ : BufTy).Contents (Elt F) → (⟨S2097152, .f32⟩ : BufTy).Contents (Elt F)),
    binary main_v387 main_v390 main_v392 (subf : (⟨S2097152, .f32⟩ : BufTy).Contents (Elt F) → (⟨S2097152, .f32⟩ : BufTy).Contents (Elt F) → (⟨S2097152, .f32⟩ : BufTy).Contents (Elt F)),
    binary main_v389 main_v391 main_v393 (subf : (⟨S2097152, .f32⟩ : BufTy).Contents (Elt F) → (⟨S2097152, .f32⟩ : BufTy).Contents (Elt F) → (⟨S2097152, .f32⟩ : BufTy).Contents (Elt F)),
    unary main_v390 main_v394 (fptosi 32 : (⟨S2097152, .f32⟩ : BufTy).Contents (Elt F) → (⟨S2097152, .i32⟩ : BufTy).Contents (Elt F)),
    unary main_v391 main_v395 (fptosi 32 : (⟨S2097152, .f32⟩ : BufTy).Contents (Elt F) → (⟨S2097152, .i32⟩ : BufTy).Contents (Elt F)),
    nullary main_c_92 (constantI S_ 32 1#32),
    unary main_c_92 main_v396 (broadcastInDim S2097152 ![] bcast_S_S2097152 : (⟨S_, .i32⟩ : BufTy).Contents (Elt F) → (⟨S2097152, .i32⟩ : BufTy).Contents (Elt F)),
    binary main_v394 main_v396 main_v397 (addi : (⟨S2097152, .i32⟩ : BufTy).Contents (Elt F) → (⟨S2097152, .i32⟩ : BufTy).Contents (Elt F) → (⟨S2097152, .i32⟩ : BufTy).Contents (Elt F)),
    nullary main_c_93 (constantI S_ 32 15#32),
    unary main_c_93 main_v398 (broadcastInDim S2097152 ![] bcast_S_S2097152 : (⟨S_, .i32⟩ : BufTy).Contents (Elt F) → (⟨S2097152, .i32⟩ : BufTy).Contents (Elt F)),
    binary main_v397 main_v398 main_v399 (minsi : (⟨S2097152, .i32⟩ : BufTy).Contents (Elt F) → (⟨S2097152, .i32⟩ : BufTy).Contents (Elt F) → (⟨S2097152, .i32⟩ : BufTy).Contents (Elt F)),
    nullary main_c_94 (constantI S_ 32 1#32),
    unary main_c_94 main_v400 (broadcastInDim S2097152 ![] bcast_S_S2097152 : (⟨S_, .i32⟩ : BufTy).Contents (Elt F) → (⟨S2097152, .i32⟩ : BufTy).Contents (Elt F)),
    binary main_v395 main_v400 main_v401 (addi : (⟨S2097152, .i32⟩ : BufTy).Contents (Elt F) → (⟨S2097152, .i32⟩ : BufTy).Contents (Elt F) → (⟨S2097152, .i32⟩ : BufTy).Contents (Elt F)) ]

abbrev ops37_W : List (Ref sig .tc) := [main_v386, main_v387, main_v388, main_v389, main_v390, main_v391, main_v392, main_v393, main_v394, main_v395, main_c_92, main_v396, main_v397, main_c_93, main_v398, main_v399, main_c_94, main_v400, main_v401]

theorem s37 : Stretch (ops37 (F := F)) ops37_W := by stretch

theorem c37_main_v392 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v392) = ReadP.val_main_v392 (F := F) x0 := by
  simp only [ops37]
  after_results_simp
  simp only [h_main_v385]
  rfl

theorem c37_main_v393 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v393) = ReadP.val_main_v393 (F := F) x0 := by
  simp only [ops37]
  after_results_simp
  simp only [h_main_v385]
  rfl

theorem c37_main_v394 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v394) = ReadP.val_main_v394 (F := F) x0 := by
  simp only [ops37]
  after_results_simp
  simp only [h_main_v385]
  rfl

theorem c37_main_v395 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v395) = ReadP.val_main_v395 (F := F) x0 := by
  simp only [ops37]
  after_results_simp
  simp only [h_main_v385]
  rfl

theorem c37_main_v399 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v399) = ReadP.val_main_v399 (F := F) x0 := by
  simp only [ops37]
  after_results_simp
  simp only [h_main_v385]
  rfl

theorem c37_main_v401 (W : Valuation τ sig (Elt F)) (x0 : (⟨S2097152x2, .f32⟩ : BufTy).Contents (Elt F))
    (h_main_v385 : W (no_index (Proc.devRef .tc main_v385)) = ReadP.val_main_v385 (F := F) x0) :
    after ops37 W (Proc.devRef .tc main_v401) = ReadP.val_main_v401 (F := F) x0 := by
  simp only [ops37]
  after_results_simp
  simp only [h_main_v385]
  rfl

end Cert.ReferenceIdeal.RunH

end
-- ==== Proof.RefRun38.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops38 : List (HloOp τ sig (Elt F)) :=
  [ nullary main_c_95 (constantI S_ 32 15#32),
    unary main_c_95 main_v402 (broadcastInDim S2097152 ![] bcast_S_S2097152 : (⟨S_, .i32⟩ : BufTy).Contents (Elt F) → (⟨S2097152, .i32⟩ : BufTy).Contents (Elt F)),
    binary main_v401 main_v402 main_v403 (minsi : (⟨S2097152, .i32⟩ : BufTy).Contents (Elt F) → (⟨S2097152, .i32⟩ : BufTy).Contents (Elt F) → (⟨S2097152, .i32⟩ : BufTy).Contents (Elt F)),
    nullary main_c_96 (constantI S_ 32 0#32),
    unary main_c_96 main_v404 (broadcastInDim S2097152 ![] bcast_S_S2097152 : (⟨S_, .i32⟩ : BufTy).Contents (Elt F) → (⟨S2097152, .i32⟩ : BufTy).Contents (Elt F)),
    binary main_v395 main_v404 main_v405 (cmpi .slt : (⟨S2097152, .i32⟩ : BufTy).Contents (Elt F) → (⟨S2097152, .i32⟩ : BufTy).Contents (Elt F) → (⟨S2097152, .i1⟩ : BufTy).Contents (Elt F)),
    nullary main_c_97 (constantI S_ 32 16#32),
    unary main_c_97 main_v406 (broadcastInDim S2097152 ![] bcast_S_S2097152 : (⟨S_, .i32⟩ : BufTy).Contents (Elt F) → (⟨S2097152, .i32⟩ : BufTy).Contents (Elt F)),
    binary main_v395 main_v406 main_v407 (addi : (⟨S2097152, .i32⟩ : BufTy).Contents (Elt F) → (⟨S2097152, .i32⟩ : BufTy).Contents (Elt F) → (⟨S2097152, .i32⟩ : BufTy).Contents (Elt F)),
    ternary main_v405 main_v407 main_v395 main_v408 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_98 (constantI S_ 32 0#32),
    unary main_c_98 main_v409 (broadcastInDim S2097152 ![] bcast_S_S2097152 : (⟨S_, .i32⟩ : BufTy).Contents (Elt F) → (⟨S2097152, .i32⟩ : BufTy).Contents (Elt F)),
    binary main_v394 main_v409 main_v410 (cmpi .slt : (⟨S2097152, .i32⟩ : BufTy).Contents (Elt F) → (⟨S2097152, .i32⟩ : BufTy).Contents (Elt F) → (⟨S2097152, .i1⟩ : BufTy).Contents (Elt F)),
    nullary main_c_99 (constantI S_ 32 16#32),
    unary main_c_99 main_v411 (broadcastInDim S2097152 ![] bcast_S_S2097152 : (⟨S_, .i32⟩ : BufTy).Contents (Elt F) → (⟨S2097152, .i32⟩ : BufTy).Contents (Elt F)),
    binary main_v394 main_v411 main_v412 (addi : (⟨S2097152, .i32⟩ : BufTy).Contents (Elt F) → (⟨S2097152, .i32⟩ : BufTy).Contents (Elt F) → (⟨S2097152, .i32⟩ : BufTy).Contents (Elt F)),
    ternary main_v410 main_v412 main_v394 main_v413 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v408 main_v414 (broadcastInDim S2097152x1 ![0] bcast_S2097152_S2097152x1_0 : (⟨S2097152, .i32⟩ : BufTy).Contents (Elt F) → (⟨S2097152x1, .i32⟩ : BufTy).Contents (Elt F)),
    unary main_v413 main_v415 (broadcastInDim S2097152x1 ![0] bcast_S2097152_S2097152x1_0 : (⟨S2097152, .i32⟩ : BufTy).Contents (Elt F) → (⟨S2097152x1, .i32⟩ : BufTy).Contents (Elt F)) ]

abbrev ops38_W : List (Ref sig .tc) := [main_c_95, main_v402, main_v403, main_c_96, main_v404, main_v405, main_c_97, main_v406, main_v407, main_v408, main_c_98, main_v409, main_v410, main_c_99, main_v411, main_v412, main_v413, main_v414, main_v415]

theorem s38 : Stretch (ops38 (F := F)) ops38_W := by stretch

theorem c38_main_v403 (W : Valuation τ sig (Elt F)) (x0 : (⟨S2097152x2, .f32⟩ : BufTy).Contents (Elt F))
    (h_main_v401 : W (no_index (Proc.devRef .tc main_v401)) = ReadP.val_main_v401 (F := F) x0) :
    after ops38 W (Proc.devRef .tc main_v403) = ReadP.val_main_v403 (F := F) x0 := by
  simp only [ops38]
  after_results_simp
  simp only [h_main_v401]
  rfl

theorem c38_main_v414 (W : Valuation τ sig (Elt F)) (x0 : (⟨S2097152x2, .f32⟩ : BufTy).Contents (Elt F))
    (h_main_v395 : W (no_index (Proc.devRef .tc main_v395)) = ReadP.val_main_v395 (F := F) x0) :
    after ops38 W (Proc.devRef .tc main_v414) = ReadP.val_main_v414 (F := F) x0 := by
  simp only [ops38]
  after_results_simp
  simp only [h_main_v395]
  rfl

theorem c38_main_v415 (W : Valuation τ sig (Elt F)) (x0 : (⟨S2097152x2, .f32⟩ : BufTy).Contents (Elt F))
    (h_main_v394 : W (no_index (Proc.devRef .tc main_v394)) = ReadP.val_main_v394 (F := F) x0) :
    after ops38 W (Proc.devRef .tc main_v415) = ReadP.val_main_v415 (F := F) x0 := by
  simp only [ops38]
  after_results_simp
  simp only [h_main_v394]
  rfl

end Cert.ReferenceIdeal.RunH

end
-- ==== Proof.RefRun39.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops39 : List (HloOp τ sig (Elt F)) :=
  [ binary main_v414 main_v415 main_v416 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops39_W : List (Ref sig .tc) := [main_v416]

theorem s39 : Stretch (ops39 (F := F)) ops39_W := by stretch

theorem c39_main_v416 (W : Valuation τ sig (Elt F)) (x0 : (⟨S2097152x2, .f32⟩ : BufTy).Contents (Elt F))
    (h_main_v415 : W (Proc.devRef .tc main_v415) = ReadP.val_main_v415 (F := F) x0)
    (h_main_v414 : W (Proc.devRef .tc main_v414) = ReadP.val_main_v414 (F := F) x0) :
    after ops39 W (Proc.devRef .tc main_v416) = ReadP.val_main_v416 (F := F) x0 := by
  simp only [ops39, after_cons, after_nil]
  rw [binary_result]
  rw [h_main_v415, h_main_v414]
  rfl

end Cert.ReferenceIdeal.RunH

end
-- ==== Proof.RefRun40.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops40 : List (HloOp τ sig (Elt F)) :=
  [ binary main_v378 main_v416 main_v417 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_100 (constantI S_ 32 0#32),
    unary main_c_100 main_v418 (broadcastInDim S2097152 ![] bcast_S_S2097152 : (⟨S_, .i32⟩ : BufTy).Contents (Elt F) → (⟨S2097152, .i32⟩ : BufTy).Contents (Elt F)),
    binary main_v395 main_v418 main_v419 (cmpi .slt : (⟨S2097152, .i32⟩ : BufTy).Contents (Elt F) → (⟨S2097152, .i32⟩ : BufTy).Contents (Elt F) → (⟨S2097152, .i1⟩ : BufTy).Contents (Elt F)),
    nullary main_c_101 (constantI S_ 32 16#32),
    unary main_c_101 main_v420 (broadcastInDim S2097152 ![] bcast_S_S2097152 : (⟨S_, .i32⟩ : BufTy).Contents (Elt F) → (⟨S2097152, .i32⟩ : BufTy).Contents (Elt F)),
    binary main_v395 main_v420 main_v421 (addi : (⟨S2097152, .i32⟩ : BufTy).Contents (Elt F) → (⟨S2097152, .i32⟩ : BufTy).Contents (Elt F) → (⟨S2097152, .i32⟩ : BufTy).Contents (Elt F)),
    ternary main_v419 main_v421 main_v395 main_v422 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_102 (constantI S_ 32 0#32),
    unary main_c_102 main_v423 (broadcastInDim S2097152 ![] bcast_S_S2097152 : (⟨S_, .i32⟩ : BufTy).Contents (Elt F) → (⟨S2097152, .i32⟩ : BufTy).Contents (Elt F)),
    binary main_v399 main_v423 main_v424 (cmpi .slt : (⟨S2097152, .i32⟩ : BufTy).Contents (Elt F) → (⟨S2097152, .i32⟩ : BufTy).Contents (Elt F) → (⟨S2097152, .i1⟩ : BufTy).Contents (Elt F)),
    nullary main_c_103 (constantI S_ 32 16#32),
    unary main_c_103 main_v425 (broadcastInDim S2097152 ![] bcast_S_S2097152 : (⟨S_, .i32⟩ : BufTy).Contents (Elt F) → (⟨S2097152, .i32⟩ : BufTy).Contents (Elt F)),
    binary main_v399 main_v425 main_v426 (addi : (⟨S2097152, .i32⟩ : BufTy).Contents (Elt F) → (⟨S2097152, .i32⟩ : BufTy).Contents (Elt F) → (⟨S2097152, .i32⟩ : BufTy).Contents (Elt F)),
    ternary main_v424 main_v426 main_v399 main_v427 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v422 main_v428 (broadcastInDim S2097152x1 ![0] bcast_S2097152_S2097152x1_0 : (⟨S2097152, .i32⟩ : BufTy).Contents (Elt F) → (⟨S2097152x1, .i32⟩ : BufTy).Contents (Elt F)),
    unary main_v427 main_v429 (broadcastInDim S2097152x1 ![0] bcast_S2097152_S2097152x1_0 : (⟨S2097152, .i32⟩ : BufTy).Contents (Elt F) → (⟨S2097152x1, .i32⟩ : BufTy).Contents (Elt F)) ]

abbrev ops40_W : List (Ref sig .tc) := [main_v417, main_c_100, main_v418, main_v419, main_c_101, main_v420, main_v421, main_v422, main_c_102, main_v423, main_v424, main_c_103, main_v425, main_v426, main_v427, main_v428, main_v429]

theorem s40 : Stretch (ops40 (F := F)) ops40_W := by stretch

theorem c40_main_v417 (W : Valuation τ sig (Elt F)) (x0 : (⟨S2097152x2, .f32⟩ : BufTy).Contents (Elt F)) (x2 : (⟨S2x6x16x16, .f32⟩ : BufTy).Contents (Elt F))
    (h_main_v416 : W (no_index (Proc.devRef .tc main_v416)) = ReadP.val_main_v416 (F := F) x0)
    (h_main_v378 : W (no_index (Proc.devRef .tc main_v378)) = ReadP.val_main_v378 (F := F) x2) :
    after ops40 W (Proc.devRef .tc main_v417) = ReadP.val_main_v417 (F := F) x0 x2 := by
  simp only [ops40]
  after_results_simp
  simp only [h_main_v416, h_main_v378]
  rfl

theorem c40_main_v428 (W : Valuation τ sig (Elt F)) (x0 : (⟨S2097152x2, .f32⟩ : BufTy).Contents (Elt F))
    (h_main_v395 : W (no_index (Proc.devRef .tc main_v395)) = ReadP.val_main_v395 (F := F) x0) :
    after ops40 W (Proc.devRef .tc main_v428) = ReadP.val_main_v428 (F := F) x0 := by
  simp only [ops40]
  after_results_simp
  simp only [h_main_v395]
  rfl

theorem c40_main_v429 (W : Valuation τ sig (Elt F)) (x0 : (⟨S2097152x2, .f32⟩ : BufTy).Contents (Elt F))
    (h_main_v399 : W (no_index (Proc.devRef .tc main_v399)) = ReadP.val_main_v399 (F := F) x0) :
    after ops40 W (Proc.devRef .tc main_v429) = ReadP.val_main_v429 (F := F) x0 := by
  simp only [ops40]
  after_results_simp
  simp only [h_main_v399]
  rfl

end Cert.ReferenceIdeal.RunH

end
-- ==== Proof.RefRun41.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops41 : List (HloOp τ sig (Elt F)) :=
  [ binary main_v428 main_v429 main_v430 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops41_W : List (Ref sig .tc) := [main_v430]

theorem s41 : Stretch (ops41 (F := F)) ops41_W := by stretch

theorem c41_main_v430 (W : Valuation τ sig (Elt F)) (x0 : (⟨S2097152x2, .f32⟩ : BufTy).Contents (Elt F))
    (h_main_v429 : W (Proc.devRef .tc main_v429) = ReadP.val_main_v429 (F := F) x0)
    (h_main_v428 : W (Proc.devRef .tc main_v428) = ReadP.val_main_v428 (F := F) x0) :
    after ops41 W (Proc.devRef .tc main_v430) = ReadP.val_main_v430 (F := F) x0 := by
  simp only [ops41, after_cons, after_nil]
  rw [binary_result]
  rw [h_main_v429, h_main_v428]
  rfl

end Cert.ReferenceIdeal.RunH

end
-- ==== Proof.RefRun42.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops42 : List (HloOp τ sig (Elt F)) :=
  [ binary main_v378 main_v430 main_v431 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_104 (constantI S_ 32 0#32),
    unary main_c_104 main_v432 (broadcastInDim S2097152 ![] bcast_S_S2097152 : (⟨S_, .i32⟩ : BufTy).Contents (Elt F) → (⟨S2097152, .i32⟩ : BufTy).Contents (Elt F)) ]

abbrev ops42_W : List (Ref sig .tc) := [main_v431, main_c_104, main_v432]

theorem s42 : Stretch (ops42 (F := F)) ops42_W := by stretch

theorem c42_main_v431 (W : Valuation τ sig (Elt F)) (x0 : (⟨S2097152x2, .f32⟩ : BufTy).Contents (Elt F)) (x2 : (⟨S2x6x16x16, .f32⟩ : BufTy).Contents (Elt F))
    (h_main_v430 : W (no_index (Proc.devRef .tc main_v430)) = ReadP.val_main_v430 (F := F) x0)
    (h_main_v378 : W (no_index (Proc.devRef .tc main_v378)) = ReadP.val_main_v378 (F := F) x2) :
    after ops42 W (Proc.devRef .tc main_v431) = ReadP.val_main_v431 (F := F) x0 x2 := by
  simp only [ops42]
  after_results_simp
  simp only [h_main_v430, h_main_v378]
  rfl

theorem c42_main_v432 (W : Valuation τ sig (Elt F))
     :
    after ops42 W (Proc.devRef .tc main_v432) = ReadP.val_main_v432 (F := F) := by
  simp only [ops42]
  after_results_simp
  skip
  rfl

end Cert.ReferenceIdeal.RunH

end
-- ==== Proof.RefRun43.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops43 : List (HloOp τ sig (Elt F)) :=
  [ binary main_v403 main_v432 main_v433 (cmpi .slt : (⟨S2097152, .i32⟩ : BufTy).Contents (Elt F) → (⟨S2097152, .i32⟩ : BufTy).Contents (Elt F) → (⟨S2097152, .i1⟩ : BufTy).Contents (Elt F)),
    nullary main_c_105 (constantI S_ 32 16#32),
    unary main_c_105 main_v434 (broadcastInDim S2097152 ![] bcast_S_S2097152 : (⟨S_, .i32⟩ : BufTy).Contents (Elt F) → (⟨S2097152, .i32⟩ : BufTy).Contents (Elt F)),
    binary main_v403 main_v434 main_v435 (addi : (⟨S2097152, .i32⟩ : BufTy).Contents (Elt F) → (⟨S2097152, .i32⟩ : BufTy).Contents (Elt F) → (⟨S2097152, .i32⟩ : BufTy).Contents (Elt F)),
    ternary main_v433 main_v435 main_v403 main_v436 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_106 (constantI S_ 32 0#32),
    unary main_c_106 main_v437 (broadcastInDim S2097152 ![] bcast_S_S2097152 : (⟨S_, .i32⟩ : BufTy).Contents (Elt F) → (⟨S2097152, .i32⟩ : BufTy).Contents (Elt F)),
    binary main_v394 main_v437 main_v438 (cmpi .slt : (⟨S2097152, .i32⟩ : BufTy).Contents (Elt F) → (⟨S2097152, .i32⟩ : BufTy).Contents (Elt F) → (⟨S2097152, .i1⟩ : BufTy).Contents (Elt F)),
    nullary main_c_107 (constantI S_ 32 16#32),
    unary main_c_107 main_v439 (broadcastInDim S2097152 ![] bcast_S_S2097152 : (⟨S_, .i32⟩ : BufTy).Contents (Elt F) → (⟨S2097152, .i32⟩ : BufTy).Contents (Elt F)),
    binary main_v394 main_v439 main_v440 (addi : (⟨S2097152, .i32⟩ : BufTy).Contents (Elt F) → (⟨S2097152, .i32⟩ : BufTy).Contents (Elt F) → (⟨S2097152, .i32⟩ : BufTy).Contents (Elt F)),
    ternary main_v438 main_v440 main_v394 main_v441 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v436 main_v442 (broadcastInDim S2097152x1 ![0] bcast_S2097152_S2097152x1_0 : (⟨S2097152, .i32⟩ : BufTy).Contents (Elt F) → (⟨S2097152x1, .i32⟩ : BufTy).Contents (Elt F)),
    unary main_v441 main_v443 (broadcastInDim S2097152x1 ![0] bcast_S2097152_S2097152x1_0 : (⟨S2097152, .i32⟩ : BufTy).Contents (Elt F) → (⟨S2097152x1, .i32⟩ : BufTy).Contents (Elt F)) ]

abbrev ops43_W : List (Ref sig .tc) := [main_v433, main_c_105, main_v434, main_v435, main_v436, main_c_106, main_v437, main_v438, main_c_107, main_v439, main_v440, main_v441, main_v442, main_v443]

theorem s43 : Stretch (ops43 (F := F)) ops43_W := by stretch

theorem c43_main_v442 (W : Valuation τ sig (Elt F)) (x0 : (⟨S2097152x2, .f32⟩ : BufTy).Contents (Elt F))
    (h_main_v403 : W (no_index (Proc.devRef .tc main_v403)) = ReadP.val_main_v403 (F := F) x0)
    (h_main_v432 : W (no_index (Proc.devRef .tc main_v432)) = ReadP.val_main_v432 (F := F)) :
    after ops43 W (Proc.devRef .tc main_v442) = ReadP.val_main_v442 (F := F) x0 := by
  simp only [ops43]
  after_results_simp
  simp only [h_main_v403, h_main_v432]
  rfl

theorem c43_main_v443 (W : Valuation τ sig (Elt F)) (x0 : (⟨S2097152x2, .f32⟩ : BufTy).Contents (Elt F))
    (h_main_v394 : W (no_index (Proc.devRef .tc main_v394)) = ReadP.val_main_v394 (F := F) x0) :
    after ops43 W (Proc.devRef .tc main_v443) = ReadP.val_main_v443 (F := F) x0 := by
  simp only [ops43]
  after_results_simp
  simp only [h_main_v394]
  rfl

end Cert.ReferenceIdeal.RunH

end
-- ==== Proof.RefRun44.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops44 : List (HloOp τ sig (Elt F)) :=
  [ binary main_v442 main_v443 main_v444 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops44_W : List (Ref sig .tc) := [main_v444]

theorem s44 : Stretch (ops44 (F := F)) ops44_W := by stretch

theorem c44_main_v444 (W : Valuation τ sig (Elt F)) (x0 : (⟨S2097152x2, .f32⟩ : BufTy).Contents (Elt F))
    (h_main_v443 : W (Proc.devRef .tc main_v443) = ReadP.val_main_v443 (F := F) x0)
    (h_main_v442 : W (Proc.devRef .tc main_v442) = ReadP.val_main_v442 (F := F) x0) :
    after ops44 W (Proc.devRef .tc main_v444) = ReadP.val_main_v444 (F := F) x0 := by
  simp only [ops44, after_cons, after_nil]
  rw [binary_result]
  rw [h_main_v443, h_main_v442]
  rfl

end Cert.ReferenceIdeal.RunH

end
-- ==== Proof.RefRun45.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops45 : List (HloOp τ sig (Elt F)) :=
  [ binary main_v378 main_v444 main_v445 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_c_108 (constantI S_ 32 0#32),
    unary main_c_108 main_v446 (broadcastInDim S2097152 ![] bcast_S_S2097152 : (⟨S_, .i32⟩ : BufTy).Contents (Elt F) → (⟨S2097152, .i32⟩ : BufTy).Contents (Elt F)),
    binary main_v403 main_v446 main_v447 (cmpi .slt : (⟨S2097152, .i32⟩ : BufTy).Contents (Elt F) → (⟨S2097152, .i32⟩ : BufTy).Contents (Elt F) → (⟨S2097152, .i1⟩ : BufTy).Contents (Elt F)),
    nullary main_c_109 (constantI S_ 32 16#32),
    unary main_c_109 main_v448 (broadcastInDim S2097152 ![] bcast_S_S2097152 : (⟨S_, .i32⟩ : BufTy).Contents (Elt F) → (⟨S2097152, .i32⟩ : BufTy).Contents (Elt F)),
    binary main_v403 main_v448 main_v449 (addi : (⟨S2097152, .i32⟩ : BufTy).Contents (Elt F) → (⟨S2097152, .i32⟩ : BufTy).Contents (Elt F) → (⟨S2097152, .i32⟩ : BufTy).Contents (Elt F)),
    ternary main_v447 main_v449 main_v403 main_v450 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_110 (constantI S_ 32 0#32),
    unary main_c_110 main_v451 (broadcastInDim S2097152 ![] bcast_S_S2097152 : (⟨S_, .i32⟩ : BufTy).Contents (Elt F) → (⟨S2097152, .i32⟩ : BufTy).Contents (Elt F)),
    binary main_v399 main_v451 main_v452 (cmpi .slt : (⟨S2097152, .i32⟩ : BufTy).Contents (Elt F) → (⟨S2097152, .i32⟩ : BufTy).Contents (Elt F) → (⟨S2097152, .i1⟩ : BufTy).Contents (Elt F)),
    nullary main_c_111 (constantI S_ 32 16#32),
    unary main_c_111 main_v453 (broadcastInDim S2097152 ![] bcast_S_S2097152 : (⟨S_, .i32⟩ : BufTy).Contents (Elt F) → (⟨S2097152, .i32⟩ : BufTy).Contents (Elt F)),
    binary main_v399 main_v453 main_v454 (addi : (⟨S2097152, .i32⟩ : BufTy).Contents (Elt F) → (⟨S2097152, .i32⟩ : BufTy).Contents (Elt F) → (⟨S2097152, .i32⟩ : BufTy).Contents (Elt F)),
    ternary main_v452 main_v454 main_v399 main_v455 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v450 main_v456 (broadcastInDim S2097152x1 ![0] bcast_S2097152_S2097152x1_0 : (⟨S2097152, .i32⟩ : BufTy).Contents (Elt F) → (⟨S2097152x1, .i32⟩ : BufTy).Contents (Elt F)),
    unary main_v455 main_v457 (broadcastInDim S2097152x1 ![0] bcast_S2097152_S2097152x1_0 : (⟨S2097152, .i32⟩ : BufTy).Contents (Elt F) → (⟨S2097152x1, .i32⟩ : BufTy).Contents (Elt F)) ]

abbrev ops45_W : List (Ref sig .tc) := [main_v445, main_c_108, main_v446, main_v447, main_c_109, main_v448, main_v449, main_v450, main_c_110, main_v451, main_v452, main_c_111, main_v453, main_v454, main_v455, main_v456, main_v457]

theorem s45 : Stretch (ops45 (F := F)) ops45_W := by stretch

theorem c45_main_v445 (W : Valuation τ sig (Elt F)) (x0 : (⟨S2097152x2, .f32⟩ : BufTy).Contents (Elt F)) (x2 : (⟨S2x6x16x16, .f32⟩ : BufTy).Contents (Elt F))
    (h_main_v444 : W (no_index (Proc.devRef .tc main_v444)) = ReadP.val_main_v444 (F := F) x0)
    (h_main_v378 : W (no_index (Proc.devRef .tc main_v378)) = ReadP.val_main_v378 (F := F) x2) :
    after ops45 W (Proc.devRef .tc main_v445) = ReadP.val_main_v445 (F := F) x0 x2 := by
  simp only [ops45]
  after_results_simp
  simp only [h_main_v444, h_main_v378]
  rfl

theorem c45_main_v456 (W : Valuation τ sig (Elt F)) (x0 : (⟨S2097152x2, .f32⟩ : BufTy).Contents (Elt F))
    (h_main_v403 : W (no_index (Proc.devRef .tc main_v403)) = ReadP.val_main_v403 (F := F) x0) :
    after ops45 W (Proc.devRef .tc main_v456) = ReadP.val_main_v456 (F := F) x0 := by
  simp only [ops45]
  after_results_simp
  simp only [h_main_v403]
  rfl

theorem c45_main_v457 (W : Valuation τ sig (Elt F)) (x0 : (⟨S2097152x2, .f32⟩ : BufTy).Contents (Elt F))
    (h_main_v399 : W (no_index (Proc.devRef .tc main_v399)) = ReadP.val_main_v399 (F := F) x0) :
    after ops45 W (Proc.devRef .tc main_v457) = ReadP.val_main_v457 (F := F) x0 := by
  simp only [ops45]
  after_results_simp
  simp only [h_main_v399]
  rfl

end Cert.ReferenceIdeal.RunH

end
-- ==== Proof.RefRun46.lean ====
import proofs.«124617_j17678085390376_1_alg».proof.Proof.RefRead
import proofs.«124617_j17678085390376_1_alg».proof.Proof.LibStretch

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops46 : List (HloOp τ sig (Elt F)) :=
  [ binary main_v456 main_v457 main_v458 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)) ]

abbrev ops46_W : List (Ref sig .tc) := [main_v458]

theorem s46 : Stretch (ops46 (F := F)) ops46_W := by stretch

theorem c46_main_v458 (W : Valuation τ sig (Elt F)) (x0 : (⟨S2097152x2, .f32⟩ : BufTy).Contents (Elt F))
    (h_main_v457 : W (Proc.devRef .tc main_v457) = ReadP.val_main_v457 (F := F) x0)
    (h_main_v456 : W (Proc.devRef .tc main_v456) = ReadP.val_main_v456 (F := F) x0) :
    after ops46 W (Proc.devRef .tc main_v458) = ReadP.val_main_v458 (F := F) x0 := by
  simp only [ops46, after_cons, after_nil]
  rw [binary_result]
  rw [h_main_v457, h_main_v456]
  rfl

end Cert.ReferenceIdeal.RunH

end
-- ==== Proof.RefRun47.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops47 : List (HloOp τ sig (Elt F)) :=
  [ binary main_v378 main_v458 main_v459 ((fun x i => Host.gather gather_S6x16x16_S2097152x2_S6x2097152_0_12_n_n_12_1_611 x i) : (⟨S6x16x16, .f32⟩ : BufTy).Contents (Elt F) → (⟨S2097152x2, .i32⟩ : BufTy).Contents (Elt F) → (⟨S6x2097152, .f32⟩ : BufTy).Contents (Elt F)),
    nullary main_cst_112 (constant S_ .f32 0x3F800000#32),
    unary main_cst_112 main_v460 (broadcastInDim S2097152 ![] bcast_S_S2097152 : (⟨S_, .f32⟩ : BufTy).Contents (Elt F) → (⟨S2097152, .f32⟩ : BufTy).Contents (Elt F)),
    binary main_v460 main_v392 main_v461 (subf : (⟨S2097152, .f32⟩ : BufTy).Contents (Elt F) → (⟨S2097152, .f32⟩ : BufTy).Contents (Elt F) → (⟨S2097152, .f32⟩ : BufTy).Contents (Elt F)),
    unary main_v461 main_v462 (broadcastInDim S1x2097152 ![1] bcast_S2097152_S1x2097152_1 : (⟨S2097152, .f32⟩ : BufTy).Contents (Elt F) → (⟨S1x2097152, .f32⟩ : BufTy).Contents (Elt F)),
    unary main_v462 main_v463 (broadcastInDim S6x2097152 ![0, 1] bcast_S1x2097152_S6x2097152_0_1 : (⟨S1x2097152, .f32⟩ : BufTy).Contents (Elt F) → (⟨S6x2097152, .f32⟩ : BufTy).Contents (Elt F)),
    binary main_v417 main_v463 main_v464 (mulf : (⟨S6x2097152, .f32⟩ : BufTy).Contents (Elt F) → (⟨S6x2097152, .f32⟩ : BufTy).Contents (Elt F) → (⟨S6x2097152, .f32⟩ : BufTy).Contents (Elt F)),
    unary main_v392 main_v465 (broadcastInDim S1x2097152 ![1] bcast_S2097152_S1x2097152_1 : (⟨S2097152, .f32⟩ : BufTy).Contents (Elt F) → (⟨S1x2097152, .f32⟩ : BufTy).Contents (Elt F)),
    unary main_v465 main_v466 (broadcastInDim S6x2097152 ![0, 1] bcast_S1x2097152_S6x2097152_0_1 : (⟨S1x2097152, .f32⟩ : BufTy).Contents (Elt F) → (⟨S6x2097152, .f32⟩ : BufTy).Contents (Elt F)),
    binary main_v431 main_v466 main_v467 (mulf : (⟨S6x2097152, .f32⟩ : BufTy).Contents (Elt F) → (⟨S6x2097152, .f32⟩ : BufTy).Contents (Elt F) → (⟨S6x2097152, .f32⟩ : BufTy).Contents (Elt F)),
    binary main_v464 main_v467 main_v468 (addf : (⟨S6x2097152, .f32⟩ : BufTy).Contents (Elt F) → (⟨S6x2097152, .f32⟩ : BufTy).Contents (Elt F) → (⟨S6x2097152, .f32⟩ : BufTy).Contents (Elt F)),
    nullary main_cst_113 (constant S_ .f32 0x3F800000#32),
    unary main_cst_113 main_v469 (broadcastInDim S2097152 ![] bcast_S_S2097152 : (⟨S_, .f32⟩ : BufTy).Contents (Elt F) → (⟨S2097152, .f32⟩ : BufTy).Contents (Elt F)),
    binary main_v469 main_v392 main_v470 (subf : (⟨S2097152, .f32⟩ : BufTy).Contents (Elt F) → (⟨S2097152, .f32⟩ : BufTy).Contents (Elt F) → (⟨S2097152, .f32⟩ : BufTy).Contents (Elt F)),
    unary main_v470 main_v471 (broadcastInDim S1x2097152 ![1] bcast_S2097152_S1x2097152_1 : (⟨S2097152, .f32⟩ : BufTy).Contents (Elt F) → (⟨S1x2097152, .f32⟩ : BufTy).Contents (Elt F)),
    unary main_v471 main_v472 (broadcastInDim S6x2097152 ![0, 1] bcast_S1x2097152_S6x2097152_0_1 : (⟨S1x2097152, .f32⟩ : BufTy).Contents (Elt F) → (⟨S6x2097152, .f32⟩ : BufTy).Contents (Elt F)),
    binary main_v445 main_v472 main_v473 (mulf : (⟨S6x2097152, .f32⟩ : BufTy).Contents (Elt F) → (⟨S6x2097152, .f32⟩ : BufTy).Contents (Elt F) → (⟨S6x2097152, .f32⟩ : BufTy).Contents (Elt F)),
    unary main_v392 main_v474 (broadcastInDim S1x2097152 ![1] bcast_S2097152_S1x2097152_1 : (⟨S2097152, .f32⟩ : BufTy).Contents (Elt F) → (⟨S1x2097152, .f32⟩ : BufTy).Contents (Elt F)),
    unary main_v474 main_v475 (broadcastInDim S6x2097152 ![0, 1] bcast_S1x2097152_S6x2097152_0_1 : (⟨S1x2097152, .f32⟩ : BufTy).Contents (Elt F) → (⟨S6x2097152, .f32⟩ : BufTy).Contents (Elt F)),
    binary main_v459 main_v475 main_v476 (mulf : (⟨S6x2097152, .f32⟩ : BufTy).Contents (Elt F) → (⟨S6x2097152, .f32⟩ : BufTy).Contents (Elt F) → (⟨S6x2097152, .f32⟩ : BufTy).Contents (Elt F)),
    binary main_v473 main_v476 main_v477 (addf : (⟨S6x2097152, .f32⟩ : BufTy).Contents (Elt F) → (⟨S6x2097152, .f32⟩ : BufTy).Contents (Elt F) → (⟨S6x2097152, .f32⟩ : BufTy).Contents (Elt F)),
    nullary main_cst_114 (constant S_ .f32 0x3F800000#32),
    unary main_cst_114 main_v478 (broadcastInDim S2097152 ![] bcast_S_S2097152 : (⟨S_, .f32⟩ : BufTy).Contents (Elt F) → (⟨S2097152, .f32⟩ : BufTy).Contents (Elt F)),
    binary main_v478 main_v393 main_v479 (subf : (⟨S2097152, .f32⟩ : BufTy).Contents (Elt F) → (⟨S2097152, .f32⟩ : BufTy).Contents (Elt F) → (⟨S2097152, .f32⟩ : BufTy).Contents (Elt F)),
    unary main_v479 main_v480 (broadcastInDim S1x2097152 ![1] bcast_S2097152_S1x2097152_1 : (⟨S2097152, .f32⟩ : BufTy).Contents (Elt F) → (⟨S1x2097152, .f32⟩ : BufTy).Contents (Elt F)),
    unary main_v480 main_v481 (broadcastInDim S6x2097152 ![0, 1] bcast_S1x2097152_S6x2097152_0_1 : (⟨S1x2097152, .f32⟩ : BufTy).Contents (Elt F) → (⟨S6x2097152, .f32⟩ : BufTy).Contents (Elt F)),
    binary main_v468 main_v481 main_v482 (mulf : (⟨S6x2097152, .f32⟩ : BufTy).Contents (Elt F) → (⟨S6x2097152, .f32⟩ : BufTy).Contents (Elt F) → (⟨S6x2097152, .f32⟩ : BufTy).Contents (Elt F)) ]

abbrev ops47_W : List (Ref sig .tc) := [main_v459, main_cst_112, main_v460, main_v461, main_v462, main_v463, main_v464, main_v465, main_v466, main_v467, main_v468, main_cst_113, main_v469, main_v470, main_v471, main_v472, main_v473, main_v474, main_v475, main_v476, main_v477, main_cst_114, main_v478, main_v479, main_v480, main_v481, main_v482]

theorem s47 : Stretch (ops47 (F := F)) ops47_W := by stretch

theorem c47_main_v477 (W : Valuation τ sig (Elt F)) (x0 : (⟨S2097152x2, .f32⟩ : BufTy).Contents (Elt F)) (x2 : (⟨S2x6x16x16, .f32⟩ : BufTy).Contents (Elt F))
    (h_main_v392 : W (no_index (Proc.devRef .tc main_v392)) = ReadP.val_main_v392 (F := F) x0)
    (h_main_v458 : W (no_index (Proc.devRef .tc main_v458)) = ReadP.val_main_v458 (F := F) x0)
    (h_main_v378 : W (no_index (Proc.devRef .tc main_v378)) = ReadP.val_main_v378 (F := F) x2)
    (h_main_v445 : W (no_index (Proc.devRef .tc main_v445)) = ReadP.val_main_v445 (F := F) x0 x2) :
    after ops47 W (Proc.devRef .tc main_v477) = ReadP.val_main_v477 (F := F) x0 x2 := by
  simp only [ops47]
  after_results_simp
  simp only [h_main_v392, h_main_v458, h_main_v378, h_main_v445]
  rfl

theorem c47_main_v482 (W : Valuation τ sig (Elt F)) (x0 : (⟨S2097152x2, .f32⟩ : BufTy).Contents (Elt F)) (x2 : (⟨S2x6x16x16, .f32⟩ : BufTy).Contents (Elt F))
    (h_main_v393 : W (no_index (Proc.devRef .tc main_v393)) = ReadP.val_main_v393 (F := F) x0)
    (h_main_v392 : W (no_index (Proc.devRef .tc main_v392)) = ReadP.val_main_v392 (F := F) x0)
    (h_main_v431 : W (no_index (Proc.devRef .tc main_v431)) = ReadP.val_main_v431 (F := F) x0 x2)
    (h_main_v417 : W (no_index (Proc.devRef .tc main_v417)) = ReadP.val_main_v417 (F := F) x0 x2) :
    after ops47 W (Proc.devRef .tc main_v482) = ReadP.val_main_v482 (F := F) x0 x2 := by
  simp only [ops47]
  after_results_simp
  simp only [h_main_v393, h_main_v392, h_main_v431, h_main_v417]
  rfl

end Cert.ReferenceIdeal.RunH

end
-- ==== Proof.RefRun48.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops48 : List (HloOp τ sig (Elt F)) :=
  [ unary main_v393 main_v483 (broadcastInDim S1x2097152 ![1] bcast_S2097152_S1x2097152_1 : (⟨S2097152, .f32⟩ : BufTy).Contents (Elt F) → (⟨S1x2097152, .f32⟩ : BufTy).Contents (Elt F)),
    unary main_v483 main_v484 (broadcastInDim S6x2097152 ![0, 1] bcast_S1x2097152_S6x2097152_0_1 : (⟨S1x2097152, .f32⟩ : BufTy).Contents (Elt F) → (⟨S6x2097152, .f32⟩ : BufTy).Contents (Elt F)),
    binary main_v477 main_v484 main_v485 (mulf : (⟨S6x2097152, .f32⟩ : BufTy).Contents (Elt F) → (⟨S6x2097152, .f32⟩ : BufTy).Contents (Elt F) → (⟨S6x2097152, .f32⟩ : BufTy).Contents (Elt F)),
    binary main_v482 main_v485 main_v486 (addf : (⟨S6x2097152, .f32⟩ : BufTy).Contents (Elt F) → (⟨S6x2097152, .f32⟩ : BufTy).Contents (Elt F) → (⟨S6x2097152, .f32⟩ : BufTy).Contents (Elt F)),
    unary main_v486 main_v487 ((transpose S2097152x6 [1, 0] · transposes_S6x2097152_S2097152x6_1_0) : (⟨S6x2097152, .f32⟩ : BufTy).Contents (Elt F) → (⟨S2097152x6, .f32⟩ : BufTy).Contents (Elt F)),
    unary main_arg9 main_v488 ((extractStridedSlice S1x6 ![1, 0] · slices_S2x6_S1x6_1_0) : (⟨S2x6, .f32⟩ : BufTy).Contents (Elt F) → (⟨S1x6, .f32⟩ : BufTy).Contents (Elt F)),
    reshape main_v488 main_v489 rfl shapeCasts_S1x6_S6,
    unary main_arg10 main_v490 ((extractStridedSlice S1x6 ![1, 0] · slices_S2x6_S1x6_1_0) : (⟨S2x6, .f32⟩ : BufTy).Contents (Elt F) → (⟨S1x6, .f32⟩ : BufTy).Contents (Elt F)),
    reshape main_v490 main_v491 rfl shapeCasts_S1x6_S6,
    nullary main_cst_115 (constant S_ .f32 0x00000000#32),
    binary main_v265 main_cst_115 main_v492 ((fun x v => Host.reduceAdd x v reducesTo_S2097152x6_S2097152_d1 h_S_) : (⟨S2097152x6, .f32⟩ : BufTy).Contents (Elt F) → (⟨S_, .f32⟩ : BufTy).Contents (Elt F) → (⟨S2097152, .f32⟩ : BufTy).Contents (Elt F)),
    unary main_v492 main_v493 (broadcastInDim S2097152x1 ![0] bcast_S2097152_S2097152x1_0 : (⟨S2097152, .f32⟩ : BufTy).Contents (Elt F) → (⟨S2097152x1, .f32⟩ : BufTy).Contents (Elt F)),
    nullary main_cst_116 (constant S_ .f32 0x40C00000#32),
    unary main_cst_116 main_v494 (broadcastInDim S2097152x1 ![] bcast_S_S2097152x1 : (⟨S_, .f32⟩ : BufTy).Contents (Elt F) → (⟨S2097152x1, .f32⟩ : BufTy).Contents (Elt F)),
    binary main_v493 main_v494 main_v495 (Host.divf : (⟨S2097152x1, .f32⟩ : BufTy).Contents (Elt F) → (⟨S2097152x1, .f32⟩ : BufTy).Contents (Elt F) → (⟨S2097152x1, .f32⟩ : BufTy).Contents (Elt F)),
    unary main_v495 main_v496 (broadcastInDim S2097152x6 ![0, 1] bcast_S2097152x1_S2097152x6_0_1 : (⟨S2097152x1, .f32⟩ : BufTy).Contents (Elt F) → (⟨S2097152x6, .f32⟩ : BufTy).Contents (Elt F)),
    binary main_v265 main_v496 main_v497 (subf : (⟨S2097152x6, .f32⟩ : BufTy).Contents (Elt F) → (⟨S2097152x6, .f32⟩ : BufTy).Contents (Elt F) → (⟨S2097152x6, .f32⟩ : BufTy).Contents (Elt F)),
    binary main_v497 main_v497 main_v498 (mulf : (⟨S2097152x6, .f32⟩ : BufTy).Contents (Elt F) → (⟨S2097152x6, .f32⟩ : BufTy).Contents (Elt F) → (⟨S2097152x6, .f32⟩ : BufTy).Contents (Elt F)),
    nullary main_cst_117 (constant S_ .f32 0x00000000#32),
    binary main_v498 main_cst_117 main_v499 ((fun x v => Host.reduceAdd x v reducesTo_S2097152x6_S2097152_d1 h_S_) : (⟨S2097152x6, .f32⟩ : BufTy).Contents (Elt F) → (⟨S_, .f32⟩ : BufTy).Contents (Elt F) → (⟨S2097152, .f32⟩ : BufTy).Contents (Elt F)),
    unary main_v499 main_v500 (broadcastInDim S2097152x1 ![0] bcast_S2097152_S2097152x1_0 : (⟨S2097152, .f32⟩ : BufTy).Contents (Elt F) → (⟨S2097152x1, .f32⟩ : BufTy).Contents (Elt F)),
    nullary main_cst_118 (constant S_ .f32 0x40C00000#32) ]

abbrev ops48_W : List (Ref sig .tc) := [main_v483, main_v484, main_v485, main_v486, main_v487, main_v488, main_v489, main_v490, main_v491, main_cst_115, main_v492, main_v493, main_cst_116, main_v494, main_v495, main_v496, main_v497, main_v498, main_cst_117, main_v499, main_v500, main_cst_118]

theorem s48 : Stretch (ops48 (F := F)) ops48_W := by stretch

theorem c48_main_v487 (W : Valuation τ sig (Elt F)) (x0 : (⟨S2097152x2, .f32⟩ : BufTy).Contents (Elt F)) (x2 : (⟨S2x6x16x16, .f32⟩ : BufTy).Contents (Elt F))
    (h_main_v393 : W (no_index (Proc.devRef .tc main_v393)) = ReadP.val_main_v393 (F := F) x0)
    (h_main_v477 : W (no_index (Proc.devRef .tc main_v477)) = ReadP.val_main_v477 (F := F) x0 x2)
    (h_main_v482 : W (no_index (Proc.devRef .tc main_v482)) = ReadP.val_main_v482 (F := F) x0 x2) :
    after ops48 W (Proc.devRef .tc main_v487) = ReadP.val_main_v487 (F := F) x0 x2 := by
  simp only [ops48]
  after_results_simp
  simp only [h_main_v393, h_main_v477, h_main_v482]
  rfl

theorem c48_main_v489 (W : Valuation τ sig (Elt F)) (x9 : (⟨S2x6, .f32⟩ : BufTy).Contents (Elt F))
    (h_main_arg9 : W (no_index (Proc.devRef .tc main_arg9)) = x9) :
    after ops48 W (Proc.devRef .tc main_v489) = ReadP.val_main_v489 (F := F) x9 := by
  simp only [ops48]
  after_results_simp
  simp only [h_main_arg9]
  rfl

theorem c48_main_v491 (W : Valuation τ sig (Elt F)) (x10 : (⟨S2x6, .f32⟩ : BufTy).Contents (Elt F))
    (h_main_arg10 : W (no_index (Proc.devRef .tc main_arg10)) = x10) :
    after ops48 W (Proc.devRef .tc main_v491) = ReadP.val_main_v491 (F := F) x10 := by
  simp only [ops48]
  after_results_simp
  simp only [h_main_arg10]
  rfl

theorem c48_main_v495 (W : Valuation τ sig (Elt F)) (x0 : (⟨S2097152x2, .f32⟩ : BufTy).Contents (Elt F)) (x1 : (⟨S2x6x16x16, .f32⟩ : BufTy).Contents (Elt F)) (x2 : (⟨S2x6x16x16, .f32⟩ : BufTy).Contents (Elt F)) (x3 : (⟨S6x2, .f32⟩ : BufTy).Contents (Elt F)) (x4 : (⟨S6, .f32⟩ : BufTy).Contents (Elt F)) (x5 : (⟨S1x6x6, .f32⟩ : BufTy).Contents (Elt F)) (x6 : (⟨S1x6, .f32⟩ : BufTy).Contents (Elt F)) (x9 : (⟨S2x6, .f32⟩ : BufTy).Contents (Elt F)) (x10 : (⟨S2x6, .f32⟩ : BufTy).Contents (Elt F))
    (h_main_v265 : W (no_index (Proc.devRef .tc main_v265)) = ReadP.val_main_v265 (F := F) x0 x1 x2 x3 x4 x5 x6 x9 x10) :
    after ops48 W (Proc.devRef .tc main_v495) = ReadP.val_main_v495 (F := F) x0 x1 x2 x3 x4 x5 x6 x9 x10 := by
  simp only [ops48]
  after_results_simp
  simp only [h_main_v265]
  rfl

theorem c48_main_v500 (W : Valuation τ sig (Elt F)) (x0 : (⟨S2097152x2, .f32⟩ : BufTy).Contents (Elt F)) (x1 : (⟨S2x6x16x16, .f32⟩ : BufTy).Contents (Elt F)) (x2 : (⟨S2x6x16x16, .f32⟩ : BufTy).Contents (Elt F)) (x3 : (⟨S6x2, .f32⟩ : BufTy).Contents (Elt F)) (x4 : (⟨S6, .f32⟩ : BufTy).Contents (Elt F)) (x5 : (⟨S1x6x6, .f32⟩ : BufTy).Contents (Elt F)) (x6 : (⟨S1x6, .f32⟩ : BufTy).Contents (Elt F)) (x9 : (⟨S2x6, .f32⟩ : BufTy).Contents (Elt F)) (x10 : (⟨S2x6, .f32⟩ : BufTy).Contents (Elt F))
    (h_main_v265 : W (no_index (Proc.devRef .tc main_v265)) = ReadP.val_main_v265 (F := F) x0 x1 x2 x3 x4 x5 x6 x9 x10) :
    after ops48 W (Proc.devRef .tc main_v500) = ReadP.val_main_v500 (F := F) x0 x1 x2 x3 x4 x5 x6 x9 x10 := by
  simp only [ops48]
  after_results_simp
  simp only [h_main_v265]
  rfl

theorem c48_main_cst_118 (W : Valuation τ sig (Elt F))
     :
    after ops48 W (Proc.devRef .tc main_cst_118) = ReadP.val_main_cst_118 (F := F) := by
  simp only [ops48]
  after_results_simp
  skip
  rfl

end Cert.ReferenceIdeal.RunH

end
-- ==== Proof.RefRun49.lean ====
import proofs.«124617_j17678085390376_1_alg».proof.Proof.RefRead
import proofs.«124617_j17678085390376_1_alg».proof.Proof.LibStretch

set_option maxHeartbeats 4000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops49 : List (HloOp τ sig (Elt F)) :=
  [ unary main_cst_118 main_v501 (broadcastInDim S2097152x1 ![] bcast_S_S2097152x1 : (⟨S_, .f32⟩ : BufTy).Contents (Elt F) → (⟨S2097152x1, .f32⟩ : BufTy).Contents (Elt F)),
    binary main_v500 main_v501 main_v502 (Host.divf : (⟨S2097152x1, .f32⟩ : BufTy).Contents (Elt F) → (⟨S2097152x1, .f32⟩ : BufTy).Contents (Elt F) → (⟨S2097152x1, .f32⟩ : BufTy).Contents (Elt F)),
    unary main_v495 main_v503 (broadcastInDim S2097152x6 ![0, 1] bcast_S2097152x1_S2097152x6_0_1 : (⟨S2097152x1, .f32⟩ : BufTy).Contents (Elt F) → (⟨S2097152x6, .f32⟩ : BufTy).Contents (Elt F)),
    binary main_v265 main_v503 main_v504 (subf : (⟨S2097152x6, .f32⟩ : BufTy).Contents (Elt F) → (⟨S2097152x6, .f32⟩ : BufTy).Contents (Elt F) → (⟨S2097152x6, .f32⟩ : BufTy).Contents (Elt F)),
    nullary main_cst_119 (constant S_ .f32 0x3727C5AC#32),
    unary main_cst_119 main_v505 (broadcastInDim S2097152x1 ![] bcast_S_S2097152x1 : (⟨S_, .f32⟩ : BufTy).Contents (Elt F) → (⟨S2097152x1, .f32⟩ : BufTy).Contents (Elt F)),
    binary main_v502 main_v505 main_v506 (addf : (⟨S2097152x1, .f32⟩ : BufTy).Contents (Elt F) → (⟨S2097152x1, .f32⟩ : BufTy).Contents (Elt F) → (⟨S2097152x1, .f32⟩ : BufTy).Contents (Elt F)),
    unary main_v506 main_v507 (Host.rsqrt : (⟨S2097152x1, .f32⟩ : BufTy).Contents (Elt F) → (⟨S2097152x1, .f32⟩ : BufTy).Contents (Elt F)),
    unary main_v507 main_v508 (broadcastInDim S2097152x6 ![0, 1] bcast_S2097152x1_S2097152x6_0_1 : (⟨S2097152x1, .f32⟩ : BufTy).Contents (Elt F) → (⟨S2097152x6, .f32⟩ : BufTy).Contents (Elt F)),
    binary main_v504 main_v508 main_v509 (mulf : (⟨S2097152x6, .f32⟩ : BufTy).Contents (Elt F) → (⟨S2097152x6, .f32⟩ : BufTy).Contents (Elt F) → (⟨S2097152x6, .f32⟩ : BufTy).Contents (Elt F)),
    unary main_v489 main_v510 (broadcastInDim S1x6 ![1] bcast_S6_S1x6_1 : (⟨S6, .f32⟩ : BufTy).Contents (Elt F) → (⟨S1x6, .f32⟩ : BufTy).Contents (Elt F)),
    unary main_v510 main_v511 (broadcastInDim S2097152x6 ![0, 1] bcast_S1x6_S2097152x6_0_1 : (⟨S1x6, .f32⟩ : BufTy).Contents (Elt F) → (⟨S2097152x6, .f32⟩ : BufTy).Contents (Elt F)),
    binary main_v509 main_v511 main_v512 (mulf : (⟨S2097152x6, .f32⟩ : BufTy).Contents (Elt F) → (⟨S2097152x6, .f32⟩ : BufTy).Contents (Elt F) → (⟨S2097152x6, .f32⟩ : BufTy).Contents (Elt F)),
    unary main_v491 main_v513 (broadcastInDim S1x6 ![1] bcast_S6_S1x6_1 : (⟨S6, .f32⟩ : BufTy).Contents (Elt F) → (⟨S1x6, .f32⟩ : BufTy).Contents (Elt F)),
    unary main_v513 main_v514 (broadcastInDim S2097152x6 ![0, 1] bcast_S1x6_S2097152x6_0_1 : (⟨S1x6, .f32⟩ : BufTy).Contents (Elt F) → (⟨S2097152x6, .f32⟩ : BufTy).Contents (Elt F)),
    binary main_v512 main_v514 main_v515 (addf : (⟨S2097152x6, .f32⟩ : BufTy).Contents (Elt F) → (⟨S2097152x6, .f32⟩ : BufTy).Contents (Elt F) → (⟨S2097152x6, .f32⟩ : BufTy).Contents (Elt F)),
    binary main_v376 main_v515 main_v516 (mulf : (⟨S2097152x6, .f32⟩ : BufTy).Contents (Elt F) → (⟨S2097152x6, .f32⟩ : BufTy).Contents (Elt F) → (⟨S2097152x6, .f32⟩ : BufTy).Contents (Elt F)),
    binary main_v516 main_v487 main_v517 (addf : (⟨S2097152x6, .f32⟩ : BufTy).Contents (Elt F) → (⟨S2097152x6, .f32⟩ : BufTy).Contents (Elt F) → (⟨S2097152x6, .f32⟩ : BufTy).Contents (Elt F)),
    unary main_arg7 main_v518 ((transpose S6x3 [1, 0] · transposes_S3x6_S6x3_1_0) : (⟨S3x6, .f32⟩ : BufTy).Contents (Elt F) → (⟨S6x3, .f32⟩ : BufTy).Contents (Elt F)),
    binary main_v517 main_v518 main_v519 ((fun l r => Host.dotGeneral dot_S2097152x6_S6x3_S2097152x3_1_0_0_1_n_n none l r) : (⟨S2097152x6, .f32⟩ : BufTy).Contents (Elt F) → (⟨S6x3, .f32⟩ : BufTy).Contents (Elt F) → (⟨S2097152x3, .f32⟩ : BufTy).Contents (Elt F)),
    unary main_arg8 main_v520 (broadcastInDim S1x3 ![1] bcast_S3_S1x3_1 : (⟨S3, .f32⟩ : BufTy).Contents (Elt F) → (⟨S1x3, .f32⟩ : BufTy).Contents (Elt F)),
    unary main_v520 main_v521 (broadcastInDim S2097152x3 ![0, 1] bcast_S1x3_S2097152x3_0_1 : (⟨S1x3, .f32⟩ : BufTy).Contents (Elt F) → (⟨S2097152x3, .f32⟩ : BufTy).Contents (Elt F)),
    binary main_v519 main_v521 main_v522 (addf : (⟨S2097152x3, .f32⟩ : BufTy).Contents (Elt F) → (⟨S2097152x3, .f32⟩ : BufTy).Contents (Elt F) → (⟨S2097152x3, .f32⟩ : BufTy).Contents (Elt F)) ]

abbrev ops49_W : List (Ref sig .tc) := [main_v501, main_v502, main_v503, main_v504, main_cst_119, main_v505, main_v506, main_v507, main_v508, main_v509, main_v510, main_v511, main_v512, main_v513, main_v514, main_v515, main_v516, main_v517, main_v518, main_v519, main_v520, main_v521, main_v522]

theorem s49 : Stretch (ops49 (F := F)) ops49_W := by stretch

theorem c49_main_v522 (W : Valuation τ sig (Elt F)) (x0 : (⟨S2097152x2, .f32⟩ : BufTy).Contents (Elt F)) (x1 : (⟨S2x6x16x16, .f32⟩ : BufTy).Contents (Elt F)) (x2 : (⟨S2x6x16x16, .f32⟩ : BufTy).Contents (Elt F)) (x3 : (⟨S6x2, .f32⟩ : BufTy).Contents (Elt F)) (x4 : (⟨S6, .f32⟩ : BufTy).Contents (Elt F)) (x5 : (⟨S1x6x6, .f32⟩ : BufTy).Contents (Elt F)) (x6 : (⟨S1x6, .f32⟩ : BufTy).Contents (Elt F)) (x7 : (⟨S3x6, .f32⟩ : BufTy).Contents (Elt F)) (x8 : (⟨S3, .f32⟩ : BufTy).Contents (Elt F)) (x9 : (⟨S2x6, .f32⟩ : BufTy).Contents (Elt F)) (x10 : (⟨S2x6, .f32⟩ : BufTy).Contents (Elt F))
    (h_main_arg8 : W (no_index (Proc.devRef .tc main_arg8)) = x8)
    (h_main_arg7 : W (no_index (Proc.devRef .tc main_arg7)) = x7)
    (h_main_v487 : W (no_index (Proc.devRef .tc main_v487)) = ReadP.val_main_v487 (F := F) x0 x2)
    (h_main_v491 : W (no_index (Proc.devRef .tc main_v491)) = ReadP.val_main_v491 (F := F) x10)
    (h_main_v489 : W (no_index (Proc.devRef .tc main_v489)) = ReadP.val_main_v489 (F := F) x9)
    (h_main_cst_118 : W (no_index (Proc.devRef .tc main_cst_118)) = ReadP.val_main_cst_118 (F := F))
    (h_main_v500 : W (no_index (Proc.devRef .tc main_v500)) = ReadP.val_main_v500 (F := F) x0 x1 x2 x3 x4 x5 x6 x9 x10)
    (h_main_v495 : W (no_index (Proc.devRef .tc main_v495)) = ReadP.val_main_v495 (F := F) x0 x1 x2 x3 x4 x5 x6 x9 x10)
    (h_main_v265 : W (no_index (Proc.devRef .tc main_v265)) = ReadP.val_main_v265 (F := F) x0 x1 x2 x3 x4 x5 x6 x9 x10)
    (h_main_v376 : W (no_index (Proc.devRef .tc main_v376)) = ReadP.val_main_v376 (F := F) x0 x1) :
    after ops49 W (Proc.devRef .tc main_v522) = ReadP.val_main_v522 (F := F) x0 x1 x2 x3 x4 x5 x6 x7 x8 x9 x10 := by
  simp only [ops49]
  after_results_simp
  simp only [h_main_arg8, h_main_arg7, h_main_v487, h_main_v491, h_main_v489, h_main_cst_118, h_main_v500, h_main_v495, h_main_v265, h_main_v376]
  rfl

end Cert.ReferenceIdeal.RunH

end
-- ==== Proof.RefRun.lean ====
import proofs.«124617_j17678085390376_1_alg».proof.Proof.RefRun00
import proofs.«124617_j17678085390376_1_alg».proof.Proof.RefRun01
import proofs.«124617_j17678085390376_1_alg».proof.Proof.RefRun02
import proofs.«124617_j17678085390376_1_alg».proof.Proof.RefRun03
import proofs.«124617_j17678085390376_1_alg».proof.Proof.RefRun04
import proofs.«124617_j17678085390376_1_alg».proof.Proof.RefRun05
import proofs.«124617_j17678085390376_1_alg».proof.Proof.RefRun06
import proofs.«124617_j17678085390376_1_alg».proof.Proof.RefRun07
import proofs.«124617_j17678085390376_1_alg».proof.Proof.RefRun08
import proofs.«124617_j17678085390376_1_alg».proof.Proof.RefRun09
import proofs.«124617_j17678085390376_1_alg».proof.Proof.RefRun10
import proofs.«124617_j17678085390376_1_alg».proof.Proof.RefRun11
import proofs.«124617_j17678085390376_1_alg».proof.Proof.RefRun12
import proofs.«124617_j17678085390376_1_alg».proof.Proof.RefRun13
import proofs.«124617_j17678085390376_1_alg».proof.Proof.RefRun14
import proofs.«124617_j17678085390376_1_alg».proof.Proof.RefRun15
import proofs.«124617_j17678085390376_1_alg».proof.Proof.RefRun16
import proofs.«124617_j17678085390376_1_alg».proof.Proof.RefRun17
import proofs.«124617_j17678085390376_1_alg».proof.Proof.RefRun18
import proofs.«124617_j17678085390376_1_alg».proof.Proof.RefRun19
import proofs.«124617_j17678085390376_1_alg».proof.Proof.RefRun20
import proofs.«124617_j17678085390376_1_alg».proof.Proof.RefRun21
import proofs.«124617_j17678085390376_1_alg».proof.Proof.RefRun22
import proofs.«124617_j17678085390376_1_alg».proof.Proof.RefRun23
import proofs.«124617_j17678085390376_1_alg».proof.Proof.RefRun24
import proofs.«124617_j17678085390376_1_alg».proof.Proof.RefRun25
import proofs.«124617_j17678085390376_1_alg».proof.Proof.RefRun26
import proofs.«124617_j17678085390376_1_alg».proof.Proof.RefRun27
import proofs.«124617_j17678085390376_1_alg».proof.Proof.RefRun28
import proofs.«124617_j17678085390376_1_alg».proof.Proof.RefRun29
import proofs.«124617_j17678085390376_1_alg».proof.Proof.RefRun30
import proofs.«124617_j17678085390376_1_alg».proof.Proof.RefRun31
import proofs.«124617_j17678085390376_1_alg».proof.Proof.RefRun32
import proofs.«124617_j17678085390376_1_alg».proof.Proof.RefRun33
import proofs.«124617_j17678085390376_1_alg».proof.Proof.RefRun34
import proofs.«124617_j17678085390376_1_alg».proof.Proof.RefRun35
import proofs.«124617_j17678085390376_1_alg».proof.Proof.RefRun36
import proofs.«124617_j17678085390376_1_alg».proof.Proof.RefRun37
import proofs.«124617_j17678085390376_1_alg».proof.Proof.RefRun38
import proofs.«124617_j17678085390376_1_alg».proof.Proof.RefRun39
import proofs.«124617_j17678085390376_1_alg».proof.Proof.RefRun40
import proofs.«124617_j17678085390376_1_alg».proof.Proof.RefRun41
import proofs.«124617_j17678085390376_1_alg».proof.Proof.RefRun42
import proofs.«124617_j17678085390376_1_alg».proof.Proof.RefRun43
import proofs.«124617_j17678085390376_1_alg».proof.Proof.RefRun44
import proofs.«124617_j17678085390376_1_alg».proof.Proof.RefRun45
import proofs.«124617_j17678085390376_1_alg».proof.Proof.RefRun46
import proofs.«124617_j17678085390376_1_alg».proof.Proof.RefRun47
import proofs.«124617_j17678085390376_1_alg».proof.Proof.RefRun48
import proofs.«124617_j17678085390376_1_alg».proof.Proof.RefRun49

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def part0 : List (HloOp τ sig (Elt F)) := ops00 ++ (ops01 ++ (ops02 ++ ops03))
set_option maxHeartbeats 4000000 in
theorem main_part0_eq (c : Dev nD) : main_part0 (F := F) c = seq part0 := rfl
def part1 : List (HloOp τ sig (Elt F)) := ops04 ++ (ops05 ++ (ops06 ++ (ops07 ++ (ops08 ++ (ops09 ++ ops10)))))
set_option maxHeartbeats 4000000 in
theorem main_part1_eq (c : Dev nD) : main_part1 (F := F) c = seq part1 := rfl
def part2 : List (HloOp τ sig (Elt F)) := ops11 ++ ops12
set_option maxHeartbeats 4000000 in
theorem main_part2_eq (c : Dev nD) : main_part2 (F := F) c = seq part2 := rfl
def part3 : List (HloOp τ sig (Elt F)) := ops13 ++ (ops14 ++ (ops15 ++ (ops16 ++ (ops17 ++ (ops18 ++ ops19)))))
set_option maxHeartbeats 4000000 in
theorem main_part3_eq (c : Dev nD) : main_part3 (F := F) c = seq part3 := rfl
def part4 : List (HloOp τ sig (Elt F)) := ops20 ++ (ops21 ++ (ops22 ++ ops23))
set_option maxHeartbeats 4000000 in
theorem main_part4_eq (c : Dev nD) : main_part4 (F := F) c = seq part4 := rfl
def part5 : List (HloOp τ sig (Elt F)) := ops24 ++ ops25
set_option maxHeartbeats 4000000 in
theorem main_part5_eq (c : Dev nD) : main_part5 (F := F) c = seq part5 := rfl
def part6 : List (HloOp τ sig (Elt F)) := ops26 ++ (ops27 ++ (ops28 ++ (ops29 ++ (ops30 ++ (ops31 ++ ops32)))))
set_option maxHeartbeats 4000000 in
theorem main_part6_eq (c : Dev nD) : main_part6 (F := F) c = seq part6 := rfl
def part7 : List (HloOp τ sig (Elt F)) := ops33 ++ (ops34 ++ (ops35 ++ ops36))
set_option maxHeartbeats 4000000 in
theorem main_part7_eq (c : Dev nD) : main_part7 (F := F) c = seq part7 := rfl
def part8 : List (HloOp τ sig (Elt F)) := ops37 ++ (ops38 ++ (ops39 ++ (ops40 ++ (ops41 ++ ops42))))
set_option maxHeartbeats 4000000 in
theorem main_part8_eq (c : Dev nD) : main_part8 (F := F) c = seq part8 := rfl
def part9 : List (HloOp τ sig (Elt F)) := ops43 ++ (ops44 ++ (ops45 ++ (ops46 ++ ops47)))
set_option maxHeartbeats 4000000 in
theorem main_part9_eq (c : Dev nD) : main_part9 (F := F) c = seq part9 := rfl
def part10 : List (HloOp τ sig (Elt F)) := ops48 ++ ops49
set_option maxHeartbeats 4000000 in
theorem main_part10_eq (c : Dev nD) : main_part10 (F := F) c = seq part10 := rfl

/-- The stretches of @main, in order. -/
def S : List (List (HloOp τ sig (Elt F))) := [ops00, ops01, ops02, ops03, ops04, ops05, ops06, ops07, ops08, ops09, ops10, ops11, ops12, ops13, ops14, ops15, ops16, ops17, ops18, ops19, ops20, ops21, ops22, ops23, ops24, ops25, ops26, ops27, ops28, ops29, ops30, ops31, ops32, ops33, ops34, ops35, ops36, ops37, ops38, ops39, ops40, ops41, ops42, ops43, ops44, ops45, ops46, ops47, ops48, ops49]
/-- The references each stretch writes. -/
def Ws : List (List (Ref sig .tc)) := [ops00_W, ops01_W, ops02_W, ops03_W, ops04_W, ops05_W, ops06_W, ops07_W, ops08_W, ops09_W, ops10_W, ops11_W, ops12_W, ops13_W, ops14_W, ops15_W, ops16_W, ops17_W, ops18_W, ops19_W, ops20_W, ops21_W, ops22_W, ops23_W, ops24_W, ops25_W, ops26_W, ops27_W, ops28_W, ops29_W, ops30_W, ops31_W, ops32_W, ops33_W, ops34_W, ops35_W, ops36_W, ops37_W, ops38_W, ops39_W, ops40_W, ops41_W, ops42_W, ops43_W, ops44_W, ops45_W, ops46_W, ops47_W, ops48_W, ops49_W]

theorem hS : List.Forall₂ Stretch (S (F := F)) Ws :=
  .cons s00 <| .cons s01 <| .cons s02 <| .cons s03 <| .cons s04 <| .cons s05 <| .cons s06 <| .cons s07 <| .cons s08 <| .cons s09 <| .cons s10 <| .cons s11 <| .cons s12 <| .cons s13 <| .cons s14 <| .cons s15 <| .cons s16 <| .cons s17 <| .cons s18 <| .cons s19 <| .cons s20 <| .cons s21 <| .cons s22 <| .cons s23 <| .cons s24 <| .cons s25 <| .cons s26 <| .cons s27 <| .cons s28 <| .cons s29 <| .cons s30 <| .cons s31 <| .cons s32 <| .cons s33 <| .cons s34 <| .cons s35 <| .cons s36 <| .cons s37 <| .cons s38 <| .cons s39 <| .cons s40 <| .cons s41 <| .cons s42 <| .cons s43 <| .cons s44 <| .cons s45 <| .cons s46 <| .cons s47 <| .cons s48 <| .cons s49 <| .nil

theorem flat_eq : (S (F := F)).flatten = part0 ++ (part1 ++ (part2 ++ (part3 ++ (part4 ++ (part5 ++ (part6 ++ (part7 ++ (part8 ++ (part9 ++ (part10)))))))))) := by
  simp only [S, part0, part1, part2, part3, part4, part5, part6, part7, part8, part9, part10, List.flatten_cons, List.flatten_nil, List.append_nil, List.append_assoc]

theorem main_eq (c : Dev nD) : main (F := F) c = seq (S (F := F)).flatten := by
  rw [flat_eq]
  simp only [seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl

theorem scopedRefs_eq : (Finset.univ.filter fun b : Ref sig .tc => b.isScoped) = ∅ := by decide
theorem scopedSems_eq : (Finset.univ.filter fun sm : SemLoc sig => sm.isScoped .tc) = ∅ := by decide

variable (V0 : Valuation τ sig (Elt F))

/-- An argument's contents at launch. -/
abbrev arg (r : Ref sig .tc) := V0 (Proc.devRef .tc r)
/-- The contents after the first `k` stretches. -/
abbrev St (k : ℕ) := after ((S (F := F)).take k).flatten V0

theorem stp (k : ℕ) {l : List (HloOp τ sig (Elt F))} (hl : S[k]? = some l := by rfl) : St V0 (k + 1) = after l (St V0 k) :=
  Stretch.take_succ k hl V0

theorem cry (k : ℕ) {j : ℕ} {r : Ref sig .tc} {x : (Proc.devRef (τ := τ) .tc r).ty.Contents (Elt F)} (h : St V0 j (Proc.devRef .tc r) = x)
    (hjk : j ≤ k := by decide) (hr : r ∉ ((Ws.drop j).take (k - j)).flatten := by decide +kernel) : St V0 k (Proc.devRef .tc r) = x :=
  Stretch.carry hS j k V0 h hr hjk

theorem fin {r : Ref sig .tc} {x : (Proc.devRef (τ := τ) .tc r).ty.Contents (Elt F)} (h : St V0 50 (Proc.devRef .tc r) = x) :
    after (S (F := F)).flatten V0 (Proc.devRef .tc r) = x := by
  rw [← h, St, show (S (F := F)).take 50 = S from List.take_of_length_le (Nat.le_of_eq rfl)]

theorem g_main_arg0 : St V0 0 (Proc.devRef .tc main_arg0) = arg V0 main_arg0 := rfl
theorem g_main_arg1 : St V0 0 (Proc.devRef .tc main_arg1) = arg V0 main_arg1 := rfl
theorem g_main_arg2 : St V0 0 (Proc.devRef .tc main_arg2) = arg V0 main_arg2 := rfl
theorem g_main_arg3 : St V0 0 (Proc.devRef .tc main_arg3) = arg V0 main_arg3 := rfl
theorem g_main_arg4 : St V0 0 (Proc.devRef .tc main_arg4) = arg V0 main_arg4 := rfl
theorem g_main_arg5 : St V0 0 (Proc.devRef .tc main_arg5) = arg V0 main_arg5 := rfl
theorem g_main_arg6 : St V0 0 (Proc.devRef .tc main_arg6) = arg V0 main_arg6 := rfl
theorem g_main_arg7 : St V0 0 (Proc.devRef .tc main_arg7) = arg V0 main_arg7 := rfl
theorem g_main_arg8 : St V0 0 (Proc.devRef .tc main_arg8) = arg V0 main_arg8 := rfl
theorem g_main_arg9 : St V0 0 (Proc.devRef .tc main_arg9) = arg V0 main_arg9 := rfl
theorem g_main_arg10 : St V0 0 (Proc.devRef .tc main_arg10) = arg V0 main_arg10 := rfl

theorem g_main_v5 : St V0 1 (Proc.devRef .tc main_v5) = ReadP.val_main_v5 (F := F) (arg V0 main_arg0) (arg V0 main_arg3) (arg V0 main_arg4) :=
  (congrFun (stp V0 0) _).trans (c00_main_v5 _ _ _ _ (cry V0 0 (g_main_arg4 V0)) (cry V0 0 (g_main_arg3 V0)) (cry V0 0 (g_main_arg0 V0)))
theorem g_main_v7 : St V0 1 (Proc.devRef .tc main_v7) = ReadP.val_main_v7 (F := F) (arg V0 main_arg1) :=
  (congrFun (stp V0 0) _).trans (c00_main_v7 _ _ (cry V0 0 (g_main_arg1 V0)))
theorem g_main_v14 : St V0 1 (Proc.devRef .tc main_v14) = ReadP.val_main_v14 (F := F) (arg V0 main_arg0) :=
  (congrFun (stp V0 0) _).trans (c00_main_v14 _ _ (cry V0 0 (g_main_arg0 V0)))
theorem g_main_v16 : St V0 1 (Proc.devRef .tc main_v16) = ReadP.val_main_v16 (F := F) (arg V0 main_arg0) :=
  (congrFun (stp V0 0) _).trans (c00_main_v16 _ _ (cry V0 0 (g_main_arg0 V0)))
theorem g_main_v21 : St V0 2 (Proc.devRef .tc main_v21) = ReadP.val_main_v21 (F := F) (arg V0 main_arg0) :=
  (congrFun (stp V0 1) _).trans (c01_main_v21 _ _ (cry V0 1 (g_main_v16 V0)))
theorem g_main_v22 : St V0 2 (Proc.devRef .tc main_v22) = ReadP.val_main_v22 (F := F) (arg V0 main_arg0) :=
  (congrFun (stp V0 1) _).trans (c01_main_v22 _ _ (cry V0 1 (g_main_v14 V0)))
theorem g_main_v23 : St V0 2 (Proc.devRef .tc main_v23) = ReadP.val_main_v23 (F := F) (arg V0 main_arg0) :=
  (congrFun (stp V0 1) _).trans (c01_main_v23 _ _ (cry V0 1 (g_main_v16 V0)))
theorem g_main_v24 : St V0 2 (Proc.devRef .tc main_v24) = ReadP.val_main_v24 (F := F) (arg V0 main_arg0) :=
  (congrFun (stp V0 1) _).trans (c01_main_v24 _ _ (cry V0 1 (g_main_v14 V0)))
theorem g_main_v28 : St V0 2 (Proc.devRef .tc main_v28) = ReadP.val_main_v28 (F := F) (arg V0 main_arg0) :=
  (congrFun (stp V0 1) _).trans (c01_main_v28 _ _ (cry V0 1 (g_main_v16 V0)))
theorem g_main_v32 : St V0 2 (Proc.devRef .tc main_v32) = ReadP.val_main_v32 (F := F) (arg V0 main_arg0) :=
  (congrFun (stp V0 1) _).trans (c01_main_v32 _ _ (cry V0 1 (g_main_v14 V0)))
theorem g_main_v43 : St V0 2 (Proc.devRef .tc main_v43) = ReadP.val_main_v43 (F := F) (arg V0 main_arg0) :=
  (congrFun (stp V0 1) _).trans (c01_main_v43 _ _ (cry V0 1 (g_main_v14 V0)))
theorem g_main_v44 : St V0 2 (Proc.devRef .tc main_v44) = ReadP.val_main_v44 (F := F) (arg V0 main_arg0) :=
  (congrFun (stp V0 1) _).trans (c01_main_v44 _ _ (cry V0 1 (g_main_v16 V0)))
theorem g_main_v45 : St V0 3 (Proc.devRef .tc main_v45) = ReadP.val_main_v45 (F := F) (arg V0 main_arg0) :=
  (congrFun (stp V0 2) _).trans (c02_main_v45 _ _ (cry V0 2 (g_main_v44 V0)) (cry V0 2 (g_main_v43 V0)))
theorem g_main_v46 : St V0 4 (Proc.devRef .tc main_v46) = ReadP.val_main_v46 (F := F) (arg V0 main_arg0) (arg V0 main_arg1) :=
  (congrFun (stp V0 3) _).trans (c03_main_v46 _ _ _ (cry V0 3 (g_main_v45 V0)) (cry V0 3 (g_main_v7 V0)))
theorem g_main_v57 : St V0 5 (Proc.devRef .tc main_v57) = ReadP.val_main_v57 (F := F) (arg V0 main_arg0) :=
  (congrFun (stp V0 4) _).trans (c04_main_v57 _ _ (cry V0 4 (g_main_v24 V0)))
theorem g_main_v58 : St V0 5 (Proc.devRef .tc main_v58) = ReadP.val_main_v58 (F := F) (arg V0 main_arg0) :=
  (congrFun (stp V0 4) _).trans (c04_main_v58 _ _ (cry V0 4 (g_main_v28 V0)))
theorem g_main_v59 : St V0 6 (Proc.devRef .tc main_v59) = ReadP.val_main_v59 (F := F) (arg V0 main_arg0) :=
  (congrFun (stp V0 5) _).trans (c05_main_v59 _ _ (cry V0 5 (g_main_v58 V0)) (cry V0 5 (g_main_v57 V0)))
theorem g_main_v60 : St V0 7 (Proc.devRef .tc main_v60) = ReadP.val_main_v60 (F := F) (arg V0 main_arg0) (arg V0 main_arg1) :=
  (congrFun (stp V0 6) _).trans (c06_main_v60 _ _ _ (cry V0 6 (g_main_v59 V0)) (cry V0 6 (g_main_v7 V0)))
theorem g_main_v71 : St V0 7 (Proc.devRef .tc main_v71) = ReadP.val_main_v71 (F := F) (arg V0 main_arg0) :=
  (congrFun (stp V0 6) _).trans (c06_main_v71 _ _ (cry V0 6 (g_main_v32 V0)))
theorem g_main_v72 : St V0 7 (Proc.devRef .tc main_v72) = ReadP.val_main_v72 (F := F) (arg V0 main_arg0) :=
  (congrFun (stp V0 6) _).trans (c06_main_v72 _ _ (cry V0 6 (g_main_v23 V0)))
theorem g_main_v73 : St V0 8 (Proc.devRef .tc main_v73) = ReadP.val_main_v73 (F := F) (arg V0 main_arg0) :=
  (congrFun (stp V0 7) _).trans (c07_main_v73 _ _ (cry V0 7 (g_main_v72 V0)) (cry V0 7 (g_main_v71 V0)))
theorem g_main_v74 : St V0 9 (Proc.devRef .tc main_v74) = ReadP.val_main_v74 (F := F) (arg V0 main_arg0) (arg V0 main_arg1) :=
  (congrFun (stp V0 8) _).trans (c08_main_v74 _ _ _ (cry V0 8 (g_main_v73 V0)) (cry V0 8 (g_main_v7 V0)))
theorem g_main_v85 : St V0 9 (Proc.devRef .tc main_v85) = ReadP.val_main_v85 (F := F) (arg V0 main_arg0) :=
  (congrFun (stp V0 8) _).trans (c08_main_v85 _ _ (cry V0 8 (g_main_v32 V0)))
theorem g_main_v86 : St V0 9 (Proc.devRef .tc main_v86) = ReadP.val_main_v86 (F := F) (arg V0 main_arg0) :=
  (congrFun (stp V0 8) _).trans (c08_main_v86 _ _ (cry V0 8 (g_main_v28 V0)))
theorem g_main_v87 : St V0 10 (Proc.devRef .tc main_v87) = ReadP.val_main_v87 (F := F) (arg V0 main_arg0) :=
  (congrFun (stp V0 9) _).trans (c09_main_v87 _ _ (cry V0 9 (g_main_v86 V0)) (cry V0 9 (g_main_v85 V0)))
theorem g_main_v88 : St V0 11 (Proc.devRef .tc main_v88) = ReadP.val_main_v88 (F := F) (arg V0 main_arg0) (arg V0 main_arg1) :=
  (congrFun (stp V0 10) _).trans (c10_main_v88 _ _ _ (cry V0 10 (g_main_v87 V0)) (cry V0 10 (g_main_v7 V0)))
theorem g_main_v93 : St V0 11 (Proc.devRef .tc main_v93) = ReadP.val_main_v93 (F := F) (arg V0 main_arg0) (arg V0 main_arg1) :=
  (congrFun (stp V0 10) _).trans (c10_main_v93 _ _ _ (cry V0 10 (g_main_v21 V0)) (cry V0 10 (g_main_v46 V0)))
theorem g_main_v116 : St V0 12 (Proc.devRef .tc main_v116) = ReadP.val_main_v116 (F := F) (arg V0 main_arg0) (arg V0 main_arg1) :=
  (congrFun (stp V0 11) _).trans (c11_main_v116 _ _ _ (cry V0 11 (g_main_v22 V0)) (cry V0 11 (g_main_v21 V0)) (cry V0 11 (g_main_v88 V0)) (cry V0 11 (g_main_v74 V0)) (cry V0 11 (g_main_v60 V0)) (cry V0 11 (g_main_v93 V0)))
theorem g_main_v118 : St V0 12 (Proc.devRef .tc main_v118) = ReadP.val_main_v118 (F := F) (arg V0 main_arg2) :=
  (congrFun (stp V0 11) _).trans (c11_main_v118 _ _ (cry V0 11 (g_main_arg2 V0)))
theorem g_main_v120 : St V0 12 (Proc.devRef .tc main_v120) = ReadP.val_main_v120 (F := F) (arg V0 main_arg0) :=
  (congrFun (stp V0 11) _).trans (c11_main_v120 _ _ (cry V0 11 (g_main_arg0 V0)))
theorem g_main_v121 : St V0 12 (Proc.devRef .tc main_v121) = ReadP.val_main_v121 (F := F) :=
  (congrFun (stp V0 11) _).trans (c11_main_v121 _)
theorem g_main_v132 : St V0 13 (Proc.devRef .tc main_v132) = ReadP.val_main_v132 (F := F) (arg V0 main_arg0) :=
  (congrFun (stp V0 12) _).trans (c12_main_v132 _ _ (cry V0 12 (g_main_v121 V0)) (cry V0 12 (g_main_v120 V0)))
theorem g_main_v133 : St V0 13 (Proc.devRef .tc main_v133) = ReadP.val_main_v133 (F := F) (arg V0 main_arg0) :=
  (congrFun (stp V0 12) _).trans (c12_main_v133 _ _ (cry V0 12 (g_main_v121 V0)) (cry V0 12 (g_main_v120 V0)))
theorem g_main_v134 : St V0 13 (Proc.devRef .tc main_v134) = ReadP.val_main_v134 (F := F) (arg V0 main_arg0) :=
  (congrFun (stp V0 12) _).trans (c12_main_v134 _ _ (cry V0 12 (g_main_v121 V0)) (cry V0 12 (g_main_v120 V0)))
theorem g_main_v135 : St V0 13 (Proc.devRef .tc main_v135) = ReadP.val_main_v135 (F := F) (arg V0 main_arg0) :=
  (congrFun (stp V0 12) _).trans (c12_main_v135 _ _ (cry V0 12 (g_main_v121 V0)) (cry V0 12 (g_main_v120 V0)))
theorem g_main_v139 : St V0 13 (Proc.devRef .tc main_v139) = ReadP.val_main_v139 (F := F) (arg V0 main_arg0) :=
  (congrFun (stp V0 12) _).trans (c12_main_v139 _ _ (cry V0 12 (g_main_v121 V0)) (cry V0 12 (g_main_v120 V0)))
theorem g_main_v141 : St V0 13 (Proc.devRef .tc main_v141) = ReadP.val_main_v141 (F := F) (arg V0 main_arg0) :=
  (congrFun (stp V0 12) _).trans (c12_main_v141 _ _ (cry V0 12 (g_main_v121 V0)) (cry V0 12 (g_main_v120 V0)))
theorem g_main_v142 : St V0 13 (Proc.devRef .tc main_v142) = ReadP.val_main_v142 (F := F) :=
  (congrFun (stp V0 12) _).trans (c12_main_v142 _)
theorem g_main_v143 : St V0 14 (Proc.devRef .tc main_v143) = ReadP.val_main_v143 (F := F) (arg V0 main_arg0) :=
  (congrFun (stp V0 13) _).trans (c13_main_v143 _ _ (cry V0 13 (g_main_v142 V0)) (cry V0 13 (g_main_v141 V0)))
theorem g_main_v154 : St V0 14 (Proc.devRef .tc main_v154) = ReadP.val_main_v154 (F := F) (arg V0 main_arg0) :=
  (congrFun (stp V0 13) _).trans (c13_main_v154 _ _ (cry V0 13 (g_main_v135 V0)))
theorem g_main_v155 : St V0 14 (Proc.devRef .tc main_v155) = ReadP.val_main_v155 (F := F) (arg V0 main_arg0) :=
  (congrFun (stp V0 13) _).trans (c13_main_v155 _ _ (cry V0 13 (g_main_v134 V0)))
theorem g_main_v156 : St V0 15 (Proc.devRef .tc main_v156) = ReadP.val_main_v156 (F := F) (arg V0 main_arg0) :=
  (congrFun (stp V0 14) _).trans (c14_main_v156 _ _ (cry V0 14 (g_main_v155 V0)) (cry V0 14 (g_main_v154 V0)))
theorem g_main_v157 : St V0 16 (Proc.devRef .tc main_v157) = ReadP.val_main_v157 (F := F) (arg V0 main_arg0) (arg V0 main_arg2) :=
  (congrFun (stp V0 15) _).trans (c15_main_v157 _ _ _ (cry V0 15 (g_main_v156 V0)) (cry V0 15 (g_main_v118 V0)))
theorem g_main_v168 : St V0 16 (Proc.devRef .tc main_v168) = ReadP.val_main_v168 (F := F) (arg V0 main_arg0) :=
  (congrFun (stp V0 15) _).trans (c15_main_v168 _ _ (cry V0 15 (g_main_v135 V0)))
theorem g_main_v169 : St V0 16 (Proc.devRef .tc main_v169) = ReadP.val_main_v169 (F := F) (arg V0 main_arg0) :=
  (congrFun (stp V0 15) _).trans (c15_main_v169 _ _ (cry V0 15 (g_main_v139 V0)))
theorem g_main_v170 : St V0 17 (Proc.devRef .tc main_v170) = ReadP.val_main_v170 (F := F) (arg V0 main_arg0) :=
  (congrFun (stp V0 16) _).trans (c16_main_v170 _ _ (cry V0 16 (g_main_v169 V0)) (cry V0 16 (g_main_v168 V0)))
theorem g_main_v171 : St V0 18 (Proc.devRef .tc main_v171) = ReadP.val_main_v171 (F := F) (arg V0 main_arg0) (arg V0 main_arg2) :=
  (congrFun (stp V0 17) _).trans (c17_main_v171 _ _ _ (cry V0 17 (g_main_v170 V0)) (cry V0 17 (g_main_v118 V0)))
theorem g_main_v182 : St V0 18 (Proc.devRef .tc main_v182) = ReadP.val_main_v182 (F := F) (arg V0 main_arg0) :=
  (congrFun (stp V0 17) _).trans (c17_main_v182 _ _ (cry V0 17 (g_main_v143 V0)))
theorem g_main_v183 : St V0 18 (Proc.devRef .tc main_v183) = ReadP.val_main_v183 (F := F) (arg V0 main_arg0) :=
  (congrFun (stp V0 17) _).trans (c17_main_v183 _ _ (cry V0 17 (g_main_v134 V0)))
theorem g_main_v184 : St V0 19 (Proc.devRef .tc main_v184) = ReadP.val_main_v184 (F := F) (arg V0 main_arg0) :=
  (congrFun (stp V0 18) _).trans (c18_main_v184 _ _ (cry V0 18 (g_main_v183 V0)) (cry V0 18 (g_main_v182 V0)))
theorem g_main_v185 : St V0 20 (Proc.devRef .tc main_v185) = ReadP.val_main_v185 (F := F) (arg V0 main_arg0) (arg V0 main_arg2) :=
  (congrFun (stp V0 19) _).trans (c19_main_v185 _ _ _ (cry V0 19 (g_main_v184 V0)) (cry V0 19 (g_main_v118 V0)))
theorem g_main_v187 : St V0 20 (Proc.devRef .tc main_v187) = ReadP.val_main_v187 (F := F) (arg V0 main_arg0) :=
  (congrFun (stp V0 19) _).trans (c19_main_v187 _ _ (cry V0 19 (g_main_v143 V0)))
theorem g_main_v188 : St V0 20 (Proc.devRef .tc main_v188) = ReadP.val_main_v188 (F := F) :=
  (congrFun (stp V0 19) _).trans (c19_main_v188 _)
theorem g_main_v196 : St V0 21 (Proc.devRef .tc main_v196) = ReadP.val_main_v196 (F := F) (arg V0 main_arg0) :=
  (congrFun (stp V0 20) _).trans (c20_main_v196 _ _ (cry V0 20 (g_main_v143 V0)) (cry V0 20 (g_main_v188 V0)) (cry V0 20 (g_main_v187 V0)))
theorem g_main_v197 : St V0 21 (Proc.devRef .tc main_v197) = ReadP.val_main_v197 (F := F) (arg V0 main_arg0) :=
  (congrFun (stp V0 20) _).trans (c20_main_v197 _ _ (cry V0 20 (g_main_v139 V0)))
theorem g_main_v198 : St V0 22 (Proc.devRef .tc main_v198) = ReadP.val_main_v198 (F := F) (arg V0 main_arg0) :=
  (congrFun (stp V0 21) _).trans (c21_main_v198 _ _ (cry V0 21 (g_main_v197 V0)) (cry V0 21 (g_main_v196 V0)))
theorem g_main_v208 : St V0 23 (Proc.devRef .tc main_v208) = ReadP.val_main_v208 (F := F) (arg V0 main_arg0) (arg V0 main_arg2) :=
  (congrFun (stp V0 22) _).trans (c22_main_v208 _ _ _ (cry V0 22 (g_main_v132 V0)) (cry V0 22 (g_main_v171 V0)) (cry V0 22 (g_main_v157 V0)))
theorem g_main_v217 : St V0 23 (Proc.devRef .tc main_v217) = ReadP.val_main_v217 (F := F) (arg V0 main_arg0) (arg V0 main_arg2) :=
  (congrFun (stp V0 22) _).trans (c22_main_v217 _ _ _ (cry V0 22 (g_main_v132 V0)) (cry V0 22 (g_main_v198 V0)) (cry V0 22 (g_main_v118 V0)) (cry V0 22 (g_main_v185 V0)))
theorem g_main_v219 : St V0 23 (Proc.devRef .tc main_v219) = ReadP.val_main_v219 (F := F) (arg V0 main_arg0) :=
  (congrFun (stp V0 22) _).trans (c22_main_v219 _ _ (cry V0 22 (g_main_v133 V0)))
theorem g_main_v227 : St V0 24 (Proc.devRef .tc main_v227) = ReadP.val_main_v227 (F := F) (arg V0 main_arg0) (arg V0 main_arg2) :=
  (congrFun (stp V0 23) _).trans (c23_main_v227 _ _ _ (cry V0 23 (g_main_v133 V0)) (cry V0 23 (g_main_v217 V0)) (cry V0 23 (g_main_v219 V0)) (cry V0 23 (g_main_v208 V0)))
theorem g_main_v229 : St V0 24 (Proc.devRef .tc main_v229) = ReadP.val_main_v229 (F := F) (arg V0 main_arg9) :=
  (congrFun (stp V0 23) _).trans (c23_main_v229 _ _ (cry V0 23 (g_main_arg9 V0)))
theorem g_main_v231 : St V0 24 (Proc.devRef .tc main_v231) = ReadP.val_main_v231 (F := F) (arg V0 main_arg10) :=
  (congrFun (stp V0 23) _).trans (c23_main_v231 _ _ (cry V0 23 (g_main_arg10 V0)))
theorem g_main_v235 : St V0 24 (Proc.devRef .tc main_v235) = ReadP.val_main_v235 (F := F) (arg V0 main_arg0) (arg V0 main_arg3) (arg V0 main_arg4) :=
  (congrFun (stp V0 23) _).trans (c23_main_v235 _ _ _ _ (cry V0 23 (g_main_v5 V0)))
theorem g_main_v240 : St V0 24 (Proc.devRef .tc main_v240) = ReadP.val_main_v240 (F := F) (arg V0 main_arg0) (arg V0 main_arg3) (arg V0 main_arg4) :=
  (congrFun (stp V0 23) _).trans (c23_main_v240 _ _ _ _ (cry V0 23 (g_main_v5 V0)))
theorem g_main_v265 : St V0 25 (Proc.devRef .tc main_v265) = ReadP.val_main_v265 (F := F) (arg V0 main_arg0) (arg V0 main_arg1) (arg V0 main_arg2) (arg V0 main_arg3) (arg V0 main_arg4) (arg V0 main_arg5) (arg V0 main_arg6) (arg V0 main_arg9) (arg V0 main_arg10) :=
  (congrFun (stp V0 24) _).trans (c24_main_v265 _ _ _ _ _ _ _ _ _ _ (cry V0 24 (g_main_arg6 V0)) (cry V0 24 (g_main_arg5 V0)) (cry V0 24 (g_main_v227 V0)) (cry V0 24 (g_main_v231 V0)) (cry V0 24 (g_main_v229 V0)) (cry V0 24 (g_main_v240 V0)) (cry V0 24 (g_main_v235 V0)) (cry V0 24 (g_main_v5 V0)) (cry V0 24 (g_main_v116 V0)))
theorem g_main_v266 : St V0 25 (Proc.devRef .tc main_v266) = ReadP.val_main_v266 (F := F) (arg V0 main_arg1) :=
  (congrFun (stp V0 24) _).trans (c24_main_v266 _ _ (cry V0 24 (g_main_arg1 V0)))
theorem g_main_v267 : St V0 26 (Proc.devRef .tc main_v267) = ReadP.val_main_v267 (F := F) (arg V0 main_arg1) :=
  (congrFun (stp V0 25) _).trans (c25_main_v267 _ _ (cry V0 25 (g_main_v266 V0)))
theorem g_main_v281 : St V0 26 (Proc.devRef .tc main_v281) = ReadP.val_main_v281 (F := F) (arg V0 main_arg0) :=
  (congrFun (stp V0 25) _).trans (c25_main_v281 _ _ (cry V0 25 (g_main_arg0 V0)))
theorem g_main_v282 : St V0 26 (Proc.devRef .tc main_v282) = ReadP.val_main_v282 (F := F) (arg V0 main_arg0) :=
  (congrFun (stp V0 25) _).trans (c25_main_v282 _ _ (cry V0 25 (g_main_arg0 V0)))
theorem g_main_v283 : St V0 26 (Proc.devRef .tc main_v283) = ReadP.val_main_v283 (F := F) (arg V0 main_arg0) :=
  (congrFun (stp V0 25) _).trans (c25_main_v283 _ _ (cry V0 25 (g_main_arg0 V0)))
theorem g_main_v284 : St V0 26 (Proc.devRef .tc main_v284) = ReadP.val_main_v284 (F := F) (arg V0 main_arg0) :=
  (congrFun (stp V0 25) _).trans (c25_main_v284 _ _ (cry V0 25 (g_main_arg0 V0)))
theorem g_main_v288 : St V0 26 (Proc.devRef .tc main_v288) = ReadP.val_main_v288 (F := F) (arg V0 main_arg0) :=
  (congrFun (stp V0 25) _).trans (c25_main_v288 _ _ (cry V0 25 (g_main_arg0 V0)))
theorem g_main_v290 : St V0 26 (Proc.devRef .tc main_v290) = ReadP.val_main_v290 (F := F) (arg V0 main_arg0) :=
  (congrFun (stp V0 25) _).trans (c25_main_v290 _ _ (cry V0 25 (g_main_arg0 V0)))
theorem g_main_v292 : St V0 27 (Proc.devRef .tc main_v292) = ReadP.val_main_v292 (F := F) (arg V0 main_arg0) :=
  (congrFun (stp V0 26) _).trans (c26_main_v292 _ _ (cry V0 26 (g_main_v290 V0)))
theorem g_main_v303 : St V0 27 (Proc.devRef .tc main_v303) = ReadP.val_main_v303 (F := F) (arg V0 main_arg0) :=
  (congrFun (stp V0 26) _).trans (c26_main_v303 _ _ (cry V0 26 (g_main_v284 V0)))
theorem g_main_v304 : St V0 27 (Proc.devRef .tc main_v304) = ReadP.val_main_v304 (F := F) (arg V0 main_arg0) :=
  (congrFun (stp V0 26) _).trans (c26_main_v304 _ _ (cry V0 26 (g_main_v283 V0)))
theorem g_main_v305 : St V0 28 (Proc.devRef .tc main_v305) = ReadP.val_main_v305 (F := F) (arg V0 main_arg0) :=
  (congrFun (stp V0 27) _).trans (c27_main_v305 _ _ (cry V0 27 (g_main_v304 V0)) (cry V0 27 (g_main_v303 V0)))
theorem g_main_v306 : St V0 29 (Proc.devRef .tc main_v306) = ReadP.val_main_v306 (F := F) (arg V0 main_arg0) (arg V0 main_arg1) :=
  (congrFun (stp V0 28) _).trans (c28_main_v306 _ _ _ (cry V0 28 (g_main_v305 V0)) (cry V0 28 (g_main_v267 V0)))
theorem g_main_v317 : St V0 29 (Proc.devRef .tc main_v317) = ReadP.val_main_v317 (F := F) (arg V0 main_arg0) :=
  (congrFun (stp V0 28) _).trans (c28_main_v317 _ _ (cry V0 28 (g_main_v284 V0)))
theorem g_main_v318 : St V0 29 (Proc.devRef .tc main_v318) = ReadP.val_main_v318 (F := F) (arg V0 main_arg0) :=
  (congrFun (stp V0 28) _).trans (c28_main_v318 _ _ (cry V0 28 (g_main_v288 V0)))
theorem g_main_v319 : St V0 30 (Proc.devRef .tc main_v319) = ReadP.val_main_v319 (F := F) (arg V0 main_arg0) :=
  (congrFun (stp V0 29) _).trans (c29_main_v319 _ _ (cry V0 29 (g_main_v318 V0)) (cry V0 29 (g_main_v317 V0)))
theorem g_main_v320 : St V0 31 (Proc.devRef .tc main_v320) = ReadP.val_main_v320 (F := F) (arg V0 main_arg0) (arg V0 main_arg1) :=
  (congrFun (stp V0 30) _).trans (c30_main_v320 _ _ _ (cry V0 30 (g_main_v319 V0)) (cry V0 30 (g_main_v267 V0)))
theorem g_main_v331 : St V0 31 (Proc.devRef .tc main_v331) = ReadP.val_main_v331 (F := F) (arg V0 main_arg0) :=
  (congrFun (stp V0 30) _).trans (c30_main_v331 _ _ (cry V0 30 (g_main_v292 V0)))
theorem g_main_v332 : St V0 31 (Proc.devRef .tc main_v332) = ReadP.val_main_v332 (F := F) (arg V0 main_arg0) :=
  (congrFun (stp V0 30) _).trans (c30_main_v332 _ _ (cry V0 30 (g_main_v283 V0)))
theorem g_main_v333 : St V0 32 (Proc.devRef .tc main_v333) = ReadP.val_main_v333 (F := F) (arg V0 main_arg0) :=
  (congrFun (stp V0 31) _).trans (c31_main_v333 _ _ (cry V0 31 (g_main_v332 V0)) (cry V0 31 (g_main_v331 V0)))
theorem g_main_v334 : St V0 33 (Proc.devRef .tc main_v334) = ReadP.val_main_v334 (F := F) (arg V0 main_arg0) (arg V0 main_arg1) :=
  (congrFun (stp V0 32) _).trans (c32_main_v334 _ _ _ (cry V0 32 (g_main_v333 V0)) (cry V0 32 (g_main_v267 V0)))
theorem g_main_v336 : St V0 33 (Proc.devRef .tc main_v336) = ReadP.val_main_v336 (F := F) (arg V0 main_arg0) :=
  (congrFun (stp V0 32) _).trans (c32_main_v336 _ _ (cry V0 32 (g_main_v292 V0)))
theorem g_main_v345 : St V0 34 (Proc.devRef .tc main_v345) = ReadP.val_main_v345 (F := F) (arg V0 main_arg0) :=
  (congrFun (stp V0 33) _).trans (c33_main_v345 _ _ (cry V0 33 (g_main_v292 V0)) (cry V0 33 (g_main_v336 V0)))
theorem g_main_v346 : St V0 34 (Proc.devRef .tc main_v346) = ReadP.val_main_v346 (F := F) (arg V0 main_arg0) :=
  (congrFun (stp V0 33) _).trans (c33_main_v346 _ _ (cry V0 33 (g_main_v288 V0)))
theorem g_main_v347 : St V0 35 (Proc.devRef .tc main_v347) = ReadP.val_main_v347 (F := F) (arg V0 main_arg0) :=
  (congrFun (stp V0 34) _).trans (c34_main_v347 _ _ (cry V0 34 (g_main_v346 V0)) (cry V0 34 (g_main_v345 V0)))
theorem g_main_v357 : St V0 36 (Proc.devRef .tc main_v357) = ReadP.val_main_v357 (F := F) (arg V0 main_arg0) (arg V0 main_arg1) :=
  (congrFun (stp V0 35) _).trans (c35_main_v357 _ _ _ (cry V0 35 (g_main_v281 V0)) (cry V0 35 (g_main_v320 V0)) (cry V0 35 (g_main_v306 V0)))
theorem g_main_v366 : St V0 36 (Proc.devRef .tc main_v366) = ReadP.val_main_v366 (F := F) (arg V0 main_arg0) (arg V0 main_arg1) :=
  (congrFun (stp V0 35) _).trans (c35_main_v366 _ _ _ (cry V0 35 (g_main_v281 V0)) (cry V0 35 (g_main_v347 V0)) (cry V0 35 (g_main_v267 V0)) (cry V0 35 (g_main_v334 V0)))
theorem g_main_v369 : St V0 36 (Proc.devRef .tc main_v369) = ReadP.val_main_v369 (F := F) (arg V0 main_arg0) :=
  (congrFun (stp V0 35) _).trans (c35_main_v369 _ _ (cry V0 35 (g_main_v282 V0)))
theorem g_main_v376 : St V0 37 (Proc.devRef .tc main_v376) = ReadP.val_main_v376 (F := F) (arg V0 main_arg0) (arg V0 main_arg1) :=
  (congrFun (stp V0 36) _).trans (c36_main_v376 _ _ _ (cry V0 36 (g_main_v282 V0)) (cry V0 36 (g_main_v366 V0)) (cry V0 36 (g_main_v369 V0)) (cry V0 36 (g_main_v357 V0)))
theorem g_main_v378 : St V0 37 (Proc.devRef .tc main_v378) = ReadP.val_main_v378 (F := F) (arg V0 main_arg2) :=
  (congrFun (stp V0 36) _).trans (c36_main_v378 _ _ (cry V0 36 (g_main_arg2 V0)))
theorem g_main_v385 : St V0 37 (Proc.devRef .tc main_v385) = ReadP.val_main_v385 (F := F) (arg V0 main_arg0) :=
  (congrFun (stp V0 36) _).trans (c36_main_v385 _ _ (cry V0 36 (g_main_arg0 V0)))
theorem g_main_v392 : St V0 38 (Proc.devRef .tc main_v392) = ReadP.val_main_v392 (F := F) (arg V0 main_arg0) :=
  (congrFun (stp V0 37) _).trans (c37_main_v392 _ _ (cry V0 37 (g_main_v385 V0)))
theorem g_main_v393 : St V0 38 (Proc.devRef .tc main_v393) = ReadP.val_main_v393 (F := F) (arg V0 main_arg0) :=
  (congrFun (stp V0 37) _).trans (c37_main_v393 _ _ (cry V0 37 (g_main_v385 V0)))
theorem g_main_v394 : St V0 38 (Proc.devRef .tc main_v394) = ReadP.val_main_v394 (F := F) (arg V0 main_arg0) :=
  (congrFun (stp V0 37) _).trans (c37_main_v394 _ _ (cry V0 37 (g_main_v385 V0)))
theorem g_main_v395 : St V0 38 (Proc.devRef .tc main_v395) = ReadP.val_main_v395 (F := F) (arg V0 main_arg0) :=
  (congrFun (stp V0 37) _).trans (c37_main_v395 _ _ (cry V0 37 (g_main_v385 V0)))
theorem g_main_v399 : St V0 38 (Proc.devRef .tc main_v399) = ReadP.val_main_v399 (F := F) (arg V0 main_arg0) :=
  (congrFun (stp V0 37) _).trans (c37_main_v399 _ _ (cry V0 37 (g_main_v385 V0)))
theorem g_main_v401 : St V0 38 (Proc.devRef .tc main_v401) = ReadP.val_main_v401 (F := F) (arg V0 main_arg0) :=
  (congrFun (stp V0 37) _).trans (c37_main_v401 _ _ (cry V0 37 (g_main_v385 V0)))
theorem g_main_v403 : St V0 39 (Proc.devRef .tc main_v403) = ReadP.val_main_v403 (F := F) (arg V0 main_arg0) :=
  (congrFun (stp V0 38) _).trans (c38_main_v403 _ _ (cry V0 38 (g_main_v401 V0)))
theorem g_main_v414 : St V0 39 (Proc.devRef .tc main_v414) = ReadP.val_main_v414 (F := F) (arg V0 main_arg0) :=
  (congrFun (stp V0 38) _).trans (c38_main_v414 _ _ (cry V0 38 (g_main_v395 V0)))
theorem g_main_v415 : St V0 39 (Proc.devRef .tc main_v415) = ReadP.val_main_v415 (F := F) (arg V0 main_arg0) :=
  (congrFun (stp V0 38) _).trans (c38_main_v415 _ _ (cry V0 38 (g_main_v394 V0)))
theorem g_main_v416 : St V0 40 (Proc.devRef .tc main_v416) = ReadP.val_main_v416 (F := F) (arg V0 main_arg0) :=
  (congrFun (stp V0 39) _).trans (c39_main_v416 _ _ (cry V0 39 (g_main_v415 V0)) (cry V0 39 (g_main_v414 V0)))
theorem g_main_v417 : St V0 41 (Proc.devRef .tc main_v417) = ReadP.val_main_v417 (F := F) (arg V0 main_arg0) (arg V0 main_arg2) :=
  (congrFun (stp V0 40) _).trans (c40_main_v417 _ _ _ (cry V0 40 (g_main_v416 V0)) (cry V0 40 (g_main_v378 V0)))
theorem g_main_v428 : St V0 41 (Proc.devRef .tc main_v428) = ReadP.val_main_v428 (F := F) (arg V0 main_arg0) :=
  (congrFun (stp V0 40) _).trans (c40_main_v428 _ _ (cry V0 40 (g_main_v395 V0)))
theorem g_main_v429 : St V0 41 (Proc.devRef .tc main_v429) = ReadP.val_main_v429 (F := F) (arg V0 main_arg0) :=
  (congrFun (stp V0 40) _).trans (c40_main_v429 _ _ (cry V0 40 (g_main_v399 V0)))
theorem g_main_v430 : St V0 42 (Proc.devRef .tc main_v430) = ReadP.val_main_v430 (F := F) (arg V0 main_arg0) :=
  (congrFun (stp V0 41) _).trans (c41_main_v430 _ _ (cry V0 41 (g_main_v429 V0)) (cry V0 41 (g_main_v428 V0)))
theorem g_main_v431 : St V0 43 (Proc.devRef .tc main_v431) = ReadP.val_main_v431 (F := F) (arg V0 main_arg0) (arg V0 main_arg2) :=
  (congrFun (stp V0 42) _).trans (c42_main_v431 _ _ _ (cry V0 42 (g_main_v430 V0)) (cry V0 42 (g_main_v378 V0)))
theorem g_main_v432 : St V0 43 (Proc.devRef .tc main_v432) = ReadP.val_main_v432 (F := F) :=
  (congrFun (stp V0 42) _).trans (c42_main_v432 _)
theorem g_main_v442 : St V0 44 (Proc.devRef .tc main_v442) = ReadP.val_main_v442 (F := F) (arg V0 main_arg0) :=
  (congrFun (stp V0 43) _).trans (c43_main_v442 _ _ (cry V0 43 (g_main_v403 V0)) (cry V0 43 (g_main_v432 V0)))
theorem g_main_v443 : St V0 44 (Proc.devRef .tc main_v443) = ReadP.val_main_v443 (F := F) (arg V0 main_arg0) :=
  (congrFun (stp V0 43) _).trans (c43_main_v443 _ _ (cry V0 43 (g_main_v394 V0)))
theorem g_main_v444 : St V0 45 (Proc.devRef .tc main_v444) = ReadP.val_main_v444 (F := F) (arg V0 main_arg0) :=
  (congrFun (stp V0 44) _).trans (c44_main_v444 _ _ (cry V0 44 (g_main_v443 V0)) (cry V0 44 (g_main_v442 V0)))
theorem g_main_v445 : St V0 46 (Proc.devRef .tc main_v445) = ReadP.val_main_v445 (F := F) (arg V0 main_arg0) (arg V0 main_arg2) :=
  (congrFun (stp V0 45) _).trans (c45_main_v445 _ _ _ (cry V0 45 (g_main_v444 V0)) (cry V0 45 (g_main_v378 V0)))
theorem g_main_v456 : St V0 46 (Proc.devRef .tc main_v456) = ReadP.val_main_v456 (F := F) (arg V0 main_arg0) :=
  (congrFun (stp V0 45) _).trans (c45_main_v456 _ _ (cry V0 45 (g_main_v403 V0)))
theorem g_main_v457 : St V0 46 (Proc.devRef .tc main_v457) = ReadP.val_main_v457 (F := F) (arg V0 main_arg0) :=
  (congrFun (stp V0 45) _).trans (c45_main_v457 _ _ (cry V0 45 (g_main_v399 V0)))
theorem g_main_v458 : St V0 47 (Proc.devRef .tc main_v458) = ReadP.val_main_v458 (F := F) (arg V0 main_arg0) :=
  (congrFun (stp V0 46) _).trans (c46_main_v458 _ _ (cry V0 46 (g_main_v457 V0)) (cry V0 46 (g_main_v456 V0)))
theorem g_main_v477 : St V0 48 (Proc.devRef .tc main_v477) = ReadP.val_main_v477 (F := F) (arg V0 main_arg0) (arg V0 main_arg2) :=
  (congrFun (stp V0 47) _).trans (c47_main_v477 _ _ _ (cry V0 47 (g_main_v392 V0)) (cry V0 47 (g_main_v458 V0)) (cry V0 47 (g_main_v378 V0)) (cry V0 47 (g_main_v445 V0)))
theorem g_main_v482 : St V0 48 (Proc.devRef .tc main_v482) = ReadP.val_main_v482 (F := F) (arg V0 main_arg0) (arg V0 main_arg2) :=
  (congrFun (stp V0 47) _).trans (c47_main_v482 _ _ _ (cry V0 47 (g_main_v393 V0)) (cry V0 47 (g_main_v392 V0)) (cry V0 47 (g_main_v431 V0)) (cry V0 47 (g_main_v417 V0)))
theorem g_main_v487 : St V0 49 (Proc.devRef .tc main_v487) = ReadP.val_main_v487 (F := F) (arg V0 main_arg0) (arg V0 main_arg2) :=
  (congrFun (stp V0 48) _).trans (c48_main_v487 _ _ _ (cry V0 48 (g_main_v393 V0)) (cry V0 48 (g_main_v477 V0)) (cry V0 48 (g_main_v482 V0)))
theorem g_main_v489 : St V0 49 (Proc.devRef .tc main_v489) = ReadP.val_main_v489 (F := F) (arg V0 main_arg9) :=
  (congrFun (stp V0 48) _).trans (c48_main_v489 _ _ (cry V0 48 (g_main_arg9 V0)))
theorem g_main_v491 : St V0 49 (Proc.devRef .tc main_v491) = ReadP.val_main_v491 (F := F) (arg V0 main_arg10) :=
  (congrFun (stp V0 48) _).trans (c48_main_v491 _ _ (cry V0 48 (g_main_arg10 V0)))
theorem g_main_v495 : St V0 49 (Proc.devRef .tc main_v495) = ReadP.val_main_v495 (F := F) (arg V0 main_arg0) (arg V0 main_arg1) (arg V0 main_arg2) (arg V0 main_arg3) (arg V0 main_arg4) (arg V0 main_arg5) (arg V0 main_arg6) (arg V0 main_arg9) (arg V0 main_arg10) :=
  (congrFun (stp V0 48) _).trans (c48_main_v495 _ _ _ _ _ _ _ _ _ _ (cry V0 48 (g_main_v265 V0)))
theorem g_main_v500 : St V0 49 (Proc.devRef .tc main_v500) = ReadP.val_main_v500 (F := F) (arg V0 main_arg0) (arg V0 main_arg1) (arg V0 main_arg2) (arg V0 main_arg3) (arg V0 main_arg4) (arg V0 main_arg5) (arg V0 main_arg6) (arg V0 main_arg9) (arg V0 main_arg10) :=
  (congrFun (stp V0 48) _).trans (c48_main_v500 _ _ _ _ _ _ _ _ _ _ (cry V0 48 (g_main_v265 V0)))
theorem g_main_cst_118 : St V0 49 (Proc.devRef .tc main_cst_118) = ReadP.val_main_cst_118 (F := F) :=
  (congrFun (stp V0 48) _).trans (c48_main_cst_118 _)
theorem g_main_v522 : St V0 50 (Proc.devRef .tc main_v522) = ReadP.val_main_v522 (F := F) (arg V0 main_arg0) (arg V0 main_arg1) (arg V0 main_arg2) (arg V0 main_arg3) (arg V0 main_arg4) (arg V0 main_arg5) (arg V0 main_arg6) (arg V0 main_arg7) (arg V0 main_arg8) (arg V0 main_arg9) (arg V0 main_arg10) :=
  (congrFun (stp V0 49) _).trans (c49_main_v522 _ _ _ _ _ _ _ _ _ _ _ _ (cry V0 49 (g_main_arg8 V0)) (cry V0 49 (g_main_arg7 V0)) (cry V0 49 (g_main_v487 V0)) (cry V0 49 (g_main_v491 V0)) (cry V0 49 (g_main_v489 V0)) (cry V0 49 (g_main_cst_118 V0)) (cry V0 49 (g_main_v500 V0)) (cry V0 49 (g_main_v495 V0)) (cry V0 49 (g_main_v265 V0)) (cry V0 49 (g_main_v376 V0)))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v522) = ReadP.val_main_v522 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v522).trans (fin _ (g_main_v522 _)),
      (h c main_arg0).trans (fin _ (cry _ 50 (g_main_arg0 (launchContents m c)))),
      (h c main_arg1).trans (fin _ (cry _ 50 (g_main_arg1 (launchContents m c)))),
      (h c main_arg2).trans (fin _ (cry _ 50 (g_main_arg2 (launchContents m c)))),
      (h c main_arg3).trans (fin _ (cry _ 50 (g_main_arg3 (launchContents m c)))),
      (h c main_arg4).trans (fin _ (cry _ 50 (g_main_arg4 (launchContents m c)))),
      (h c main_arg5).trans (fin _ (cry _ 50 (g_main_arg5 (launchContents m c)))),
      (h c main_arg6).trans (fin _ (cry _ 50 (g_main_arg6 (launchContents m c)))),
      (h c main_arg7).trans (fin _ (cry _ 50 (g_main_arg7 (launchContents m c)))),
      (h c main_arg8).trans (fin _ (cry _ 50 (g_main_arg8 (launchContents m c)))),
      (h c main_arg9).trans (fin _ (cry _ 50 (g_main_arg9 (launchContents m c)))),
      (h c main_arg10).trans (fin _ (cry _ 50 (g_main_arg10 (launchContents m c))))⟩)
    (run_seq scopedRefs_eq scopedSems_eq defs main (fun _ => (S (F := F)).flatten) main_eq (fun _ => (Stretch.flatten hS).sub) m ρ
      (fun _ => (Stretch.flatten hS).fresh_mem))

end Cert.ReferenceIdeal.RunH

end
-- ==== Proof.lean ====
import proofs.«124617_j17678085390376_1_alg».proof.Defs
import proofs.«124617_j17678085390376_1_alg».proof.Proof.Gen.Kernel
import proofs.«124617_j17678085390376_1_alg».proof.Proof.Gen.Kernel.Skeleton
import proofs.«124617_j17678085390376_1_alg».proof.Proof.Gen.Kernel.Launch
import proofs.«124617_j17678085390376_1_alg».proof.Proof.Gen.Kernel.Points
import proofs.«124617_j17678085390376_1_alg».proof.Proof.Gen.Kernel.Frame
import proofs.«124617_j17678085390376_1_alg».proof.Proof.Gen.KernelIdeal
import proofs.«124617_j17678085390376_1_alg».proof.Proof.Gen.KernelIdeal.Skeleton
import proofs.«124617_j17678085390376_1_alg».proof.Proof.Gen.KernelIdeal.Launch
import proofs.«124617_j17678085390376_1_alg».proof.Proof.Gen.KernelIdeal.Points
import proofs.«124617_j17678085390376_1_alg».proof.Proof.Gen.KernelIdeal.Frame
import proofs.«124617_j17678085390376_1_alg».proof.Proof.Gen.ReferenceIdeal
import proofs.«124617_j17678085390376_1_alg».proof.Proof.Gen.Pre_finite_inputs
import proofs.«124617_j17678085390376_1_alg».proof.Proof.Gen.KernelIdeal.Value
import proofs.«124617_j17678085390376_1_alg».proof.Proof.Algebra
import proofs.«124617_j17678085390376_1_alg».proof.Proof.KBlocks
import proofs.«124617_j17678085390376_1_alg».proof.Proof.RefMlp
import proofs.«124617_j17678085390376_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

/-- Both runs end with `G` of the arguments; `rowR = rowK` joins the reference's stages to it. -/
theorem algebraic : Cert.algebraic_KernelIdeal_ReferenceIdeal := by
  intro m ρ m' ρ' _ hagree
  refine ⟨fun c => Cert.KernelIdeal.KV.GA m c, Cert.KernelIdeal.KV.run m ρ, ?_⟩
  refine (θ_run Cert.ReferenceIdeal.defs _ _).mono (fun _ h c => ⟨(h c).1.trans ?_, (h c).2⟩)
    (Cert.ReferenceIdeal.RunH.run (F := Ideal) m' ρ')
  obtain ⟨h0, h1, h2, h3, h4, h5, h6, h7, h8, h9, h10⟩ := hagree c
  rw [h0, h1, h2, h3, h4, h5, h6, h7, h8, h9, h10]
  funext i
  obtain ⟨n, o, rfl⟩ : ∃ (n : Fin 2097152) (o : Fin 3), i = ix2 n o := ⟨i 0, i 1, eq_ix2 i⟩
  refine (Cert.ReferenceIdeal.RV.v522_apply _ _ _ _ _ _ _ _ _ _ _ n o).trans ?_
  rw [Cert.Spec.rowR_eq_rowK]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
